-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v618) = v0 c
          ∧ r.2.mem ((c.tc : Thread Cert.ReferenceIdeal.nD Cert.ReferenceIdeal.τ).loc Cert.ReferenceIdeal.main_v619) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S10x128 : Shape := ⟨2, ![10, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x128 .f32) (main_arg1 : IVec S4096 32) (main_arg2 : FVec F S10x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S10x128 .f32 := Host.absf main_arg2
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 10#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x128 : Shape := ⟨2, ![4096, 128]⟩
abbrev S4096 : Shape := ⟨1, ![4096]⟩
abbrev S10x128 : Shape := ⟨2, ![10, 128]⟩
abbrev S_ : Shape := ⟨0, ![]⟩
abbrev S128x10 : Shape := ⟨2, ![128, 10]⟩
abbrev S4096x10 : Shape := ⟨2, ![4096, 10]⟩
abbrev S10 : Shape := ⟨1, ![10]⟩
abbrev S4096x1 : Shape := ⟨2, ![4096, 1]⟩
abbrev S4096x16 : Shape := ⟨2, ![4096, 16]⟩
abbrev S1 : Shape := ⟨1, ![1]⟩
abbrev S8x4096 : Shape := ⟨2, ![8, 4096]⟩
abbrev S8x2x128 : Shape := ⟨3, ![8, 2, 128]⟩
abbrev S512x128 : Shape := ⟨2, ![512, 128]⟩
abbrev S1024x128 : Shape := ⟨2, ![1024, 128]⟩
abbrev S512x16 : Shape := ⟨2, ![512, 16]⟩
abbrev S1024x16 : Shape := ⟨2, ![1024, 16]⟩
abbrev S8x1024 : Shape := ⟨2, ![8, 1024]⟩
abbrev S1x2x128 : Shape := ⟨3, ![1, 2, 128]⟩
abbrev S2x128 : Shape := ⟨2, ![2, 128]⟩
abbrev S128x1024 : Shape := ⟨2, ![128, 1024]⟩
abbrev S512x1024 : Shape := ⟨2, ![512, 1024]⟩
abbrev S512x1 : Shape := ⟨2, ![512, 1]⟩
abbrev S512x10 : Shape := ⟨2, ![512, 10]⟩
abbrev S1x1024 : Shape := ⟨2, ![1, 1024]⟩
abbrev S1024x1 : Shape := ⟨2, ![1024, 1]⟩
abbrev S1024x10 : Shape := ⟨2, ![1024, 10]⟩
abbrev S1x10 : Shape := ⟨2, ![1, 10]⟩
abbrev S1024x30 : Shape := ⟨2, ![1024, 30]⟩
abbrev S1024x1024 : Shape := ⟨2, ![1024, 1024]⟩
abbrev S512x30 : Shape := ⟨2, ![512, 30]⟩
abbrev S1x1x10 : Shape := ⟨3, ![1, 1, 10]⟩

abbrev nBuf : Space → Nat
  | .hbm => 134
  | .vmem => 12
  | .smem => 0
  | _ => 0

abbrev hbmTy0_0 (i : Nat) : BufTy := match i % 128 with
  | 0 => ⟨S4096x128, .f32⟩
  | 1 => ⟨S4096, .i32⟩
  | 2 => ⟨S10x128, .f32⟩
  | 3 => ⟨S4096x128, .f32⟩
  | 4 => ⟨S_, .f32⟩
  | 5 => ⟨S4096, .f32⟩
  | 6 => ⟨S128x10, .f32⟩
  | 7 => ⟨S4096x10, .f32⟩
  | 8 => ⟨S10x128, .f32⟩
  | 9 => ⟨S_, .f32⟩
  | 10 => ⟨S10, .f32⟩
  | 11 => ⟨S10, .f32⟩
  | 12 => ⟨S_, .f32⟩
  | 13 => ⟨S10, .f32⟩
  | 14 => ⟨S10, .f32⟩
  | 15 => ⟨S_, .i32⟩
  | 16 => ⟨S10, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S_, .i32⟩
  | 26 => ⟨S4096, .i32⟩
  | 27 => ⟨S10, .i32⟩
  | 28 => ⟨S_, .i32⟩
  | 29 => ⟨S10, .i32⟩
  | 30 => ⟨S10, .i1⟩
  | 31 => ⟨S10, .i32⟩
  | 32 => ⟨S_, .i32⟩
  | 33 => ⟨S_, .i32⟩
  | 34 => ⟨S_, .f32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S4096, .i32⟩
  | 44 => ⟨S4096, .f32⟩
  | 45 => ⟨S_, .f32⟩
  | 46 => ⟨S4096x16, .f32⟩
  | 47 => ⟨S_, .i32⟩
  | 48 => ⟨S1, .i32⟩
  | 49 => ⟨S4096x16, .f32⟩
  | 50 => ⟨S_, .i32⟩
  | 51 => ⟨S1, .i32⟩
  | 52 => ⟨S4096x16, .f32⟩
  | 53 => ⟨S4096, .f32⟩
  | 54 => ⟨S_, .i32⟩
  | 55 => ⟨S1, .i32⟩
  | 56 => ⟨S4096x16, .f32⟩
  | 57 => ⟨S_, .i32⟩
  | 58 => ⟨S1, .i32⟩
  | 59 => ⟨S4096x16, .f32⟩
  | 60 => ⟨S_, .f32⟩
  | 61 => ⟨S8x4096, .f32⟩
  | 62 => ⟨S_, .i32⟩
  | 63 => ⟨S1, .i32⟩
  | 64 => ⟨S8x4096, .f32⟩
  | 65 => ⟨S4096x128, .bf16⟩
  | 66 => ⟨S8x2x128, .f32⟩
  | 67 => ⟨S_, .f32⟩
  | 68 => ⟨S2x128, .f32⟩
  | 69 => ⟨S1x10, .f32⟩
  | 70 => ⟨S10, .f32⟩
  | 71 => ⟨S1x10, .f32⟩
  | 72 => ⟨S10, .f32⟩
  | 73 => ⟨S10, .f32⟩
  | 74 => ⟨S_, .f32⟩
  | 75 => ⟨S10, .f32⟩
  | 76 => ⟨S10, .f32⟩
  | 77 => ⟨S10, .f32⟩
  | 78 => ⟨S_, .f32⟩
  | 79 => ⟨S10, .f32⟩
  | 80 => ⟨S10, .f32⟩
  | 81 => ⟨S10, .f32⟩
  | 82 => ⟨S10, .f32⟩
  | 83 => ⟨S_, .f32⟩
  | 84 => ⟨S10, .f32⟩
  | 85 => ⟨S10, .f32⟩
  | 86 => ⟨S10, .f32⟩
  | 87 => ⟨S10, .f32⟩
  | 88 => ⟨S_, .f32⟩
  | 89 => ⟨S_, .f32⟩
  | 90 => ⟨S_, .f32⟩
  | 91 => ⟨S10, .f32⟩
  | 92 => ⟨S10, .f32⟩
  | 93 => ⟨S10, .f32⟩
  | 94 => ⟨S10, .f32⟩
  | 95 => ⟨S10, .f32⟩
  | 96 => ⟨S10, .f32⟩
  | 97 => ⟨S10, .f32⟩
  | 98 => ⟨S10, .f32⟩
  | 99 => ⟨S10, .f32⟩
  | 100 => ⟨S_, .f32⟩
  | 101 => ⟨S10, .f32⟩
  | 102 => ⟨S10, .f32⟩
  | 103 => ⟨S10, .f32⟩
  | 104 => ⟨S10, .f32⟩
  | 105 => ⟨S10, .f32⟩
  | 106 => ⟨S10, .f32⟩
  | 107 => ⟨S10, .f32⟩
  | 108 => ⟨S10, .f32⟩
  | 109 => ⟨S10, .f32⟩
  | 110 => ⟨S10, .f32⟩
  | 111 => ⟨S_, .f32⟩
  | 112 => ⟨S10, .f32⟩
  | 113 => ⟨S10, .i1⟩
  | 114 => ⟨S_, .f32⟩
  | 115 => ⟨S_, .f32⟩
  | 116 => ⟨S10, .f32⟩
  | 117 => ⟨S10, .f32⟩
  | 118 => ⟨S_, .f32⟩
  | 119 => ⟨S_, .f32⟩
  | 120 => ⟨S10, .f32⟩
  | 121 => ⟨S10, .f32⟩
  | 122 => ⟨S_, .f32⟩
  | 123 => ⟨S_, .f32⟩
  | 124 => ⟨S_, .f32⟩
  | 125 => ⟨S10, .f32⟩
  | 126 => ⟨S10, .f32⟩
  | 127 => ⟨S_, .f32⟩
  | _ => ⟨S4096x128, .f32⟩

abbrev hbmTy0_1 (i : Nat) : BufTy := match i % 128 with
  | 0 => ⟨S_, .f32⟩
  | 1 => ⟨S10, .f32⟩
  | 2 => ⟨S10, .f32⟩
  | 3 => ⟨S_, .f32⟩
  | 4 => ⟨S_, .f32⟩
  | 5 => ⟨S_, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S1024x128, .bf16⟩
  | .local _ .vmem, ⟨3, _⟩ => ⟨S1024x128, .bf16⟩
  | .local _ .vmem, ⟨4, _⟩ => ⟨S512x16, .f32⟩
  | .local _ .vmem, ⟨5, _⟩ => ⟨S512x16, .f32⟩
  | .local _ .vmem, ⟨6, _⟩ => ⟨S1024x16, .f32⟩
  | .local _ .vmem, ⟨7, _⟩ => ⟨S1024x16, .f32⟩
  | .local _ .vmem, ⟨8, _⟩ => ⟨S8x1024, .f32⟩
  | .local _ .vmem, ⟨9, _⟩ => ⟨S8x1024, .f32⟩
  | .local _ .vmem, ⟨10, _⟩ => ⟨S1x2x128, .f32⟩
  | .local _ .vmem, ⟨11, _⟩ => ⟨S1x2x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_c_10 : Ref sig .tc := ⟨.hbm, 47, rfl⟩
abbrev main_v32 : Ref sig .tc := ⟨.hbm, 48, rfl⟩
abbrev main_v33 : Ref sig .tc := ⟨.hbm, 49, rfl⟩
abbrev main_c_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_12 : Ref sig .tc := ⟨.hbm, 54, rfl⟩
abbrev main_v37 : Ref sig .tc := ⟨.hbm, 55, rfl⟩
abbrev main_v38 : Ref sig .tc := ⟨.hbm, 56, rfl⟩
abbrev main_c_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_c_15 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_19 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_20 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_22 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_23 : Ref sig .tc := ⟨.hbm, 111, rfl⟩
abbrev main_v83 : Ref sig .tc := ⟨.hbm, 112, rfl⟩
abbrev main_v84 : Ref sig .tc := ⟨.hbm, 113, rfl⟩
abbrev main_cst_24 : Ref sig .tc := ⟨.hbm, 114, rfl⟩
abbrev main_call0_v0 : Ref sig .tc := ⟨.hbm, 115, rfl⟩
abbrev main_call0_v1 : Ref sig .tc := ⟨.hbm, 116, rfl⟩
abbrev main_v85 : Ref sig .tc := ⟨.hbm, 117, rfl⟩
abbrev main_cst_25 : Ref sig .tc := ⟨.hbm, 118, rfl⟩
abbrev main_call1_v0 : Ref sig .tc := ⟨.hbm, 119, rfl⟩
abbrev main_call1_v1 : Ref sig .tc := ⟨.hbm, 120, rfl⟩
abbrev main_v86 : Ref sig .tc := ⟨.hbm, 121, rfl⟩
abbrev main_cst_26 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_27 : Ref sig .tc := ⟨.hbm, 127, rfl⟩
abbrev main_call2_v0 : Ref sig .tc := ⟨.hbm, 128, rfl⟩
abbrev main_call2_v1 : Ref sig .tc := ⟨.hbm, 129, rfl⟩
abbrev main_v91 : Ref sig .tc := ⟨.hbm, 130, rfl⟩
abbrev main_cst_28 : Ref sig .tc := ⟨.hbm, 131, rfl⟩
abbrev main_v92 : Ref sig .tc := ⟨.hbm, 132, rfl⟩
abbrev main_v93 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S4096x128_S4096_d1 : S4096x128.ReducesTo [1] S4096
  h_S_ : 0 < S_.numel
  transposes_S10x128_S128x10_1_0 : S10x128.Transposes [1, 0] S128x10
  reducesTo_S10x128_S10_d1 : S10x128.ReducesTo [1] S10
  bcast_S_S10 : S_.BroadcastsInDim S10 (![] : Fin 0 → Fin S10.rank)
  bcast_S_S4096 : S_.BroadcastsInDim S4096 (![] : Fin 0 → Fin S4096.rank)
  bcast_S4096_S4096x1_0 : S4096.BroadcastsInDim S4096x1 (![0] : Fin 1 → Fin S4096x1.rank)
  natLt_1_32 : 1 < 32
  reducesTo_S10_S_d0 : S10.ReducesTo [0] S_
  bcast_S_S4096x16 : S_.BroadcastsInDim S4096x16 (![] : Fin 0 → Fin S4096x16.rank)
  bcast_S_S1 : S_.BroadcastsInDim S1 (![] : Fin 0 → Fin S1.rank)
  bcast_S_S8x4096 : S_.BroadcastsInDim S8x4096 (![] : Fin 0 → Fin S8x4096.rank)
  bitsLt_bf16_f32 : FTy.bits .bf16 < FTy.bits .f32
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S512x16_S512x1_0_0 : ∀ a, (![0, 0] : Fin 2 → Nat) a + S512x1.size a ≤ S512x16.size a
  h_S512x1 : 0 < S512x1.numel
  shapeCasts_S512x1_S512x1 : S512x1.ShapeCasts S512x1
  inb_S512x16_S512x1_0_2 : ∀ a, (![0, 2] : Fin 2 → Nat) a + S512x1.size a ≤ S512x16.size a
  inb_S512x16_S512x10_0_3 : ∀ a, (![0, 3] : Fin 2 → Nat) a + S512x10.size a ≤ S512x16.size a
  h_S512x10 : 0 < S512x10.numel
  shapeCasts_S512x10_S512x10 : S512x10.ShapeCasts S512x10
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S1024x16_S1024x1_0_2 : ∀ a, (![0, 2] : Fin 2 → Nat) a + S1024x1.size a ≤ S1024x16.size a
  h_S1024x1 : 0 < S1024x1.numel
  shapeCasts_S1024x1_S1024x1 : S1024x1.ShapeCasts S1024x1
  inb_S1024x16_S1024x1_0_1 : ∀ a, (![0, 1] : Fin 2 → Nat) a + S1024x1.size a ≤ S1024x16.size a
  inb_S1024x16_S1024x10_0_3 : ∀ a, (![0, 3] : Fin 2 → Nat) a + S1024x10.size a ≤ S1024x16.size a
  h_S1024x10 : 0 < S1024x10.numel
  shapeCasts_S1024x10_S1024x10 : S1024x10.ShapeCasts S1024x10
  iota_S1x10_d1_w32 : S1x10.Iotas .tc 32 [1]
  broadcasts_S1024x1_S1024x10 : S1024x1.Broadcasts S1024x10
  broadcasts_S1x10_S1024x10 : S1x10.Broadcasts S1024x10
  concatenates_S1024x10_S1024x10_S1024x10_S1024x30_d1 : Shape.Concatenates [S1024x10, S1024x10, S1024x10] S1024x30 1
  concatenates_S512x1024_S512x1024_S1024x1024_d0 : Shape.Concatenates [S512x1024, S512x1024] S1024x1024 0
  slices_S1024x30_o0_0_S512x30 : S1024x30.Slices ![0, 0] S512x30
  slices_S1024x30_o512_0_S512x30 : S1024x30.Slices ![512, 0] S512x30
  slices_S512x30_o0_0_S512x10 : S512x30.Slices ![0, 0] S512x10
  slices_S512x30_o0_10_S512x10 : S512x30.Slices ![0, 10] S512x10
  slices_S512x30_o0_20_S512x10 : S512x30.Slices ![0, 20] S512x10
  broadcasts_S512x1_S512x10 : S512x1.Broadcasts S512x10
  broadcasts_S1x10_S512x10 : S1x10.Broadcasts S512x10
  reduces_S512x10_S10 : S512x10.Reduces [0] S10
  shapeCasts_S10_S1x10 : S10.ShapeCasts S1x10
  inb_S1x2x128_S1x1x10_0_0_0 : ∀ a, (![0, 0, 0] : Fin 3 → Nat) a + S1x1x10.size a ≤ S1x2x128.size a
  h_S1x1x10 : 0 < S1x1x10.numel
  shapeCasts_S1x1x10_S1x10 : S1x1x10.ShapeCasts S1x10
  shapeCasts_S1x10_S1x1x10 : S1x10.ShapeCasts S1x1x10
  inb_S1x2x128_S1x1x10_0_1_0 : ∀ a, (![0, 1, 0] : Fin 3 → Nat) a + S1x1x10.size a ≤ S1x2x128.size a
  reducesTo_S8x2x128_S2x128_d0 : S8x2x128.ReducesTo [0] S2x128
  slices_S2x128_S1x10_0_0 : S2x128.Slices ![0, 0] S1x10
  shapeCasts_S1x10_S10 : S1x10.ShapeCasts S10
  slices_S2x128_S1x10_1_0 : S2x128.Slices ![1, 0] S1x10
  dot_S4096x128_S128x10_S4096x10_1_0_0_1_n_n_wf : DotDims.WF S4096x128 S128x10 S4096x10 [1] [0] [0] [1] [] []
  scatter_S10_S4096x1_S4096_n_0_0_1_wf : ScatterDims.WF S10 S4096x1 S4096 [] [0] [0] 1
  gather_S10_S4096x1_S4096_n_0_n_n_0_1_1_wf : GatherDims.WF S10 S4096x1 S4096 [] [0] [] [0] [] 1 ![1]
  scatter_S4096x16_S1_S4096_0_1_1_0_wf : ScatterDims.WF S4096x16 S1 S4096 [0] [1] [1] 0
  scatter_S4096x16_S1_S4096x10_01_n_1_0_wf : ScatterDims.WF S4096x16 S1 S4096x10 [0, 1] [] [1] 0
  scatter_S8x4096_S1_S4096_0_0_0_0_wf : ScatterDims.WF S8x4096 S1 S4096 [0] [0] [0] 0
  dot_S512x128_S128x1024_S512x1024_1_0_0_1_n_n_wf : DotDims.WF S512x128 S128x1024 S512x1024 [1] [0] [0] [1] [] []
  dot_S1024x1024_S1024x30_S1024x30_1_0_0_1_n_n_wf : DotDims.WF S1024x1024 S1024x30 S1024x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .bf16 = 32 ∨ (Rect.block (s := S4096x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .f32 = 32 ∨ (Rect.block (s := S4096x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x4096.size a
  hwx0_4 : ∀ i : grid0.Coords, EltTy.bits .f32 = 32 ∨ (Rect.block (s := S8x4096) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x128.size a ≤ S8x2x128.size a
  hwx0_5 : ∀ i : grid0.Coords, EltTy.bits .f32 = 32 ∨ (Rect.block (s := S8x2x128) S1x2x128.size (cc0_transform_5 i) (hinb0_5 i)).WholeWords (EltTy.packing .f32)

variable [Facts₀]

def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf
def scatter_S10_S4096x1_S4096_n_0_0_1 : ScatterDims S10 S4096x1 S4096 where
  updateWindowDims := []
  insertedWindowDims := [0]
  scatterDimsToOperandDims := [0]
  indexVectorDim := 1
  wf := scatter_S10_S4096x1_S4096_n_0_0_1_wf
def gather_S10_S4096x1_S4096_n_0_n_n_0_1_1 : GatherDims S10 S4096x1 S4096 where
  offsetDims := []
  collapsedSliceDims := [0]
  operandBatchingDims := []
  startIndicesBatchingDims := []
  startIndexMap := [0]
  indexVectorDim := 1
  sliceSizes := ![1]
  wf := gather_S10_S4096x1_S4096_n_0_n_n_0_1_1_wf
def scatter_S4096x16_S1_S4096_0_1_1_0 : ScatterDims S4096x16 S1 S4096 where
  updateWindowDims := [0]
  insertedWindowDims := [1]
  scatterDimsToOperandDims := [1]
  indexVectorDim := 0
  wf := scatter_S4096x16_S1_S4096_0_1_1_0_wf
def scatter_S4096x16_S1_S4096x10_01_n_1_0 : ScatterDims S4096x16 S1 S4096x10 where
  updateWindowDims := [0, 1]
  insertedWindowDims := []
  scatterDimsToOperandDims := [1]
  indexVectorDim := 0
  wf := scatter_S4096x16_S1_S4096x10_01_n_1_0_wf
def scatter_S8x4096_S1_S4096_0_0_0_0 : ScatterDims S8x4096 S1 S4096 where
  updateWindowDims := [0]
  insertedWindowDims := [0]
  scatterDimsToOperandDims := [0]
  indexVectorDim := 0
  wf := scatter_S8x4096_S1_S4096_0_0_0_0_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S1024x1024_S1024x30_S1024x30_1_0_0_1_n_n : DotDims S1024x1024 S1024x30 S1024x30 where
  lhsContracting := [1]
  rhsContracting := [0]
  lhsNonContracting := [0]
  rhsNonContracting := [1]
  lhsBatch := []
  rhsBatch := []
  wf := dot_S1024x1024_S1024x30_S1024x30_1_0_0_1_n_n_wf

abbrev win0_0 : Pipeline.Window sig grid0 :=
  Pipeline.Window.ofSpec (Memref.whole main_v44) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x2x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S10x128 : Shape := ⟨2, ![10, 128]⟩
abbrev S_ : Shape := ⟨0, ![]⟩
abbrev S128x4096 : Shape := ⟨2, ![128, 4096]⟩
abbrev S4096x4096 : Shape := ⟨2, ![4096, 4096]⟩
abbrev S4096x1 : Shape := ⟨2, ![4096, 1]⟩
abbrev S1x4096 : Shape := ⟨2, ![1, 4096]⟩
abbrev S128x10 : Shape := ⟨2, ![128, 10]⟩
abbrev S4096x10 : Shape := ⟨2, ![4096, 10]⟩
abbrev S10 : Shape := ⟨1, ![10]⟩
abbrev S1 : Shape := ⟨1, ![1]⟩

abbrev nBuf : Space → Nat
  | .hbm => 830
  | .vmem => 0
  | .smem => 0
  | _ => 0

abbrev hbmTy0_0 (i : Nat) : BufTy := match i % 128 with
  | 0 => ⟨S4096x128, .f32⟩
  | 1 => ⟨S4096, .i32⟩
  | 2 => ⟨S10x128, .f32⟩
  | 3 => ⟨S4096x128, .f32⟩
  | 4 => ⟨S_, .f32⟩
  | 5 => ⟨S4096, .f32⟩
  | 6 => ⟨S128x4096, .f32⟩
  | 7 => ⟨S4096x4096, .f32⟩
  | 8 => ⟨S4096x1, .f32⟩
  | 9 => ⟨S1x4096, .f32⟩
  | 10 => ⟨S4096x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S128x10, .f32⟩
  | 28 => ⟨S4096x10, .f32⟩
  | 29 => ⟨S10x128, .f32⟩
  | 30 => ⟨S_, .f32⟩
  | 31 => ⟨S10, .f32⟩
  | 32 => ⟨S10, .f32⟩
  | 33 => ⟨S_, .f32⟩
  | 34 => ⟨S10, .f32⟩
  | 35 => ⟨S10, .f32⟩
  | 36 => ⟨S_, .i32⟩
  | 37 => ⟨S10, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S_, .i32⟩
  | 47 => ⟨S4096, .i32⟩
  | 48 => ⟨S10, .i32⟩
  | 49 => ⟨S_, .i32⟩
  | 50 => ⟨S10, .i32⟩
  | 51 => ⟨S10, .i1⟩
  | 52 => ⟨S10, .i32⟩
  | 53 => ⟨S_, .i32⟩
  | 54 => ⟨S_, .i32⟩
  | 55 => ⟨S_, .f32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S4096x1, .i32⟩
  | 64 => ⟨S4096, .i32⟩
  | 65 => ⟨S4096, .f32⟩
  | 66 => ⟨S_, .i32⟩
  | 67 => ⟨S4096, .i32⟩
  | 68 => ⟨S4096, .i1⟩
  | 69 => ⟨S4096x1, .i1⟩
  | 70 => ⟨S4096, .i1⟩
  | 71 => ⟨S1x4096, .i1⟩
  | 72 => ⟨S4096x4096, .i1⟩
  | 73 => ⟨S4096x4096, .i1⟩
  | 74 => ⟨S4096x4096, .i1⟩
  | 75 => ⟨S1, .i32⟩
  | 76 => ⟨S_, .i32⟩
  | 77 => ⟨S_, .i32⟩
  | 78 => ⟨S_, .i32⟩
  | 79 => ⟨S_, .f32⟩
  | 80 => ⟨S1x4096, .f32⟩
  | 81 => ⟨S1x4096, .f32⟩
  | 82 => ⟨S1x4096, .f32⟩
  | 83 => ⟨S_, .f32⟩
  | 84 => ⟨S1x4096, .f32⟩
  | 85 => ⟨S1x4096, .f32⟩
  | 86 => ⟨S_, .f32⟩
  | 87 => ⟨S_, .f32⟩
  | 88 => ⟨S4096x4096, .f32⟩
  | 89 => ⟨S4096x4096, .f32⟩
  | 90 => ⟨S4096x4096, .f32⟩
  | 91 => ⟨S4096x1, .f32⟩
  | 92 => ⟨S4096, .f32⟩
  | 93 => ⟨S4096x1, .f32⟩
  | 94 => ⟨S1x4096, .f32⟩
  | 95 => ⟨S4096x4096, .f32⟩
  | 96 => ⟨S4096x4096, .f32⟩
  | 97 => ⟨S4096x4096, .f32⟩
  | 98 => ⟨S1, .f32⟩
  | 99 => ⟨S_, .f32⟩
  | 100 => ⟨S4096x4096, .f32⟩
  | 101 => ⟨S4096x4096, .f32⟩
  | 102 => ⟨S4096x4096, .f32⟩
  | 103 => ⟨S_, .f32⟩
  | 104 => ⟨S4096x4096, .f32⟩
  | 105 => ⟨S4096x4096, .f32⟩
  | 106 => ⟨S4096x4096, .f32⟩
  | 107 => ⟨S4096x4096, .f32⟩
  | 108 => ⟨S_, .f32⟩
  | 109 => ⟨S_, .f32⟩
  | 110 => ⟨S_, .f32⟩
  | 111 => ⟨S_, .f32⟩
  | 112 => ⟨S_, .f32⟩
  | 113 => ⟨S4096x4096, .f32⟩
  | 114 => ⟨S_, .f32⟩
  | 115 => ⟨S_, .f32⟩
  | 116 => ⟨S_, .f32⟩
  | 117 => ⟨S_, .f32⟩
  | 118 => ⟨S_, .f32⟩
  | 119 => ⟨S4096x4096, .f32⟩
  | 120 => ⟨S4096x4096, .f32⟩
  | 121 => ⟨S4096x4096, .f32⟩
  | 122 => ⟨S4096x4096, .f32⟩
  | 123 => ⟨S_, .f32⟩
  | 124 => ⟨S_, .f32⟩
  | 125 => ⟨S_, .f32⟩
  | 126 => ⟨S_, .f32⟩
  | 127 => ⟨S_, .f32⟩
  | _ => ⟨S4096x128, .f32⟩

abbrev hbmTy0_1 (i : Nat) : BufTy := match i % 128 with
  | 0 => ⟨S1, .i32⟩
  | 1 => ⟨S_, .i32⟩
  | 2 => ⟨S_, .i32⟩
  | 3 => ⟨S_, .i1⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .i32⟩
  | 17 => ⟨S4096, .i32⟩
  | 18 => ⟨S4096, .i1⟩
  | 19 => ⟨S4096x1, .i1⟩
  | 20 => ⟨S4096, .i1⟩
  | 21 => ⟨S1x4096, .i1⟩
  | 22 => ⟨S4096x4096, .i1⟩
  | 23 => ⟨S4096x4096, .i1⟩
  | 24 => ⟨S4096x4096, .i1⟩
  | 25 => ⟨S1, .i32⟩
  | 26 => ⟨S_, .i32⟩
  | 27 => ⟨S_, .i32⟩
  | 28 => ⟨S_, .i32⟩
  | 29 => ⟨S_, .f32⟩
  | 30 => ⟨S1x4096, .f32⟩
  | 31 => ⟨S1x4096, .f32⟩
  | 32 => ⟨S1x4096, .f32⟩
  | 33 => ⟨S_, .f32⟩
  | 34 => ⟨S1x4096, .f32⟩
  | 35 => ⟨S1x4096, .f32⟩
  | 36 => ⟨S_, .f32⟩
  | 37 => ⟨S_, .f32⟩
  | 38 => ⟨S4096x4096, .f32⟩
  | 39 => ⟨S4096x4096, .f32⟩
  | 40 => ⟨S4096x4096, .f32⟩
  | 41 => ⟨S4096x1, .f32⟩
  | 42 => ⟨S4096, .f32⟩
  | 43 => ⟨S4096x1, .f32⟩
  | 44 => ⟨S1x4096, .f32⟩
  | 45 => ⟨S4096x4096, .f32⟩
  | 46 => ⟨S4096x4096, .f32⟩
  | 47 => ⟨S4096x4096, .f32⟩
  | 48 => ⟨S1, .f32⟩
  | 49 => ⟨S_, .f32⟩
  | 50 => ⟨S4096x4096, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .f32⟩
  | 57 => ⟨S4096x4096, .f32⟩
  | 58 => ⟨S_, .f32⟩
  | 59 => ⟨S_, .f32⟩
  | 60 => ⟨S_, .f32⟩
  | 61 => ⟨S_, .f32⟩
  | 62 => ⟨S_, .f32⟩
  | 63 => ⟨S4096x4096, .f32⟩
  | 64 => ⟨S_, .f32⟩
  | 65 => ⟨S_, .f32⟩
  | 66 => ⟨S_, .f32⟩
  | 67 => ⟨S_, .f32⟩
  | 68 => ⟨S_, .f32⟩
  | 69 => ⟨S4096x4096, .f32⟩
  | 70 => ⟨S4096x4096, .f32⟩
  | 71 => ⟨S4096x4096, .f32⟩
  | 72 => ⟨S4096x4096, .f32⟩
  | 73 => ⟨S_, .f32⟩
  | 74 => ⟨S_, .f32⟩
  | 75 => ⟨S_, .f32⟩
  | 76 => ⟨S_, .f32⟩
  | 77 => ⟨S_, .f32⟩
  | 78 => ⟨S1, .i32⟩
  | 79 => ⟨S_, .i32⟩
  | 80 => ⟨S_, .i32⟩
  | 81 => ⟨S_, .i1⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .i32⟩
  | 93 => ⟨S4096, .i32⟩
  | 94 => ⟨S4096, .i1⟩
  | 95 => ⟨S4096x1, .i1⟩
  | 96 => ⟨S4096, .i1⟩
  | 97 => ⟨S1x4096, .i1⟩
  | 98 => ⟨S4096x4096, .i1⟩
  | 99 => ⟨S4096x4096, .i1⟩
  | 100 => ⟨S4096x4096, .i1⟩
  | 101 => ⟨S1, .i32⟩
  | 102 => ⟨S_, .i32⟩
  | 103 => ⟨S_, .i32⟩
  | 104 => ⟨S_, .i32⟩
  | 105 => ⟨S_, .f32⟩
  | 106 => ⟨S1x4096, .f32⟩
  | 107 => ⟨S1x4096, .f32⟩
  | 108 => ⟨S1x4096, .f32⟩
  | 109 => ⟨S_, .f32⟩
  | 110 => ⟨S1x4096, .f32⟩
  | 111 => ⟨S1x4096, .f32⟩
  | 112 => ⟨S_, .f32⟩
  | 113 => ⟨S_, .f32⟩
  | 114 => ⟨S4096x4096, .f32⟩
  | 115 => ⟨S4096x4096, .f32⟩
  | 116 => ⟨S4096x4096, .f32⟩
  | 117 => ⟨S4096x1, .f32⟩
  | 118 => ⟨S4096, .f32⟩
  | 119 => ⟨S4096x1, .f32⟩
  | 120 => ⟨S1x4096, .f32⟩
  | 121 => ⟨S4096x4096, .f32⟩
  | 122 => ⟨S4096x4096, .f32⟩
  | 123 => ⟨S4096x4096, .f32⟩
  | 124 => ⟨S1, .f32⟩
  | 125 => ⟨S_, .f32⟩
  | 126 => ⟨S4096x4096, .f32⟩
  | 127 => ⟨S4096x4096, .f32⟩
  | _ => ⟨S4096x128, .f32⟩

abbrev hbmTy0_2 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S4096x4096, .f32⟩
  | 6 => ⟨S_, .f32⟩
  | 7 => ⟨S_, .f32⟩
  | 8 => ⟨S_, .f32⟩
  | 9 => ⟨S_, .f32⟩
  | 10 => ⟨S_, .f32⟩
  | 11 => ⟨S4096x4096, .f32⟩
  | 12 => ⟨S_, .f32⟩
  | 13 => ⟨S_, .f32⟩
  | 14 => ⟨S_, .f32⟩
  | 15 => ⟨S_, .f32⟩
  | 16 => ⟨S_, .f32⟩
  | 17 => ⟨S4096x4096, .f32⟩
  | 18 => ⟨S4096x4096, .f32⟩
  | 19 => ⟨S4096x4096, .f32⟩
  | 20 => ⟨S4096x4096, .f32⟩
  | 21 => ⟨S_, .f32⟩
  | 22 => ⟨S_, .f32⟩
  | 23 => ⟨S_, .f32⟩
  | 24 => ⟨S_, .f32⟩
  | 25 => ⟨S_, .f32⟩
  | 26 => ⟨S1, .i32⟩
  | 27 => ⟨S_, .i32⟩
  | 28 => ⟨S_, .i32⟩
  | 29 => ⟨S_, .i1⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .i32⟩
  | 41 => ⟨S4096, .i32⟩
  | 42 => ⟨S4096, .i1⟩
  | 43 => ⟨S4096x1, .i1⟩
  | 44 => ⟨S4096, .i1⟩
  | 45 => ⟨S1x4096, .i1⟩
  | 46 => ⟨S4096x4096, .i1⟩
  | 47 => ⟨S4096x4096, .i1⟩
  | 48 => ⟨S4096x4096, .i1⟩
  | 49 => ⟨S1, .i32⟩
  | 50 => ⟨S_, .i32⟩
  | 51 => ⟨S_, .i32⟩
  | 52 => ⟨S_, .i32⟩
  | 53 => ⟨S_, .f32⟩
  | 54 => ⟨S1x4096, .f32⟩
  | 55 => ⟨S1x4096, .f32⟩
  | 56 => ⟨S1x4096, .f32⟩
  | 57 => ⟨S_, .f32⟩
  | 58 => ⟨S1x4096, .f32⟩
  | 59 => ⟨S1x4096, .f32⟩
  | 60 => ⟨S_, .f32⟩
  | 61 => ⟨S_, .f32⟩
  | 62 => ⟨S4096x4096, .f32⟩
  | 63 => ⟨S4096x4096, .f32⟩
  | 64 => ⟨S4096x4096, .f32⟩
  | 65 => ⟨S4096x1, .f32⟩
  | 66 => ⟨S4096, .f32⟩
  | 67 => ⟨S4096x1, .f32⟩
  | 68 => ⟨S1x4096, .f32⟩
  | 69 => ⟨S4096x4096, .f32⟩
  | 70 => ⟨S4096x4096, .f32⟩
  | 71 => ⟨S4096x4096, .f32⟩
  | 72 => ⟨S1, .f32⟩
  | 73 => ⟨S_, .f32⟩
  | 74 => ⟨S4096x4096, .f32⟩
  | 75 => ⟨S4096x4096, .f32⟩
  | 76 => ⟨S4096x4096, .f32⟩
  | 77 => ⟨S_, .f32⟩
  | 78 => ⟨S4096x4096, .f32⟩
  | 79 => ⟨S4096x4096, .f32⟩
  | 80 => ⟨S4096x4096, .f32⟩
  | 81 => ⟨S4096x4096, .f32⟩
  | 82 => ⟨S_, .f32⟩
  | 83 => ⟨S_, .f32⟩
  | 84 => ⟨S_, .f32⟩
  | 85 => ⟨S_, .f32⟩
  | 86 => ⟨S_, .f32⟩
  | 87 => ⟨S4096x4096, .f32⟩
  | 88 => ⟨S_, .f32⟩
  | 89 => ⟨S_, .f32⟩
  | 90 => ⟨S_, .f32⟩
  | 91 => ⟨S_, .f32⟩
  | 92 => ⟨S_, .f32⟩
  | 93 => ⟨S4096x4096, .f32⟩
  | 94 => ⟨S4096x4096, .f32⟩
  | 95 => ⟨S4096x4096, .f32⟩
  | 96 => ⟨S4096x4096, .f32⟩
  | 97 => ⟨S_, .f32⟩
  | 98 => ⟨S_, .f32⟩
  | 99 => ⟨S_, .f32⟩
  | 100 => ⟨S_, .f32⟩
  | 101 => ⟨S_, .f32⟩
  | 102 => ⟨S1, .i32⟩
  | 103 => ⟨S_, .i32⟩
  | 104 => ⟨S_, .i32⟩
  | 105 => ⟨S_, .i1⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .i32⟩
  | 117 => ⟨S4096, .i32⟩
  | 118 => ⟨S4096, .i1⟩
  | 119 => ⟨S4096x1, .i1⟩
  | 120 => ⟨S4096, .i1⟩
  | 121 => ⟨S1x4096, .i1⟩
  | 122 => ⟨S4096x4096, .i1⟩
  | 123 => ⟨S4096x4096, .i1⟩
  | 124 => ⟨S4096x4096, .i1⟩
  | 125 => ⟨S1, .i32⟩
  | 126 => ⟨S_, .i32⟩
  | 127 => ⟨S_, .i32⟩
  | _ => ⟨S4096x128, .f32⟩

abbrev hbmTy0_3 (i : Nat) : BufTy := match i % 128 with
  | 0 => ⟨S_, .i32⟩
  | 1 => ⟨S_, .f32⟩
  | 2 => ⟨S1x4096, .f32⟩
  | 3 => ⟨S1x4096, .f32⟩
  | 4 => ⟨S1x4096, .f32⟩
  | 5 => ⟨S_, .f32⟩
  | 6 => ⟨S1x4096, .f32⟩
  | 7 => ⟨S1x4096, .f32⟩
  | 8 => ⟨S_, .f32⟩
  | 9 => ⟨S_, .f32⟩
  | 10 => ⟨S4096x4096, .f32⟩
  | 11 => ⟨S4096x4096, .f32⟩
  | 12 => ⟨S4096x4096, .f32⟩
  | 13 => ⟨S4096x1, .f32⟩
  | 14 => ⟨S4096, .f32⟩
  | 15 => ⟨S4096x1, .f32⟩
  | 16 => ⟨S1x4096, .f32⟩
  | 17 => ⟨S4096x4096, .f32⟩
  | 18 => ⟨S4096x4096, .f32⟩
  | 19 => ⟨S4096x4096, .f32⟩
  | 20 => ⟨S1, .f32⟩
  | 21 => ⟨S_, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S4096x4096, .f32⟩
  | 29 => ⟨S4096x4096, .f32⟩
  | 30 => ⟨S_, .f32⟩
  | 31 => ⟨S_, .f32⟩
  | 32 => ⟨S_, .f32⟩
  | 33 => ⟨S_, .f32⟩
  | 34 => ⟨S_, .f32⟩
  | 35 => ⟨S4096x4096, .f32⟩
  | 36 => ⟨S_, .f32⟩
  | 37 => ⟨S_, .f32⟩
  | 38 => ⟨S_, .f32⟩
  | 39 => ⟨S_, .f32⟩
  | 40 => ⟨S_, .f32⟩
  | 41 => ⟨S4096x4096, .f32⟩
  | 42 => ⟨S4096x4096, .f32⟩
  | 43 => ⟨S4096x4096, .f32⟩
  | 44 => ⟨S4096x4096, .f32⟩
  | 45 => ⟨S_, .f32⟩
  | 46 => ⟨S_, .f32⟩
  | 47 => ⟨S_, .f32⟩
  | 48 => ⟨S_, .f32⟩
  | 49 => ⟨S_, .f32⟩
  | 50 => ⟨S1, .i32⟩
  | 51 => ⟨S_, .i32⟩
  | 52 => ⟨S_, .i32⟩
  | 53 => ⟨S_, .i1⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .i32⟩
  | 65 => ⟨S4096, .i32⟩
  | 66 => ⟨S4096, .i1⟩
  | 67 => ⟨S4096x1, .i1⟩
  | 68 => ⟨S4096, .i1⟩
  | 69 => ⟨S1x4096, .i1⟩
  | 70 => ⟨S4096x4096, .i1⟩
  | 71 => ⟨S4096x4096, .i1⟩
  | 72 => ⟨S4096x4096, .i1⟩
  | 73 => ⟨S1, .i32⟩
  | 74 => ⟨S_, .i32⟩
  | 75 => ⟨S_, .i32⟩
  | 76 => ⟨S_, .i32⟩
  | 77 => ⟨S_, .f32⟩
  | 78 => ⟨S1x4096, .f32⟩
  | 79 => ⟨S1x4096, .f32⟩
  | 80 => ⟨S1x4096, .f32⟩
  | 81 => ⟨S_, .f32⟩
  | 82 => ⟨S1x4096, .f32⟩
  | 83 => ⟨S1x4096, .f32⟩
  | 84 => ⟨S_, .f32⟩
  | 85 => ⟨S_, .f32⟩
  | 86 => ⟨S4096x4096, .f32⟩
  | 87 => ⟨S4096x4096, .f32⟩
  | 88 => ⟨S4096x4096, .f32⟩
  | 89 => ⟨S4096x1, .f32⟩
  | 90 => ⟨S4096, .f32⟩
  | 91 => ⟨S4096x1, .f32⟩
  | 92 => ⟨S1x4096, .f32⟩
  | 93 => ⟨S4096x4096, .f32⟩
  | 94 => ⟨S4096x4096, .f32⟩
  | 95 => ⟨S4096x4096, .f32⟩
  | 96 => ⟨S1, .f32⟩
  | 97 => ⟨S_, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S_, .f32⟩
  | 107 => ⟨S_, .f32⟩
  | 108 => ⟨S_, .f32⟩
  | 109 => ⟨S_, .f32⟩
  | 110 => ⟨S_, .f32⟩
  | 111 => ⟨S4096x4096, .f32⟩
  | 112 => ⟨S_, .f32⟩
  | 113 => ⟨S_, .f32⟩
  | 114 => ⟨S_, .f32⟩
  | 115 => ⟨S_, .f32⟩
  | 116 => ⟨S_, .f32⟩
  | 117 => ⟨S4096x4096, .f32⟩
  | 118 => ⟨S4096x4096, .f32⟩
  | 119 => ⟨S4096x4096, .f32⟩
  | 120 => ⟨S4096x4096, .f32⟩
  | 121 => ⟨S_, .f32⟩
  | 122 => ⟨S_, .f32⟩
  | 123 => ⟨S_, .f32⟩
  | 124 => ⟨S_, .f32⟩
  | 125 => ⟨S_, .f32⟩
  | 126 => ⟨S1, .i32⟩
  | 127 => ⟨S_, .i32⟩
  | _ => ⟨S4096x128, .f32⟩

abbrev hbmTy0_4 (i : Nat) : BufTy := match i % 128 with
  | 0 => ⟨S_, .i32⟩
  | 1 => ⟨S_, .i1⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .i32⟩
  | 13 => ⟨S4096, .i32⟩
  | 14 => ⟨S4096, .i1⟩
  | 15 => ⟨S4096x1, .i1⟩
  | 16 => ⟨S4096, .i1⟩
  | 17 => ⟨S1x4096, .i1⟩
  | 18 => ⟨S4096x4096, .i1⟩
  | 19 => ⟨S4096x4096, .i1⟩
  | 20 => ⟨S4096x4096, .i1⟩
  | 21 => ⟨S1, .i32⟩
  | 22 => ⟨S_, .i32⟩
  | 23 => ⟨S_, .i32⟩
  | 24 => ⟨S_, .i32⟩
  | 25 => ⟨S_, .f32⟩
  | 26 => ⟨S1x4096, .f32⟩
  | 27 => ⟨S1x4096, .f32⟩
  | 28 => ⟨S1x4096, .f32⟩
  | 29 => ⟨S_, .f32⟩
  | 30 => ⟨S1x4096, .f32⟩
  | 31 => ⟨S1x4096, .f32⟩
  | 32 => ⟨S_, .f32⟩
  | 33 => ⟨S_, .f32⟩
  | 34 => ⟨S4096x4096, .f32⟩
  | 35 => ⟨S4096x4096, .f32⟩
  | 36 => ⟨S4096x4096, .f32⟩
  | 37 => ⟨S4096x1, .f32⟩
  | 38 => ⟨S4096, .f32⟩
  | 39 => ⟨S4096x1, .f32⟩
  | 40 => ⟨S1x4096, .f32⟩
  | 41 => ⟨S4096x4096, .f32⟩
  | 42 => ⟨S4096x4096, .f32⟩
  | 43 => ⟨S4096x4096, .f32⟩
  | 44 => ⟨S1, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .f32⟩
  | 52 => ⟨S4096x4096, .f32⟩
  | 53 => ⟨S4096x4096, .f32⟩
  | 54 => ⟨S_, .f32⟩
  | 55 => ⟨S_, .f32⟩
  | 56 => ⟨S_, .f32⟩
  | 57 => ⟨S_, .f32⟩
  | 58 => ⟨S_, .f32⟩
  | 59 => ⟨S4096x4096, .f32⟩
  | 60 => ⟨S_, .f32⟩
  | 61 => ⟨S_, .f32⟩
  | 62 => ⟨S_, .f32⟩
  | 63 => ⟨S_, .f32⟩
  | 64 => ⟨S_, .f32⟩
  | 65 => ⟨S4096x4096, .f32⟩
  | 66 => ⟨S4096x4096, .f32⟩
  | 67 => ⟨S4096x4096, .f32⟩
  | 68 => ⟨S4096x4096, .f32⟩
  | 69 => ⟨S_, .f32⟩
  | 70 => ⟨S_, .f32⟩
  | 71 => ⟨S_, .f32⟩
  | 72 => ⟨S_, .f32⟩
  | 73 => ⟨S_, .f32⟩
  | 74 => ⟨S1, .i32⟩
  | 75 => ⟨S_, .i32⟩
  | 76 => ⟨S_, .i32⟩
  | 77 => ⟨S_, .i1⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .i32⟩
  | 89 => ⟨S4096, .i32⟩
  | 90 => ⟨S4096, .i1⟩
  | 91 => ⟨S4096x1, .i1⟩
  | 92 => ⟨S4096, .i1⟩
  | 93 => ⟨S1x4096, .i1⟩
  | 94 => ⟨S4096x4096, .i1⟩
  | 95 => ⟨S4096x4096, .i1⟩
  | 96 => ⟨S4096x4096, .i1⟩
  | 97 => ⟨S1, .i32⟩
  | 98 => ⟨S_, .i32⟩
  | 99 => ⟨S_, .i32⟩
  | 100 => ⟨S_, .i32⟩
  | 101 => ⟨S_, .f32⟩
  | 102 => ⟨S1x4096, .f32⟩
  | 103 => ⟨S1x4096, .f32⟩
  | 104 => ⟨S1x4096, .f32⟩
  | 105 => ⟨S_, .f32⟩
  | 106 => ⟨S1x4096, .f32⟩
  | 107 => ⟨S1x4096, .f32⟩
  | 108 => ⟨S_, .f32⟩
  | 109 => ⟨S_, .f32⟩
  | 110 => ⟨S4096x4096, .f32⟩
  | 111 => ⟨S4096x4096, .f32⟩
  | 112 => ⟨S4096x4096, .f32⟩
  | 113 => ⟨S4096x1, .f32⟩
  | 114 => ⟨S4096, .f32⟩
  | 115 => ⟨S4096x1, .f32⟩
  | 116 => ⟨S1x4096, .f32⟩
  | 117 => ⟨S4096x4096, .f32⟩
  | 118 => ⟨S4096x4096, .f32⟩
  | 119 => ⟨S4096x4096, .f32⟩
  | 120 => ⟨S1, .f32⟩
  | 121 => ⟨S_, .f32⟩
  | 122 => ⟨S4096x4096, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x128, .f32⟩

abbrev hbmTy0_5 (i : Nat) : BufTy := match i % 128 with
  | 0 => ⟨S4096x4096, .f32⟩
  | 1 => ⟨S4096x4096, .f32⟩
  | 2 => ⟨S_, .f32⟩
  | 3 => ⟨S_, .f32⟩
  | 4 => ⟨S_, .f32⟩
  | 5 => ⟨S_, .f32⟩
  | 6 => ⟨S_, .f32⟩
  | 7 => ⟨S4096x4096, .f32⟩
  | 8 => ⟨S_, .f32⟩
  | 9 => ⟨S_, .f32⟩
  | 10 => ⟨S_, .f32⟩
  | 11 => ⟨S_, .f32⟩
  | 12 => ⟨S_, .f32⟩
  | 13 => ⟨S4096x4096, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S_, .f32⟩
  | 20 => ⟨S_, .f32⟩
  | 21 => ⟨S_, .f32⟩
  | 22 => ⟨S1, .i32⟩
  | 23 => ⟨S_, .i32⟩
  | 24 => ⟨S_, .i32⟩
  | 25 => ⟨S_, .i1⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .i32⟩
  | 37 => ⟨S4096, .i32⟩
  | 38 => ⟨S4096, .i1⟩
  | 39 => ⟨S4096x1, .i1⟩
  | 40 => ⟨S4096, .i1⟩
  | 41 => ⟨S1x4096, .i1⟩
  | 42 => ⟨S4096x4096, .i1⟩
  | 43 => ⟨S4096x4096, .i1⟩
  | 44 => ⟨S4096x4096, .i1⟩
  | 45 => ⟨S1, .i32⟩
  | 46 => ⟨S_, .i32⟩
  | 47 => ⟨S_, .i32⟩
  | 48 => ⟨S_, .i32⟩
  | 49 => ⟨S_, .f32⟩
  | 50 => ⟨S1x4096, .f32⟩
  | 51 => ⟨S1x4096, .f32⟩
  | 52 => ⟨S1x4096, .f32⟩
  | 53 => ⟨S_, .f32⟩
  | 54 => ⟨S1x4096, .f32⟩
  | 55 => ⟨S1x4096, .f32⟩
  | 56 => ⟨S_, .f32⟩
  | 57 => ⟨S_, .f32⟩
  | 58 => ⟨S4096x4096, .f32⟩
  | 59 => ⟨S4096x4096, .f32⟩
  | 60 => ⟨S4096x4096, .f32⟩
  | 61 => ⟨S4096x1, .f32⟩
  | 62 => ⟨S4096, .f32⟩
  | 63 => ⟨S4096x1, .f32⟩
  | 64 => ⟨S1x4096, .f32⟩
  | 65 => ⟨S4096x4096, .f32⟩
  | 66 => ⟨S4096x4096, .f32⟩
  | 67 => ⟨S4096x4096, .f32⟩
  | 68 => ⟨S1, .f32⟩
  | 69 => ⟨S_, .f32⟩
  | 70 => ⟨S4096x4096, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x4096, .f32⟩
  | 77 => ⟨S4096x4096, .f32⟩
  | 78 => ⟨S_, .f32⟩
  | 79 => ⟨S_, .f32⟩
  | 80 => ⟨S_, .f32⟩
  | 81 => ⟨S_, .f32⟩
  | 82 => ⟨S_, .f32⟩
  | 83 => ⟨S4096x4096, .f32⟩
  | 84 => ⟨S_, .f32⟩
  | 85 => ⟨S_, .f32⟩
  | 86 => ⟨S_, .f32⟩
  | 87 => ⟨S_, .f32⟩
  | 88 => ⟨S_, .f32⟩
  | 89 => ⟨S4096x4096, .f32⟩
  | 90 => ⟨S4096x4096, .f32⟩
  | 91 => ⟨S4096x4096, .f32⟩
  | 92 => ⟨S4096x4096, .f32⟩
  | 93 => ⟨S_, .f32⟩
  | 94 => ⟨S_, .f32⟩
  | 95 => ⟨S_, .f32⟩
  | 96 => ⟨S_, .f32⟩
  | 97 => ⟨S_, .f32⟩
  | 98 => ⟨S1, .i32⟩
  | 99 => ⟨S_, .i32⟩
  | 100 => ⟨S_, .i32⟩
  | 101 => ⟨S_, .i1⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .i32⟩
  | 113 => ⟨S4096, .i32⟩
  | 114 => ⟨S4096, .i1⟩
  | 115 => ⟨S4096x1, .i1⟩
  | 116 => ⟨S4096, .i1⟩
  | 117 => ⟨S1x4096, .i1⟩
  | 118 => ⟨S4096x4096, .i1⟩
  | 119 => ⟨S4096x4096, .i1⟩
  | 120 => ⟨S4096x4096, .i1⟩
  | 121 => ⟨S1, .i32⟩
  | 122 => ⟨S_, .i32⟩
  | 123 => ⟨S_, .i32⟩
  | 124 => ⟨S_, .i32⟩
  | 125 => ⟨S_, .f32⟩
  | 126 => ⟨S1x4096, .f32⟩
  | 127 => ⟨S1x4096, .f32⟩
  | _ => ⟨S4096x128, .f32⟩

abbrev hbmTy0_6 (i : Nat) : BufTy := match i % 128 with
  | 0 => ⟨S1x4096, .f32⟩
  | 1 => ⟨S_, .f32⟩
  | 2 => ⟨S1x4096, .f32⟩
  | 3 => ⟨S1x4096, .f32⟩
  | 4 => ⟨S_, .f32⟩
  | 5 => ⟨S_, .f32⟩
  | 6 => ⟨S4096x4096, .f32⟩
  | 7 => ⟨S4096x4096, .f32⟩
  | 8 => ⟨S4096x4096, .f32⟩
  | 9 => ⟨S4096x1, .f32⟩
  | 10 => ⟨S4096, .f32⟩
  | 11 => ⟨S4096x1, .f32⟩
  | 12 => ⟨S1x4096, .f32⟩
  | 13 => ⟨S4096x4096, .f32⟩
  | 14 => ⟨S4096x4096, .f32⟩
  | 15 => ⟨S4096x4096, .f32⟩
  | 16 => ⟨S1, .f32⟩
  | 17 => ⟨S_, .f32⟩
  | 18 => ⟨S4096x4096, .f32⟩
  | 19 => ⟨S4096x4096, .f32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S4096x4096, .f32⟩
  | 26 => ⟨S_, .f32⟩
  | 27 => ⟨S_, .f32⟩
  | 28 => ⟨S_, .f32⟩
  | 29 => ⟨S_, .f32⟩
  | 30 => ⟨S_, .f32⟩
  | 31 => ⟨S4096x4096, .f32⟩
  | 32 => ⟨S_, .f32⟩
  | 33 => ⟨S_, .f32⟩
  | 34 => ⟨S_, .f32⟩
  | 35 => ⟨S_, .f32⟩
  | 36 => ⟨S_, .f32⟩
  | 37 => ⟨S4096x4096, .f32⟩
  | 38 => ⟨S4096x4096, .f32⟩
  | 39 => ⟨S4096x4096, .f32⟩
  | 40 => ⟨S4096x4096, .f32⟩
  | 41 => ⟨S_, .f32⟩
  | 42 => ⟨S_, .f32⟩
  | 43 => ⟨S_, .f32⟩
  | 44 => ⟨S_, .f32⟩
  | 45 => ⟨S_, .f32⟩
  | 46 => ⟨S1, .i32⟩
  | 47 => ⟨S_, .i32⟩
  | 48 => ⟨S_, .i32⟩
  | 49 => ⟨S_, .i1⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_10 : Ref sig .tc := ⟨.hbm, 53, rfl⟩
abbrev main_v38 : Ref sig .tc := ⟨.hbm, 54, rfl⟩
abbrev main_v39 : Ref sig .tc := ⟨.hbm, 55, rfl⟩
abbrev main_c_11 : Ref sig .tc := ⟨.hbm, 56, rfl⟩
abbrev main_v40 : Ref sig .tc := ⟨.hbm, 57, rfl⟩
abbrev main_v41 : Ref sig .tc := ⟨.hbm, 58, rfl⟩
abbrev main_c_12 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_cst_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_20 : Ref sig .tc := ⟨.hbm, 114, rfl⟩
abbrev main_v86 : Ref sig .tc := ⟨.hbm, 115, rfl⟩
abbrev main_cst_21 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_22 : Ref sig .tc := ⟨.hbm, 123, rfl⟩
abbrev main_v93 : Ref sig .tc := ⟨.hbm, 124, rfl⟩
abbrev main_cst_23 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_24 : Ref sig .tc := ⟨.hbm, 130, rfl⟩
abbrev main_v98 : Ref sig .tc := ⟨.hbm, 131, rfl⟩
abbrev main_cst_25 : Ref sig .tc := ⟨.hbm, 132, rfl⟩
abbrev main_call1_v0 : Ref sig .tc := ⟨.hbm, 133, rfl⟩
abbrev main_v99 : Ref sig .tc := ⟨.hbm, 134, rfl⟩
abbrev main_cst_26 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_27 : Ref sig .tc := ⟨.hbm, 139, rfl⟩
abbrev main_call2_v0 : Ref sig .tc := ⟨.hbm, 140, rfl⟩
abbrev main_v103 : Ref sig .tc := ⟨.hbm, 141, rfl⟩
abbrev main_cst_28 : Ref sig .tc := ⟨.hbm, 142, rfl⟩
abbrev main_v104 : Ref sig .tc := ⟨.hbm, 143, rfl⟩
abbrev main_c_29 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_30 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_31 : Ref sig .tc := ⟨.hbm, 161, rfl⟩
abbrev main_v120 : Ref sig .tc := ⟨.hbm, 162, rfl⟩
abbrev main_v121 : Ref sig .tc := ⟨.hbm, 163, rfl⟩
abbrev main_cst_32 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_33 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_34 : Ref sig .tc := ⟨.hbm, 186, rfl⟩
abbrev main_v139 : Ref sig .tc := ⟨.hbm, 187, rfl⟩
abbrev main_cst_35 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_36 : Ref sig .tc := ⟨.hbm, 192, rfl⟩
abbrev main_v143 : Ref sig .tc := ⟨.hbm, 193, rfl⟩
abbrev main_cst_37 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_38 : Ref sig .tc := ⟨.hbm, 201, rfl⟩
abbrev main_v150 : Ref sig .tc := ⟨.hbm, 202, rfl⟩
abbrev main_cst_39 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_c_40 : Ref sig .tc := ⟨.hbm, 208, rfl⟩
abbrev main_v155 : Ref sig .tc := ⟨.hbm, 209, rfl⟩
abbrev main_cst_41 : Ref sig .tc := ⟨.hbm, 210, rfl⟩
abbrev main_call4_v0 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_42 : Ref sig .tc := ⟨.hbm, 216, rfl⟩
abbrev main_call5_v0 : Ref sig .tc := ⟨.hbm, 217, rfl⟩
abbrev main_v160 : Ref sig .tc := ⟨.hbm, 218, rfl⟩
abbrev main_v161 : Ref sig .tc := ⟨.hbm, 219, rfl⟩
abbrev main_c_43 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_c_44 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_cst_45 : Ref sig .tc := ⟨.hbm, 237, rfl⟩
abbrev main_v177 : Ref sig .tc := ⟨.hbm, 238, rfl⟩
abbrev main_v178 : Ref sig .tc := ⟨.hbm, 239, rfl⟩
abbrev main_cst_46 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_cst_47 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_cst_48 : Ref sig .tc := ⟨.hbm, 262, rfl⟩
abbrev main_v196 : Ref sig .tc := ⟨.hbm, 263, rfl⟩
abbrev main_cst_49 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_50 : Ref sig .tc := ⟨.hbm, 268, rfl⟩
abbrev main_v200 : Ref sig .tc := ⟨.hbm, 269, rfl⟩
abbrev main_cst_51 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_cst_52 : Ref sig .tc := ⟨.hbm, 277, rfl⟩
abbrev main_v207 : Ref sig .tc := ⟨.hbm, 278, rfl⟩
abbrev main_cst_53 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_c_54 : Ref sig .tc := ⟨.hbm, 284, rfl⟩
abbrev main_v212 : Ref sig .tc := ⟨.hbm, 285, rfl⟩
abbrev main_cst_55 : Ref sig .tc := ⟨.hbm, 286, rfl⟩
abbrev main_call7_v0 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_cst_56 : Ref sig .tc := ⟨.hbm, 292, rfl⟩
abbrev main_call8_v0 : Ref sig .tc := ⟨.hbm, 293, rfl⟩
abbrev main_v217 : Ref sig .tc := ⟨.hbm, 294, rfl⟩
abbrev main_v218 : Ref sig .tc := ⟨.hbm, 295, rfl⟩
abbrev main_c_57 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_c_58 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_cst_59 : Ref sig .tc := ⟨.hbm, 313, rfl⟩
abbrev main_v234 : Ref sig .tc := ⟨.hbm, 314, rfl⟩
abbrev main_v235 : Ref sig .tc := ⟨.hbm, 315, rfl⟩
abbrev main_cst_60 : Ref sig .tc := ⟨.hbm, 316, rfl⟩
abbrev main_call9_v0 : Ref sig .tc := ⟨.hbm, 317, rfl⟩
abbrev main_call9_v1 : Ref sig .tc := ⟨.hbm, 318, rfl⟩
abbrev main_call9_v2 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_cst_61 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_cst_62 : Ref sig .tc := ⟨.hbm, 338, rfl⟩
abbrev main_v253 : Ref sig .tc := ⟨.hbm, 339, rfl⟩
abbrev main_cst_63 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_cst_64 : Ref sig .tc := ⟨.hbm, 344, rfl⟩
abbrev main_v257 : Ref sig .tc := ⟨.hbm, 345, rfl⟩
abbrev main_cst_65 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_cst_66 : Ref sig .tc := ⟨.hbm, 353, rfl⟩
abbrev main_v264 : Ref sig .tc := ⟨.hbm, 354, rfl⟩
abbrev main_cst_67 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_c_68 : Ref sig .tc := ⟨.hbm, 360, rfl⟩
abbrev main_v269 : Ref sig .tc := ⟨.hbm, 361, rfl⟩
abbrev main_cst_69 : Ref sig .tc := ⟨.hbm, 362, rfl⟩
abbrev main_call10_v0 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_cst_70 : Ref sig .tc := ⟨.hbm, 368, rfl⟩
abbrev main_call11_v0 : Ref sig .tc := ⟨.hbm, 369, rfl⟩
abbrev main_v274 : Ref sig .tc := ⟨.hbm, 370, rfl⟩
abbrev main_v275 : Ref sig .tc := ⟨.hbm, 371, rfl⟩
abbrev main_c_71 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_c_72 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_v290 : Ref sig .tc := ⟨.hbm, 388, rfl⟩
abbrev main_cst_73 : Ref sig .tc := ⟨.hbm, 389, rfl⟩
abbrev main_v291 : Ref sig .tc := ⟨.hbm, 390, rfl⟩
abbrev main_v292 : Ref sig .tc := ⟨.hbm, 391, rfl⟩
abbrev main_cst_74 : Ref sig .tc := ⟨.hbm, 392, rfl⟩
abbrev main_call12_v0 : Ref sig .tc := ⟨.hbm, 393, rfl⟩
abbrev main_call12_v1 : Ref sig .tc := ⟨.hbm, 394, rfl⟩
abbrev main_call12_v2 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_v296 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_cst_75 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_cst_76 : Ref sig .tc := ⟨.hbm, 414, rfl⟩
abbrev main_v310 : Ref sig .tc := ⟨.hbm, 415, rfl⟩
abbrev main_cst_77 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_cst_78 : Ref sig .tc := ⟨.hbm, 420, rfl⟩
abbrev main_v314 : Ref sig .tc := ⟨.hbm, 421, rfl⟩
abbrev main_cst_79 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_cst_80 : Ref sig .tc := ⟨.hbm, 429, rfl⟩
abbrev main_v321 : Ref sig .tc := ⟨.hbm, 430, rfl⟩
abbrev main_cst_81 : Ref sig .tc := ⟨.hbm, 431, rfl⟩
abbrev main_v322 : Ref sig .tc := ⟨.hbm, 432, rfl⟩
abbrev main_v323 : Ref sig .tc := ⟨.hbm, 433, rfl⟩
abbrev main_v324 : Ref sig .tc := ⟨.hbm, 434, rfl⟩
abbrev main_v325 : Ref sig .tc := ⟨.hbm, 435, rfl⟩
abbrev main_c_82 : Ref sig .tc := ⟨.hbm, 436, rfl⟩
abbrev main_v326 : Ref sig .tc := ⟨.hbm, 437, rfl⟩
abbrev main_cst_83 : Ref sig .tc := ⟨.hbm, 438, rfl⟩
abbrev main_call13_v0 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_cst_84 : Ref sig .tc := ⟨.hbm, 444, rfl⟩
abbrev main_call14_v0 : Ref sig .tc := ⟨.hbm, 445, rfl⟩
abbrev main_v331 : Ref sig .tc := ⟨.hbm, 446, rfl⟩
abbrev main_v332 : Ref sig .tc := ⟨.hbm, 447, rfl⟩
abbrev main_c_85 : Ref sig .tc := ⟨.hbm, 448, rfl⟩
abbrev main_v333 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_v337 : Ref sig .tc := ⟨.hbm, 453, rfl⟩
abbrev main_v338 : Ref sig .tc := ⟨.hbm, 454, rfl⟩
abbrev main_v339 : Ref sig .tc := ⟨.hbm, 455, rfl⟩
abbrev main_v340 : Ref sig .tc := ⟨.hbm, 456, rfl⟩
abbrev main_v341 : Ref sig .tc := ⟨.hbm, 457, rfl⟩
abbrev main_v342 : Ref sig .tc := ⟨.hbm, 458, rfl⟩
abbrev main_c_86 : Ref sig .tc := ⟨.hbm, 459, rfl⟩
abbrev main_v343 : Ref sig .tc := ⟨.hbm, 460, rfl⟩
abbrev main_v344 : Ref sig .tc := ⟨.hbm, 461, rfl⟩
abbrev main_v345 : Ref sig .tc := ⟨.hbm, 462, rfl⟩
abbrev main_v346 : Ref sig .tc := ⟨.hbm, 463, rfl⟩
abbrev main_v347 : Ref sig .tc := ⟨.hbm, 464, rfl⟩
abbrev main_cst_87 : Ref sig .tc := ⟨.hbm, 465, rfl⟩
abbrev main_v348 : Ref sig .tc := ⟨.hbm, 466, rfl⟩
abbrev main_v349 : Ref sig .tc := ⟨.hbm, 467, rfl⟩
abbrev main_cst_88 : Ref sig .tc := ⟨.hbm, 468, rfl⟩
abbrev main_call15_v0 : Ref sig .tc := ⟨.hbm, 469, rfl⟩
abbrev main_call15_v1 : Ref sig .tc := ⟨.hbm, 470, rfl⟩
abbrev main_call15_v2 : Ref sig .tc := ⟨.hbm, 471, rfl⟩
abbrev main_v350 : Ref sig .tc := ⟨.hbm, 472, rfl⟩
abbrev main_v351 : Ref sig .tc := ⟨.hbm, 473, rfl⟩
abbrev main_v352 : Ref sig .tc := ⟨.hbm, 474, rfl⟩
abbrev main_v353 : Ref sig .tc := ⟨.hbm, 475, rfl⟩
abbrev main_v354 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_v360 : Ref sig .tc := ⟨.hbm, 482, rfl⟩
abbrev main_v361 : Ref sig .tc := ⟨.hbm, 483, rfl⟩
abbrev main_v362 : Ref sig .tc := ⟨.hbm, 484, rfl⟩
abbrev main_cst_89 : Ref sig .tc := ⟨.hbm, 485, rfl⟩
abbrev main_v363 : Ref sig .tc := ⟨.hbm, 486, rfl⟩
abbrev main_v364 : Ref sig .tc := ⟨.hbm, 487, rfl⟩
abbrev main_v365 : Ref sig .tc := ⟨.hbm, 488, rfl⟩
abbrev main_v366 : Ref sig .tc := ⟨.hbm, 489, rfl⟩
abbrev main_cst_90 : Ref sig .tc := ⟨.hbm, 490, rfl⟩
abbrev main_v367 : Ref sig .tc := ⟨.hbm, 491, rfl⟩
abbrev main_cst_91 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩
abbrev main_cst_92 : Ref sig .tc := ⟨.hbm, 496, rfl⟩
abbrev main_v371 : Ref sig .tc := ⟨.hbm, 497, rfl⟩
abbrev main_cst_93 : Ref sig .tc := ⟨.hbm, 498, rfl⟩
abbrev main_v372 : Ref sig .tc := ⟨.hbm, 499, rfl⟩
abbrev main_v373 : Ref sig .tc := ⟨.hbm, 500, rfl⟩
abbrev main_v374 : Ref sig .tc := ⟨.hbm, 501, rfl⟩
abbrev main_v375 : Ref sig .tc := ⟨.hbm, 502, rfl⟩
abbrev main_v376 : Ref sig .tc := ⟨.hbm, 503, rfl⟩
abbrev main_v377 : Ref sig .tc := ⟨.hbm, 504, rfl⟩
abbrev main_cst_94 : Ref sig .tc := ⟨.hbm, 505, rfl⟩
abbrev main_v378 : Ref sig .tc := ⟨.hbm, 506, rfl⟩
abbrev main_cst_95 : Ref sig .tc := ⟨.hbm, 507, rfl⟩
abbrev main_v379 : Ref sig .tc := ⟨.hbm, 508, rfl⟩
abbrev main_v380 : Ref sig .tc := ⟨.hbm, 509, rfl⟩
abbrev main_v381 : Ref sig .tc := ⟨.hbm, 510, rfl⟩
abbrev main_v382 : Ref sig .tc := ⟨.hbm, 511, rfl⟩
abbrev main_c_96 : Ref sig .tc := ⟨.hbm, 512, rfl⟩
abbrev main_v383 : Ref sig .tc := ⟨.hbm, 513, rfl⟩
abbrev main_cst_97 : Ref sig .tc := ⟨.hbm, 514, rfl⟩
abbrev main_call16_v0 : Ref sig .tc := ⟨.hbm, 515, rfl⟩
abbrev main_v384 : Ref sig .tc := ⟨.hbm, 516, rfl⟩
abbrev main_v385 : Ref sig .tc := ⟨.hbm, 517, rfl⟩
abbrev main_v386 : Ref sig .tc := ⟨.hbm, 518, rfl⟩
abbrev main_v387 : Ref sig .tc := ⟨.hbm, 519, rfl⟩
abbrev main_cst_98 : Ref sig .tc := ⟨.hbm, 520, rfl⟩
abbrev main_call17_v0 : Ref sig .tc := ⟨.hbm, 521, rfl⟩
abbrev main_v388 : Ref sig .tc := ⟨.hbm, 522, rfl⟩
abbrev main_v389 : Ref sig .tc := ⟨.hbm, 523, rfl⟩
abbrev main_c_99 : Ref sig .tc := ⟨.hbm, 524, rfl⟩
abbrev main_v390 : Ref sig .tc := ⟨.hbm, 525, rfl⟩
abbrev main_v391 : Ref sig .tc := ⟨.hbm, 526, rfl⟩
abbrev main_v392 : Ref sig .tc := ⟨.hbm, 527, rfl⟩
abbrev main_v393 : Ref sig .tc := ⟨.hbm, 528, rfl⟩
abbrev main_v394 : Ref sig .tc := ⟨.hbm, 529, rfl⟩
abbrev main_v395 : Ref sig .tc := ⟨.hbm, 530, rfl⟩
abbrev main_v396 : Ref sig .tc := ⟨.hbm, 531, rfl⟩
abbrev main_v397 : Ref sig .tc := ⟨.hbm, 532, rfl⟩
abbrev main_v398 : Ref sig .tc := ⟨.hbm, 533, rfl⟩
abbrev main_v399 : Ref sig .tc := ⟨.hbm, 534, rfl⟩
abbrev main_c_100 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_v403 : Ref sig .tc := ⟨.hbm, 539, rfl⟩
abbrev main_v404 : Ref sig .tc := ⟨.hbm, 540, rfl⟩
abbrev main_cst_101 : Ref sig .tc := ⟨.hbm, 541, rfl⟩
abbrev main_v405 : Ref sig .tc := ⟨.hbm, 542, rfl⟩
abbrev main_v406 : Ref sig .tc := ⟨.hbm, 543, rfl⟩
abbrev main_cst_102 : Ref sig .tc := ⟨.hbm, 544, rfl⟩
abbrev main_call18_v0 : Ref sig .tc := ⟨.hbm, 545, rfl⟩
abbrev main_call18_v1 : Ref sig .tc := ⟨.hbm, 546, rfl⟩
abbrev main_call18_v2 : Ref sig .tc := ⟨.hbm, 547, rfl⟩
abbrev main_v407 : Ref sig .tc := ⟨.hbm, 548, rfl⟩
abbrev main_v408 : Ref sig .tc := ⟨.hbm, 549, rfl⟩
abbrev main_v409 : Ref sig .tc := ⟨.hbm, 550, rfl⟩
abbrev main_v410 : Ref sig .tc := ⟨.hbm, 551, rfl⟩
abbrev main_v411 : Ref sig .tc := ⟨.hbm, 552, rfl⟩
abbrev main_v412 : Ref sig .tc := ⟨.hbm, 553, rfl⟩
abbrev main_v413 : Ref sig .tc := ⟨.hbm, 554, rfl⟩
abbrev main_v414 : Ref sig .tc := ⟨.hbm, 555, rfl⟩
abbrev main_v415 : Ref sig .tc := ⟨.hbm, 556, rfl⟩
abbrev main_v416 : Ref sig .tc := ⟨.hbm, 557, rfl⟩
abbrev main_v417 : Ref sig .tc := ⟨.hbm, 558, rfl⟩
abbrev main_v418 : Ref sig .tc := ⟨.hbm, 559, rfl⟩
abbrev main_v419 : Ref sig .tc := ⟨.hbm, 560, rfl⟩
abbrev main_cst_103 : Ref sig .tc := ⟨.hbm, 561, rfl⟩
abbrev main_v420 : Ref sig .tc := ⟨.hbm, 562, rfl⟩
abbrev main_v421 : Ref sig .tc := ⟨.hbm, 563, rfl⟩
abbrev main_v422 : Ref sig .tc := ⟨.hbm, 564, rfl⟩
abbrev main_v423 : Ref sig .tc := ⟨.hbm, 565, rfl⟩
abbrev main_cst_104 : Ref sig .tc := ⟨.hbm, 566, rfl⟩
abbrev main_v424 : Ref sig .tc := ⟨.hbm, 567, rfl⟩
abbrev main_cst_105 : Ref sig .tc := ⟨.hbm, 568, rfl⟩
abbrev main_v425 : Ref sig .tc := ⟨.hbm, 569, rfl⟩
abbrev main_v426 : Ref sig .tc := ⟨.hbm, 570, rfl⟩
abbrev main_v427 : Ref sig .tc := ⟨.hbm, 571, rfl⟩
abbrev main_cst_106 : Ref sig .tc := ⟨.hbm, 572, rfl⟩
abbrev main_v428 : Ref sig .tc := ⟨.hbm, 573, rfl⟩
abbrev main_cst_107 : Ref sig .tc := ⟨.hbm, 574, rfl⟩
abbrev main_v429 : Ref sig .tc := ⟨.hbm, 575, rfl⟩
abbrev main_v430 : Ref sig .tc := ⟨.hbm, 576, rfl⟩
abbrev main_v431 : Ref sig .tc := ⟨.hbm, 577, rfl⟩
abbrev main_v432 : Ref sig .tc := ⟨.hbm, 578, rfl⟩
abbrev main_v433 : Ref sig .tc := ⟨.hbm, 579, rfl⟩
abbrev main_v434 : Ref sig .tc := ⟨.hbm, 580, rfl⟩
abbrev main_cst_108 : Ref sig .tc := ⟨.hbm, 581, rfl⟩
abbrev main_v435 : Ref sig .tc := ⟨.hbm, 582, rfl⟩
abbrev main_cst_109 : Ref sig .tc := ⟨.hbm, 583, rfl⟩
abbrev main_v436 : Ref sig .tc := ⟨.hbm, 584, rfl⟩
abbrev main_v437 : Ref sig .tc := ⟨.hbm, 585, rfl⟩
abbrev main_v438 : Ref sig .tc := ⟨.hbm, 586, rfl⟩
abbrev main_v439 : Ref sig .tc := ⟨.hbm, 587, rfl⟩
abbrev main_c_110 : Ref sig .tc := ⟨.hbm, 588, rfl⟩
abbrev main_v440 : Ref sig .tc := ⟨.hbm, 589, rfl⟩
abbrev main_cst_111 : Ref sig .tc := ⟨.hbm, 590, rfl⟩
abbrev main_call19_v0 : Ref sig .tc := ⟨.hbm, 591, rfl⟩
abbrev main_v441 : Ref sig .tc := ⟨.hbm, 592, rfl⟩
abbrev main_v442 : Ref sig .tc := ⟨.hbm, 593, rfl⟩
abbrev main_v443 : Ref sig .tc := ⟨.hbm, 594, rfl⟩
abbrev main_v444 : Ref sig .tc := ⟨.hbm, 595, rfl⟩
abbrev main_cst_112 : Ref sig .tc := ⟨.hbm, 596, rfl⟩
abbrev main_call20_v0 : Ref sig .tc := ⟨.hbm, 597, rfl⟩
abbrev main_v445 : Ref sig .tc := ⟨.hbm, 598, rfl⟩
abbrev main_v446 : Ref sig .tc := ⟨.hbm, 599, rfl⟩
abbrev main_c_113 : Ref sig .tc := ⟨.hbm, 600, rfl⟩
abbrev main_v447 : Ref sig .tc := ⟨.hbm, 601, rfl⟩
abbrev main_v448 : Ref sig .tc := ⟨.hbm, 602, rfl⟩
abbrev main_v449 : Ref sig .tc := ⟨.hbm, 603, rfl⟩
abbrev main_v450 : Ref sig .tc := ⟨.hbm, 604, rfl⟩
abbrev main_v451 : Ref sig .tc := ⟨.hbm, 605, rfl⟩
abbrev main_v452 : Ref sig .tc := ⟨.hbm, 606, rfl⟩
abbrev main_v453 : Ref sig .tc := ⟨.hbm, 607, rfl⟩
abbrev main_v454 : Ref sig .tc := ⟨.hbm, 608, rfl⟩
abbrev main_v455 : Ref sig .tc := ⟨.hbm, 609, rfl⟩
abbrev main_v456 : Ref sig .tc := ⟨.hbm, 610, rfl⟩
abbrev main_c_114 : Ref sig .tc := ⟨.hbm, 611, rfl⟩
abbrev main_v457 : Ref sig .tc := ⟨.hbm, 612, rfl⟩
abbrev main_v458 : Ref sig .tc := ⟨.hbm, 613, rfl⟩
abbrev main_v459 : Ref sig .tc := ⟨.hbm, 614, rfl⟩
abbrev main_v460 : Ref sig .tc := ⟨.hbm, 615, rfl⟩
abbrev main_v461 : Ref sig .tc := ⟨.hbm, 616, rfl⟩
abbrev main_cst_115 : Ref sig .tc := ⟨.hbm, 617, rfl⟩
abbrev main_v462 : Ref sig .tc := ⟨.hbm, 618, rfl⟩
abbrev main_v463 : Ref sig .tc := ⟨.hbm, 619, rfl⟩
abbrev main_cst_116 : Ref sig .tc := ⟨.hbm, 620, rfl⟩
abbrev main_call21_v0 : Ref sig .tc := ⟨.hbm, 621, rfl⟩
abbrev main_call21_v1 : Ref sig .tc := ⟨.hbm, 622, rfl⟩
abbrev main_call21_v2 : Ref sig .tc := ⟨.hbm, 623, rfl⟩
abbrev main_v464 : Ref sig .tc := ⟨.hbm, 624, rfl⟩
abbrev main_v465 : Ref sig .tc := ⟨.hbm, 625, rfl⟩
abbrev main_v466 : Ref sig .tc := ⟨.hbm, 626, rfl⟩
abbrev main_v467 : Ref sig .tc := ⟨.hbm, 627, rfl⟩
abbrev main_v468 : Ref sig .tc := ⟨.hbm, 628, rfl⟩
abbrev main_v469 : Ref sig .tc := ⟨.hbm, 629, rfl⟩
abbrev main_v470 : Ref sig .tc := ⟨.hbm, 630, rfl⟩
abbrev main_v471 : Ref sig .tc := ⟨.hbm, 631, rfl⟩
abbrev main_v472 : Ref sig .tc := ⟨.hbm, 632, rfl⟩
abbrev main_v473 : Ref sig .tc := ⟨.hbm, 633, rfl⟩
abbrev main_v474 : Ref sig .tc := ⟨.hbm, 634, rfl⟩
abbrev main_v475 : Ref sig .tc := ⟨.hbm, 635, rfl⟩
abbrev main_v476 : Ref sig .tc := ⟨.hbm, 636, rfl⟩
abbrev main_cst_117 : Ref sig .tc := ⟨.hbm, 637, rfl⟩
abbrev main_v477 : Ref sig .tc := ⟨.hbm, 638, rfl⟩
abbrev main_v478 : Ref sig .tc := ⟨.hbm, 639, rfl⟩
abbrev main_v479 : Ref sig .tc := ⟨.hbm, 640, rfl⟩
abbrev main_v480 : Ref sig .tc := ⟨.hbm, 641, rfl⟩
abbrev main_cst_118 : Ref sig .tc := ⟨.hbm, 642, rfl⟩
abbrev main_v481 : Ref sig .tc := ⟨.hbm, 643, rfl⟩
abbrev main_cst_119 : Ref sig .tc := ⟨.hbm, 644, rfl⟩
abbrev main_v482 : Ref sig .tc := ⟨.hbm, 645, rfl⟩
abbrev main_v483 : Ref sig .tc := ⟨.hbm, 646, rfl⟩
abbrev main_v484 : Ref sig .tc := ⟨.hbm, 647, rfl⟩
abbrev main_cst_120 : Ref sig .tc := ⟨.hbm, 648, rfl⟩
abbrev main_v485 : Ref sig .tc := ⟨.hbm, 649, rfl⟩
abbrev main_cst_121 : Ref sig .tc := ⟨.hbm, 650, rfl⟩
abbrev main_v486 : Ref sig .tc := ⟨.hbm, 651, rfl⟩
abbrev main_v487 : Ref sig .tc := ⟨.hbm, 652, rfl⟩
abbrev main_v488 : Ref sig .tc := ⟨.hbm, 653, rfl⟩
abbrev main_v489 : Ref sig .tc := ⟨.hbm, 654, rfl⟩
abbrev main_v490 : Ref sig .tc := ⟨.hbm, 655, rfl⟩
abbrev main_v491 : Ref sig .tc := ⟨.hbm, 656, rfl⟩
abbrev main_cst_122 : Ref sig .tc := ⟨.hbm, 657, rfl⟩
abbrev main_v492 : Ref sig .tc := ⟨.hbm, 658, rfl⟩
abbrev main_cst_123 : Ref sig .tc := ⟨.hbm, 659, rfl⟩
abbrev main_v493 : Ref sig .tc := ⟨.hbm, 660, rfl⟩
abbrev main_v494 : Ref sig .tc := ⟨.hbm, 661, rfl⟩
abbrev main_v495 : Ref sig .tc := ⟨.hbm, 662, rfl⟩
abbrev main_v496 : Ref sig .tc := ⟨.hbm, 663, rfl⟩
abbrev main_c_124 : Ref sig .tc := ⟨.hbm, 664, rfl⟩
abbrev main_v497 : Ref sig .tc := ⟨.hbm, 665, rfl⟩
abbrev main_cst_125 : Ref sig .tc := ⟨.hbm, 666, rfl⟩
abbrev main_call22_v0 : Ref sig .tc := ⟨.hbm, 667, rfl⟩
abbrev main_v498 : Ref sig .tc := ⟨.hbm, 668, rfl⟩
abbrev main_v499 : Ref sig .tc := ⟨.hbm, 669, rfl⟩
abbrev main_v500 : Ref sig .tc := ⟨.hbm, 670, rfl⟩
abbrev main_v501 : Ref sig .tc := ⟨.hbm, 671, rfl⟩
abbrev main_cst_126 : Ref sig .tc := ⟨.hbm, 672, rfl⟩
abbrev main_call23_v0 : Ref sig .tc := ⟨.hbm, 673, rfl⟩
abbrev main_v502 : Ref sig .tc := ⟨.hbm, 674, rfl⟩
abbrev main_v503 : Ref sig .tc := ⟨.hbm, 675, rfl⟩
abbrev main_c_127 : Ref sig .tc := ⟨.hbm, 676, rfl⟩
abbrev main_v504 : Ref sig .tc := ⟨.hbm, 677, rfl⟩
abbrev main_v505 : Ref sig .tc := ⟨.hbm, 678, rfl⟩
abbrev main_v506 : Ref sig .tc := ⟨.hbm, 679, rfl⟩
abbrev main_v507 : Ref sig .tc := ⟨.hbm, 680, rfl⟩
abbrev main_v508 : Ref sig .tc := ⟨.hbm, 681, rfl⟩
abbrev main_v509 : Ref sig .tc := ⟨.hbm, 682, rfl⟩
abbrev main_v510 : Ref sig .tc := ⟨.hbm, 683, rfl⟩
abbrev main_v511 : Ref sig .tc := ⟨.hbm, 684, rfl⟩
abbrev main_v512 : Ref sig .tc := ⟨.hbm, 685, rfl⟩
abbrev main_v513 : Ref sig .tc := ⟨.hbm, 686, rfl⟩
abbrev main_c_128 : Ref sig .tc := ⟨.hbm, 687, rfl⟩
abbrev main_v514 : Ref sig .tc := ⟨.hbm, 688, rfl⟩
abbrev main_v515 : Ref sig .tc := ⟨.hbm, 689, rfl⟩
abbrev main_v516 : Ref sig .tc := ⟨.hbm, 690, rfl⟩
abbrev main_v517 : Ref sig .tc := ⟨.hbm, 691, rfl⟩
abbrev main_v518 : Ref sig .tc := ⟨.hbm, 692, rfl⟩
abbrev main_cst_129 : Ref sig .tc := ⟨.hbm, 693, rfl⟩
abbrev main_v519 : Ref sig .tc := ⟨.hbm, 694, rfl⟩
abbrev main_v520 : Ref sig .tc := ⟨.hbm, 695, rfl⟩
abbrev main_cst_130 : Ref sig .tc := ⟨.hbm, 696, rfl⟩
abbrev main_call24_v0 : Ref sig .tc := ⟨.hbm, 697, rfl⟩
abbrev main_call24_v1 : Ref sig .tc := ⟨.hbm, 698, rfl⟩
abbrev main_call24_v2 : Ref sig .tc := ⟨.hbm, 699, rfl⟩
abbrev main_v521 : Ref sig .tc := ⟨.hbm, 700, rfl⟩
abbrev main_v522 : Ref sig .tc := ⟨.hbm, 701, rfl⟩
abbrev main_v523 : Ref sig .tc := ⟨.hbm, 702, rfl⟩
abbrev main_v524 : Ref sig .tc := ⟨.hbm, 703, rfl⟩
abbrev main_v525 : Ref sig .tc := ⟨.hbm, 704, rfl⟩
abbrev main_v526 : Ref sig .tc := ⟨.hbm, 705, rfl⟩
abbrev main_v527 : Ref sig .tc := ⟨.hbm, 706, rfl⟩
abbrev main_v528 : Ref sig .tc := ⟨.hbm, 707, rfl⟩
abbrev main_v529 : Ref sig .tc := ⟨.hbm, 708, rfl⟩
abbrev main_v530 : Ref sig .tc := ⟨.hbm, 709, rfl⟩
abbrev main_v531 : Ref sig .tc := ⟨.hbm, 710, rfl⟩
abbrev main_v532 : Ref sig .tc := ⟨.hbm, 711, rfl⟩
abbrev main_v533 : Ref sig .tc := ⟨.hbm, 712, rfl⟩
abbrev main_cst_131 : Ref sig .tc := ⟨.hbm, 713, rfl⟩
abbrev main_v534 : Ref sig .tc := ⟨.hbm, 714, rfl⟩
abbrev main_v535 : Ref sig .tc := ⟨.hbm, 715, rfl⟩
abbrev main_v536 : Ref sig .tc := ⟨.hbm, 716, rfl⟩
abbrev main_v537 : Ref sig .tc := ⟨.hbm, 717, rfl⟩
abbrev main_cst_132 : Ref sig .tc := ⟨.hbm, 718, rfl⟩
abbrev main_v538 : Ref sig .tc := ⟨.hbm, 719, rfl⟩
abbrev main_cst_133 : Ref sig .tc := ⟨.hbm, 720, rfl⟩
abbrev main_v539 : Ref sig .tc := ⟨.hbm, 721, rfl⟩
abbrev main_v540 : Ref sig .tc := ⟨.hbm, 722, rfl⟩
abbrev main_v541 : Ref sig .tc := ⟨.hbm, 723, rfl⟩
abbrev main_cst_134 : Ref sig .tc := ⟨.hbm, 724, rfl⟩
abbrev main_v542 : Ref sig .tc := ⟨.hbm, 725, rfl⟩
abbrev main_cst_135 : Ref sig .tc := ⟨.hbm, 726, rfl⟩
abbrev main_v543 : Ref sig .tc := ⟨.hbm, 727, rfl⟩
abbrev main_v544 : Ref sig .tc := ⟨.hbm, 728, rfl⟩
abbrev main_v545 : Ref sig .tc := ⟨.hbm, 729, rfl⟩
abbrev main_v546 : Ref sig .tc := ⟨.hbm, 730, rfl⟩
abbrev main_v547 : Ref sig .tc := ⟨.hbm, 731, rfl⟩
abbrev main_v548 : Ref sig .tc := ⟨.hbm, 732, rfl⟩
abbrev main_cst_136 : Ref sig .tc := ⟨.hbm, 733, rfl⟩
abbrev main_v549 : Ref sig .tc := ⟨.hbm, 734, rfl⟩
abbrev main_cst_137 : Ref sig .tc := ⟨.hbm, 735, rfl⟩
abbrev main_v550 : Ref sig .tc := ⟨.hbm, 736, rfl⟩
abbrev main_v551 : Ref sig .tc := ⟨.hbm, 737, rfl⟩
abbrev main_v552 : Ref sig .tc := ⟨.hbm, 738, rfl⟩
abbrev main_v553 : Ref sig .tc := ⟨.hbm, 739, rfl⟩
abbrev main_c_138 : Ref sig .tc := ⟨.hbm, 740, rfl⟩
abbrev main_v554 : Ref sig .tc := ⟨.hbm, 741, rfl⟩
abbrev main_cst_139 : Ref sig .tc := ⟨.hbm, 742, rfl⟩
abbrev main_call25_v0 : Ref sig .tc := ⟨.hbm, 743, rfl⟩
abbrev main_v555 : Ref sig .tc := ⟨.hbm, 744, rfl⟩
abbrev main_v556 : Ref sig .tc := ⟨.hbm, 745, rfl⟩
abbrev main_v557 : Ref sig .tc := ⟨.hbm, 746, rfl⟩
abbrev main_v558 : Ref sig .tc := ⟨.hbm, 747, rfl⟩
abbrev main_cst_140 : Ref sig .tc := ⟨.hbm, 748, rfl⟩
abbrev main_call26_v0 : Ref sig .tc := ⟨.hbm, 749, rfl⟩
abbrev main_v559 : Ref sig .tc := ⟨.hbm, 750, rfl⟩
abbrev main_v560 : Ref sig .tc := ⟨.hbm, 751, rfl⟩
abbrev main_c_141 : Ref sig .tc := ⟨.hbm, 752, rfl⟩
abbrev main_v561 : Ref sig .tc := ⟨.hbm, 753, rfl⟩
abbrev main_v562 : Ref sig .tc := ⟨.hbm, 754, rfl⟩
abbrev main_v563 : Ref sig .tc := ⟨.hbm, 755, rfl⟩
abbrev main_v564 : Ref sig .tc := ⟨.hbm, 756, rfl⟩
abbrev main_v565 : Ref sig .tc := ⟨.hbm, 757, rfl⟩
abbrev main_v566 : Ref sig .tc := ⟨.hbm, 758, rfl⟩
abbrev main_v567 : Ref sig .tc := ⟨.hbm, 759, rfl⟩
abbrev main_v568 : Ref sig .tc := ⟨.hbm, 760, rfl⟩
abbrev main_v569 : Ref sig .tc := ⟨.hbm, 761, rfl⟩
abbrev main_v570 : Ref sig .tc := ⟨.hbm, 762, rfl⟩
abbrev main_c_142 : Ref sig .tc := ⟨.hbm, 763, rfl⟩
abbrev main_v571 : Ref sig .tc := ⟨.hbm, 764, rfl⟩
abbrev main_v572 : Ref sig .tc := ⟨.hbm, 765, rfl⟩
abbrev main_v573 : Ref sig .tc := ⟨.hbm, 766, rfl⟩
abbrev main_v574 : Ref sig .tc := ⟨.hbm, 767, rfl⟩
abbrev main_v575 : Ref sig .tc := ⟨.hbm, 768, rfl⟩
abbrev main_cst_143 : Ref sig .tc := ⟨.hbm, 769, rfl⟩
abbrev main_v576 : Ref sig .tc := ⟨.hbm, 770, rfl⟩
abbrev main_v577 : Ref sig .tc := ⟨.hbm, 771, rfl⟩
abbrev main_cst_144 : Ref sig .tc := ⟨.hbm, 772, rfl⟩
abbrev main_call27_v0 : Ref sig .tc := ⟨.hbm, 773, rfl⟩
abbrev main_call27_v1 : Ref sig .tc := ⟨.hbm, 774, rfl⟩
abbrev main_call27_v2 : Ref sig .tc := ⟨.hbm, 775, rfl⟩
abbrev main_v578 : Ref sig .tc := ⟨.hbm, 776, rfl⟩
abbrev main_v579 : Ref sig .tc := ⟨.hbm, 777, rfl⟩
abbrev main_v580 : Ref sig .tc := ⟨.hbm, 778, rfl⟩
abbrev main_v581 : Ref sig .tc := ⟨.hbm, 779, rfl⟩
abbrev main_v582 : Ref sig .tc := ⟨.hbm, 780, rfl⟩
abbrev main_v583 : Ref sig .tc := ⟨.hbm, 781, rfl⟩
abbrev main_v584 : Ref sig .tc := ⟨.hbm, 782, rfl⟩
abbrev main_v585 : Ref sig .tc := ⟨.hbm, 783, rfl⟩
abbrev main_v586 : Ref sig .tc := ⟨.hbm, 784, rfl⟩
abbrev main_v587 : Ref sig .tc := ⟨.hbm, 785, rfl⟩
abbrev main_v588 : Ref sig .tc := ⟨.hbm, 786, rfl⟩
abbrev main_v589 : Ref sig .tc := ⟨.hbm, 787, rfl⟩
abbrev main_v590 : Ref sig .tc := ⟨.hbm, 788, rfl⟩
abbrev main_cst_145 : Ref sig .tc := ⟨.hbm, 789, rfl⟩
abbrev main_v591 : Ref sig .tc := ⟨.hbm, 790, rfl⟩
abbrev main_v592 : Ref sig .tc := ⟨.hbm, 791, rfl⟩
abbrev main_v593 : Ref sig .tc := ⟨.hbm, 792, rfl⟩
abbrev main_v594 : Ref sig .tc := ⟨.hbm, 793, rfl⟩
abbrev main_cst_146 : Ref sig .tc := ⟨.hbm, 794, rfl⟩
abbrev main_v595 : Ref sig .tc := ⟨.hbm, 795, rfl⟩
abbrev main_cst_147 : Ref sig .tc := ⟨.hbm, 796, rfl⟩
abbrev main_v596 : Ref sig .tc := ⟨.hbm, 797, rfl⟩
abbrev main_v597 : Ref sig .tc := ⟨.hbm, 798, rfl⟩
abbrev main_v598 : Ref sig .tc := ⟨.hbm, 799, rfl⟩
abbrev main_cst_148 : Ref sig .tc := ⟨.hbm, 800, rfl⟩
abbrev main_v599 : Ref sig .tc := ⟨.hbm, 801, rfl⟩
abbrev main_cst_149 : Ref sig .tc := ⟨.hbm, 802, rfl⟩
abbrev main_v600 : Ref sig .tc := ⟨.hbm, 803, rfl⟩
abbrev main_v601 : Ref sig .tc := ⟨.hbm, 804, rfl⟩
abbrev main_v602 : Ref sig .tc := ⟨.hbm, 805, rfl⟩
abbrev main_v603 : Ref sig .tc := ⟨.hbm, 806, rfl⟩
abbrev main_v604 : Ref sig .tc := ⟨.hbm, 807, rfl⟩
abbrev main_v605 : Ref sig .tc := ⟨.hbm, 808, rfl⟩
abbrev main_cst_150 : Ref sig .tc := ⟨.hbm, 809, rfl⟩
abbrev main_v606 : Ref sig .tc := ⟨.hbm, 810, rfl⟩
abbrev main_cst_151 : Ref sig .tc := ⟨.hbm, 811, rfl⟩
abbrev main_v607 : Ref sig .tc := ⟨.hbm, 812, rfl⟩
abbrev main_v608 : Ref sig .tc := ⟨.hbm, 813, rfl⟩
abbrev main_v609 : Ref sig .tc := ⟨.hbm, 814, rfl⟩
abbrev main_v610 : Ref sig .tc := ⟨.hbm, 815, rfl⟩
abbrev main_c_152 : Ref sig .tc := ⟨.hbm, 816, rfl⟩
abbrev main_v611 : Ref sig .tc := ⟨.hbm, 817, rfl⟩
abbrev main_cst_153 : Ref sig .tc := ⟨.hbm, 818, rfl⟩
abbrev main_call28_v0 : Ref sig .tc := ⟨.hbm, 819, rfl⟩
abbrev main_v612 : Ref sig .tc := ⟨.hbm, 820, rfl⟩
abbrev main_v613 : Ref sig .tc := ⟨.hbm, 821, rfl⟩
abbrev main_v614 : Ref sig .tc := ⟨.hbm, 822, rfl⟩
abbrev main_v615 : Ref sig .tc := ⟨.hbm, 823, rfl⟩
abbrev main_cst_154 : Ref sig .tc := ⟨.hbm, 824, rfl⟩
abbrev main_call29_v0 : Ref sig .tc := ⟨.hbm, 825, rfl⟩
abbrev main_v616 : Ref sig .tc := ⟨.hbm, 826, rfl⟩
abbrev main_v617 : Ref sig .tc := ⟨.hbm, 827, rfl⟩
abbrev main_v618 : Ref sig .tc := ⟨.hbm, 828, rfl⟩
abbrev main_v619 : Ref sig .tc := ⟨.hbm, 829, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  transposes_S4096x128_S128x4096_1_0 : S4096x128.Transposes [1, 0] S128x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S10x128_S128x10_1_0 : S10x128.Transposes [1, 0] S128x10
  reducesTo_S10x128_S10_d1 : S10x128.ReducesTo [1] S10
  bcast_S_S10 : S_.BroadcastsInDim S10 (![] : Fin 0 → Fin S10.rank)
  bcast_S_S4096 : S_.BroadcastsInDim S4096 (![] : Fin 0 → Fin S4096.rank)
  natLt_1_32 : 1 < 32
  reducesTo_S10_S_d0 : S10.ReducesTo [0] S_
  slices_S10_S1_0 : S10.Slices ![0] S1
  shapeCasts_S1_S_ : S1.ShapeCasts S_
  bcast_S_S1x4096 : S_.BroadcastsInDim S1x4096 (![] : Fin 0 → Fin S1x4096.rank)
  slices_S4096x10_S4096x1_0_0 : S4096x10.Slices ![0, 0] S4096x1
  shapeCasts_S4096x1_S4096 : S4096x1.ShapeCasts S4096
  reducesTo_S4096x4096_S_d0_1 : S4096x4096.ReducesTo [0, 1] S_
  slices_S10_S1_1 : S10.Slices ![1] S1
  slices_S4096x10_S4096x1_0_1 : S4096x10.Slices ![0, 1] S4096x1
  slices_S10_S1_2 : S10.Slices ![2] S1
  slices_S4096x10_S4096x1_0_2 : S4096x10.Slices ![0, 2] S4096x1
  slices_S10_S1_3 : S10.Slices ![3] S1
  slices_S4096x10_S4096x1_0_3 : S4096x10.Slices ![0, 3] S4096x1
  slices_S10_S1_4 : S10.Slices ![4] S1
  slices_S4096x10_S4096x1_0_4 : S4096x10.Slices ![0, 4] S4096x1
  slices_S10_S1_5 : S10.Slices ![5] S1
  slices_S4096x10_S4096x1_0_5 : S4096x10.Slices ![0, 5] S4096x1
  slices_S10_S1_6 : S10.Slices ![6] S1
  slices_S4096x10_S4096x1_0_6 : S4096x10.Slices ![0, 6] S4096x1
  slices_S10_S1_7 : S10.Slices ![7] S1
  slices_S4096x10_S4096x1_0_7 : S4096x10.Slices ![0, 7] S4096x1
  slices_S10_S1_8 : S10.Slices ![8] S1
  slices_S4096x10_S4096x1_0_8 : S4096x10.Slices ![0, 8] S4096x1
  slices_S10_S1_9 : S10.Slices ![9] S1
  slices_S4096x10_S4096x1_0_9 : S4096x10.Slices ![0, 9] S4096x1
  dot_S4096x128_S128x4096_S4096x4096_1_0_0_1_n_n_wf : DotDims.WF S4096x128 S128x4096 S4096x4096 [1] [0] [0] [1] [] []
  dot_S4096x128_S128x10_S4096x10_1_0_0_1_n_n_wf : DotDims.WF S4096x128 S128x10 S4096x10 [1] [0] [0] [1] [] []
  scatter_S10_S4096x1_S4096_n_0_0_1_wf : ScatterDims.WF S10 S4096x1 S4096 [] [0] [0] 1
  gather_S10_S4096x1_S4096_n_0_n_n_0_1_1_wf : GatherDims.WF S10 S4096x1 S4096 [] [0] [] [0] [] 1 ![1]

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x10_S4096x10_1_0_0_1_n_n : DotDims S4096x128 S128x10 S4096x10 where
  lhsContracting := [1]
  rhsContracting := [0]
  lhsNonContracting := [0]
  rhsNonContracting := [1]
  lhsBatch := []
  rhsBatch := []
  wf := dot_S4096x128_S128x10_S4096x10_1_0_0_1_n_n_wf
def scatter_S10_S4096x1_S4096_n_0_0_1 : ScatterDims S10 S4096x1 S4096 where
  updateWindowDims := []
  insertedWindowDims := [0]
  scatterDimsToOperandDims := [0]
  indexVectorDim := 1
  wf := scatter_S10_S4096x1_S4096_n_0_0_1_wf
def gather_S10_S4096x1_S4096_n_0_n_n_0_1_1 : GatherDims S10 S4096x1 S4096 where
  offsetDims := []
  collapsedSliceDims := [0]
  operandBatchingDims := []
  startIndicesBatchingDims := []
  startIndexMap := [0]
  indexVectorDim := 1
  sliceSizes := ![1]
  wf := gather_S10_S4096x1_S4096_n_0_n_n_0_1_1_wf

class Facts : Prop extends Facts₀ where

variable [Facts]
-- ==== Proof.KbDefs.lean ====
/-
  The kernel program around its one kernel call: the buffer contents when the call is entered (the host operations
  before it applied to the launch memory), the contents when it returns (the same, with the call's result array
  replaced by what the kernel wrote), and the contents at the end (the host operations after the call applied to that).
-/
import proofs.«426650_j89962384982112_3_alg».proof.Proof.Gen.Kernel.Launch
import proofs.«426650_j89962384982112_3_alg».proof.Proof.Gen.Kernel.Skeleton
import proofs.«426650_j89962384982112_3_alg».proof.Proof.Gen.Kernel.Points
import Idealize.ShloMosaic.Lib.Pipeline.FrameSuffix

noncomputable section

namespace Cert.Kernel.Hand

open Idealize.ShloMosaic Idealize.ShloMosaic.TcCoe Idealize.SL.Sem Cert.Kernel Cert.Kernel.Gen

variable {F : FTy → Type} [FloatOps F]

variable (m : (ℓ : Loc nD τ sig) → Buf (Elt F) ℓ)

/-- The stretches of host operations after the kernel call, in program order. -/
abbrev tailOpss : List (List (HloOp τ sig (Elt F))) :=
  [hostOps1, hostOps1_1, hostOps1_2, hostOps1_3, hostOps1_4, hostOps1_5, hostOps1_6]

/-- Core `c`'s buffer contents when the kernel call is entered. -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- The contents when the call returns: the call's result array at `O`, every other buffer as at entry. -/
def Wexit (c : Dev nD) (O : Buf (Elt F) ((c : Thread nD τ).loc main_v45)) : Valuation τ sig (Elt F) :=
  Function.update (V0 m c) (Proc.devRef .tc main_v45) O

/-- The contents at the end of the program, given what the call left in its result array. -/
def Vend (c : Dev nD) (O : Buf (Elt F) ((c : Thread nD τ).loc main_v45)) : Valuation τ sig (Elt F) :=
  StableHlo.after (List.flatten (tailOpss (F := F))) (Wexit m c O)

end Cert.Kernel.Hand

end
-- ==== Proof.KbOps.lean ====
/-
  Facts about the host operations of the kernel program, one operation at a time: the operations after the kernel
  call create no buffer, touch TensorCore references only, touch none of the three arrays the call's input windows
  read, and write neither the call's result array nor an argument; the operations before the call write no argument.
  Each operation's buffers are a literal set of references, so every fact is a comparison of references.
-/
import proofs.«426650_j89962384982112_3_alg».proof.Proof.KbDefs

noncomputable section

namespace Cert.Kernel.Hand

open Idealize.ShloMosaic Idealize.ShloMosaic.TcCoe Idealize.SL.Sem Cert.Kernel Cert.Kernel.Gen

variable {F : FTy → Type} [FloatOps F]

/-- A property of every operation of the flattened list of stretches holds in each stretch. -/
private theorem of_flat {P : HloOp τ sig (Elt F) → Prop}
    (h : ∀ op ∈ (tailOpss (F := F)).flatten, P op) : ∀ ops ∈ (tailOpss (F := F)), ∀ op ∈ ops, P op :=
  fun ops hops op hop => h op (List.mem_flatten.mpr ⟨ops, hops, hop⟩)

/-- The operations after the call create no buffer. -/
theorem tail_fresh : ∀ ops ∈ (tailOpss (F := F)), ∀ op ∈ ops, op.fresh = ∅ :=
  of_flat (List.forall_iff_forall_mem.mp (by
    simp only [tailOpss, hostOps1, hostOps1_1, hostOps1_2, hostOps1_3, hostOps1_4, hostOps1_5, hostOps1_6,
      List.flatten_cons, List.flatten_nil, List.append_nil, List.cons_append, List.nil_append, List.Forall]
    repeat' constructor))

/-- The operations after the call touch TensorCore references only. -/
theorem tail_sub : ∀ ops ∈ (tailOpss (F := F)), ∀ op ∈ ops, op.bufs ⊆ StableHlo.tcRefs τ sig := by
  intro ops hops op hop
  simp only [tailOpss, List.mem_cons, List.not_mem_nil, or_false] at hops
  rcases hops with rfl | rfl | rfl | rfl | rfl | rfl | rfl
  · exact List.forall_iff_forall_mem.mp hostOps1_sub op hop
  · exact List.forall_iff_forall_mem.mp hostOps1_1_sub op hop
  · exact List.forall_iff_forall_mem.mp hostOps1_2_sub op hop
  · exact List.forall_iff_forall_mem.mp hostOps1_3_sub op hop
  · exact List.forall_iff_forall_mem.mp hostOps1_4_sub op hop
  · exact List.forall_iff_forall_mem.mp hostOps1_5_sub op hop
  · exact List.forall_iff_forall_mem.mp hostOps1_6_sub op hop

/-- The operations after the call touch none of the three arrays the call's input windows read. -/
theorem tail_not_bufs : ∀ ops ∈ (tailOpss (F := F)), ∀ op ∈ ops,
    Proc.devRef (τ := τ) .tc main_v44 ∉ op.bufs ∧ Proc.devRef (τ := τ) .tc main_v40 ∉ op.bufs
      ∧ Proc.devRef (τ := τ) .tc main_v43 ∉ op.bufs :=
  of_flat (List.forall_iff_forall_mem.mp (by
    simp only [tailOpss, hostOps1, hostOps1_1, hostOps1_2, hostOps1_3, hostOps1_4, hostOps1_5, hostOps1_6,
      List.flatten_cons, List.flatten_nil, List.append_nil, List.cons_append, List.nil_append, List.Forall,
      StableHlo.nullary_bufs, StableHlo.unary_bufs, StableHlo.binary_bufs, StableHlo.ternary_bufs,
      StableHlo.reshape_bufs, Finset.mem_insert, Finset.mem_singleton, not_or]
    repeat' apply And.intro
    all_goals exact StableHlo.devRef_ne_of_ne (by decide)))

/-- The operations after the call write neither the call's result array nor an argument. -/
theorem tail_not_writes : ∀ op ∈ (tailOpss (F := F)).flatten,
    Proc.devRef (τ := τ) .tc main_v45 ∉ op.writes ∧ Proc.devRef (τ := τ) .tc main_arg0 ∉ op.writes
      ∧ Proc.devRef (τ := τ) .tc main_arg1 ∉ op.writes ∧ Proc.devRef (τ := τ) .tc main_arg2 ∉ op.writes :=
  List.forall_iff_forall_mem.mp (by
    simp only [tailOpss, hostOps1, hostOps1_1, hostOps1_2, hostOps1_3, hostOps1_4, hostOps1_5, hostOps1_6,
      List.flatten_cons, List.flatten_nil, List.append_nil, List.cons_append, List.nil_append, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide))

/-- The operations before the call write no argument. -/
theorem pre_not_writes : ∀ op ∈ (hostOps0 : List (HloOp τ sig (Elt F))),
    Proc.devRef (τ := τ) .tc main_arg0 ∉ op.writes ∧ Proc.devRef (τ := τ) .tc main_arg1 ∉ op.writes
      ∧ Proc.devRef (τ := τ) .tc main_arg2 ∉ op.writes :=
  List.forall_iff_forall_mem.mp (by
    simp only [hostOps0, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide))

end Cert.Kernel.Hand

end
-- ==== Proof.KbRead.lean ====
/-
  Which buffers bypass the kernel call, and what the arguments hold at the end: the two results and the three
  arguments are unscoped buffers that are no window's array; no host operation writes an argument, so at the end of
  the program each argument holds what the launch memory held.
-/
import proofs.«426650_j89962384982112_3_alg».proof.Proof.KbDefs
import proofs.«426650_j89962384982112_3_alg».proof.Proof.KbOps

noncomputable section

namespace Cert.Kernel.Hand

open Idealize.ShloMosaic Idealize.ShloMosaic.TcCoe Idealize.SL.Sem Cert.Kernel Cert.Kernel.Gen

variable {F : FTy → Type} [FloatOps F] (m : (ℓ : Loc nD τ sig) → Buf (Elt F) ℓ)

/-! ## Buffers that bypass the kernel call -/

/-- An unscoped buffer that is no window's array bypasses the call (which prefetches no table). -/
private theorem mem_rest (b : Ref sig .tc) (hs : b.isScoped = false) (ha : ∀ w : Fin 6, (spec0 w).arr.view.ref ≠ b) :
    b ∈ Pipeline.restRefsP sig Pipeline.Prefetch.none spec0 :=
  Finset.mem_sdiff.mpr ⟨Pipeline.mem_restRefs_of b hs ha, fun h => (Finset.mem_image.mp h).elim fun k _ => k.elim0⟩

theorem mem_rest_v88 : main_v88 ∈ Pipeline.restRefsP sig Pipeline.Prefetch.none spec0 := mem_rest main_v88 rfl (by decide)
theorem mem_rest_v93 : main_v93 ∈ Pipeline.restRefsP sig Pipeline.Prefetch.none spec0 := mem_rest main_v93 rfl (by decide)
theorem mem_rest_arg0 : main_arg0 ∈ Pipeline.restRefsP sig Pipeline.Prefetch.none spec0 := mem_rest main_arg0 rfl (by decide)
theorem mem_rest_arg1 : main_arg1 ∈ Pipeline.restRefsP sig Pipeline.Prefetch.none spec0 := mem_rest main_arg1 rfl (by decide)
theorem mem_rest_arg2 : main_arg2 ∈ Pipeline.restRefsP sig Pipeline.Prefetch.none spec0 := mem_rest main_arg2 rfl (by decide)

/-! ## The arguments at the end of the program -/

/-- A buffer that no host operation writes and that is not the call's result array holds at the end what the launch
    memory held. -/
private theorem Vend_keep (c : Dev nD) (O : Buf (Elt F) ((c : Thread nD τ).loc main_v45)) (r : Ref sig .tc)
    (hne : r ≠ main_v45)
    (ht : ∀ op ∈ (tailOpss (F := F)).flatten, Proc.devRef (τ := τ) .tc r ∉ op.writes)
    (hp : ∀ op ∈ (hostOps0 : List (HloOp τ sig (Elt F))), Proc.devRef (τ := τ) .tc r ∉ op.writes) :
    Vend m c O (Proc.devRef .tc r) = m ((c.tc : Thread nD τ).loc r) := by
  unfold Vend Wexit
  rw [StableHlo.after_of_forall_not_mem _ _ ht, Function.update_of_ne (StableHlo.devRef_ne_of_ne hne)]
  show StableHlo.after (List.flatten [hostOps0]) (fun b => m (c, b)) (Proc.devRef .tc r) = _
  rw [show List.flatten [(hostOps0 : List (HloOp τ sig (Elt F)))] = hostOps0 by simp,
    StableHlo.after_of_forall_not_mem _ _ hp]

theorem Vend_arg0 (c : Dev nD) (O : Buf (Elt F) ((c : Thread nD τ).loc main_v45)) :
    Vend m c O (Proc.devRef .tc main_arg0) = m ((c.tc : Thread nD τ).loc main_arg0) :=
  Vend_keep m c O main_arg0 (by decide) (fun op h => (tail_not_writes op h).2.1) (fun op h => (pre_not_writes op h).1)

theorem Vend_arg1 (c : Dev nD) (O : Buf (Elt F) ((c : Thread nD τ).loc main_v45)) :
    Vend m c O (Proc.devRef .tc main_arg1) = m ((c.tc : Thread nD τ).loc main_arg1) :=
  Vend_keep m c O main_arg1 (by decide) (fun op h => (tail_not_writes op h).2.2.1) (fun op h => (pre_not_writes op h).2.1)

theorem Vend_arg2 (c : Dev nD) (O : Buf (Elt F) ((c : Thread nD τ).loc main_v45)) :
    Vend m c O (Proc.devRef .tc main_arg2) = m ((c.tc : Thread nD τ).loc main_arg2) :=
  Vend_keep m c O main_arg2 (by decide) (fun op h => (tail_not_writes op h).2.2.2) (fun op h => (pre_not_writes op h).2.2)

end Cert.Kernel.Hand

end
-- ==== Proof.KbTailSet.lean ====
/-
  The buffers the host operations after the kernel call run within: the call's result array and every unscoped
  buffer that is no window's array. Every operation after the call touches only those. And the contents when the call
  returns, read at these buffers: the result array holds what the call left, every other one what it held at entry;
  no operation after the call writes the result array, so it still holds that at the end.
-/
import proofs.«426650_j89962384982112_3_alg».proof.Proof.KbDefs
import proofs.«426650_j89962384982112_3_alg».proof.Proof.KbOps

noncomputable section

namespace Cert.Kernel.Hand

open Idealize.ShloMosaic Idealize.ShloMosaic.TcCoe Idealize.SL.Sem Cert.Kernel Cert.Kernel.Gen

variable {F : FTy → Type} [FloatOps F] (m : (ℓ : Loc nD τ sig) → Buf (Elt F) ℓ)

/-- The result array and the unscoped buffers that are no window's array, as device buffers. -/
def tailS : Finset (DevRef τ sig) :=
  (insert main_v45 (Pipeline.restRefs sig spec0)).map ⟨Proc.devRef (sig := sig) .tc, Proc.devRef_injective _⟩

/-- Every window's array is one of four references. -/
private theorem arr_cases : ∀ w : Fin 6, (spec0 w).arr.view.ref = main_v44 ∨ (spec0 w).arr.view.ref = main_v40
    ∨ (spec0 w).arr.view.ref = main_v43 ∨ (spec0 w).arr.view.ref = main_v45 := by decide

/-- Every operation after the call touches only the result array and buffers that bypass the call. -/
theorem tail_sub_S : ∀ ops ∈ (tailOpss (F := F)), ∀ op ∈ ops, op.bufs ⊆ tailS := by
  intro ops hops op hop b hb
  have hu := Pipeline.sub_ucRefs op (tail_sub ops hops op hop) hb
  obtain ⟨hb_tc, hns⟩ := Finset.mem_filter.mp hu
  obtain ⟨r, -, rfl⟩ := Finset.mem_map.mp hb_tc
  obtain ⟨n44, n40, n43⟩ := tail_not_bufs ops hops op hop
  have hrs : r.isScoped = false := by
    cases hr : r.isScoped with
    | false => rfl
    | true => exact absurd (show (Proc.devRef (τ := τ) .tc r).isScoped = true from hr) hns
  refine Finset.mem_map.mpr ⟨r, ?_, rfl⟩
  by_cases h45 : r = main_v45
  · rw [h45]; exact Finset.mem_insert_self _ _
  · refine Finset.mem_insert_of_mem (Pipeline.mem_restRefs_of r hrs fun w hw => ?_)
    rcases arr_cases w with e | e | e | e
    · exact n44 (by rw [← e, hw]; exact hb)
    · exact n40 (by rw [← e, hw]; exact hb)
    · exact n43 (by rw [← e, hw]; exact hb)
    · exact h45 (hw.symm.trans e)

/-- When the call returns, its result array holds what the call left there. -/
theorem Wexit_v45 (c : Dev nD) (O : Buf (Elt F) ((c : Thread nD τ).loc main_v45)) :
    Wexit m c O (Proc.devRef .tc main_v45) = O := by
  unfold Wexit
  exact Function.update_self _ _ _

/-- When the call returns, a buffer that bypasses the call holds what it held at entry. -/
theorem Wexit_rest (c : Dev nD) (O : Buf (Elt F) ((c : Thread nD τ).loc main_v45)) :
    ∀ b ∈ Pipeline.restRefs sig spec0, Wexit m c O (Proc.devRef .tc b) = V m c b := by
  intro b hb
  have hne : b ≠ main_v45 := by
    rintro rfl
    exact (Finset.mem_sdiff.mp hb).2 (Finset.mem_image.mpr ⟨5, Finset.mem_univ _, rfl⟩)
  unfold Wexit
  exact Function.update_of_ne (StableHlo.devRef_ne_of_ne hne) _ _

/-- No operation after the call writes the result array: at the end it holds what the call left there. -/
theorem Vend_v45 (c : Dev nD) (O : Buf (Elt F) ((c : Thread nD τ).loc main_v45)) :
    Vend m c O (Proc.devRef .tc main_v45) = O := by
  unfold Vend
  rw [StableHlo.after_of_forall_not_mem _ _ fun op hop => (tail_not_writes op hop).1]
  exact Wexit_v45 m c O

end Cert.Kernel.Hand

end
-- ==== Proof.KbLaunch.lean ====
/-
  The run of the kernel program: the host operations before the kernel call, the call on its grid of blocks, and the
  host operations after it. Two pairs of the call's input blocks are cut from one array each, so every such array is
  held in two halves, one per block sequence; the call's result array is held whole, read by the later operations
  and handed back unchanged.
-/
import proofs.«426650_j89962384982112_3_alg».proof.Proof.KbDefs
import proofs.«426650_j89962384982112_3_alg».proof.Proof.KbOps
import proofs.«426650_j89962384982112_3_alg».proof.Proof.KbRead
import proofs.«426650_j89962384982112_3_alg».proof.Proof.KbTailSet

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The share of its array each block sequence of the call holds: the two sequences cut from the feature array hold
    one half each, likewise the two cut from the auxiliary table; the last input and the result hold theirs whole. -/
def qK : Fin 6 → PosShare TreeShare := fun
  | 0 => fullShare.left | 1 => fullShare.right | 2 => fullShare.left | 3 => fullShare.right
  | 4 => fullShare | 5 => fullShare
  | ⟨_ + 6, h⟩ => absurd h (Nat.not_lt.2 (Nat.le_add_left _ _))

variable (m : (ℓ : Loc nD τ sig) → Buf (Elt F) ℓ)

/-! ## The program around the call -/

theorem hostOps0_fresh : (hostOps0 : List (HloOp τ sig (Elt F))).Forall fun op => op.fresh = ∅ := by
  simp only [List.Forall]; repeat' constructor

/-- The program is the operations before the call, the call, and the operations after it: it reduces to the call
    continued by the later operations, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-! ## The call's arrays, window by window -/

/-- The arrays as the call holds them: the feature array and the auxiliary table in two halves each, the last input and
    the result whole. -/
theorem arrays_chain {c : Dev nD} (dat : Pipeline.Dat τ (Elt F) Unit ℕ (UR sig nD τ) ℕ cfg0 c) (hq : dat.q = qK)
    (Fw : (w : Fin cfg0.W) → Buf (Elt F) ((cfg0.win w).arr.view.loc (c.tc : Thread nD τ))) :
    (dat.arrays Fw : sProp 𝕄) = iprop(
      (((c.tc : Thread nD τ).loc main_v44) ↦{fullShare.left} Fw 0) ∗ (((c.tc : Thread nD τ).loc main_v44) ↦{fullShare.right} Fw 1)
      ∗ (((c.tc : Thread nD τ).loc main_v40) ↦{fullShare.left} Fw 2) ∗ (((c.tc : Thread nD τ).loc main_v40) ↦{fullShare.right} Fw 3)
      ∗ (((c.tc : Thread nD τ).loc main_v43) ↦{fullShare} Fw 4) ∗ (((c.tc : Thread nD τ).loc main_v45) ↦{fullShare} Fw 5)) := by
  have hs : ∀ w : Fin cfg0.W, dat.share w = qK w := by
    intro w
    unfold Pipeline.Dat.share
    rw [hq]
    fin_cases w <;> rfl
  have hE : (dat.arrays Fw : sProp 𝕄)
      = bigSep Finset.univ fun w : Fin cfg0.W => ((cfg0.win w).arr.view.loc (c.tc : Thread nD τ) ↦{qK w} Fw w : sProp 𝕄) := by
    unfold Pipeline.Dat.arrays
    exact bigSep_congr fun w _ => by rw [(arr_whole0 w).set_eq_univ, hs w]
  rw [hE, bigSep_W0]
  rfl

/-- The buffers behind the call's arrays: four distinct ones. -/
theorem arrBufs_chain (c : Dev nD) (Vc : (b : Ref sig .tc) → Buf (Elt F) ((c.tc : Thread nD τ).loc b)) :
    (Pipeline.arrBufs spec0 c Vc : sProp 𝕄) = iprop(
      (((c.tc : Thread nD τ).loc main_v44) ↦{fullShare} Vc main_v44) ∗ (((c.tc : Thread nD τ).loc main_v40) ↦{fullShare} Vc main_v40)
      ∗ (((c.tc : Thread nD τ).loc main_v43) ↦{fullShare} Vc main_v43) ∗ (((c.tc : Thread nD τ).loc main_v45) ↦{fullShare} Vc main_v45)) := by
  unfold Pipeline.arrBufs
  rw [show (Finset.univ.image (Pipeline.arrRef spec0) : Finset (Ref sig .tc)) = {main_v44, main_v40, main_v43, main_v45} from by decide,
    bigSep_insert (by decide), bigSep_insert (by decide), bigSep_insert (by decide), bigSep_singleton]
  rfl

/-- At entry: each array read through two block sequences is split into its two halves. -/
theorem hsplit (dats : (p : Fin 1) → (c : Dev nD) → Pipeline.Dat τ (Elt F) Unit ℕ (UR sig nD τ) ℕ (cfgs p) c)
    (hA : ∀ c w, (dats 0 c).A w = V m c (Pipeline.arrRef spec0 w)) (hq : ∀ c, (dats 0 c).q = qK) (c : Dev nD) :
    (Pipeline.arrBufs spec0 c (V m c) : sProp 𝕄) ⊢ (dats 0 c).arrays ((dats 0 c).arrAt · 0) := by
  have hF : ((dats 0 c).arrAt · 0) = fun w => V m c (Pipeline.arrRef spec0 w) := funext fun w => hA c w
  rw [hF, arrBufs_chain, arrays_chain (dats 0 c) (hq c)]
  iintro ⟨H44, H40, H43, H45⟩
  ihave H44' := (pointsTo_share (PosShare.mem_left_op_right fullShare)).1 $$ H44
  ihave H40' := (pointsTo_share (PosShare.mem_left_op_right fullShare)).1 $$ H40
  icases H44' with ⟨H0, H1⟩
  icases H40' with ⟨H2, H3⟩
  isplitl [H0]; · iexact H0
  isplitl [H1]; · iexact H1
  isplitl [H2]; · iexact H2
  isplitl [H3]; · iexact H3
  isplitl [H43]; · iexact H43
  iexact H45

/-- What the call's result array holds when the call returns. -/
abbrev Oexit (dats : (p : Fin 1) → (c : Dev nD) → Pipeline.Dat τ (Elt F) Unit ℕ (UR sig nD τ) ℕ (cfgs p) c) (c : Dev nD) :
    Buf (Elt F) ((c : Thread nD τ).loc main_v45) := (dats 0 c).arrAt 5 cfg0.N

/-! ## The operations after the call -/

/-- The set the later operations run within, held at a valuation: the call's result array and the buffers that bypass
    the call. -/
theorem held_tailS (c : Dev nD) (W : Valuation τ sig (Elt F)) :
    (StableHlo.held (c.tc : Thread nD τ) tailS W : sProp 𝕄)
      = iprop((((c.tc : Thread nD τ).loc main_v45) ↦{fullShare} W (Proc.devRef .tc main_v45))
          ∗ Pipeline.unscopedRestP Pipeline.Prefetch.none spec0 c (fun b => W (Proc.devRef .tc b))) := by
  have hnot : main_v45 ∉ Pipeline.restRefs sig spec0 := fun h =>
    (Finset.mem_sdiff.mp h).2 (Finset.mem_image.mpr ⟨5, Finset.mem_univ _, rfl⟩)
  unfold StableHlo.held tailS
  rw [bigSep_map, bigSep_insert hnot, Pipeline.unscopedRestP_none]
  rfl

-- a rule stated for any thread, applied at the TensorCore thread
set_option backward.isDefEq.respectTransparency.types false in
set_option maxHeartbeats 2000000 in
/-- From the call's exit, the later operations run within the call's result array and the bypassing buffers, and hand
    the arrays back as they found them. -/
theorem htail (dats : (p : Fin 1) → (c : Dev nD) → Pipeline.Dat τ (Elt F) Unit ℕ (UR sig nD τ) ℕ (cfgs p) c)
    (hq : ∀ c, (dats 0 c).q = qK) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c
                  (fun b => Vend m c (Oexit dats c) (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ((tailOpss (F := F)).map StableHlo.seq)) Q' := by
  have hW : (StableHlo.held (c.tc : Thread nD τ) tailS (Wexit m c (Oexit dats c)) : sProp 𝕄)
      = iprop((((c.tc : Thread nD τ).loc main_v45) ↦{fullShare} Oexit dats c)
          ∗ Pipeline.unscopedRestP Pipeline.Prefetch.none spec0 c (V m c)) := by
    have hR : (Pipeline.unscopedRestP Pipeline.Prefetch.none spec0 c (fun b => Wexit m c (Oexit dats c) (Proc.devRef .tc b)) : sProp 𝕄)
        = Pipeline.unscopedRestP Pipeline.Prefetch.none spec0 c (V m c) := by
      unfold Pipeline.unscopedRestP
      exact bigSep_congr fun b hb => by beta_reduce; rw [Wexit_rest m c _ b (Finset.mem_sdiff.mp hb).1]
    rw [held_tailS, Wexit_v45, hR]
  have hW' : (StableHlo.held (c.tc : Thread nD τ) tailS (StableHlo.after (tailOpss (F := F)).flatten (Wexit m c (Oexit dats c))) : sProp 𝕄)
      = iprop((((c.tc : Thread nD τ).loc main_v45) ↦{fullShare} Oexit dats c)
          ∗ Pipeline.unscopedRestP Pipeline.Prefetch.none spec0 c (fun b => Vend m c (Oexit dats c) (Proc.devRef .tc b))) := by
    rw [show StableHlo.after (tailOpss (F := F)).flatten (Wexit m c (Oexit dats c)) = Vend m c (Oexit dats c) from rfl, held_tailS, Vend_v45]
  rw [arrays_chain (dats 0 c) (hq c), ← List.append_nil ((tailOpss (F := F)).map StableHlo.seq)]
  iintro ⟨Hk, Hb, ⟨H0, H1, H2, H3, H4, H5⟩, HZ⟩
  ihave Hheld := (show iprop((((c.tc : Thread nD τ).loc main_v45) ↦{fullShare} Oexit dats c)
          ∗ Pipeline.unscopedRestP Pipeline.Prefetch.none spec0 c (V m c)) ⊢ (StableHlo.held (c.tc : Thread nD τ) tailS (Wexit m c (Oexit dats c)) : sProp 𝕄)
        from Entails.of_eq hW.symm) $$ [H5 HZ]
  · isplitl [H5] <;> iassumption
  iapply (Pipeline.wp_seqs_then (fun q => (cfgs q).toPCfg (Val := Elt F)) defs₀ Variants.none c tailS [] (tailOpss (F := F)) tail_sub_S tail_fresh
    (Wexit m c (Oexit dats c))) $$ [Hb Hheld]
  · isplitl [Hb] <;> iassumption
  iintro Hb
  rw [Pipeline.chain_nil, wp_pure, hW']
  imodintro
  iapply Hk
  icases Hb with ⟨-, H5, HZ⟩
  isplitr [HZ]
  · isplitl [H0]; · iexact H0
    isplitl [H1]; · iexact H1
    isplitl [H2]; · iexact H2
    isplitl [H3]; · iexact H3
    isplitl [H4]; · iexact H4
    iexact H5
  · iexact HZ

theorem run_main (ρ : Dev nD → PrngReg)
    (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q = qK)
    (hΦ : ∀ c t, (dats 0 c).Φ t = Pipeline.ΦA spec0 c)
    (howed : ∀ c t, (dats 0 c).owed t = 0)
    (hbody : ∀ c, Pipeline.BodyObligationLoose (dats 0 c) defs₀ Variants.none () Set.univ) :
    θ_run defs (onTc (τ := τ) (main (F := F))) ⟨m, fun _ => 0, ρ⟩ (fun r => ∀ c : Dev nD,
      r.2.mem ((c.tc : Thread nD τ).loc main_v88) = Vend m c ((dats 0 c).arrAt 5 cfg0.N) (Proc.devRef .tc main_v88)
      ∧ r.2.mem ((c.tc : Thread nD τ).loc main_v93) = Vend m c ((dats 0 c).arrAt 5 cfg0.N) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_region_pf_tail (fun q => (cfgs q).toPCfg (Val := Elt F)) (fun q => (cfgs q).toPCfg_adm) dats ()
    cellOf_inj 0 winFacts₀0 (Pipeline.OwnSemFacts.none spec0) (Pipeline.PreFacts.none _) emb₁ defs₀ Variants.none m ρ main
    (fun _ => Pipeline.chain ((tailOpss (F := F)).map StableHlo.seq)) hbody block_pos0 arr_whole0 stage_whole0 howed
    (G := fun _ => iprop(emp))
    (u₀ := initOf (Pipeline.cells cfgs cellOf_inj) (Pipeline.launchToks cfgs cellOf_inj))
    (hu₀ := ?hu₀)
    (V := V m) (hmain := ?hmain)
    (hsplit := ?hsplit)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => Vend m c (Oexit dats c) (Proc.devRef .tc b)))
    (hX := ?hX)
    (hin := ?hin)
    (hout := ?hout)
    (htail := ?htail)
    (QY := fun c s => ∀ b ∈ Pipeline.restRefsP sig Pipeline.Prefetch.none spec0,
      s.mem ((c.tc : Thread nD τ).loc b) = Vend m c (Oexit dats c) (Proc.devRef .tc b))
    (hY := ?hY)
    (hQ := ?hQ)
  case hu₀ =>
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hmain => intro c Q; have h := hmain (F := F) m Variants.none c Q; beta_reduce at h ⊢; exact h
  case hsplit => exact hsplit m dats hA hq
  case hX =>
    intro c
    iintro ⟨HU, -, -, -, Hp, -⟩; imodintro
    isplitl [Hp]; · iexists _; iexact Hp
    iexact HU
  case hin =>
    intro c
    rw [hΦ]; unfold Pipeline.ΦA
    iintro ⟨Hp, -, Hr⟩
    isplitl [Hr] <;> iassumption
  case hout =>
    intro c
    rw [hΦ, Pipeline.ownSems0_none]; unfold Pipeline.ΦA
    iintro ⟨Hr, Hp⟩
    isplitl [Hp]; · iexact Hp
    isplitr; · iempintro
    iexact Hr
  case htail => exact htail m dats hq
  case hY =>
    intro c s'
    iintro ⟨-, HU, HSI⟩
    unfold Pipeline.unscopedRestP
    imodintro
    iapply (pointsTo_read_all (Pipeline.restRefsP sig Pipeline.Prefetch.none spec0) (fun b => (c.tc : Thread nD τ).loc b)
      (fun b => Vend m c (Oexit dats c) (Proc.devRef .tc b)) s')
    isplitl [HU] <;> iassumption
  case hQ =>
    intro s h c
    exact ⟨(h c).2.2 main_v88 mem_rest_v88, (h c).2.2 main_v93 mem_rest_v93,
      ((h c).2.2 main_arg0 mem_rest_arg0).trans (Vend_arg0 m c _),
      ((h c).2.2 main_arg1 mem_rest_arg1).trans (Vend_arg1 m c _),
      ((h c).2.2 main_arg2 mem_rest_arg2).trans (Vend_arg2 m c _)⟩

end Cert.Kernel.Hand

end
-- ==== Proof.KbDat.lean ====
/-
  The proof data of the kernel call. Each of the five input windows holds, at every grid point, its block of the
  array it reads. The output window's block (one pair of 128-wide rows per block row `ia`) is carried across the four
  points of one `ia`: at the first of them (`ib = 0`) it is reset to zeros, and at every point the two ten-column
  row payloads computed from the five input blocks are added into columns 0..9 of its two rows.
-/
import proofs.«426650_j89962384982112_3_alg».proof.Proof.KbDefs
import Idealize.ShloMosaic.Lib.Pipeline.FrameBody
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The windows' blocks -/

/-- Window `w`'s block at point `t`, read off its array as the kernel call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch: the reset at the first point of a block row -/

/-- The body's one condition: grid coordinate 1 (`ib`) is zero. -/
abbrev condIb (i : grid0.Coords) : Prop := (Scalar.cmpi .ne (Scalar.extui (Scalar.cmpi .eq (BitVec.ofNat 32 (i 1).val) 0#32)) 0#32) = 1#1
/-- Over the grid (`ib` fastest): exactly the points divisible by 4. -/
theorem hcondIb : ∀ t : Fin cfg0.N, condIb (grid0.coords t) ↔ t.val % 4 = 0 :=
  (by decide +kernel : ∀ t : Fin grid0.N, condIb (grid0.coords t) ↔ t.val % 4 = 0)

/-! ## The loads of the five input blocks, from the blocks' contents -/

abbrev ld3 (x0 : Vec F S512x128 .bf16) : Vec F S512x128 .bf16 :=
  View.ld (Val := Elt F) (e' := .bf16) x0 (Rect.unit (s := S512x128) ![0, 0] S512x128.size inb_S512x128_S512x128_0_0)
abbrev ld5 (x1 : Vec F S1024x128 .bf16) : Vec F S1024x128 .bf16 :=
  View.ld (Val := Elt F) (e' := .bf16) x1 (Rect.unit (s := S1024x128) ![0, 0] S1024x128.size inb_S1024x128_S1024x128_0_0)
abbrev ld9 (x2 : Vec F S512x16 .f32) : Vec F S512x1 .f32 :=
  View.ld (Val := Elt F) (e' := .f32) x2 (Rect.unit (s := S512x16) ![0, 0] S512x1.size inb_S512x16_S512x1_0_0)
abbrev ld11 (x2 : Vec F S512x16 .f32) : Vec F S512x1 .f32 :=
  View.ld (Val := Elt F) (e' := .f32) x2 (Rect.unit (s := S512x16) ![0, 2] S512x1.size inb_S512x16_S512x1_0_2)
abbrev ld13 (x2 : Vec F S512x16 .f32) : Vec F S512x10 .f32 :=
  View.ld (Val := Elt F) (e' := .f32) x2 (Rect.unit (s := S512x16) ![0, 3] S512x10.size inb_S512x16_S512x10_0_3)
abbrev ld15 (x4 : Vec F S8x1024 .f32) : Vec F S1x1024 .f32 :=
  View.ld (Val := Elt F) (e' := .f32) x4 (Rect.unit (s := S8x1024) ![0, 0] S1x1024.size inb_S8x1024_S1x1024_0_0)
abbrev ld32 (x3 : Vec F S1024x16 .f32) : Vec F S1024x1 .f32 :=
  View.ld (Val := Elt F) (e' := .f32) x3 (Rect.unit (s := S1024x16) ![0, 2] S1024x1.size inb_S1024x16_S1024x1_0_2)
abbrev ld34 (x3 : Vec F S1024x16 .f32) : Vec F S1024x1 .f32 :=
  View.ld (Val := Elt F) (e' := .f32) x3 (Rect.unit (s := S1024x16) ![0, 1] S1024x1.size inb_S1024x16_S1024x1_0_1)
abbrev ld36 (x3 : Vec F S1024x16 .f32) : Vec F S1024x10 .f32 :=
  View.ld (Val := Elt F) (e' := .f32) x3 (Rect.unit (s := S1024x16) ![0, 3] S1024x10.size inb_S1024x16_S1024x10_0_3)

/-- The row the body adds into output row 0, from the five input blocks. -/
abbrev rowPay0 (x0 : Vec F S512x128 .bf16) (x1 : Vec F S1024x128 .bf16) (x2 : Vec F S512x16 .f32) (x3 : Vec F S1024x16 .f32)
    (x4 : Vec F S8x1024 .f32) : FVec F S1x10 .f32 :=
  k0_pay12 (k0_pay4 (ld11 x2)) (k0_pay5 (ld13 x2)) (k0_pay6 (ld3 x0) (ld5 x1) (ld9 x2) (ld15 x4))
    (k0_pay7 (ld3 x0) (ld5 x1) (ld9 x2) (ld15 x4)) (k0_pay8 (ld32 x3)) (ld34 x3) (ld36 x3)
/-- The row the body adds into output row 1. -/
abbrev rowPay1 (x0 : Vec F S512x128 .bf16) (x1 : Vec F S1024x128 .bf16) (x2 : Vec F S512x16 .f32) (x3 : Vec F S1024x16 .f32)
    (x4 : Vec F S8x1024 .f32) : FVec F S1x10 .f32 :=
  k0_pay13 (k0_pay4 (ld11 x2)) (k0_pay5 (ld13 x2)) (k0_pay6 (ld3 x0) (ld5 x1) (ld9 x2) (ld15 x4))
    (k0_pay7 (ld3 x0) (ld5 x1) (ld9 x2) (ld15 x4)) (k0_pay8 (ld32 x3)) (ld34 x3) (ld36 x3)

/-! ## The output block after one point -/

/-- Columns 0..9 of row 0, and of row 1, of the output block. -/
abbrev rect0 : Rect S1x2x128 := Rect.unit (s := S1x2x128) ![0, 0, 0] S1x1x10.size inb_S1x2x128_S1x1x10_0_0_0
abbrev rect1 : Rect S1x2x128 := Rect.unit (s := S1x2x128) ![0, 1, 0] S1x1x10.size inb_S1x2x128_S1x1x10_0_1_0

/-- The two accumulating stores of one point (the later first), over a block holding `xo`. -/
def rowPieces (xo : Vec F S1x2x128 .f32) (p0 p1 : FVec F S1x10 .f32) : List (View.Piece (Elt F) S1x2x128 .f32) :=
  [⟨rect1, k0_pay2 p1 (View.ld (Val := Elt F) (e' := .f32) xo rect1)⟩, ⟨rect0, k0_pay1 p0 (View.ld (Val := Elt F) (e' := .f32) xo rect0)⟩]

/-- The output block after one point, from the block `xo` before its two accumulating stores: columns 0..9 of each
    row get the row's payload added, every other entry stays. -/
def accNext (xo : Vec F S1x2x128 .f32) (p0 p1 : FVec F S1x10 .f32) : Vec F S1x2x128 .f32 := fun y =>
  if h : (y 2).val < 10 then
    if (y 1).val = 0 then k0_pay1 p0 (View.ld (Val := Elt F) (e' := .f32) xo rect0) (ix3 (0 : Fin 1) (0 : Fin 1) (⟨(y 2).val, h⟩ : Fin 10))
    else k0_pay2 p1 (View.ld (Val := Elt F) (e' := .f32) xo rect1) (ix3 (0 : Fin 1) (0 : Fin 1) (⟨(y 2).val, h⟩ : Fin 10))
  else xo y

/-- Reading a buffer after the two accumulating stores over contents that read `xo`. -/
theorem read_rowPieces {sig' : RefSig} {κ : Kind} {sp : Space} (v : View sig' κ sp S1x2x128 .f32) (f : v.ty.Contents (Elt F))
    (p0 p1 : FVec F S1x10 .f32) :
    v.read (Elt F) (v.writes (Elt F) f (rowPieces (v.read (Elt F) f) p0 p1)) = accNext (v.read (Elt F) f) p0 p1 := by
  funext y
  have hy0 : (y 0).val < 1 := (y 0).isLt
  have hy1 : (y 1).val < 2 := (y 1).isLt
  have hy2 : (y 2).val < 128 := (y 2).isLt
  unfold rowPieces accNext
  by_cases h : (y 2).val < 10
  · rw [dif_pos h]
    by_cases hr : (y 1).val = 0
    · rw [if_pos hr]
      rw [View.read_writes_cons_unit_of_not_mem v f inb_S1x2x128_S1x1x10_0_1_0 _ _ y rfl (1 : Fin 3) (Or.inl (by show (y 1).val < 1; omega))]
      exact View.read_writes_cons_unit_of_mem v f inb_S1x2x128_S1x1x10_0_0_0 _ _ y (ix3 (0 : Fin 1) (0 : Fin 1) (⟨(y 2).val, h⟩ : Fin 10)) rfl
        (fun a => match a with
          | ⟨0, _⟩ => by show (y 0).val = 0 + 0; omega
          | ⟨1, _⟩ => by show (y 1).val = 0 + 0; omega
          | ⟨2, _⟩ => by show (y 2).val = 0 + (y 2).val; omega)
    · rw [if_neg hr]
      exact View.read_writes_cons_unit_of_mem v f inb_S1x2x128_S1x1x10_0_1_0 _ _ y (ix3 (0 : Fin 1) (0 : Fin 1) (⟨(y 2).val, h⟩ : Fin 10)) rfl
        (fun a => match a with
          | ⟨0, _⟩ => by show (y 0).val = 0 + 0; omega
          | ⟨1, _⟩ => by show (y 1).val = 1 + 0; omega
          | ⟨2, _⟩ => by show (y 2).val = 0 + (y 2).val; omega)
  · rw [dif_neg h]
    rw [View.read_writes_cons_unit_of_not_mem v f inb_S1x2x128_S1x1x10_0_1_0 _ _ y rfl (2 : Fin 3) (Or.inr (by show 0 + 10 ≤ (y 2).val; omega)),
      View.read_writes_cons_unit_of_not_mem v f inb_S1x2x128_S1x1x10_0_0_0 _ _ y rfl (2 : Fin 3) (Or.inr (by show 0 + 10 ≤ (y 2).val; omega))]
    rfl

/-! ## The input blocks and the row payloads at a grid point -/

/-- The five input blocks at point `t`, at their literal types. -/
abbrev blk0 (c : Dev nD) (t : Fin cfg0.N) : Vec F S512x128 .bf16 := iblk m c 0 t
abbrev blk1 (c : Dev nD) (t : Fin cfg0.N) : Vec F S1024x128 .bf16 := iblk m c 1 t
abbrev blk2 (c : Dev nD) (t : Fin cfg0.N) : Vec F S512x16 .f32 := iblk m c 2 t
abbrev blk3 (c : Dev nD) (t : Fin cfg0.N) : Vec F S1024x16 .f32 := iblk m c 3 t
abbrev blk4 (c : Dev nD) (t : Fin cfg0.N) : Vec F S8x1024 .f32 := iblk m c 4 t

/-- The rows point `t` adds into output rows 0 and 1. -/
abbrev pay0At (c : Dev nD) (t : Fin cfg0.N) : FVec F S1x10 .f32 :=
  rowPay0 (blk0 m c t) (blk1 m c t) (blk2 m c t) (blk3 m c t) (blk4 m c t)
abbrev pay1At (c : Dev nD) (t : Fin cfg0.N) : FVec F S1x10 .f32 :=
  rowPay1 (blk0 m c t) (blk1 m c t) (blk2 m c t) (blk3 m c t) (blk4 m c t)

/-- The zero block the reset stores. -/
abbrev zeroBlk : Vec F S1x2x128 .f32 := k0_pay3 (F := F)

/-! ## What the output block holds after each point -/

/-- The output window's staging buffer after the body at position `n`: at a point divisible by 4 the zero block with
    the point's two rows added, otherwise the block the point before left with them added. -/
def accAt (c : Dev nD) : (n : ℕ) → n < cfg0.N → Vec F S1x2x128 .f32
  | 0, hn => accNext zeroBlk (pay0At m c ⟨0, hn⟩) (pay1At m c ⟨0, hn⟩)
  | n + 1, hn =>
    if (n + 1) % 4 = 0 then accNext zeroBlk (pay0At m c ⟨n + 1, hn⟩) (pay1At m c ⟨n + 1, hn⟩)
    else accNext (accAt c n (Nat.lt_of_succ_lt hn)) (pay0At m c ⟨n + 1, hn⟩) (pay1At m c ⟨n + 1, hn⟩)

/-- At a point divisible by 4: the reset block with the point's rows added. -/
theorem accAt_reset (c : Dev nD) (t : Fin cfg0.N) (h0 : t.val % 4 = 0) :
    accAt m c t.val t.isLt = accNext zeroBlk (pay0At m c t) (pay1At m c t) := by
  obtain ⟨n, hn⟩ := t
  cases n with
  | zero => rfl
  | succ n => exact (if_pos h0).trans rfl

/-- At any other point: the block of the point before with the point's rows added. -/
theorem accAt_step (c : Dev nD) (t : Fin cfg0.N) (h0 : ¬t.val % 4 = 0) :
    accAt m c t.val t.isLt = accNext (accAt m c (t.val - 1) (Nat.lt_of_le_of_lt (Nat.sub_le _ _) t.isLt)) (pay0At m c t) (pay1At m c t) := by
  obtain ⟨n, hn⟩ := t
  cases n with
  | zero => exact (by exfalso; (try dsimp only at h0); exact absurd (Nat.zero_mod _) h0)
  | succ n => exact (if_neg h0).trans rfl

/-! ## The proof data -/

/-- The proof data of the kernel call on core `c`: the arrays as the call finds them; after the body at point `t` each
    input's buffer at its block and the output's at `accAt`; the class invariant; nothing owed; the input windows'
    shares of their arrays a parameter. -/
def dats (q : Fin cfg0.W → PosShare TreeShare) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Pipeline.ΦA spec0 c
  q := q
  owed _ := 0

variable (q : Fin cfg0.W → PosShare TreeShare)

theorem dats_A (c : Dev nD) (w : Fin cfg0.W) : (dats m q 0 c).A w = V m c (Pipeline.arrRef spec0 w) := by
  dsimp only [dats]
theorem dats_q (c : Dev nD) : (dats m q 0 c).q = q := rfl
theorem dats_Φ (c : Dev nD) (t : Fin (cfg0.N + 1)) : (dats m q 0 c).Φ t = Pipeline.ΦA spec0 c := rfl
theorem dats_owed (c : Dev nD) (t : Fin (cfg0.N + 1)) : (dats m q 0 c).owed t = 0 := rfl

/-- What the body leaves, window by window. -/
theorem after_0 (c : Dev nD) (t : Fin cfg0.N) : (dats m q 0 c).after 0 t = iblk m c 0 t := by dsimp only [dats]
theorem after_1 (c : Dev nD) (t : Fin cfg0.N) : (dats m q 0 c).after 1 t = iblk m c 1 t := by dsimp only [dats]
theorem after_2 (c : Dev nD) (t : Fin cfg0.N) : (dats m q 0 c).after 2 t = iblk m c 2 t := by dsimp only [dats]
theorem after_3 (c : Dev nD) (t : Fin cfg0.N) : (dats m q 0 c).after 3 t = iblk m c 3 t := by dsimp only [dats]
theorem after_4 (c : Dev nD) (t : Fin cfg0.N) : (dats m q 0 c).after 4 t = iblk m c 4 t := by dsimp only [dats]
theorem after_5 (c : Dev nD) (t : Fin cfg0.N) : (dats m q 0 c).after 5 t = accAt m c t.val t.isLt := by dsimp only [dats]

end Cert.Kernel.Hand

end
-- ==== Proof.KbBodyA.lean ====
/-
  The kernel body at a point with `ib = 0`: it stores zeros into the whole output block, loads its five input
  blocks, and adds the two ten-column row payloads into rows 0 and 1 of the block. Run on whole staging buffers, it
  leaves in the output's buffer the zero block with the two rows added, whatever the buffer held.
-/
import proofs.«426650_j89962384982112_3_alg».proof.Proof.KbDat
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The whole-block rectangle the reset stores through. -/
abbrev rectW : Rect S1x2x128 := Rect.unit (s := S1x2x128) ![0, 0, 0] S1x2x128.size inb_S1x2x128_S1x2x128_0_0_0

/-- A buffer after the reset store reads the zero block, whatever it held. -/
theorem read_reset {sig' : RefSig} {κ : Kind} {sp : Space} (v : View sig' κ sp S1x2x128 .f32) (f : v.ty.Contents (Elt F)) :
    v.read (Elt F) (v.writes (Elt F) f [⟨rectW, zeroBlk (F := F)⟩]) = zeroBlk (F := F) := by
  funext y
  exact View.read_writes_cons_unit_of_mem v f inb_S1x2x128_S1x2x128_0_0_0 _ _ y y rfl
    (fun a => match a with
      | ⟨0, _⟩ => by show (y 0).val = 0 + (y 0).val; omega
      | ⟨1, _⟩ => by show (y 1).val = 0 + (y 1).val; omega
      | ⟨2, _⟩ => by show (y 2).val = 0 + (y 2).val; omega)

/-- A load of columns 0..9 of a row straight after the reset store reads the zero block there. -/
theorem readCov_reset {sig' : RefSig} {κ : Kind} {sp : Space} (v : View sig' κ sp S1x2x128 .f32) (r : Rect S1x2x128) :
    v.readCov [(⟨rectW, zeroBlk (F := F)⟩ : View.Piece (Elt F) S1x2x128 .f32)] r.toLoadRect
      = View.ld (Val := Elt F) (e' := .f32) (zeroBlk (F := F)) r := by
  unfold View.readCov
  rw [View.readAt_eq_ld, read_reset]

/-- The store into row 0 does not touch what a load of row 1 reads. -/
theorem readCov_row1 {sig' : RefSig} {κ : Kind} {sp : Space} (v : View sig' κ sp S1x2x128 .f32)
    (w : rect0.shape.Idx → Elt F .f32) (L : List (View.Piece (Elt F) S1x2x128 .f32)) :
    v.readCov ((⟨rect0, w⟩ : View.Piece (Elt F) S1x2x128 .f32) :: L) rect1.toLoadRect = v.readCov L rect1.toLoadRect := by
  funext x
  unfold View.readCov
  rw [View.readAt_apply, View.readAt_apply]
  exact View.read_writes_cons_unit_of_not_mem v _ inb_S1x2x128_S1x1x10_0_0_0 w L _ rfl (1 : Fin 3)
    (Or.inr (by show 0 + 1 ≤ 1 + 1 * (x 1).val; omega))

set_option maxHeartbeats 1000000 in
/-- The body at a point with `ib = 0`, on whole staging buffers holding the five input blocks, the output's holding
    anything: it runs to the end, the inputs as they were, the output's buffer with the pieces of the reset store and
    of the two accumulating stores written (the pieces are what the run finds). -/
noncomputable def runA (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : condIb i)
    (x0 : Vec F S512x128 .bf16) (x1 : Vec F S1024x128 .bf16) (x2 : Vec F S512x16 .f32) (x3 : Vec F S1024x16 .f32) (x4 : Vec F S8x1024 .f32) :
    { L : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun E K => ?run⟩
  case run =>
    simp only [cc0__pair_kernel_eq_skeleton]; unfold cc0__pair_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- What that leaves in the output's buffer, whatever it held: the zero block with the two rows of the five input
    blocks added. -/
theorem outA_eq (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : condIb i)
    (x0 : Vec F S512x128 .bf16) (x1 : Vec F S1024x128 .bf16) (x2 : Vec F S512x16 .f32) (x3 : Vec F S1024x16 .f32) (x4 : Vec F S8x1024 .f32)
    (f : arg7.view.ty.Contents (Elt F)) :
    arg7.view.read (Elt F) (arg7.view.writes (Elt F) f
        (runA c i arg2 harg2 arg3 harg3 arg4 harg4 arg5 harg5 arg6 harg6 arg7 harg7 hc0 x0 x1 x2 x3 x4).1)
      = accNext (zeroBlk (F := F)) (rowPay0 x0 x1 x2 x3 x4) (rowPay1 x0 x1 x2 x3 x4) := by
  have h := read_rowPieces arg7.view (arg7.view.writes (Elt F) f [⟨rectW, zeroBlk (F := F)⟩]) (rowPay0 x0 x1 x2 x3 x4) (rowPay1 x0 x1 x2 x3 x4)
  rw [read_reset] at h
  rw [← h]
  unfold runA
  dsimp only
  sl_unfold_words
  unfold rowPieces
  simp only [View.readAt_eq_ld, harg2.read_unread, harg3.read_unread, harg4.read_unread, harg5.read_unread, harg6.read_unread]
  rw [readCov_row1, readCov_reset, readCov_reset]
  rfl

end Cert.Kernel.Hand

end
-- ==== Proof.KbBodyB.lean ====
/-
  The kernel body at a point with `ib ≠ 0`: it loads its five input blocks and adds the two ten-column row payloads
  into rows 0 and 1 of the output block the point before left. Run on whole staging buffers, it leaves in the output's
  buffer that block with the two rows added.
-/
import proofs.«426650_j89962384982112_3_alg».proof.Proof.KbBodyA
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at a point with `ib ≠ 0`, on whole staging buffers holding the five input blocks and the output block `xo`
    the point before left: it runs to the end, the inputs as they were, the output's buffer with the pieces of its two
    accumulating stores written over `xo` (the pieces are what the run finds). -/
noncomputable def runB (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : ¬condIb i)
    (x0 : Vec F S512x128 .bf16) (x1 : Vec F S1024x128 .bf16) (x2 : Vec F S512x16 .f32) (x3 : Vec F S1024x16 .f32) (x4 : Vec F S8x1024 .f32)
    (xo : Vec F S1x2x128 .f32) :
    { L : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (arg7.view.loc (c : Thread nD τ) ↦[arg7.view.set]{fullShare} arg7.view.writes (Elt F) (harg7.unread xo) L)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun E K => ?run⟩
  case run =>
    simp only [cc0__pair_kernel_eq_skeleton]; unfold cc0__pair_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact H5

/-- What that leaves in the output's buffer: the block `xo` with the two rows of the five input blocks added. -/
theorem outB_eq (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : ¬condIb i)
    (x0 : Vec F S512x128 .bf16) (x1 : Vec F S1024x128 .bf16) (x2 : Vec F S512x16 .f32) (x3 : Vec F S1024x16 .f32) (x4 : Vec F S8x1024 .f32)
    (xo : Vec F S1x2x128 .f32) :
    arg7.view.read (Elt F) (arg7.view.writes (Elt F) (harg7.unread xo)
        (runB c i arg2 harg2 arg3 harg3 arg4 harg4 arg5 harg5 arg6 harg6 arg7 harg7 hc0 x0 x1 x2 x3 x4 xo).1)
      = accNext xo (rowPay0 x0 x1 x2 x3 x4) (rowPay1 x0 x1 x2 x3 x4) := by
  have h := read_rowPieces arg7.view (harg7.unread xo) (rowPay0 x0 x1 x2 x3 x4) (rowPay1 x0 x1 x2 x3 x4)
  rw [harg7.read_unread] at h
  rw [← h]
  unfold runB
  dsimp only
  sl_unfold_words
  unfold rowPieces
  simp only [View.readAt_eq_ld, harg2.read_unread, harg3.read_unread, harg4.read_unread, harg5.read_unread, harg6.read_unread,
    harg7.read_unread]

end Cert.Kernel.Hand

end
-- ==== Proof.KbBody.lean ====
/-
  The body obligation of the kernel call: at every grid point the body, handed the staging buffers as the pipeline
  leaves them (each input at its block; the output at anything after a write-back or at the first point, else at the
  block the point before left), returns them with the output at the block the proof data names for the point.
-/
import proofs.«426650_j89962384982112_3_alg».proof.Proof.KbBodyB
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (q : Fin cfg0.W → PosShare TreeShare)

/-! ## The staging buffers at a point -/

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x128 .f32 := win0_5.stage (cfg0.slots t 5)
abbrev hs5 (t : Fin cfg0.N) : (ms5 t).IsWhole := hstage0_5 ((cfg0.slots t 5).cast nbuf0_5)

/-! ## What the body finds in each buffer -/

/-- Each input's current staging buffer holds its block at every point, fetched there or not. -/
theorem before_0 (c : Dev nD) (t : Fin cfg0.N) (d) : (dats m q 0 c).before 0 t d = iblk m c 0 t :=
  ((dats m q 0 c).before_in_eq_fetched 0 rfl (fun _ => rfl) (fun _ _ _ => rfl)
    (fun t => by rw [after_0]; unfold Dat.blockOf iblk; rw [dats_A]; try rfl) t d).trans
    (by unfold Dat.fetched Dat.blockOf iblk; rw [dats_A]; try rfl)
theorem before_1 (c : Dev nD) (t : Fin cfg0.N) (d) : (dats m q 0 c).before 1 t d = iblk m c 1 t :=
  ((dats m q 0 c).before_in_eq_fetched 1 rfl (fun _ => rfl) (fun _ _ _ => rfl)
    (fun t => by rw [after_1]; unfold Dat.blockOf iblk; rw [dats_A]; try rfl) t d).trans
    (by unfold Dat.fetched Dat.blockOf iblk; rw [dats_A]; try rfl)
theorem before_2 (c : Dev nD) (t : Fin cfg0.N) (d) : (dats m q 0 c).before 2 t d = iblk m c 2 t :=
  ((dats m q 0 c).before_in_eq_fetched 2 rfl (fun _ => rfl) (fun _ _ _ => rfl)
    (fun t => by rw [after_2]; unfold Dat.blockOf iblk; rw [dats_A]; try rfl) t d).trans
    (by unfold Dat.fetched Dat.blockOf iblk; rw [dats_A]; try rfl)
theorem before_3 (c : Dev nD) (t : Fin cfg0.N) (d) : (dats m q 0 c).before 3 t d = iblk m c 3 t :=
  ((dats m q 0 c).before_in_eq_fetched 3 rfl (fun _ => rfl) (fun _ _ _ => rfl)
    (fun t => by rw [after_3]; unfold Dat.blockOf iblk; rw [dats_A]; try rfl) t d).trans
    (by unfold Dat.fetched Dat.blockOf iblk; rw [dats_A]; try rfl)
theorem before_4 (c : Dev nD) (t : Fin cfg0.N) (d) : (dats m q 0 c).before 4 t d = iblk m c 4 t :=
  ((dats m q 0 c).before_in_eq_fetched 4 rfl (fun _ => rfl) (fun _ _ _ => rfl)
    (fun t => by rw [after_4]; unfold Dat.blockOf iblk; rw [dats_A]; try rfl) t d).trans
    (by unfold Dat.fetched Dat.blockOf iblk; rw [dats_A]; try rfl)

/-- At a point not divisible by 4 the output's current staging buffer holds what the body left at the point before:
    the point is not the first, and the buffer was not written back in between (write-backs happen after the points
    with remainder 3). -/
theorem before_5_step (c : Dev nD) (t : Fin cfg0.N) (h0 : ¬t.val % 4 = 0) (d) :
    (dats m q 0 c).before 5 t d = accAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m q 0 c).Φ t.castSucc ∗ (dats m q 0 c).owesAt () t.castSucc
    ∗ (∃ d, owns (c : Thread nD τ) (ms0 t) fullShare ((dats m q 0 c).before 0 t d))
    ∗ (∃ d, owns (c : Thread nD τ) (ms1 t) fullShare ((dats m q 0 c).before 1 t d))
    ∗ (∃ d, owns (c : Thread nD τ) (ms2 t) fullShare ((dats m q 0 c).before 2 t d))
    ∗ (∃ d, owns (c : Thread nD τ) (ms3 t) fullShare ((dats m q 0 c).before 3 t d))
    ∗ (∃ d, owns (c : Thread nD τ) (ms4 t) fullShare ((dats m q 0 c).before 4 t d))
    ∗ (∃ d, owns (c : Thread nD τ) (ms5 t) fullShare ((dats m q 0 c).before 5 t d)))

/-- and what it returns. -/
def bodyPost (c : Dev nD) (t : Fin cfg0.N) : sProp 𝕄 :=
  iprop((dats m q 0 c).Φ t.succ ∗ (dats m q 0 c).owesAt () t.succ
    ∗ owns (c : Thread nD τ) (ms0 t) fullShare ((dats m q 0 c).after 0 t)
    ∗ owns (c : Thread nD τ) (ms1 t) fullShare ((dats m q 0 c).after 1 t)
    ∗ owns (c : Thread nD τ) (ms2 t) fullShare ((dats m q 0 c).after 2 t)
    ∗ owns (c : Thread nD τ) (ms3 t) fullShare ((dats m q 0 c).after 3 t)
    ∗ owns (c : Thread nD τ) (ms4 t) fullShare ((dats m q 0 c).after 4 t)
    ∗ owns (c : Thread nD τ) (ms5 t) fullShare ((dats m q 0 c).after 5 t))

set_option maxHeartbeats 800000 in
/-- The body at any point: the inputs' buffers hold their blocks; the point's remainder modulo 4 says which case it is
    in; at a point not divisible by 4 the output's buffer holds what the point before left; so that case's run
    applies, and what it leaves is the block the proof data names. The invariant passes through unread; the core owes
    nothing throughout. -/
theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before_0, before_1, before_2, before_3, before_4]
  rw [show (dats m q 0 c).Φ t.succ = (dats m q 0 c).Φ t.castSucc from rfl,
    show (dats m q 0 c).owesAt () t.succ = (dats m q 0 c).owesAt () t.castSucc from rfl,
    after_0, after_1, after_2, after_3, after_4, after_5]
  by_cases h0 : t.val % 4 = 0
  · rw [accAt_reset m c t h0]
    iintro ⟨HΦ, Ho, ⟨%d0, H0⟩, ⟨%d1, H1⟩, ⟨%d2, H2⟩, ⟨%d3, H3⟩, ⟨%d4, H4⟩, ⟨%d5, H5⟩⟩
    iapply ((runA c (grid0.coords t) _ (hs0 t) _ (hs1 t) _ (hs2 t) _ (hs3 t) _ (hs4 t) _ (hs5 t) ((hcondIb t).mpr h0)
      (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact outA_eq c (grid0.coords t) _ (hs0 t) _ (hs1 t) _ (hs2 t) _ (hs3 t) _ (hs4 t) _ (hs5 t) ((hcondIb t).mpr h0)
      (iblk m c 0 t) (iblk m c 1 t) (iblk m c 2 t) (iblk m c 3 t) (iblk m c 4 t) e5
  · rw [accAt_step m c t h0]
    simp only [before_5_step m q c t h0]
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ (hs0 t) _ (hs1 t) _ (hs2 t) _ (hs3 t) _ (hs4 t) _ (hs5 t) (fun h => h0 ((hcondIb t).mp h))
      (iblk m c 0 t) (iblk m c 1 t) (iblk m c 2 t) (iblk m c 3 t) (iblk m c 4 t)
      (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact outB_eq c (grid0.coords t) _ (hs0 t) _ (hs1 t) _ (hs2 t) _ (hs3 t) _ (hs4 t) _ (hs5 t) (fun h => h0 ((hcondIb t).mp h))
      (iblk m c 0 t) (iblk m c 1 t) (iblk m c 2 t) (iblk m c 3 t) (iblk m c 4 t)
      (accAt m c (t.val - 1) (Nat.lt_of_le_of_lt (Nat.sub_le _ _) t.isLt))

/-- The body obligation, at every point. -/
theorem body_obligation (c : Dev nD) : BodyObligation (dats (F := F) m q 0 c) (defs₀ (F := F)) Variants.none () Set.univ := fun t => by
  rw [bigSep_W0, bigSep_W0]
  exact sound_body m q c t

/-- The same in the form the pipeline's loop uses. -/
theorem body_obligation_loose (c : Dev nD) :
    Pipeline.BodyObligationLoose (dats (F := F) m q 0 c) (defs₀ (F := F)) Variants.none () Set.univ :=
  (body_obligation m q c).loose

end Cert.Kernel.Hand

end
-- ==== Proof.KbFrame.lean ====
/-
  The kernel program runs to the end from any memory, at any float instance, and leaves its arguments unchanged: the
  launch of the kernel call at the concrete proof data, with the body obligation, read at the three arguments.
-/
import proofs.«426650_j89962384982112_3_alg».proof.Proof.KbLaunch
import proofs.«426650_j89962384982112_3_alg».proof.Proof.KbBody

noncomputable section

namespace Cert.Kernel.Hand

open Idealize.ShloMosaic Idealize.ShloMosaic.TcCoe Idealize.SL.Sem Cert.Kernel Cert.Kernel.Gen

variable {F : FTy → Type} [FloatOps F]

/-- The program's run at the concrete proof data: both results at the end-of-program contents computed from what the
    kernel call left in its result array, the arguments unchanged. -/
theorem run_data (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v88) = Vend m c ((dats m qK 0 c).arrAt 5 cfg0.N) (Proc.devRef .tc main_v88)
      ∧ r.2.mem ((c.tc : Thread nD τ).loc main_v93) = Vend m c ((dats m qK 0 c).arrAt 5 cfg0.N) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ (dats m qK) (fun c w => dats_A m qK c w) (fun c => dats_q m qK c) (fun c t => dats_Φ m qK c t)
    (fun c t => dats_owed m qK c t) (fun c => body_obligation_loose m qK c)

/-- Every weakly fair execution of the kernel program ends, faults nowhere, and leaves the arguments unchanged. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := F)) _ _).mono (fun _ h c => (h c).2.2) (run_data m ρ)

end Cert.Kernel.Hand

end
-- ==== Proof.KerDefs.lean ====
import proofs.«426650_j89962384982112_3_alg».proof.Proof.Gen.KernelIdeal.Launch
import proofs.«426650_j89962384982112_3_alg».proof.Proof.Gen.KernelIdeal.Skeleton
import proofs.«426650_j89962384982112_3_alg».proof.Proof.Gen.KernelIdeal.Points
import Idealize.ShloMosaic.Lib.Pipeline.FrameSuffix

noncomputable section

namespace Cert.KernelIdeal.Hand

open Idealize.ShloMosaic Idealize.ShloMosaic.TcCoe Idealize.SL.Sem Cert.KernelIdeal Cert.KernelIdeal.Gen

variable {F : FTy → Type} [FloatOps F]

variable (m : (ℓ : Loc nD τ sig) → Buf (Elt F) ℓ)

abbrev tailOpss : List (List (HloOp τ sig (Elt F))) :=
  [hostOps1, hostOps1_1, hostOps1_2, hostOps1_3, hostOps1_4, hostOps1_5, hostOps1_6]

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

def Wexit (c : Dev nD) (O : Buf (Elt F) ((c : Thread nD τ).loc main_v45)) : Valuation τ sig (Elt F) :=
  Function.update (V0 m c) (Proc.devRef .tc main_v45) O

def Vend (c : Dev nD) (O : Buf (Elt F) ((c : Thread nD τ).loc main_v45)) : Valuation τ sig (Elt F) :=
  StableHlo.after (List.flatten (tailOpss (F := F))) (Wexit m c O)

end Cert.KernelIdeal.Hand

end
-- ==== Proof.KerOps.lean ====
import proofs.«426650_j89962384982112_3_alg».proof.Proof.KerDefs

noncomputable section

namespace Cert.KernelIdeal.Hand

open Idealize.ShloMosaic Idealize.ShloMosaic.TcCoe Idealize.SL.Sem Cert.KernelIdeal Cert.KernelIdeal.Gen

variable {F : FTy → Type} [FloatOps F]

private theorem of_flat {P : HloOp τ sig (Elt F) → Prop}
    (h : ∀ op ∈ (tailOpss (F := F)).flatten, P op) : ∀ ops ∈ (tailOpss (F := F)), ∀ op ∈ ops, P op :=
  fun ops hops op hop => h op (List.mem_flatten.mpr ⟨ops, hops, hop⟩)

theorem tail_fresh : ∀ ops ∈ (tailOpss (F := F)), ∀ op ∈ ops, op.fresh = ∅ :=
  of_flat (List.forall_iff_forall_mem.mp (by
    simp only [tailOpss, hostOps1, hostOps1_1, hostOps1_2, hostOps1_3, hostOps1_4, hostOps1_5, hostOps1_6,
      List.flatten_cons, List.flatten_nil, List.append_nil, List.cons_append, List.nil_append, List.Forall]
    repeat' constructor))

theorem tail_sub : ∀ ops ∈ (tailOpss (F := F)), ∀ op ∈ ops, op.bufs ⊆ StableHlo.tcRefs τ sig := by
  intro ops hops op hop
  simp only [tailOpss, List.mem_cons, List.not_mem_nil, or_false] at hops
  rcases hops with rfl | rfl | rfl | rfl | rfl | rfl | rfl
  · exact List.forall_iff_forall_mem.mp hostOps1_sub op hop
  · exact List.forall_iff_forall_mem.mp hostOps1_1_sub op hop
  · exact List.forall_iff_forall_mem.mp hostOps1_2_sub op hop
  · exact List.forall_iff_forall_mem.mp hostOps1_3_sub op hop
  · exact List.forall_iff_forall_mem.mp hostOps1_4_sub op hop
  · exact List.forall_iff_forall_mem.mp hostOps1_5_sub op hop
  · exact List.forall_iff_forall_mem.mp hostOps1_6_sub op hop

theorem tail_not_bufs : ∀ ops ∈ (tailOpss (F := F)), ∀ op ∈ ops,
    Proc.devRef (τ := τ) .tc main_v44 ∉ op.bufs ∧ Proc.devRef (τ := τ) .tc main_v40 ∉ op.bufs
      ∧ Proc.devRef (τ := τ) .tc main_v43 ∉ op.bufs :=
  of_flat (List.forall_iff_forall_mem.mp (by
    simp only [tailOpss, hostOps1, hostOps1_1, hostOps1_2, hostOps1_3, hostOps1_4, hostOps1_5, hostOps1_6,
      List.flatten_cons, List.flatten_nil, List.append_nil, List.cons_append, List.nil_append, List.Forall,
      StableHlo.nullary_bufs, StableHlo.unary_bufs, StableHlo.binary_bufs, StableHlo.ternary_bufs,
      StableHlo.reshape_bufs, Finset.mem_insert, Finset.mem_singleton, not_or]
    repeat' apply And.intro
    all_goals exact StableHlo.devRef_ne_of_ne (by decide)))

theorem tail_not_writes : ∀ op ∈ (tailOpss (F := F)).flatten,
    Proc.devRef (τ := τ) .tc main_v45 ∉ op.writes ∧ Proc.devRef (τ := τ) .tc main_arg0 ∉ op.writes
      ∧ Proc.devRef (τ := τ) .tc main_arg1 ∉ op.writes ∧ Proc.devRef (τ := τ) .tc main_arg2 ∉ op.writes :=
  List.forall_iff_forall_mem.mp (by
    simp only [tailOpss, hostOps1, hostOps1_1, hostOps1_2, hostOps1_3, hostOps1_4, hostOps1_5, hostOps1_6,
      List.flatten_cons, List.flatten_nil, List.append_nil, List.cons_append, List.nil_append, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide))

theorem pre_not_writes : ∀ op ∈ (hostOps0 : List (HloOp τ sig (Elt F))),
    Proc.devRef (τ := τ) .tc main_arg0 ∉ op.writes ∧ Proc.devRef (τ := τ) .tc main_arg1 ∉ op.writes
      ∧ Proc.devRef (τ := τ) .tc main_arg2 ∉ op.writes :=
  List.forall_iff_forall_mem.mp (by
    simp only [hostOps0, List.Forall,
      StableHlo.nullary_writes, StableHlo.unary_writes, StableHlo.binary_writes, StableHlo.ternary_writes,
      StableHlo.reshape_writes, Finset.mem_singleton]
    repeat' apply And.intro
    all_goals exact StableHlo.devRef_ne_of_ne (by decide))

end Cert.KernelIdeal.Hand

end
-- ==== Proof.KerRead.lean ====
import proofs.«426650_j89962384982112_3_alg».proof.Proof.KerDefs
import proofs.«426650_j89962384982112_3_alg».proof.Proof.KerOps

noncomputable section

namespace Cert.KernelIdeal.Hand

open Idealize.ShloMosaic Idealize.ShloMosaic.TcCoe Idealize.SL.Sem Cert.KernelIdeal Cert.KernelIdeal.Gen

variable {F : FTy → Type} [FloatOps F] (m : (ℓ : Loc nD τ sig) → Buf (Elt F) ℓ)

private theorem mem_rest (b : Ref sig .tc) (hs : b.isScoped = false) (ha : ∀ w : Fin 6, (spec0 w).arr.view.ref ≠ b) :
    b ∈ Pipeline.restRefsP sig Pipeline.Prefetch.none spec0 :=
  Finset.mem_sdiff.mpr ⟨Pipeline.mem_restRefs_of b hs ha, fun h => (Finset.mem_image.mp h).elim fun k _ => k.elim0⟩

theorem mem_rest_v88 : main_v88 ∈ Pipeline.restRefsP sig Pipeline.Prefetch.none spec0 := mem_rest main_v88 rfl (by decide)
theorem mem_rest_v93 : main_v93 ∈ Pipeline.restRefsP sig Pipeline.Prefetch.none spec0 := mem_rest main_v93 rfl (by decide)
theorem mem_rest_arg0 : main_arg0 ∈ Pipeline.restRefsP sig Pipeline.Prefetch.none spec0 := mem_rest main_arg0 rfl (by decide)
theorem mem_rest_arg1 : main_arg1 ∈ Pipeline.restRefsP sig Pipeline.Prefetch.none spec0 := mem_rest main_arg1 rfl (by decide)
theorem mem_rest_arg2 : main_arg2 ∈ Pipeline.restRefsP sig Pipeline.Prefetch.none spec0 := mem_rest main_arg2 rfl (by decide)

private theorem Vend_keep (c : Dev nD) (O : Buf (Elt F) ((c : Thread nD τ).loc main_v45)) (r : Ref sig .tc)
    (hne : r ≠ main_v45)
    (ht : ∀ op ∈ (tailOpss (F := F)).flatten, Proc.devRef (τ := τ) .tc r ∉ op.writes)
    (hp : ∀ op ∈ (hostOps0 : List (HloOp τ sig (Elt F))), Proc.devRef (τ := τ) .tc r ∉ op.writes) :
    Vend m c O (Proc.devRef .tc r) = m ((c.tc : Thread nD τ).loc r) := by
  unfold Vend Wexit
  rw [StableHlo.after_of_forall_not_mem _ _ ht, Function.update_of_ne (StableHlo.devRef_ne_of_ne hne)]
  show StableHlo.after (List.flatten [hostOps0]) (fun b => m (c, b)) (Proc.devRef .tc r) = _
  rw [show List.flatten [(hostOps0 : List (HloOp τ sig (Elt F)))] = hostOps0 by simp,
    StableHlo.after_of_forall_not_mem _ _ hp]

theorem Vend_arg0 (c : Dev nD) (O : Buf (Elt F) ((c : Thread nD τ).loc main_v45)) :
    Vend m c O (Proc.devRef .tc main_arg0) = m ((c.tc : Thread nD τ).loc main_arg0) :=
  Vend_keep m c O main_arg0 (by decide) (fun op h => (tail_not_writes op h).2.1) (fun op h => (pre_not_writes op h).1)

theorem Vend_arg1 (c : Dev nD) (O : Buf (Elt F) ((c : Thread nD τ).loc main_v45)) :
    Vend m c O (Proc.devRef .tc main_arg1) = m ((c.tc : Thread nD τ).loc main_arg1) :=
  Vend_keep m c O main_arg1 (by decide) (fun op h => (tail_not_writes op h).2.2.1) (fun op h => (pre_not_writes op h).2.1)

theorem Vend_arg2 (c : Dev nD) (O : Buf (Elt F) ((c : Thread nD τ).loc main_v45)) :
    Vend m c O (Proc.devRef .tc main_arg2) = m ((c.tc : Thread nD τ).loc main_arg2) :=
  Vend_keep m c O main_arg2 (by decide) (fun op h => (tail_not_writes op h).2.2.2) (fun op h => (pre_not_writes op h).2.2)

end Cert.KernelIdeal.Hand

end
-- ==== Proof.KerTailSet.lean ====
import proofs.«426650_j89962384982112_3_alg».proof.Proof.KerDefs
import proofs.«426650_j89962384982112_3_alg».proof.Proof.KerOps

noncomputable section

namespace Cert.KernelIdeal.Hand

open Idealize.ShloMosaic Idealize.ShloMosaic.TcCoe Idealize.SL.Sem Cert.KernelIdeal Cert.KernelIdeal.Gen

variable {F : FTy → Type} [FloatOps F] (m : (ℓ : Loc nD τ sig) → Buf (Elt F) ℓ)

def tailS : Finset (DevRef τ sig) :=
  (insert main_v45 (Pipeline.restRefs sig spec0)).map ⟨Proc.devRef (sig := sig) .tc, Proc.devRef_injective _⟩

private theorem arr_cases : ∀ w : Fin 6, (spec0 w).arr.view.ref = main_v44 ∨ (spec0 w).arr.view.ref = main_v40
    ∨ (spec0 w).arr.view.ref = main_v43 ∨ (spec0 w).arr.view.ref = main_v45 := by decide

theorem tail_sub_S : ∀ ops ∈ (tailOpss (F := F)), ∀ op ∈ ops, op.bufs ⊆ tailS := by
  intro ops hops op hop b hb
  have hu := Pipeline.sub_ucRefs op (tail_sub ops hops op hop) hb
  obtain ⟨hb_tc, hns⟩ := Finset.mem_filter.mp hu
  obtain ⟨r, -, rfl⟩ := Finset.mem_map.mp hb_tc
  obtain ⟨n44, n40, n43⟩ := tail_not_bufs ops hops op hop
  have hrs : r.isScoped = false := by
    cases hr : r.isScoped with
    | false => rfl
    | true => exact absurd (show (Proc.devRef (τ := τ) .tc r).isScoped = true from hr) hns
  refine Finset.mem_map.mpr ⟨r, ?_, rfl⟩
  by_cases h45 : r = main_v45
  · rw [h45]; exact Finset.mem_insert_self _ _
  · refine Finset.mem_insert_of_mem (Pipeline.mem_restRefs_of r hrs fun w hw => ?_)
    rcases arr_cases w with e | e | e | e
    · exact n44 (by rw [← e, hw]; exact hb)
    · exact n40 (by rw [← e, hw]; exact hb)
    · exact n43 (by rw [← e, hw]; exact hb)
    · exact h45 (hw.symm.trans e)

theorem Wexit_v45 (c : Dev nD) (O : Buf (Elt F) ((c : Thread nD τ).loc main_v45)) :
    Wexit m c O (Proc.devRef .tc main_v45) = O := by
  unfold Wexit
  exact Function.update_self _ _ _

theorem Wexit_rest (c : Dev nD) (O : Buf (Elt F) ((c : Thread nD τ).loc main_v45)) :
    ∀ b ∈ Pipeline.restRefs sig spec0, Wexit m c O (Proc.devRef .tc b) = V m c b := by
  intro b hb
  have hne : b ≠ main_v45 := by
    rintro rfl
    exact (Finset.mem_sdiff.mp hb).2 (Finset.mem_image.mpr ⟨5, Finset.mem_univ _, rfl⟩)
  unfold Wexit
  exact Function.update_of_ne (StableHlo.devRef_ne_of_ne hne) _ _

theorem Vend_v45 (c : Dev nD) (O : Buf (Elt F) ((c : Thread nD τ).loc main_v45)) :
    Vend m c O (Proc.devRef .tc main_v45) = O := by
  unfold Vend
  rw [StableHlo.after_of_forall_not_mem _ _ fun op hop => (tail_not_writes op hop).1]
  exact Wexit_v45 m c O

end Cert.KernelIdeal.Hand

end
-- ==== Proof.KerLaunch.lean ====
import proofs.«426650_j89962384982112_3_alg».proof.Proof.KerDefs
import proofs.«426650_j89962384982112_3_alg».proof.Proof.KerOps
import proofs.«426650_j89962384982112_3_alg».proof.Proof.KerRead
import proofs.«426650_j89962384982112_3_alg».proof.Proof.KerTailSet

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

def qK : Fin 6 → PosShare TreeShare := fun
  | 0 => fullShare.left | 1 => fullShare.right | 2 => fullShare.left | 3 => fullShare.right
  | 4 => fullShare | 5 => fullShare
  | ⟨_ + 6, h⟩ => absurd h (Nat.not_lt.2 (Nat.le_add_left _ _))

variable (m : (ℓ : Loc nD τ sig) → Buf (Elt F) ℓ)

theorem hostOps0_fresh : (hostOps0 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

theorem arrays_chain {c : Dev nD} (dat : Pipeline.Dat τ (Elt F) Unit ℕ (UR sig nD τ) ℕ cfg0 c) (hq : dat.q = qK)
    (Fw : (w : Fin cfg0.W) → Buf (Elt F) ((cfg0.win w).arr.view.loc (c.tc : Thread nD τ))) :
    (dat.arrays Fw : sProp 𝕄) = iprop(
      (((c.tc : Thread nD τ).loc main_v44) ↦{fullShare.left} Fw 0) ∗ (((c.tc : Thread nD τ).loc main_v44) ↦{fullShare.right} Fw 1)
      ∗ (((c.tc : Thread nD τ).loc main_v40) ↦{fullShare.left} Fw 2) ∗ (((c.tc : Thread nD τ).loc main_v40) ↦{fullShare.right} Fw 3)
      ∗ (((c.tc : Thread nD τ).loc main_v43) ↦{fullShare} Fw 4) ∗ (((c.tc : Thread nD τ).loc main_v45) ↦{fullShare} Fw 5)) := by
  have hs : ∀ w : Fin cfg0.W, dat.share w = qK w := by
    intro w
    unfold Pipeline.Dat.share
    rw [hq]
    fin_cases w <;> rfl
  have hE : (dat.arrays Fw : sProp 𝕄)
      = bigSep Finset.univ fun w : Fin cfg0.W => ((cfg0.win w).arr.view.loc (c.tc : Thread nD τ) ↦{qK w} Fw w : sProp 𝕄) := by
    unfold Pipeline.Dat.arrays
    exact bigSep_congr fun w _ => by rw [(arr_whole0 w).set_eq_univ, hs w]
  rw [hE, bigSep_W0]
  rfl

theorem arrBufs_chain (c : Dev nD) (Vc : (b : Ref sig .tc) → Buf (Elt F) ((c.tc : Thread nD τ).loc b)) :
    (Pipeline.arrBufs spec0 c Vc : sProp 𝕄) = iprop(
      (((c.tc : Thread nD τ).loc main_v44) ↦{fullShare} Vc main_v44) ∗ (((c.tc : Thread nD τ).loc main_v40) ↦{fullShare} Vc main_v40)
      ∗ (((c.tc : Thread nD τ).loc main_v43) ↦{fullShare} Vc main_v43) ∗ (((c.tc : Thread nD τ).loc main_v45) ↦{fullShare} Vc main_v45)) := by
  unfold Pipeline.arrBufs
  rw [show (Finset.univ.image (Pipeline.arrRef spec0) : Finset (Ref sig .tc)) = {main_v44, main_v40, main_v43, main_v45} from by decide,
    bigSep_insert (by decide), bigSep_insert (by decide), bigSep_insert (by decide), bigSep_singleton]
  rfl

theorem hsplit (dats : (p : Fin 1) → (c : Dev nD) → Pipeline.Dat τ (Elt F) Unit ℕ (UR sig nD τ) ℕ (cfgs p) c)
    (hA : ∀ c w, (dats 0 c).A w = V m c (Pipeline.arrRef spec0 w)) (hq : ∀ c, (dats 0 c).q = qK) (c : Dev nD) :
    (Pipeline.arrBufs spec0 c (V m c) : sProp 𝕄) ⊢ (dats 0 c).arrays ((dats 0 c).arrAt · 0) := by
  have hF : ((dats 0 c).arrAt · 0) = fun w => V m c (Pipeline.arrRef spec0 w) := funext fun w => hA c w
  rw [hF, arrBufs_chain, arrays_chain (dats 0 c) (hq c)]
  iintro ⟨H44, H40, H43, H45⟩
  ihave H44' := (pointsTo_share (PosShare.mem_left_op_right fullShare)).1 $$ H44
  ihave H40' := (pointsTo_share (PosShare.mem_left_op_right fullShare)).1 $$ H40
  icases H44' with ⟨H0, H1⟩
  icases H40' with ⟨H2, H3⟩
  isplitl [H0]; · iexact H0
  isplitl [H1]; · iexact H1
  isplitl [H2]; · iexact H2
  isplitl [H3]; · iexact H3
  isplitl [H43]; · iexact H43
  iexact H45

abbrev Oexit (dats : (p : Fin 1) → (c : Dev nD) → Pipeline.Dat τ (Elt F) Unit ℕ (UR sig nD τ) ℕ (cfgs p) c) (c : Dev nD) :
    Buf (Elt F) ((c : Thread nD τ).loc main_v45) := (dats 0 c).arrAt 5 cfg0.N

theorem held_tailS (c : Dev nD) (W : Valuation τ sig (Elt F)) :
    (StableHlo.held (c.tc : Thread nD τ) tailS W : sProp 𝕄)
      = iprop((((c.tc : Thread nD τ).loc main_v45) ↦{fullShare} W (Proc.devRef .tc main_v45))
          ∗ Pipeline.unscopedRestP Pipeline.Prefetch.none spec0 c (fun b => W (Proc.devRef .tc b))) := by
  have hnot : main_v45 ∉ Pipeline.restRefs sig spec0 := fun h =>
    (Finset.mem_sdiff.mp h).2 (Finset.mem_image.mpr ⟨5, Finset.mem_univ _, rfl⟩)
  unfold StableHlo.held tailS
  rw [bigSep_map, bigSep_insert hnot, Pipeline.unscopedRestP_none]
  rfl

set_option backward.isDefEq.respectTransparency.types false in
set_option maxHeartbeats 2000000 in

theorem htail (dats : (p : Fin 1) → (c : Dev nD) → Pipeline.Dat τ (Elt F) Unit ℕ (UR sig nD τ) ℕ (cfgs p) c)
    (hq : ∀ c, (dats 0 c).q = qK) (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c
                  (fun b => Vend m c (Oexit dats c) (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ((tailOpss (F := F)).map StableHlo.seq)) Q' := by
  have hW : (StableHlo.held (c.tc : Thread nD τ) tailS (Wexit m c (Oexit dats c)) : sProp 𝕄)
      = iprop((((c.tc : Thread nD τ).loc main_v45) ↦{fullShare} Oexit dats c)
          ∗ Pipeline.unscopedRestP Pipeline.Prefetch.none spec0 c (V m c)) := by
    have hR : (Pipeline.unscopedRestP Pipeline.Prefetch.none spec0 c (fun b => Wexit m c (Oexit dats c) (Proc.devRef .tc b)) : sProp 𝕄)
        = Pipeline.unscopedRestP Pipeline.Prefetch.none spec0 c (V m c) := by
      unfold Pipeline.unscopedRestP
      exact bigSep_congr fun b hb => by beta_reduce; rw [Wexit_rest m c _ b (Finset.mem_sdiff.mp hb).1]
    rw [held_tailS, Wexit_v45, hR]
  have hW' : (StableHlo.held (c.tc : Thread nD τ) tailS (StableHlo.after (tailOpss (F := F)).flatten (Wexit m c (Oexit dats c))) : sProp 𝕄)
      = iprop((((c.tc : Thread nD τ).loc main_v45) ↦{fullShare} Oexit dats c)
          ∗ Pipeline.unscopedRestP Pipeline.Prefetch.none spec0 c (fun b => Vend m c (Oexit dats c) (Proc.devRef .tc b))) := by
    rw [show StableHlo.after (tailOpss (F := F)).flatten (Wexit m c (Oexit dats c)) = Vend m c (Oexit dats c) from rfl, held_tailS, Vend_v45]
  rw [arrays_chain (dats 0 c) (hq c), ← List.append_nil ((tailOpss (F := F)).map StableHlo.seq)]
  iintro ⟨Hk, Hb, ⟨H0, H1, H2, H3, H4, H5⟩, HZ⟩
  ihave Hheld := (show iprop((((c.tc : Thread nD τ).loc main_v45) ↦{fullShare} Oexit dats c)
          ∗ Pipeline.unscopedRestP Pipeline.Prefetch.none spec0 c (V m c)) ⊢ (StableHlo.held (c.tc : Thread nD τ) tailS (Wexit m c (Oexit dats c)) : sProp 𝕄)
        from Entails.of_eq hW.symm) $$ [H5 HZ]
  · isplitl [H5] <;> iassumption
  iapply (Pipeline.wp_seqs_then (fun q => (cfgs q).toPCfg (Val := Elt F)) defs₀ Variants.none c tailS [] (tailOpss (F := F)) tail_sub_S tail_fresh
    (Wexit m c (Oexit dats c))) $$ [Hb Hheld]
  · isplitl [Hb] <;> iassumption
  iintro Hb
  rw [Pipeline.chain_nil, wp_pure, hW']
  imodintro
  iapply Hk
  icases Hb with ⟨-, H5, HZ⟩
  isplitr [HZ]
  · isplitl [H0]; · iexact H0
    isplitl [H1]; · iexact H1
    isplitl [H2]; · iexact H2
    isplitl [H3]; · iexact H3
    isplitl [H4]; · iexact H4
    iexact H5
  · iexact HZ

theorem run_main (ρ : Dev nD → PrngReg)
    (dats : (p : Fin 1) → (c : Dev nD) → Pipeline.Dat τ (Elt F) Unit ℕ (UR sig nD τ) ℕ (cfgs p) c)
    (hA : ∀ c w, (dats 0 c).A w = V m c (Pipeline.arrRef spec0 w))
    (hq : ∀ c, (dats 0 c).q = qK)
    (hΦ : ∀ c t, (dats 0 c).Φ t = Pipeline.ΦA spec0 c)
    (howed : ∀ c t, (dats 0 c).owed t = 0)
    (hbody : ∀ c, Pipeline.BodyObligationLoose (dats 0 c) defs₀ Variants.none () Set.univ) :
    θ_run defs (onTc (τ := τ) (main (F := F))) ⟨m, fun _ => 0, ρ⟩ (fun r => ∀ c : Dev nD,
      r.2.mem ((c.tc : Thread nD τ).loc main_v88) = Vend m c ((dats 0 c).arrAt 5 cfg0.N) (Proc.devRef .tc main_v88)
      ∧ r.2.mem ((c.tc : Thread nD τ).loc main_v93) = Vend m c ((dats 0 c).arrAt 5 cfg0.N) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_region_pf_tail (fun q => (cfgs q).toPCfg (Val := Elt F)) (fun q => (cfgs q).toPCfg_adm) dats ()
    cellOf_inj 0 winFacts₀0 (Pipeline.OwnSemFacts.none spec0) (Pipeline.PreFacts.none _) emb₁ defs₀ Variants.none m ρ main
    (fun _ => Pipeline.chain ((tailOpss (F := F)).map StableHlo.seq)) hbody block_pos0 arr_whole0 stage_whole0 howed
    (G := fun _ => iprop(emp))
    (u₀ := initOf (Pipeline.cells cfgs cellOf_inj) (Pipeline.launchToks cfgs cellOf_inj))
    (hu₀ := ?hu₀)
    (V := V m) (hmain := ?hmain)
    (hsplit := ?hsplit)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => Vend m c (Oexit dats c) (Proc.devRef .tc b)))
    (hX := ?hX)
    (hin := ?hin)
    (hout := ?hout)
    (htail := ?htail)
    (QY := fun c s => ∀ b ∈ Pipeline.restRefsP sig Pipeline.Prefetch.none spec0,
      s.mem ((c.tc : Thread nD τ).loc b) = Vend m c (Oexit dats c) (Proc.devRef .tc b))
    (hY := ?hY)
    (hQ := ?hQ)
  case hu₀ =>
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  case hmain => intro c Q; have h := hmain (F := F) m Variants.none c Q; beta_reduce at h ⊢; exact h
  case hsplit => exact hsplit m dats hA hq
  case hX =>
    intro c
    iintro ⟨HU, -, -, -, Hp, -⟩; imodintro
    isplitl [Hp]; · iexists _; iexact Hp
    iexact HU
  case hin =>
    intro c
    rw [hΦ]; unfold Pipeline.ΦA
    iintro ⟨Hp, -, Hr⟩
    isplitl [Hr] <;> iassumption
  case hout =>
    intro c
    rw [hΦ, Pipeline.ownSems0_none]; unfold Pipeline.ΦA
    iintro ⟨Hr, Hp⟩
    isplitl [Hp]; · iexact Hp
    isplitr; · iempintro
    iexact Hr
  case htail => exact htail m dats hq
  case hY =>
    intro c s'
    iintro ⟨-, HU, HSI⟩
    unfold Pipeline.unscopedRestP
    imodintro
    iapply (pointsTo_read_all (Pipeline.restRefsP sig Pipeline.Prefetch.none spec0) (fun b => (c.tc : Thread nD τ).loc b)
      (fun b => Vend m c (Oexit dats c) (Proc.devRef .tc b)) s')
    isplitl [HU] <;> iassumption
  case hQ =>
    intro s h c
    exact ⟨(h c).2.2 main_v88 mem_rest_v88, (h c).2.2 main_v93 mem_rest_v93,
      ((h c).2.2 main_arg0 mem_rest_arg0).trans (Vend_arg0 m c _),
      ((h c).2.2 main_arg1 mem_rest_arg1).trans (Vend_arg1 m c _),
      ((h c).2.2 main_arg2 mem_rest_arg2).trans (Vend_arg2 m c _)⟩

end Cert.KernelIdeal.Hand

end
-- ==== Proof.KerDat.lean ====
import proofs.«426650_j89962384982112_3_alg».proof.Proof.KerDefs
import Idealize.ShloMosaic.Lib.Pipeline.FrameBody
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev condIb (i : grid0.Coords) : Prop := (Scalar.cmpi .ne (Scalar.extui (Scalar.cmpi .eq (BitVec.ofNat 32 (i 1).val) 0#32)) 0#32) = 1#1

theorem hcondIb : ∀ t : Fin cfg0.N, condIb (grid0.coords t) ↔ t.val % 4 = 0 :=
  (by decide +kernel : ∀ t : Fin grid0.N, condIb (grid0.coords t) ↔ t.val % 4 = 0)

abbrev ld3 (x0 : Vec F S512x128 .bf16) : Vec F S512x128 .bf16 :=
  View.ld (Val := Elt F) (e' := .bf16) x0 (Rect.unit (s := S512x128) ![0, 0] S512x128.size inb_S512x128_S512x128_0_0)
abbrev ld5 (x1 : Vec F S1024x128 .bf16) : Vec F S1024x128 .bf16 :=
  View.ld (Val := Elt F) (e' := .bf16) x1 (Rect.unit (s := S1024x128) ![0, 0] S1024x128.size inb_S1024x128_S1024x128_0_0)
abbrev ld9 (x2 : Vec F S512x16 .f32) : Vec F S512x1 .f32 :=
  View.ld (Val := Elt F) (e' := .f32) x2 (Rect.unit (s := S512x16) ![0, 0] S512x1.size inb_S512x16_S512x1_0_0)
abbrev ld11 (x2 : Vec F S512x16 .f32) : Vec F S512x1 .f32 :=
  View.ld (Val := Elt F) (e' := .f32) x2 (Rect.unit (s := S512x16) ![0, 2] S512x1.size inb_S512x16_S512x1_0_2)
abbrev ld13 (x2 : Vec F S512x16 .f32) : Vec F S512x10 .f32 :=
  View.ld (Val := Elt F) (e' := .f32) x2 (Rect.unit (s := S512x16) ![0, 3] S512x10.size inb_S512x16_S512x10_0_3)
abbrev ld15 (x4 : Vec F S8x1024 .f32) : Vec F S1x1024 .f32 :=
  View.ld (Val := Elt F) (e' := .f32) x4 (Rect.unit (s := S8x1024) ![0, 0] S1x1024.size inb_S8x1024_S1x1024_0_0)
abbrev ld32 (x3 : Vec F S1024x16 .f32) : Vec F S1024x1 .f32 :=
  View.ld (Val := Elt F) (e' := .f32) x3 (Rect.unit (s := S1024x16) ![0, 2] S1024x1.size inb_S1024x16_S1024x1_0_2)
abbrev ld34 (x3 : Vec F S1024x16 .f32) : Vec F S1024x1 .f32 :=
  View.ld (Val := Elt F) (e' := .f32) x3 (Rect.unit (s := S1024x16) ![0, 1] S1024x1.size inb_S1024x16_S1024x1_0_1)
abbrev ld36 (x3 : Vec F S1024x16 .f32) : Vec F S1024x10 .f32 :=
  View.ld (Val := Elt F) (e' := .f32) x3 (Rect.unit (s := S1024x16) ![0, 3] S1024x10.size inb_S1024x16_S1024x10_0_3)

abbrev rowPay0 (x0 : Vec F S512x128 .bf16) (x1 : Vec F S1024x128 .bf16) (x2 : Vec F S512x16 .f32) (x3 : Vec F S1024x16 .f32)
    (x4 : Vec F S8x1024 .f32) : FVec F S1x10 .f32 :=
  k0_pay12 (k0_pay4 (ld11 x2)) (k0_pay5 (ld13 x2)) (k0_pay6 (ld3 x0) (ld5 x1) (ld9 x2) (ld15 x4))
    (k0_pay7 (ld3 x0) (ld5 x1) (ld9 x2) (ld15 x4)) (k0_pay8 (ld32 x3)) (ld34 x3) (ld36 x3)

abbrev rowPay1 (x0 : Vec F S512x128 .bf16) (x1 : Vec F S1024x128 .bf16) (x2 : Vec F S512x16 .f32) (x3 : Vec F S1024x16 .f32)
    (x4 : Vec F S8x1024 .f32) : FVec F S1x10 .f32 :=
  k0_pay13 (k0_pay4 (ld11 x2)) (k0_pay5 (ld13 x2)) (k0_pay6 (ld3 x0) (ld5 x1) (ld9 x2) (ld15 x4))
    (k0_pay7 (ld3 x0) (ld5 x1) (ld9 x2) (ld15 x4)) (k0_pay8 (ld32 x3)) (ld34 x3) (ld36 x3)

abbrev rect0 : Rect S1x2x128 := Rect.unit (s := S1x2x128) ![0, 0, 0] S1x1x10.size inb_S1x2x128_S1x1x10_0_0_0
abbrev rect1 : Rect S1x2x128 := Rect.unit (s := S1x2x128) ![0, 1, 0] S1x1x10.size inb_S1x2x128_S1x1x10_0_1_0

def rowPieces (xo : Vec F S1x2x128 .f32) (p0 p1 : FVec F S1x10 .f32) : List (View.Piece (Elt F) S1x2x128 .f32) :=
  [⟨rect1, k0_pay2 p1 (View.ld (Val := Elt F) (e' := .f32) xo rect1)⟩, ⟨rect0, k0_pay1 p0 (View.ld (Val := Elt F) (e' := .f32) xo rect0)⟩]

def accNext (xo : Vec F S1x2x128 .f32) (p0 p1 : FVec F S1x10 .f32) : Vec F S1x2x128 .f32 := fun y =>
  if h : (y 2).val < 10 then
    if (y 1).val = 0 then k0_pay1 p0 (View.ld (Val := Elt F) (e' := .f32) xo rect0) (ix3 (0 : Fin 1) (0 : Fin 1) (⟨(y 2).val, h⟩ : Fin 10))
    else k0_pay2 p1 (View.ld (Val := Elt F) (e' := .f32) xo rect1) (ix3 (0 : Fin 1) (0 : Fin 1) (⟨(y 2).val, h⟩ : Fin 10))
  else xo y

theorem read_rowPieces {sig' : RefSig} {κ : Kind} {sp : Space} (v : View sig' κ sp S1x2x128 .f32) (f : v.ty.Contents (Elt F))
    (p0 p1 : FVec F S1x10 .f32) :
    v.read (Elt F) (v.writes (Elt F) f (rowPieces (v.read (Elt F) f) p0 p1)) = accNext (v.read (Elt F) f) p0 p1 := by
  funext y
  have hy0 : (y 0).val < 1 := (y 0).isLt
  have hy1 : (y 1).val < 2 := (y 1).isLt
  have hy2 : (y 2).val < 128 := (y 2).isLt
  unfold rowPieces accNext
  by_cases h : (y 2).val < 10
  · rw [dif_pos h]
    by_cases hr : (y 1).val = 0
    · rw [if_pos hr]
      rw [View.read_writes_cons_unit_of_not_mem v f inb_S1x2x128_S1x1x10_0_1_0 _ _ y rfl (1 : Fin 3) (Or.inl (by show (y 1).val < 1; omega))]
      exact View.read_writes_cons_unit_of_mem v f inb_S1x2x128_S1x1x10_0_0_0 _ _ y (ix3 (0 : Fin 1) (0 : Fin 1) (⟨(y 2).val, h⟩ : Fin 10)) rfl
        (fun a => match a with
          | ⟨0, _⟩ => by show (y 0).val = 0 + 0; omega
          | ⟨1, _⟩ => by show (y 1).val = 0 + 0; omega
          | ⟨2, _⟩ => by show (y 2).val = 0 + (y 2).val; omega)
    · rw [if_neg hr]
      exact View.read_writes_cons_unit_of_mem v f inb_S1x2x128_S1x1x10_0_1_0 _ _ y (ix3 (0 : Fin 1) (0 : Fin 1) (⟨(y 2).val, h⟩ : Fin 10)) rfl
        (fun a => match a with
          | ⟨0, _⟩ => by show (y 0).val = 0 + 0; omega
          | ⟨1, _⟩ => by show (y 1).val = 1 + 0; omega
          | ⟨2, _⟩ => by show (y 2).val = 0 + (y 2).val; omega)
  · rw [dif_neg h]
    rw [View.read_writes_cons_unit_of_not_mem v f inb_S1x2x128_S1x1x10_0_1_0 _ _ y rfl (2 : Fin 3) (Or.inr (by show 0 + 10 ≤ (y 2).val; omega)),
      View.read_writes_cons_unit_of_not_mem v f inb_S1x2x128_S1x1x10_0_0_0 _ _ y rfl (2 : Fin 3) (Or.inr (by show 0 + 10 ≤ (y 2).val; omega))]
    rfl

abbrev blk0 (c : Dev nD) (t : Fin cfg0.N) : Vec F S512x128 .bf16 := iblk m c 0 t
abbrev blk1 (c : Dev nD) (t : Fin cfg0.N) : Vec F S1024x128 .bf16 := iblk m c 1 t
abbrev blk2 (c : Dev nD) (t : Fin cfg0.N) : Vec F S512x16 .f32 := iblk m c 2 t
abbrev blk3 (c : Dev nD) (t : Fin cfg0.N) : Vec F S1024x16 .f32 := iblk m c 3 t
abbrev blk4 (c : Dev nD) (t : Fin cfg0.N) : Vec F S8x1024 .f32 := iblk m c 4 t

abbrev pay0At (c : Dev nD) (t : Fin cfg0.N) : FVec F S1x10 .f32 :=
  rowPay0 (blk0 m c t) (blk1 m c t) (blk2 m c t) (blk3 m c t) (blk4 m c t)
abbrev pay1At (c : Dev nD) (t : Fin cfg0.N) : FVec F S1x10 .f32 :=
  rowPay1 (blk0 m c t) (blk1 m c t) (blk2 m c t) (blk3 m c t) (blk4 m c t)

abbrev zeroBlk : Vec F S1x2x128 .f32 := k0_pay3 (F := F)

def accAt (c : Dev nD) : (n : ℕ) → n < cfg0.N → Vec F S1x2x128 .f32
  | 0, hn => accNext zeroBlk (pay0At m c ⟨0, hn⟩) (pay1At m c ⟨0, hn⟩)
  | n + 1, hn =>
    if (n + 1) % 4 = 0 then accNext zeroBlk (pay0At m c ⟨n + 1, hn⟩) (pay1At m c ⟨n + 1, hn⟩)
    else accNext (accAt c n (Nat.lt_of_succ_lt hn)) (pay0At m c ⟨n + 1, hn⟩) (pay1At m c ⟨n + 1, hn⟩)

theorem accAt_reset (c : Dev nD) (t : Fin cfg0.N) (h0 : t.val % 4 = 0) :
    accAt m c t.val t.isLt = accNext zeroBlk (pay0At m c t) (pay1At m c t) := by
  obtain ⟨n, hn⟩ := t
  cases n with
  | zero => rfl
  | succ n => exact (if_pos h0).trans rfl

theorem accAt_step (c : Dev nD) (t : Fin cfg0.N) (h0 : ¬t.val % 4 = 0) :
    accAt m c t.val t.isLt = accNext (accAt m c (t.val - 1) (Nat.lt_of_le_of_lt (Nat.sub_le _ _) t.isLt)) (pay0At m c t) (pay1At m c t) := by
  obtain ⟨n, hn⟩ := t
  cases n with
  | zero => exact (by exfalso; (try dsimp only at h0); exact absurd (Nat.zero_mod _) h0)
  | succ n => exact (if_neg h0).trans rfl

def dats (q : Fin cfg0.W → PosShare TreeShare) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Pipeline.ΦA spec0 c
  q := q
  owed _ := 0

variable (q : Fin cfg0.W → PosShare TreeShare)

theorem dats_A (c : Dev nD) (w : Fin cfg0.W) : (dats m q 0 c).A w = V m c (Pipeline.arrRef spec0 w) := by
  dsimp only [dats]
theorem dats_q (c : Dev nD) : (dats m q 0 c).q = q := rfl
theorem dats_Φ (c : Dev nD) (t : Fin (cfg0.N + 1)) : (dats m q 0 c).Φ t = Pipeline.ΦA spec0 c := rfl
theorem dats_owed (c : Dev nD) (t : Fin (cfg0.N + 1)) : (dats m q 0 c).owed t = 0 := rfl

theorem after_0 (c : Dev nD) (t : Fin cfg0.N) : (dats m q 0 c).after 0 t = iblk m c 0 t := by dsimp only [dats]
theorem after_1 (c : Dev nD) (t : Fin cfg0.N) : (dats m q 0 c).after 1 t = iblk m c 1 t := by dsimp only [dats]
theorem after_2 (c : Dev nD) (t : Fin cfg0.N) : (dats m q 0 c).after 2 t = iblk m c 2 t := by dsimp only [dats]
theorem after_3 (c : Dev nD) (t : Fin cfg0.N) : (dats m q 0 c).after 3 t = iblk m c 3 t := by dsimp only [dats]
theorem after_4 (c : Dev nD) (t : Fin cfg0.N) : (dats m q 0 c).after 4 t = iblk m c 4 t := by dsimp only [dats]
theorem after_5 (c : Dev nD) (t : Fin cfg0.N) : (dats m q 0 c).after 5 t = accAt m c t.val t.isLt := by dsimp only [dats]

end Cert.KernelIdeal.Hand

end
-- ==== Proof.KerBodyA.lean ====
import proofs.«426650_j89962384982112_3_alg».proof.Proof.KerDat
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev rectW : Rect S1x2x128 := Rect.unit (s := S1x2x128) ![0, 0, 0] S1x2x128.size inb_S1x2x128_S1x2x128_0_0_0

theorem read_reset {sig' : RefSig} {κ : Kind} {sp : Space} (v : View sig' κ sp S1x2x128 .f32) (f : v.ty.Contents (Elt F)) :
    v.read (Elt F) (v.writes (Elt F) f [⟨rectW, zeroBlk (F := F)⟩]) = zeroBlk (F := F) := by
  funext y
  exact View.read_writes_cons_unit_of_mem v f inb_S1x2x128_S1x2x128_0_0_0 _ _ y y rfl
    (fun a => match a with
      | ⟨0, _⟩ => by show (y 0).val = 0 + (y 0).val; omega
      | ⟨1, _⟩ => by show (y 1).val = 0 + (y 1).val; omega
      | ⟨2, _⟩ => by show (y 2).val = 0 + (y 2).val; omega)

theorem readCov_reset {sig' : RefSig} {κ : Kind} {sp : Space} (v : View sig' κ sp S1x2x128 .f32) (r : Rect S1x2x128) :
    v.readCov [(⟨rectW, zeroBlk (F := F)⟩ : View.Piece (Elt F) S1x2x128 .f32)] r.toLoadRect
      = View.ld (Val := Elt F) (e' := .f32) (zeroBlk (F := F)) r := by
  unfold View.readCov
  rw [View.readAt_eq_ld, read_reset]

theorem readCov_row1 {sig' : RefSig} {κ : Kind} {sp : Space} (v : View sig' κ sp S1x2x128 .f32)
    (w : rect0.shape.Idx → Elt F .f32) (L : List (View.Piece (Elt F) S1x2x128 .f32)) :
    v.readCov ((⟨rect0, w⟩ : View.Piece (Elt F) S1x2x128 .f32) :: L) rect1.toLoadRect = v.readCov L rect1.toLoadRect := by
  funext x
  unfold View.readCov
  rw [View.readAt_apply, View.readAt_apply]
  exact View.read_writes_cons_unit_of_not_mem v _ inb_S1x2x128_S1x1x10_0_0_0 w L _ rfl (1 : Fin 3)
    (Or.inr (by show 0 + 1 ≤ 1 + 1 * (x 1).val; omega))

set_option maxHeartbeats 1000000 in

noncomputable def runA (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : condIb i)
    (x0 : Vec F S512x128 .bf16) (x1 : Vec F S1024x128 .bf16) (x2 : Vec F S512x16 .f32) (x3 : Vec F S1024x16 .f32) (x4 : Vec F S8x1024 .f32) :
    { L : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun E K => ?run⟩
  case run =>
    simp only [cc0__pair_kernel_eq_skeleton]; unfold cc0__pair_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

theorem outA_eq (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : condIb i)
    (x0 : Vec F S512x128 .bf16) (x1 : Vec F S1024x128 .bf16) (x2 : Vec F S512x16 .f32) (x3 : Vec F S1024x16 .f32) (x4 : Vec F S8x1024 .f32)
    (f : arg7.view.ty.Contents (Elt F)) :
    arg7.view.read (Elt F) (arg7.view.writes (Elt F) f
        (runA c i arg2 harg2 arg3 harg3 arg4 harg4 arg5 harg5 arg6 harg6 arg7 harg7 hc0 x0 x1 x2 x3 x4).1)
      = accNext (zeroBlk (F := F)) (rowPay0 x0 x1 x2 x3 x4) (rowPay1 x0 x1 x2 x3 x4) := by
  have h := read_rowPieces arg7.view (arg7.view.writes (Elt F) f [⟨rectW, zeroBlk (F := F)⟩]) (rowPay0 x0 x1 x2 x3 x4) (rowPay1 x0 x1 x2 x3 x4)
  rw [read_reset] at h
  rw [← h]
  unfold runA
  dsimp only
  sl_unfold_words
  unfold rowPieces
  simp only [View.readAt_eq_ld, harg2.read_unread, harg3.read_unread, harg4.read_unread, harg5.read_unread, harg6.read_unread]
  rw [readCov_row1, readCov_reset, readCov_reset]
  rfl

end Cert.KernelIdeal.Hand

end
-- ==== Proof.KerBodyB.lean ====
import proofs.«426650_j89962384982112_3_alg».proof.Proof.KerBodyA
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in

noncomputable def runB (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : ¬condIb i)
    (x0 : Vec F S512x128 .bf16) (x1 : Vec F S1024x128 .bf16) (x2 : Vec F S512x16 .f32) (x3 : Vec F S1024x16 .f32) (x4 : Vec F S8x1024 .f32)
    (xo : Vec F S1x2x128 .f32) :
    { L : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (arg7.view.loc (c : Thread nD τ) ↦[arg7.view.set]{fullShare} arg7.view.writes (Elt F) (harg7.unread xo) L)) -∗ K ⟨⟩))
          ⊢ wp frame (wpE (defs₀ (F := F)) Variants.none c none) E (cc0__pair_kernel i arg2 harg2 arg3 harg3 arg4 harg4 arg5 harg5 arg6 harg6 arg7 harg7) K } := by
  refine ⟨?_, fun E K => ?run⟩
  case run =>
    simp only [cc0__pair_kernel_eq_skeleton]; unfold cc0__pair_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact H5

theorem outB_eq (c : Dev nD) (i : grid0.Coords)
    (arg2 : Memref sig .tc .vmem S512x128 .bf16) (harg2 : arg2.IsWhole) (arg3 : Memref sig .tc .vmem S1024x128 .bf16) (harg3 : arg3.IsWhole)
    (arg4 : Memref sig .tc .vmem S512x16 .f32) (harg4 : arg4.IsWhole) (arg5 : Memref sig .tc .vmem S1024x16 .f32) (harg5 : arg5.IsWhole)
    (arg6 : Memref sig .tc .vmem S8x1024 .f32) (harg6 : arg6.IsWhole) (arg7 : Memref sig .tc .vmem S1x2x128 .f32) (harg7 : arg7.IsWhole)
    (hc0 : ¬condIb i)
    (x0 : Vec F S512x128 .bf16) (x1 : Vec F S1024x128 .bf16) (x2 : Vec F S512x16 .f32) (x3 : Vec F S1024x16 .f32) (x4 : Vec F S8x1024 .f32)
    (xo : Vec F S1x2x128 .f32) :
    arg7.view.read (Elt F) (arg7.view.writes (Elt F) (harg7.unread xo)
        (runB c i arg2 harg2 arg3 harg3 arg4 harg4 arg5 harg5 arg6 harg6 arg7 harg7 hc0 x0 x1 x2 x3 x4 xo).1)
      = accNext xo (rowPay0 x0 x1 x2 x3 x4) (rowPay1 x0 x1 x2 x3 x4) := by
  have h := read_rowPieces arg7.view (harg7.unread xo) (rowPay0 x0 x1 x2 x3 x4) (rowPay1 x0 x1 x2 x3 x4)
  rw [harg7.read_unread] at h
  rw [← h]
  unfold runB
  dsimp only
  sl_unfold_words
  unfold rowPieces
  simp only [View.readAt_eq_ld, harg2.read_unread, harg3.read_unread, harg4.read_unread, harg5.read_unread, harg6.read_unread,
    harg7.read_unread]

end Cert.KernelIdeal.Hand

end
-- ==== Proof.KerBody.lean ====
import proofs.«426650_j89962384982112_3_alg».proof.Proof.KerBodyB
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (q : Fin cfg0.W → PosShare TreeShare)

abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2x128 .f32 := win0_5.stage (cfg0.slots t 5)
abbrev hs5 (t : Fin cfg0.N) : (ms5 t).IsWhole := hstage0_5 ((cfg0.slots t 5).cast nbuf0_5)

theorem before_0 (c : Dev nD) (t : Fin cfg0.N) (d) : (dats m q 0 c).before 0 t d = iblk m c 0 t :=
  ((dats m q 0 c).before_in_eq_fetched 0 rfl (fun _ => rfl) (fun _ _ _ => rfl)
    (fun t => by rw [after_0]; unfold Dat.blockOf iblk; rw [dats_A]; try rfl) t d).trans
    (by unfold Dat.fetched Dat.blockOf iblk; rw [dats_A]; try rfl)
theorem before_1 (c : Dev nD) (t : Fin cfg0.N) (d) : (dats m q 0 c).before 1 t d = iblk m c 1 t :=
  ((dats m q 0 c).before_in_eq_fetched 1 rfl (fun _ => rfl) (fun _ _ _ => rfl)
    (fun t => by rw [after_1]; unfold Dat.blockOf iblk; rw [dats_A]; try rfl) t d).trans
    (by unfold Dat.fetched Dat.blockOf iblk; rw [dats_A]; try rfl)
theorem before_2 (c : Dev nD) (t : Fin cfg0.N) (d) : (dats m q 0 c).before 2 t d = iblk m c 2 t :=
  ((dats m q 0 c).before_in_eq_fetched 2 rfl (fun _ => rfl) (fun _ _ _ => rfl)
    (fun t => by rw [after_2]; unfold Dat.blockOf iblk; rw [dats_A]; try rfl) t d).trans
    (by unfold Dat.fetched Dat.blockOf iblk; rw [dats_A]; try rfl)
theorem before_3 (c : Dev nD) (t : Fin cfg0.N) (d) : (dats m q 0 c).before 3 t d = iblk m c 3 t :=
  ((dats m q 0 c).before_in_eq_fetched 3 rfl (fun _ => rfl) (fun _ _ _ => rfl)
    (fun t => by rw [after_3]; unfold Dat.blockOf iblk; rw [dats_A]; try rfl) t d).trans
    (by unfold Dat.fetched Dat.blockOf iblk; rw [dats_A]; try rfl)
theorem before_4 (c : Dev nD) (t : Fin cfg0.N) (d) : (dats m q 0 c).before 4 t d = iblk m c 4 t :=
  ((dats m q 0 c).before_in_eq_fetched 4 rfl (fun _ => rfl) (fun _ _ _ => rfl)
    (fun t => by rw [after_4]; unfold Dat.blockOf iblk; rw [dats_A]; try rfl) t d).trans
    (by unfold Dat.fetched Dat.blockOf iblk; rw [dats_A]; try rfl)

theorem before_5_step (c : Dev nD) (t : Fin cfg0.N) (h0 : ¬t.val % 4 = 0) (d) :
    (dats m q 0 c).before 5 t d = accAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m q 0 c).Φ t.castSucc ∗ (dats m q 0 c).owesAt () t.castSucc
    ∗ (∃ d, owns (c : Thread nD τ) (ms0 t) fullShare ((dats m q 0 c).before 0 t d))
    ∗ (∃ d, owns (c : Thread nD τ) (ms1 t) fullShare ((dats m q 0 c).before 1 t d))
    ∗ (∃ d, owns (c : Thread nD τ) (ms2 t) fullShare ((dats m q 0 c).before 2 t d))
    ∗ (∃ d, owns (c : Thread nD τ) (ms3 t) fullShare ((dats m q 0 c).before 3 t d))
    ∗ (∃ d, owns (c : Thread nD τ) (ms4 t) fullShare ((dats m q 0 c).before 4 t d))
    ∗ (∃ d, owns (c : Thread nD τ) (ms5 t) fullShare ((dats m q 0 c).before 5 t d)))

def bodyPost (c : Dev nD) (t : Fin cfg0.N) : sProp 𝕄 :=
  iprop((dats m q 0 c).Φ t.succ ∗ (dats m q 0 c).owesAt () t.succ
    ∗ owns (c : Thread nD τ) (ms0 t) fullShare ((dats m q 0 c).after 0 t)
    ∗ owns (c : Thread nD τ) (ms1 t) fullShare ((dats m q 0 c).after 1 t)
    ∗ owns (c : Thread nD τ) (ms2 t) fullShare ((dats m q 0 c).after 2 t)
    ∗ owns (c : Thread nD τ) (ms3 t) fullShare ((dats m q 0 c).after 3 t)
    ∗ owns (c : Thread nD τ) (ms4 t) fullShare ((dats m q 0 c).after 4 t)
    ∗ owns (c : Thread nD τ) (ms5 t) fullShare ((dats m q 0 c).after 5 t))

set_option maxHeartbeats 800000 in

theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before_0, before_1, before_2, before_3, before_4]
  rw [show (dats m q 0 c).Φ t.succ = (dats m q 0 c).Φ t.castSucc from rfl,
    show (dats m q 0 c).owesAt () t.succ = (dats m q 0 c).owesAt () t.castSucc from rfl,
    after_0, after_1, after_2, after_3, after_4, after_5]
  by_cases h0 : t.val % 4 = 0
  · rw [accAt_reset m c t h0]
    iintro ⟨HΦ, Ho, ⟨%d0, H0⟩, ⟨%d1, H1⟩, ⟨%d2, H2⟩, ⟨%d3, H3⟩, ⟨%d4, H4⟩, ⟨%d5, H5⟩⟩
    iapply ((runA c (grid0.coords t) _ (hs0 t) _ (hs1 t) _ (hs2 t) _ (hs3 t) _ (hs4 t) _ (hs5 t) ((hcondIb t).mpr h0)
      (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact outA_eq c (grid0.coords t) _ (hs0 t) _ (hs1 t) _ (hs2 t) _ (hs3 t) _ (hs4 t) _ (hs5 t) ((hcondIb t).mpr h0)
      (iblk m c 0 t) (iblk m c 1 t) (iblk m c 2 t) (iblk m c 3 t) (iblk m c 4 t) e5
  · rw [accAt_step m c t h0]
    simp only [before_5_step m q c t h0]
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ (hs0 t) _ (hs1 t) _ (hs2 t) _ (hs3 t) _ (hs4 t) _ (hs5 t) (fun h => h0 ((hcondIb t).mp h))
      (iblk m c 0 t) (iblk m c 1 t) (iblk m c 2 t) (iblk m c 3 t) (iblk m c 4 t)
      (accAt m c (t.val - 1) (Nat.lt_of_le_of_lt (Nat.sub_le _ _) t.isLt))).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact outB_eq c (grid0.coords t) _ (hs0 t) _ (hs1 t) _ (hs2 t) _ (hs3 t) _ (hs4 t) _ (hs5 t) (fun h => h0 ((hcondIb t).mp h))
      (iblk m c 0 t) (iblk m c 1 t) (iblk m c 2 t) (iblk m c 3 t) (iblk m c 4 t)
      (accAt m c (t.val - 1) (Nat.lt_of_le_of_lt (Nat.sub_le _ _) t.isLt))

theorem body_obligation (c : Dev nD) : BodyObligation (dats (F := F) m q 0 c) (defs₀ (F := F)) Variants.none () Set.univ := fun t => by
  rw [bigSep_W0, bigSep_W0]
  exact sound_body m q c t

theorem body_obligation_loose (c : Dev nD) :
    Pipeline.BodyObligationLoose (dats (F := F) m q 0 c) (defs₀ (F := F)) Variants.none () Set.univ :=
  (body_obligation m q c).loose

end Cert.KernelIdeal.Hand

end
-- ==== Proof.KerFrame.lean ====
import proofs.«426650_j89962384982112_3_alg».proof.Proof.KerLaunch
import proofs.«426650_j89962384982112_3_alg».proof.Proof.KerBody

noncomputable section

namespace Cert.KernelIdeal.Hand

open Idealize.ShloMosaic Idealize.ShloMosaic.TcCoe Idealize.SL.Sem Cert.KernelIdeal Cert.KernelIdeal.Gen

variable {F : FTy → Type} [FloatOps F]

theorem run_data (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v88) = Vend m c ((dats m qK 0 c).arrAt 5 cfg0.N) (Proc.devRef .tc main_v88)
      ∧ r.2.mem ((c.tc : Thread nD τ).loc main_v93) = Vend m c ((dats m qK 0 c).arrAt 5 cfg0.N) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m ρ (dats m qK) (fun c w => dats_A m qK c w) (fun c => dats_q m qK c) (fun c t => dats_Φ m qK c t)
    (fun c t => dats_owed m qK c t) (fun c => body_obligation_loose m qK c)

theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := F)) _ _).mono (fun _ h c => (h c).2.2) (run_data m ρ)

end Cert.KernelIdeal.Hand

end
-- ==== Proof.KerBlk.lean ====
import proofs.«426650_j89962384982112_3_alg».proof.Proof.KerDefs
import Idealize.ShloMosaic.Lib.Pipeline.Value
import Idealize.ShloMosaic.Lib.ValueIdx

noncomputable section

namespace Cert.KernelIdeal.Hand

open Idealize.ShloMosaic Idealize.ShloMosaic.TcCoe Idealize.SL.Sem Cert.KernelIdeal Cert.KernelIdeal.Gen
open Idealize.ShloMosaic.ValueIdx

variable {F : FTy → Type} [FloatOps F] (m : (ℓ : Loc nD τ sig) → Buf (Elt F) ℓ) (c : Dev nD)

theorem pt_lt (t : Fin cfg0.N) : t.val < 32 := lt_of_lt_of_eq t.isLt N_0

theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val % 4 ∧ win0_3.index t (1 : Fin 2) = 0
    ∧ win0_4.index t (0 : Fin 2) = 0 ∧ win0_4.index t (1 : Fin 2) = t.val % 4 :=
  (by decide +kernel : ∀ t : Fin grid0.N, _)

theorem blk0_at (t : Fin cfg0.N) (a' : Fin 512) (k : Fin 128) :
    (((cfg0.win 0).blk t).view.read (Elt F) (V m c (Pipeline.arrRef spec0 0)) : S512x128.Idx → Elt F .bf16) (ix2 a' k)
      = (V m c main_v44 : S4096x128.Idx → Elt F .bf16) (ix2 ⟨(t.val / 4) * 512 + a'.val, by have := pt_lt t; omega⟩ k) := by
  obtain ⟨e0, e1, -⟩ := idx_facts t
  rw [View.read_apply]
  show V m c main_v44 (((cfg0.win 0).blk t).view.emb (ix2 a' k)) = _
  refine congrArg (V m c main_v44) (funext fun a => Fin.ext ?_)
  match a with
  | ⟨0, _⟩ => show win0_0.index t (0 : Fin 2) * 512 + 1 * a'.val = (t.val / 4) * 512 + a'.val; omega
  | ⟨1, _⟩ => show win0_0.index t (1 : Fin 2) * 128 + 1 * k.val = k.val; omega

theorem blk1_at (t : Fin cfg0.N) (b' : Fin 1024) (k : Fin 128) :
    (((cfg0.win 1).blk t).view.read (Elt F) (V m c (Pipeline.arrRef spec0 1)) : S1024x128.Idx → Elt F .bf16) (ix2 b' k)
      = (V m c main_v44 : S4096x128.Idx → Elt F .bf16) (ix2 ⟨(t.val % 4) * 1024 + b'.val, by omega⟩ k) := by
  obtain ⟨-, -, e0, e1, -⟩ := idx_facts t
  rw [View.read_apply]
  show V m c main_v44 (((cfg0.win 1).blk t).view.emb (ix2 b' k)) = _
  refine congrArg (V m c main_v44) (funext fun a => Fin.ext ?_)
  match a with
  | ⟨0, _⟩ => show win0_1.index t (0 : Fin 2) * 1024 + 1 * b'.val = (t.val % 4) * 1024 + b'.val; omega
  | ⟨1, _⟩ => show win0_1.index t (1 : Fin 2) * 128 + 1 * k.val = k.val; omega

theorem blk2_at (t : Fin cfg0.N) (a' : Fin 512) (j : Fin 16) :
    (((cfg0.win 2).blk t).view.read (Elt F) (V m c (Pipeline.arrRef spec0 2)) : S512x16.Idx → Elt F .f32) (ix2 a' j)
      = (V m c main_v40 : S4096x16.Idx → Elt F .f32) (ix2 ⟨(t.val / 4) * 512 + a'.val, by have := pt_lt t; omega⟩ j) := by
  obtain ⟨-, -, -, -, e0, e1, -⟩ := idx_facts t
  rw [View.read_apply]
  show V m c main_v40 (((cfg0.win 2).blk t).view.emb (ix2 a' j)) = _
  refine congrArg (V m c main_v40) (funext fun a => Fin.ext ?_)
  match a with
  | ⟨0, _⟩ => show win0_2.index t (0 : Fin 2) * 512 + 1 * a'.val = (t.val / 4) * 512 + a'.val; omega
  | ⟨1, _⟩ => show win0_2.index t (1 : Fin 2) * 16 + 1 * j.val = j.val; omega

theorem blk3_at (t : Fin cfg0.N) (b' : Fin 1024) (j : Fin 16) :
    (((cfg0.win 3).blk t).view.read (Elt F) (V m c (Pipeline.arrRef spec0 3)) : S1024x16.Idx → Elt F .f32) (ix2 b' j)
      = (V m c main_v40 : S4096x16.Idx → Elt F .f32) (ix2 ⟨(t.val % 4) * 1024 + b'.val, by omega⟩ j) := by
  obtain ⟨-, -, -, -, -, -, e0, e1, -⟩ := idx_facts t
  rw [View.read_apply]
  show V m c main_v40 (((cfg0.win 3).blk t).view.emb (ix2 b' j)) = _
  refine congrArg (V m c main_v40) (funext fun a => Fin.ext ?_)
  match a with
  | ⟨0, _⟩ => show win0_3.index t (0 : Fin 2) * 1024 + 1 * b'.val = (t.val % 4) * 1024 + b'.val; omega
  | ⟨1, _⟩ => show win0_3.index t (1 : Fin 2) * 16 + 1 * j.val = j.val; omega

theorem blk4_at (t : Fin cfg0.N) (r : Fin 8) (b' : Fin 1024) :
    (((cfg0.win 4).blk t).view.read (Elt F) (V m c (Pipeline.arrRef spec0 4)) : S8x1024.Idx → Elt F .f32) (ix2 r b')
      = (V m c main_v43 : S8x4096.Idx → Elt F .f32) (ix2 r ⟨(t.val % 4) * 1024 + b'.val, by omega⟩) := by
  obtain ⟨-, -, -, -, -, -, -, -, e0, e1⟩ := idx_facts t
  rw [View.read_apply]
  show V m c main_v43 (((cfg0.win 4).blk t).view.emb (ix2 r b')) = _
  refine congrArg (V m c main_v43) (funext fun a => Fin.ext ?_)
  match a with
  | ⟨0, _⟩ => show win0_4.index t (0 : Fin 2) * 8 + 1 * r.val = r.val; omega
  | ⟨1, _⟩ => show win0_4.index t (1 : Fin 2) * 1024 + 1 * b'.val = (t.val % 4) * 1024 + b'.val; omega

theorem out_idx : ∀ t : Fin cfg0.N,
    win0_5.index t (0 : Fin 3) = t.val / 4 ∧ win0_5.index t (1 : Fin 3) = 0 ∧ win0_5.index t (2 : Fin 3) = 0 :=
  (by decide +kernel : ∀ t : Fin grid0.N, _)

theorem blk5_emb (t : Fin cfg0.N) (y : S1x2x128.Idx) :
    (((cfg0.win 5).blk t).view.emb y : S8x2x128.Idx) = ix3 ⟨t.val / 4, by have := pt_lt t; omega⟩ (y 1) (y 2) := by
  obtain ⟨e0, e1, e2⟩ := out_idx t
  funext a; apply Fin.ext
  match a with
  | ⟨0, _⟩ => show win0_5.index t (0 : Fin 3) * 1 + 1 * (y 0).val = t.val / 4; have : (y 0).val < 1 := (y 0).isLt; omega
  | ⟨1, _⟩ => show win0_5.index t (1 : Fin 3) * 2 + 1 * (y 1).val = (y 1).val; omega
  | ⟨2, _⟩ => show win0_5.index t (2 : Fin 3) * 128 + 1 * (y 2).val = (y 2).val; omega

theorem mem_blk5 (t : Fin cfg0.N) (i : S8x2x128.Idx) :
    i ∈ ((cfg0.win 5).blk t).view.set ↔ (i 0).val = t.val / 4 := by
  obtain ⟨e0, e1, e2⟩ := out_idx t
  have hm : i ∈ ((cfg0.win 5).blk t).view.set ↔ ∀ a : Fin 3, win0_5.index t a * S1x2x128.size a ≤ (i a).val
      ∧ (i a).val < win0_5.index t a * S1x2x128.size a + S1x2x128.size a := by
    show i ∈ ((View.whole main_v45).slice (win0_5.rect t)).set ↔ _
    rw [View.set_slice_whole, Rect.mem_set_unit]
    exact Iff.rfl
  rw [hm]
  constructor
  · intro h
    have b0 : win0_5.index t (0 : Fin 3) * 1 ≤ (i 0).val ∧ (i 0).val < win0_5.index t (0 : Fin 3) * 1 + 1 := h 0
    omega
  · intro h a
    match a with
    | ⟨0, _⟩ => show win0_5.index t (0 : Fin 3) * 1 ≤ (i 0).val ∧ (i 0).val < win0_5.index t (0 : Fin 3) * 1 + 1; omega
    | ⟨1, _⟩ =>
      show win0_5.index t (1 : Fin 3) * 2 ≤ (i 1).val ∧ (i 1).val < win0_5.index t (1 : Fin 3) * 2 + 2
      have : (i 1).val < 2 := (i 1).isLt
      omega
    | ⟨2, _⟩ =>
      show win0_5.index t (2 : Fin 3) * 128 ≤ (i 2).val ∧ (i 2).val < win0_5.index t (2 : Fin 3) * 128 + 128
      have : (i 2).val < 128 := (i 2).isLt
      omega

theorem disj5 : ∀ t t' : Fin cfg0.N, (cfg0.win 5).flush t = true → (cfg0.win 5).flush t' = true → t ≠ t' →
    Disjoint ((cfg0.win 5).blk t).view.set ((cfg0.win 5).blk t').view.set := by
  intro t t' hf hf' hne
  rw [Finset.disjoint_left]
  intro i hi hi'
  rw [mem_blk5] at hi hi'
  have h3 := (flush0_5 t).1 hf
  have h3' := (flush0_5 t').1 hf'
  exact hne (Fin.ext (by omega))

end Cert.KernelIdeal.Hand

end
-- ==== Proof.KerOut.lean ====
import proofs.«426650_j89962384982112_3_alg».proof.Proof.KerDat
import proofs.«426650_j89962384982112_3_alg».proof.Proof.KerBlk
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window cellOf)
open Cert.KernelIdeal Cert.KernelIdeal.Gen

variable {F : FTy → Type} [FloatOps F]

variable (m : (ℓ : Loc nD τ sig) → Buf (Elt F) ℓ)

def pt (ia : Fin 8) (ib : Fin 4) : Fin cfg0.N := ⟨4 * ia.val + ib.val, by rw [show cfg0.N = 32 from N_0]; omega⟩

variable (q : Fin cfg0.W → PosShare TreeShare)

theorem pt_val (ia : Fin 8) (ib : Fin 4) : (pt ia ib).val = 4 * ia.val + ib.val := rfl

theorem flush_pt3 (ia : Fin 8) : (cfg0.win 5).flush (pt ia 3) = true :=
  (flush0_5 (pt ia 3)).2 (by rw [pt_val]; show (4 * ia.val + 3) % 4 = 3; omega)

theorem arr_blk (c : Dev nD) (ia : Fin 8) (r : Fin 2) (col : Fin 128) :
    (dats m q 0 c).arrAt 5 cfg0.N (ix3 ia r col)
      = accAt m c (pt ia 3).val (pt ia 3).isLt (ix3 (0 : Fin 1) r col) := by
  have h := (dats m q 0 c).arrAt_emb_eq_flushed 5 disj5 (pt ia 3) (flush_pt3 ia) (ix3 (0 : Fin 1) r col)
  have he : (((cfg0.win 5).blk (pt ia 3)).view.emb (ix3 (0 : Fin 1) r col) : S8x2x128.Idx) = ix3 ia r col :=
    (blk5_emb (pt ia 3) (ix3 (0 : Fin 1) r col)).trans
      (congrArg (fun s : Fin 8 => (ix3 s r col : S8x2x128.Idx)) (Fin.ext (show (4 * ia.val + 3) / 4 = ia.val by omega)))
  rw [he] at h
  rw [h, cast_eq]
  show (dats m q 0 c).after 5 (pt ia 3) (ix3 (0 : Fin 1) r col) = _
  rw [after_5]

theorem accAt_congr (c : Dev nD) {n n' : ℕ} (e : n = n') (hn : n < cfg0.N) (hn' : n' < cfg0.N) :
    accAt m c n hn = accAt m c n' hn' := by
  subst e; rfl

theorem accAt_row (c : Dev nD) (ia : Fin 8) :
    accAt m c (pt ia 3).val (pt ia 3).isLt
      = accNext (accNext (accNext (accNext zeroBlk (pay0At m c (pt ia 0)) (pay1At m c (pt ia 0)))
          (pay0At m c (pt ia 1)) (pay1At m c (pt ia 1))) (pay0At m c (pt ia 2)) (pay1At m c (pt ia 2)))
          (pay0At m c (pt ia 3)) (pay1At m c (pt ia 3)) := by
  rw [accAt_step m c (pt ia 3) (by rw [pt_val]; show ¬(4 * ia.val + 3) % 4 = 0; omega),
    accAt_congr m c (show (pt ia 3).val - 1 = (pt ia 2).val by rw [pt_val, pt_val]; show 4 * ia.val + 3 - 1 = 4 * ia.val + 2; omega) _ (pt ia 2).isLt,
    accAt_step m c (pt ia 2) (by rw [pt_val]; show ¬(4 * ia.val + 2) % 4 = 0; omega),
    accAt_congr m c (show (pt ia 2).val - 1 = (pt ia 1).val by rw [pt_val, pt_val]; show 4 * ia.val + 2 - 1 = 4 * ia.val + 1; omega) _ (pt ia 1).isLt,
    accAt_step m c (pt ia 1) (by rw [pt_val]; show ¬(4 * ia.val + 1) % 4 = 0; omega),
    accAt_congr m c (show (pt ia 1).val - 1 = (pt ia 0).val by rw [pt_val, pt_val]; show 4 * ia.val + 1 - 1 = 4 * ia.val + 0; omega) _ (pt ia 0).isLt,
    accAt_reset m c (pt ia 0) (by rw [pt_val]; show (4 * ia.val + 0) % 4 = 0; omega)]

theorem addRow0_at (p : FVec F S1x10 .f32) (v : Vec F S1x1x10 .f32) (j : Fin 10) :
    k0_pay1 p v (ix3 (0 : Fin 1) (0 : Fin 1) j) = FloatOps.addf (v (ix3 (0 : Fin 1) (0 : Fin 1) j)) (p (ix2 (0 : Fin 1) j)) := by
  unfold k0_pay1
  show shapeCast S1x1x10 (addf (shapeCast S1x10 v shapeCasts_S1x1x10_S1x10) p) shapeCasts_S1x10_S1x1x10 (ix3 (0 : Fin 1) (0 : Fin 1) j) = _
  rw [shapeCast_ab_1ab_apply]
  show FloatOps.addf (shapeCast S1x10 v shapeCasts_S1x1x10_S1x10 (ix2 (0 : Fin 1) j)) (p (ix2 (0 : Fin 1) j)) = _
  rw [shapeCast_1ab_ab_apply]

theorem addRow1_at (p : FVec F S1x10 .f32) (v : Vec F S1x1x10 .f32) (j : Fin 10) :
    k0_pay2 p v (ix3 (0 : Fin 1) (0 : Fin 1) j) = FloatOps.addf (v (ix3 (0 : Fin 1) (0 : Fin 1) j)) (p (ix2 (0 : Fin 1) j)) := by
  unfold k0_pay2
  show shapeCast S1x1x10 (addf (shapeCast S1x10 v shapeCasts_S1x1x10_S1x10) p) shapeCasts_S1x10_S1x1x10 (ix3 (0 : Fin 1) (0 : Fin 1) j) = _
  rw [shapeCast_ab_1ab_apply]
  show FloatOps.addf (shapeCast S1x10 v shapeCasts_S1x1x10_S1x10 (ix2 (0 : Fin 1) j)) (p (ix2 (0 : Fin 1) j)) = _
  rw [shapeCast_1ab_ab_apply]

theorem ld_rect0 (xo : Vec F S1x2x128 .f32) (col : Fin 128) (h : col.val < 10) :
    View.ld (Val := Elt F) (e' := .f32) xo rect0 (ix3 (0 : Fin 1) (0 : Fin 1) (⟨col.val, h⟩ : Fin 10))
      = xo (ix3 (0 : Fin 1) (0 : Fin 2) col) :=
  congrArg xo (funext fun a => Fin.ext (match a with
    | ⟨0, _⟩ => by show 0 + 1 * 0 = 0; omega
    | ⟨1, _⟩ => by show 0 + 1 * 0 = 0; omega
    | ⟨2, _⟩ => by show 0 + 1 * col.val = col.val; omega))

theorem ld_rect1 (xo : Vec F S1x2x128 .f32) (col : Fin 128) (h : col.val < 10) :
    View.ld (Val := Elt F) (e' := .f32) xo rect1 (ix3 (0 : Fin 1) (0 : Fin 1) (⟨col.val, h⟩ : Fin 10))
      = xo (ix3 (0 : Fin 1) (1 : Fin 2) col) :=
  congrArg xo (funext fun a => Fin.ext (match a with
    | ⟨0, _⟩ => by show 0 + 1 * 0 = 0; omega
    | ⟨1, _⟩ => by show 1 + 1 * 0 = 1; omega
    | ⟨2, _⟩ => by show 0 + 1 * col.val = col.val; omega))

theorem accNext_row0 (xo : Vec F S1x2x128 .f32) (p0 p1 : FVec F S1x10 .f32) (col : Fin 128) :
    accNext xo p0 p1 (ix3 (0 : Fin 1) (0 : Fin 2) col)
      = if h : col.val < 10 then FloatOps.addf (xo (ix3 (0 : Fin 1) (0 : Fin 2) col)) (p0 (ix2 (0 : Fin 1) (⟨col.val, h⟩ : Fin 10)))
        else xo (ix3 (0 : Fin 1) (0 : Fin 2) col) := by
  unfold accNext
  show (if h : col.val < 10 then
      if (0 : Fin 2).val = 0 then k0_pay1 p0 (View.ld (Val := Elt F) (e' := .f32) xo rect0) (ix3 (0 : Fin 1) (0 : Fin 1) (⟨col.val, h⟩ : Fin 10))
      else k0_pay2 p1 (View.ld (Val := Elt F) (e' := .f32) xo rect1) (ix3 (0 : Fin 1) (0 : Fin 1) (⟨col.val, h⟩ : Fin 10))
    else xo (ix3 (0 : Fin 1) (0 : Fin 2) col)) = _
  by_cases h : col.val < 10
  · rw [dif_pos h, dif_pos h, if_pos (show (0 : Fin 2).val = 0 from rfl), addRow0_at, ld_rect0 xo col h]
  · rw [dif_neg h, dif_neg h]

theorem accNext_row1 (xo : Vec F S1x2x128 .f32) (p0 p1 : FVec F S1x10 .f32) (col : Fin 128) :
    accNext xo p0 p1 (ix3 (0 : Fin 1) (1 : Fin 2) col)
      = if h : col.val < 10 then FloatOps.addf (xo (ix3 (0 : Fin 1) (1 : Fin 2) col)) (p1 (ix2 (0 : Fin 1) (⟨col.val, h⟩ : Fin 10)))
        else xo (ix3 (0 : Fin 1) (1 : Fin 2) col) := by
  unfold accNext
  show (if h : col.val < 10 then
      if (1 : Fin 2).val = 0 then k0_pay1 p0 (View.ld (Val := Elt F) (e' := .f32) xo rect0) (ix3 (0 : Fin 1) (0 : Fin 1) (⟨col.val, h⟩ : Fin 10))
      else k0_pay2 p1 (View.ld (Val := Elt F) (e' := .f32) xo rect1) (ix3 (0 : Fin 1) (0 : Fin 1) (⟨col.val, h⟩ : Fin 10))
    else xo (ix3 (0 : Fin 1) (1 : Fin 2) col)) = _
  by_cases h : col.val < 10
  · rw [dif_pos h, dif_pos h, if_neg (show ¬(1 : Fin 2).val = 0 by decide), addRow1_at, ld_rect1 xo col h]
  · rw [dif_neg h, dif_neg h]

theorem zeroBlk_at (y : S1x2x128.Idx) : (zeroBlk (F := F)) y = Scalar.ofBits .f32 0x00000000#32 := rfl

theorem out_row0 (c : Dev nD) (ia : Fin 8) (col : Fin 128) :
    (dats m q 0 c).arrAt 5 cfg0.N (ix3 ia (0 : Fin 2) col)
      = if h : col.val < 10 then
          FloatOps.addf (FloatOps.addf (FloatOps.addf (FloatOps.addf (Scalar.ofBits .f32 0x00000000#32)
            (pay0At m c (pt ia 0) (ix2 (0 : Fin 1) (⟨col.val, h⟩ : Fin 10))))
            (pay0At m c (pt ia 1) (ix2 (0 : Fin 1) (⟨col.val, h⟩ : Fin 10))))
            (pay0At m c (pt ia 2) (ix2 (0 : Fin 1) (⟨col.val, h⟩ : Fin 10))))
            (pay0At m c (pt ia 3) (ix2 (0 : Fin 1) (⟨col.val, h⟩ : Fin 10)))
        else Scalar.ofBits .f32 0x00000000#32 := by
  rw [arr_blk m q c ia (0 : Fin 2) col, accAt_row]
  by_cases h : col.val < 10
  · rw [dif_pos h, accNext_row0, dif_pos h, accNext_row0, dif_pos h, accNext_row0, dif_pos h, accNext_row0, dif_pos h, zeroBlk_at]
  · rw [dif_neg h, accNext_row0, dif_neg h, accNext_row0, dif_neg h, accNext_row0, dif_neg h, accNext_row0, dif_neg h, zeroBlk_at]

theorem out_row1 (c : Dev nD) (ia : Fin 8) (col : Fin 128) :
    (dats m q 0 c).arrAt 5 cfg0.N (ix3 ia (1 : Fin 2) col)
      = if h : col.val < 10 then
          FloatOps.addf (FloatOps.addf (FloatOps.addf (FloatOps.addf (Scalar.ofBits .f32 0x00000000#32)
            (pay1At m c (pt ia 0) (ix2 (0 : Fin 1) (⟨col.val, h⟩ : Fin 10))))
            (pay1At m c (pt ia 1) (ix2 (0 : Fin 1) (⟨col.val, h⟩ : Fin 10))))
            (pay1At m c (pt ia 2) (ix2 (0 : Fin 1) (⟨col.val, h⟩ : Fin 10))))
            (pay1At m c (pt ia 3) (ix2 (0 : Fin 1) (⟨col.val, h⟩ : Fin 10)))
        else Scalar.ofBits .f32 0x00000000#32 := by
  rw [arr_blk m q c ia (1 : Fin 2) col, accAt_row]
  by_cases h : col.val < 10
  · rw [dif_pos h, accNext_row1, dif_pos h, accNext_row1, dif_pos h, accNext_row1, dif_pos h, accNext_row1, dif_pos h, zeroBlk_at]
  · rw [dif_neg h, accNext_row1, dif_neg h, accNext_row1, dif_neg h, accNext_row1, dif_neg h, accNext_row1, dif_neg h, zeroBlk_at]

section Closing

variable (mI : (ℓ : Loc nD τ sig) → Buf (Elt Ideal) ℓ)

theorem out_row0_sum (c : Dev nD) (ia : Fin 8) (i : Fin 10) :
    ((dats mI q 0 c).arrAt 5 cfg0.N : S8x2x128.Idx → EReal) (ix3 ia (0 : Fin 2) (⟨i.val, by omega⟩ : Fin 128))
      = ∑ ib : Fin 4, (pay0At mI c (pt ia ib) (ix2 (0 : Fin 1) i) : EReal) := by
  have h10 : (⟨i.val, by omega⟩ : Fin 128).val < 10 := i.isLt
  rw [out_row0 mI q c ia ⟨i.val, by omega⟩, dif_pos h10, Fin.sum_univ_four]
  show Ideal.ofBits .f32 0x00000000#32 + pay0At mI c (pt ia 0) (ix2 (0 : Fin 1) i) + pay0At mI c (pt ia 1) (ix2 (0 : Fin 1) i)
      + pay0At mI c (pt ia 2) (ix2 (0 : Fin 1) i) + pay0At mI c (pt ia 3) (ix2 (0 : Fin 1) i) = _
  rw [Ideal.ofBits_zero_f32, zero_add]

theorem out_row1_sum (c : Dev nD) (ia : Fin 8) (i : Fin 10) :
    ((dats mI q 0 c).arrAt 5 cfg0.N : S8x2x128.Idx → EReal) (ix3 ia (1 : Fin 2) (⟨i.val, by omega⟩ : Fin 128))
      = ∑ ib : Fin 4, (pay1At mI c (pt ia ib) (ix2 (0 : Fin 1) i) : EReal) := by
  have h10 : (⟨i.val, by omega⟩ : Fin 128).val < 10 := i.isLt
  rw [out_row1 mI q c ia ⟨i.val, by omega⟩, dif_pos h10, Fin.sum_univ_four]
  show Ideal.ofBits .f32 0x00000000#32 + pay1At mI c (pt ia 0) (ix2 (0 : Fin 1) i) + pay1At mI c (pt ia 1) (ix2 (0 : Fin 1) i)
      + pay1At mI c (pt ia 2) (ix2 (0 : Fin 1) i) + pay1At mI c (pt ia 3) (ix2 (0 : Fin 1) i) = _
  rw [Ideal.ofBits_zero_f32, zero_add]

end Closing

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def eps16 : EReal := (Ideal.ofBits .f32 0x24E69595#32 : EReal)

def epsN : EReal := (Ideal.ofBits .f32 0x322BCC77#32 : EReal)

def big : EReal := (Ideal.ofBits .f32 0x4CBEBC20#32 : EReal)

def two : EReal := (Ideal.ofBits .f32 0x40000000#32 : EReal)

def one : EReal := (Ideal.ofBits .f32 0x3F800000#32 : EReal)

def absE (x : EReal) : EReal := max x (-x)

abbrev SX : Shape := ⟨2, ![4096, 128]⟩
abbrev ST : Shape := ⟨1, ![4096]⟩
abbrev SW : Shape := ⟨2, ![10, 128]⟩

def Xof (x : SX.Idx → EReal) : Fin 4096 → Fin 128 → EReal := fun n k => x (ix2 n k)

def Wof (w : SW.Idx → EReal) : Fin 10 → Fin 128 → EReal := fun i k => w (ix2 i k)

def InRange (t : ST.Idx → BitVec 32) : Prop := ∀ n : Fin 4096, (t (ix1 n)).toNat < 10

def tnOf (t : ST.Idx → BitVec 32) (h : InRange t) : Fin 4096 → Fin 10 := fun n => ⟨(t (ix1 n)).toNat, h n⟩

variable (X : Fin 4096 → Fin 128 → EReal) (tn : Fin 4096 → Fin 10) (Wt : Fin 10 → Fin 128 → EReal)

def sq (n : Fin 4096) : EReal := ∑ k, X n k * X n k
def gram (a b : Fin 4096) : EReal := ∑ k, X a k * X b k
def d2 (a b : Fin 4096) : EReal := max (sq X a + sq X b - two * gram X a b) 0
def proj (n : Fin 4096) (i : Fin 10) : EReal := ∑ k, X n k * Wt i k
def wn (i : Fin 10) : EReal := max (Ideal.sqrt (∑ k, Wt i k * Wt i k)) epsN

def cnt (i : Fin 10) : ℕ := (Finset.univ.filter fun n : Fin 4096 => tn n = i).card

def existN : ℕ := (Finset.univ.filter fun i : Fin 10 => 0 < cnt tn i).card
def existE : EReal := ((existN tn : ℝ) : EReal)
def denomE : EReal := existE tn - one

def NtE (n : Fin 4096) : EReal := ((cnt tn (tn n) : ℝ) : EReal)

def NiE (i : Fin 10) : EReal := (((max (cnt tn i) 1 : ℕ) : ℝ) : EReal)

def Ak (a b : Fin 4096) : EReal := min (Ideal.rsqrt (d2 X a b + eps16)) big
def u0 (b : Fin 4096) (i : Fin 10) : EReal := (if tn b ≠ i then (1 : EReal) else 0) * Ideal.div one (max (NtE tn b) one)
def u1 (b : Fin 4096) (i : Fin 10) : EReal := u0 tn b i * proj X Wt b i
def u2 (b : Fin 4096) (i : Fin 10) : EReal := u0 tn b i * proj X Wt b i * proj X Wt b i
def posE (a : Fin 4096) (i : Fin 10) : EReal := if tn a = i then 1 else 0

def rowA (ia : Fin 8) (a' : Fin 512) : Fin 4096 := ⟨ia.val * 512 + a'.val, by omega⟩

def rowB (ib : Fin 4) (b' : Fin 1024) : Fin 4096 := ⟨ib.val * 1024 + b'.val, by omega⟩
def AU0 (a : Fin 4096) (ib : Fin 4) (i : Fin 10) : EReal := ∑ b', Ak X a (rowB ib b') * u0 tn (rowB ib b') i
def AU1 (a : Fin 4096) (ib : Fin 4) (i : Fin 10) : EReal := ∑ b', Ak X a (rowB ib b') * u1 X tn Wt (rowB ib b') i
def BU0 (a : Fin 4096) (ib : Fin 4) (i : Fin 10) : EReal := ∑ b', (Ak X a (rowB ib b') * Ak X a (rowB ib b')) * u0 tn (rowB ib b') i
def BU1 (a : Fin 4096) (ib : Fin 4) (i : Fin 10) : EReal := ∑ b', (Ak X a (rowB ib b') * Ak X a (rowB ib b')) * u1 X tn Wt (rowB ib b') i
def BU2 (a : Fin 4096) (ib : Fin 4) (i : Fin 10) : EReal := ∑ b', (Ak X a (rowB ib b') * Ak X a (rowB ib b')) * u2 X tn Wt (rowB ib b') i

def s1part (ia : Fin 8) (ib : Fin 4) (i : Fin 10) : EReal :=
  ∑ a', posE tn (rowA ia a') i * (proj X Wt (rowA ia a') i * AU0 X tn (rowA ia a') ib i - AU1 X tn Wt (rowA ia a') ib i)

def s2part (ia : Fin 8) (ib : Fin 4) (i : Fin 10) : EReal :=
  ∑ a', posE tn (rowA ia a') i *
    (proj X Wt (rowA ia a') i * proj X Wt (rowA ia a') i * BU0 X tn (rowA ia a') ib i
      - two * proj X Wt (rowA ia a') i * BU1 X tn Wt (rowA ia a') ib i + BU2 X tn Wt (rowA ia a') ib i)
def S1raw (i : Fin 10) : EReal := ∑ ia, ∑ ib, s1part X tn Wt ia ib i
def S2raw (i : Fin 10) : EReal := ∑ ia, ∑ ib, s2part X tn Wt ia ib i
def S1k (i : Fin 10) : EReal := Ideal.div one (NiE tn i * wn Wt i) * S1raw X tn Wt i
def S2k (i : Fin 10) : EReal := Ideal.div one (NiE tn i * wn Wt i * wn Wt i) * S2raw X tn Wt i
def l1k (i : Fin 10) : EReal := Ideal.div (denomE tn - two * S1k X tn Wt i + S2k X tn Wt i) (denomE tn)
def mmk (i : Fin 10) : EReal := Ideal.div (S1k X tn Wt i) (denomE tn)
def mvk (i : Fin 10) : EReal :=
  Ideal.div (S2k X tn Wt i - two * mmk X tn Wt i * S1k X tn Wt i + mmk X tn Wt i * mmk X tn Wt i * denomE tn) (denomE tn)

def Kout1 : EReal := Ideal.div (∑ i, if 0 < cnt tn i then l1k X tn Wt i else 0) (existE tn)

def Kout2 : EReal :=
  Ideal.div (∑ i, if 0 < cnt tn i then absE (Ideal.div (mvk X tn Wt i) (if 0 < cnt tn i then mmk X tn Wt i else one)) else 0) (existE tn)

def dn (a b : Fin 4096) : EReal := max (Ideal.sqrt (d2 X a b + eps16)) epsN

def wR (i : Fin 10) (a b : Fin 4096) : EReal :=
  if tn a = i ∧ tn b ≠ i then Ideal.div one (NtE tn b * NiE tn i) else 0

def MR (i : Fin 10) (a b : Fin 4096) : EReal := Ideal.div (proj X Wt a i - proj X Wt b i) (wn Wt i * dn X a b)
def l1R (i : Fin 10) : EReal :=
  Ideal.div (∑ a, ∑ b, wR tn i a b * ((one - MR X Wt i a b) * (one - MR X Wt i a b))) (denomE tn)
def mmR (i : Fin 10) : EReal := Ideal.div (∑ a, ∑ b, wR tn i a b * MR X Wt i a b) (denomE tn)
def mvR (i : Fin 10) : EReal :=
  Ideal.div (∑ a, ∑ b, wR tn i a b * ((MR X Wt i a b - mmR X tn Wt i) * (MR X Wt i a b - mmR X tn Wt i))) (denomE tn)

def Rout1 : EReal := Ideal.div (∑ i, if 0 < cnt tn i then l1R X tn Wt i else 0) (existE tn)

def Rout2 : EReal :=
  Ideal.div (∑ i, if 0 < cnt tn i then absE (Ideal.div (mvR X tn Wt i) (mmR X tn Wt i)) else 0) (existE tn)

end Cert.Spec

end
-- ==== Proof.SpecK.lean ====
import proofs.«426650_j89962384982112_3_alg».proof.Proof.Spec

noncomputable section

open scoped BigOperators

namespace Cert.Spec

open Idealize.ShloMosaic

section Block

variable (xa : Fin 512 → Fin 128 → EReal) (xb : Fin 1024 → Fin 128 → EReal)
  (sqa : Fin 512 → EReal) (tga : Fin 512 → EReal) (pra : Fin 512 → Fin 10 → EReal)
  (sqb : Fin 1024 → EReal) (tgb : Fin 1024 → EReal) (ntb : Fin 1024 → EReal) (prb : Fin 1024 → Fin 10 → EReal)

def bA (a' : Fin 512) (b' : Fin 1024) : EReal :=
  min (Ideal.rsqrt (max (sqa a' + sqb b' - two * ∑ k, xa a' k * xb b' k) 0 + eps16)) big
def bu0 (b' : Fin 1024) (i : Fin 10) : EReal :=
  (if tgb b' ≠ (((i.val : ℕ) : ℝ) : EReal) then (1 : EReal) else 0) * Ideal.div one (max (ntb b') one)
def bu1 (b' : Fin 1024) (i : Fin 10) : EReal := bu0 tgb ntb b' i * prb b' i
def bu2 (b' : Fin 1024) (i : Fin 10) : EReal := bu0 tgb ntb b' i * prb b' i * prb b' i
def bpos (a' : Fin 512) (i : Fin 10) : EReal := if tga a' = (((i.val : ℕ) : ℝ) : EReal) then 1 else 0

def bS1 (i : Fin 10) : EReal :=
  ∑ a', bpos tga a' i * (pra a' i * (∑ b', bA xa xb sqa sqb a' b' * bu0 tgb ntb b' i) - ∑ b', bA xa xb sqa sqb a' b' * bu1 tgb ntb prb b' i)

def bS2 (i : Fin 10) : EReal :=
  ∑ a', bpos tga a' i *
    (pra a' i * pra a' i * (∑ b', (bA xa xb sqa sqb a' b' * bA xa xb sqa sqb a' b') * bu0 tgb ntb b' i)
      - two * pra a' i * (∑ b', (bA xa xb sqa sqb a' b' * bA xa xb sqa sqb a' b') * bu1 tgb ntb prb b' i)
      + ∑ b', (bA xa xb sqa sqb a' b' * bA xa xb sqa sqb a' b') * bu2 tgb ntb prb b' i)

end Block

section Finish

variable (tn : Fin 4096 → Fin 10) (Wt : Fin 10 → Fin 128 → EReal) (S1 S2 : Fin 10 → EReal)

def fS1 (i : Fin 10) : EReal := Ideal.div one (NiE tn i * wn Wt i) * S1 i
def fS2 (i : Fin 10) : EReal := Ideal.div one (NiE tn i * wn Wt i * wn Wt i) * S2 i
def fl1 (i : Fin 10) : EReal := Ideal.div (denomE tn - two * fS1 tn Wt S1 i + fS2 tn Wt S2 i) (denomE tn)
def fmm (i : Fin 10) : EReal := Ideal.div (fS1 tn Wt S1 i) (denomE tn)
def fmv (i : Fin 10) : EReal :=
  Ideal.div (fS2 tn Wt S2 i - two * fmm tn Wt S1 i * fS1 tn Wt S1 i + fmm tn Wt S1 i * fmm tn Wt S1 i * denomE tn) (denomE tn)

def Kfin1 : EReal := Ideal.div (∑ i, if 0 < cnt tn i then fl1 tn Wt S1 S2 i else 0) (existE tn)

def Kfin2 : EReal :=
  Ideal.div (∑ i, if 0 < cnt tn i then absE (Ideal.div (fmv tn Wt S1 S2 i) (if 0 < cnt tn i then fmm tn Wt S1 i else one)) else 0) (existE tn)

end Finish

end Cert.Spec

end
-- ==== Proof.KerPay1.lean ====
import proofs.«426650_j89962384982112_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

variable {α : Type}

theorem bcast_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem concat3_fst (x0 x1 x2 : S1024x10.Idx → α)
    (h : Shape.Concatenates [S1024x10, S1024x10, S1024x10] S1024x30 1)
    (b : Fin 1024) (i : Fin 10) (c : Fin 30) (hc : c.val = i.val) :
    concatenate S1024x30 1 [⟨S1024x10, x0⟩, ⟨S1024x10, x1⟩, ⟨S1024x10, x2⟩] h (ix2 b c) = x0 (ix2 b i) := by
  refine concatenate_apply_piece (t := S1024x30) (1 : Fin 2) [⟨S1024x10, x0⟩, ⟨S1024x10, x1⟩, ⟨S1024x10, x2⟩] h (ix2 b c) 0 (by simp) S1024x10 x0 rfl rfl 0 rfl (ix2 b i) (fun d hd => ?_) ?_
  · match d with
    | ⟨0, _⟩ => rfl
    | ⟨1, _⟩ => exact absurd rfl hd
  · show 0 + i.val = c.val
    omega

theorem concat3_snd (x0 x1 x2 : S1024x10.Idx → α)
    (h : Shape.Concatenates [S1024x10, S1024x10, S1024x10] S1024x30 1)
    (b : Fin 1024) (i : Fin 10) (c : Fin 30) (hc : c.val = 10 + i.val) :
    concatenate S1024x30 1 [⟨S1024x10, x0⟩, ⟨S1024x10, x1⟩, ⟨S1024x10, x2⟩] h (ix2 b c) = x1 (ix2 b i) := by
  refine concatenate_apply_piece (t := S1024x30) (1 : Fin 2) [⟨S1024x10, x0⟩, ⟨S1024x10, x1⟩, ⟨S1024x10, x2⟩] h (ix2 b c) 1 (by simp) S1024x10 x1 rfl rfl 10 rfl (ix2 b i) (fun d hd => ?_) ?_
  · match d with
    | ⟨0, _⟩ => rfl
    | ⟨1, _⟩ => exact absurd rfl hd
  · show 10 + i.val = c.val
    omega

theorem concat3_thd (x0 x1 x2 : S1024x10.Idx → α)
    (h : Shape.Concatenates [S1024x10, S1024x10, S1024x10] S1024x30 1)
    (b : Fin 1024) (i : Fin 10) (c : Fin 30) (hc : c.val = 20 + i.val) :
    concatenate S1024x30 1 [⟨S1024x10, x0⟩, ⟨S1024x10, x1⟩, ⟨S1024x10, x2⟩] h (ix2 b c) = x2 (ix2 b i) := by
  refine concatenate_apply_piece (t := S1024x30) (1 : Fin 2) [⟨S1024x10, x0⟩, ⟨S1024x10, x1⟩, ⟨S1024x10, x2⟩] h (ix2 b c) 2 (by simp) S1024x10 x2 rfl rfl 20 rfl (ix2 b i) (fun d hd => ?_) ?_
  · match d with
    | ⟨0, _⟩ => rfl
    | ⟨1, _⟩ => exact absurd rfl hd
  · show 20 + i.val = c.val
    omega

theorem concat2_top (x0 x1 : S512x1024.Idx → α)
    (h : Shape.Concatenates [S512x1024, S512x1024] S1024x1024 0)
    (a : Fin 512) (b : Fin 1024) (r : Fin 1024) (hr : r.val = a.val) :
    concatenate S1024x1024 0 [⟨S512x1024, x0⟩, ⟨S512x1024, x1⟩] h (ix2 r b) = x0 (ix2 a b) := by
  refine concatenate_apply_piece (t := S1024x1024) (0 : Fin 2) [⟨S512x1024, x0⟩, ⟨S512x1024, x1⟩] h (ix2 r b) 0 (by simp) S512x1024 x0 rfl rfl 0 rfl (ix2 a b) (fun d hd => ?_) ?_
  · match d with
    | ⟨0, _⟩ => exact absurd rfl hd
    | ⟨1, _⟩ => rfl
  · show 0 + a.val = r.val
    omega

theorem concat2_bot (x0 x1 : S512x1024.Idx → α)
    (h : Shape.Concatenates [S512x1024, S512x1024] S1024x1024 0)
    (a : Fin 512) (b : Fin 1024) (r : Fin 1024) (hr : r.val = 512 + a.val) :
    concatenate S1024x1024 0 [⟨S512x1024, x0⟩, ⟨S512x1024, x1⟩] h (ix2 r b) = x1 (ix2 a b) := by
  refine concatenate_apply_piece (t := S1024x1024) (0 : Fin 2) [⟨S512x1024, x0⟩, ⟨S512x1024, x1⟩] h (ix2 r b) 1 (by simp) S512x1024 x1 rfl rfl 512 rfl (ix2 a b) (fun d hd => ?_) ?_
  · match d with
    | ⟨0, _⟩ => exact absurd rfl hd
    | ⟨1, _⟩ => rfl
  · show 512 + a.val = r.val
    omega

theorem mmA_lhs_0 (j : S512x1024.Idx) (q : dot_S512x128_S128x1024_S512x1024_1_0_0_1_n_n.contr.Idx) :
    (dot_S512x128_S128x1024_S512x1024_1_0_0_1_n_n.lhsIdx j q 0).val = (j 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
theorem mmA_lhs_1 (j : S512x1024.Idx) (q : dot_S512x128_S128x1024_S512x1024_1_0_0_1_n_n.contr.Idx) :
    (dot_S512x128_S128x1024_S512x1024_1_0_0_1_n_n.lhsIdx j q 1).val = (q ⟨0, by decide⟩).val :=
  dot_S512x128_S128x1024_S512x1024_1_0_0_1_n_n.lhsIdx_val_of_single rfl j q
theorem mmA_rhs_0 (j : S512x1024.Idx) (q : dot_S512x128_S128x1024_S512x1024_1_0_0_1_n_n.contr.Idx) :
    (dot_S512x128_S128x1024_S512x1024_1_0_0_1_n_n.rhsIdx j q 0).val = (q ⟨0, by decide⟩).val :=
  dot_S512x128_S128x1024_S512x1024_1_0_0_1_n_n.rhsIdx_val_of_single rfl j q
theorem mmA_rhs_1 (j : S512x1024.Idx) (q : dot_S512x128_S128x1024_S512x1024_1_0_0_1_n_n.contr.Idx) :
    (dot_S512x128_S128x1024_S512x1024_1_0_0_1_n_n.rhsIdx j q 1).val = (j 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

theorem mmA_apply (l : FVec Ideal S512x128 .bf16) (r : FVec Ideal S128x1024 .bf16) (p : Fin 512) (q : Fin 1024) :
    matmul dot_S512x128_S128x1024_S512x1024_1_0_0_1_n_n none l r (constant (F := Ideal) S512x1024 .f32 0x00000000#32) (ix2 p q)
      = ∑ k : Fin 128, l (ix2 p k) * r (ix2 k q) := by
  simp only [matmul]
  rw [Ideal.matmul_constant_zero_apply, ← Equiv.sum_comp (ValueIdx.contrEquiv1 dot_S512x128_S128x1024_S512x1024_1_0_0_1_n_n 128 rfl rfl).symm]
  refine Finset.sum_congr rfl fun k _ => ?_
  have hk := ValueIdx.contrEquiv1_symm_val dot_S512x128_S128x1024_S512x1024_1_0_0_1_n_n 128 rfl rfl k
  have el : dot_S512x128_S128x1024_S512x1024_1_0_0_1_n_n.lhsIdx (ix2 p q) ((ValueIdx.contrEquiv1 dot_S512x128_S128x1024_S512x1024_1_0_0_1_n_n 128 rfl rfl).symm k) = ix2 p k := funext fun a => Fin.ext (by
    match a with
    | ⟨0, _⟩ => exact mmA_lhs_0 _ _
    | ⟨1, _⟩ => exact (mmA_lhs_1 _ _).trans hk)
  have er : dot_S512x128_S128x1024_S512x1024_1_0_0_1_n_n.rhsIdx (ix2 p q) ((ValueIdx.contrEquiv1 dot_S512x128_S128x1024_S512x1024_1_0_0_1_n_n 128 rfl rfl).symm k) = ix2 k q := funext fun a => Fin.ext (by
    match a with
    | ⟨0, _⟩ => exact (mmA_rhs_0 _ _).trans hk
    | ⟨1, _⟩ => exact mmA_rhs_1 _ _)
  rw [el, er]

theorem mmB_lhs_0 (j : S1024x30.Idx) (q : dot_S1024x1024_S1024x30_S1024x30_1_0_0_1_n_n.contr.Idx) :
    (dot_S1024x1024_S1024x30_S1024x30_1_0_0_1_n_n.lhsIdx j q 0).val = (j 0).val := by
  unfold DotDims.lhsIdx
  rw [dif_neg (show ¬(0 : Fin S1024x1024.rank) ∈ dot_S1024x1024_S1024x30_S1024x30_1_0_0_1_n_n.lhsBatch by decide), dif_pos (show (0 : Fin S1024x1024.rank) ∈ dot_S1024x1024_S1024x30_S1024x30_1_0_0_1_n_n.lhsNonContracting by decide)]
  rfl
theorem mmB_lhs_1 (j : S1024x30.Idx) (q : dot_S1024x1024_S1024x30_S1024x30_1_0_0_1_n_n.contr.Idx) :
    (dot_S1024x1024_S1024x30_S1024x30_1_0_0_1_n_n.lhsIdx j q 1).val = (q ⟨0, by decide⟩).val :=
  dot_S1024x1024_S1024x30_S1024x30_1_0_0_1_n_n.lhsIdx_val_of_single rfl j q
theorem mmB_rhs_0 (j : S1024x30.Idx) (q : dot_S1024x1024_S1024x30_S1024x30_1_0_0_1_n_n.contr.Idx) :
    (dot_S1024x1024_S1024x30_S1024x30_1_0_0_1_n_n.rhsIdx j q 0).val = (q ⟨0, by decide⟩).val :=
  dot_S1024x1024_S1024x30_S1024x30_1_0_0_1_n_n.rhsIdx_val_of_single rfl j q
theorem mmB_rhs_1 (j : S1024x30.Idx) (q : dot_S1024x1024_S1024x30_S1024x30_1_0_0_1_n_n.contr.Idx) :
    (dot_S1024x1024_S1024x30_S1024x30_1_0_0_1_n_n.rhsIdx j q 1).val = (j 1).val := by
  unfold DotDims.rhsIdx
  rw [dif_neg (show ¬(1 : Fin S1024x30.rank) ∈ dot_S1024x1024_S1024x30_S1024x30_1_0_0_1_n_n.rhsBatch by decide), dif_pos (show (1 : Fin S1024x30.rank) ∈ dot_S1024x1024_S1024x30_S1024x30_1_0_0_1_n_n.rhsNonContracting by decide)]
  rfl

theorem mmB_apply (l : FVec Ideal S1024x1024 .bf16) (r : FVec Ideal S1024x30 .bf16) (p : Fin 1024) (q : Fin 30) :
    matmul dot_S1024x1024_S1024x30_S1024x30_1_0_0_1_n_n none l r (constant (F := Ideal) S1024x30 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x30_S1024x30_1_0_0_1_n_n 1024 rfl rfl).symm]
  refine Finset.sum_congr rfl fun k _ => ?_
  have hk := ValueIdx.contrEquiv1_symm_val dot_S1024x1024_S1024x30_S1024x30_1_0_0_1_n_n 1024 rfl rfl k
  have el : dot_S1024x1024_S1024x30_S1024x30_1_0_0_1_n_n.lhsIdx (ix2 p q) ((ValueIdx.contrEquiv1 dot_S1024x1024_S1024x30_S1024x30_1_0_0_1_n_n 1024 rfl rfl).symm k) = ix2 p k := funext fun a => Fin.ext (by
    match a with
    | ⟨0, _⟩ => exact mmB_lhs_0 _ _
    | ⟨1, _⟩ => exact (mmB_lhs_1 _ _).trans hk)
  have er : dot_S1024x1024_S1024x30_S1024x30_1_0_0_1_n_n.rhsIdx (ix2 p q) ((ValueIdx.contrEquiv1 dot_S1024x1024_S1024x30_S1024x30_1_0_0_1_n_n 1024 rfl rfl).symm k) = ix2 k q := funext fun a => Fin.ext (by
    match a with
    | ⟨0, _⟩ => exact (mmB_rhs_0 _ _).trans hk
    | ⟨1, _⟩ => exact mmB_rhs_1 _ _)
  rw [el, er]

theorem rowsum_apply (src : FVec Ideal S512x10 .f32) (h : S512x10.Reduces [0] S10) (hφ : FKind.Formats .f32)
    (hacc : (0x00000000#32 : BitVec 32) = 0x00000000#32) (i : Fin 10) :
    multiReduction .add [0] S10 src 0x00000000#32 h hφ hacc (ix1 i) = ∑ a : Fin 512, src (ix2 a i) := by
  refine (Ideal.multiReduction_add_single src 0x00000000#32 h hφ hacc (ix1 i)).trans ?_
  refine Finset.sum_congr rfl fun a _ => congrArg src (funext fun d => Fin.ext ?_)
  match d with
  | ⟨0, _⟩ => rfl
  | ⟨1, _⟩ => rfl

theorem iota_float_apply (h : S1x10.Iotas .tc 32 [1]) (u : Fin 1) (i : Fin 10) :
    (sitofp .f32 (iota .tc S1x10 32 [1] h) : FVec Ideal S1x10 .f32) (ix2 u i) = (((i.val : ℕ) : ℝ) : EReal) := by
  show (((iota .tc S1x10 32 [1] h (ix2 u i)).toInt : ℝ) : EReal) = _
  rw [iota_single_apply]
  show (((BitVec.ofNat 32 i.val).toInt : ℝ) : EReal) = _
  have hi : (BitVec.ofNat 32 i.val).toInt = (i.val : ℤ) := by
    have hn : (BitVec.ofNat 32 i.val).toNat = i.val := by
      rw [BitVec.toNat_ofNat]; have := i.isLt; omega
    rw [BitVec.toInt_eq_toNat_of_lt (by rw [hn]; have := i.isLt; omega), hn]
  rw [hi]
  norm_cast

end Cert.KernelIdeal.Hand

end
-- ==== Proof.KerPay2.lean ====
import proofs.«426650_j89962384982112_3_alg».proof.Proof.KerPay1
import proofs.«426650_j89962384982112_3_alg».proof.Proof.SpecK

noncomputable section

open scoped BigOperators

namespace Cert.KernelIdeal.Hand

open Idealize.ShloMosaic Idealize.ShloMosaic.ValueIdx Cert.KernelIdeal Cert.KernelIdeal.Gen Cert.Spec

variable (v3 : Vec Ideal S512x128 .bf16) (v5 : Vec Ideal S1024x128 .bf16) (v9 v11 : Vec Ideal S512x1 .f32)
  (v13 : Vec Ideal S512x10 .f32) (v15 : Vec Ideal S1x1024 .f32) (v32 v34 : Vec Ideal S1024x1 .f32) (v36 : Vec Ideal S1024x10 .f32)

theorem pay9_at (u : Fin 1) (i : Fin 10) : k0_pay9 (F := Ideal) (ix2 u i) = (((i.val : ℕ) : ℝ) : EReal) := by
  unfold k0_pay9
  exact iota_float_apply _ u i

theorem pay6_at (a' : Fin 512) (b' : Fin 1024) :
    k0_pay6 (F := Ideal) v3 v5 v9 v15 (ix2 a' b')
      = bA (fun a k => v3 (ix2 a k)) (fun b k => v5 (ix2 b k)) (fun a => v9 (ix2 a 0)) (fun b => v15 (ix2 0 b)) a' b' := by
  unfold k0_pay6
  simp only [shapeCast_self]
  show min (Ideal.rsqrt (max (broadcastTo S512x1024 v9 broadcasts_S512x1_S512x1024 (ix2 a' b')
      + broadcastTo S512x1024 v15 broadcasts_S1x1024_S512x1024 (ix2 a' b')
      - Ideal.ofBits .f32 0x40000000#32 * matmul dot_S512x128_S128x1024_S512x1024_1_0_0_1_n_n none v3
          (transpose S128x1024 [1, 0] v5 transposes_S1024x128_p1_0_S128x1024)
          (constant (F := Ideal) S512x1024 .f32 0x00000000#32) (ix2 a' b'))
      (Ideal.ofBits .f32 0x00000000#32) + Ideal.ofBits .f32 0x24E69595#32)) (Ideal.ofBits .f32 0x4CBEBC20#32) = _
  rw [bcast_col_apply, broadcastTo_1b_ab_apply, mmA_apply, Ideal.ofBits_zero_f32]
  have ht : ∀ k : Fin 128, transpose S128x1024 [1, 0] v5 transposes_S1024x128_p1_0_S128x1024 (ix2 k b') = v5 (ix2 b' k) :=
    fun k => transpose_ix2_apply v5 _ k b'
  simp only [ht]
  rfl

theorem pay7_at (a' : Fin 512) (b' : Fin 1024) :
    k0_pay7 (F := Ideal) v3 v5 v9 v15 (ix2 a' b')
      = bA (fun a k => v3 (ix2 a k)) (fun b k => v5 (ix2 b k)) (fun a => v9 (ix2 a 0)) (fun b => v15 (ix2 0 b)) a' b'
        * bA (fun a k => v3 (ix2 a k)) (fun b k => v5 (ix2 b k)) (fun a => v9 (ix2 a 0)) (fun b => v15 (ix2 0 b)) a' b' := by
  unfold k0_pay7
  show k0_pay6 (F := Ideal) v3 v5 v9 v15 (ix2 a' b') * k0_pay6 (F := Ideal) v3 v5 v9 v15 (ix2 a' b') = _
  rw [pay6_at]

theorem bit_float (c : BitVec 1) :
    (FloatOps.sitofp (F := Ideal) .f32 (c.setWidth 32) : EReal) = if c = 1#1 then 1 else 0 := by
  show (((c.setWidth 32).toInt : ℝ) : EReal) = _
  revert c
  intro c
  rcases (by decide : ∀ c : BitVec 1, c = 0#1 ∨ c = 1#1) c with rfl | rfl
  · rw [if_neg (by decide)]; norm_num
  · rw [if_pos rfl]; norm_num

theorem ofBool_decide_eq_one (P : Prop) [Decidable P] : BitVec.ofBool (decide P) = 1#1 ↔ P := by
  by_cases h : P <;> simp [h]

theorem pay11_at (v12 : FVec Ideal S512x1 .f32) (a' : Fin 512) (i : Fin 10) :
    k0_pay11 (F := Ideal) v12 (ix2 a' i) = bpos (fun a => v12 (ix2 a 0)) a' i := by
  unfold k0_pay11
  show FloatOps.sitofp (F := Ideal) .f32
      ((Ideal.cmp .oeq (broadcastTo S512x10 v12 broadcasts_S512x1_S512x10 (ix2 a' i))
        (broadcastTo S512x10 (k0_pay9 (F := Ideal)) broadcasts_S1x10_S512x10 (ix2 a' i))).setWidth 32) = _
  rw [bit_float, bcast_col_apply, broadcastTo_1b_ab_apply, pay9_at]
  unfold bpos Ideal.cmp
  simp only [ofBool_decide_eq_one]

def wgt0 (v33 : FVec Ideal S1024x1 .f32) (v34 : Vec Ideal S1024x1 .f32) : FVec Ideal S1024x10 .f32 :=
  mulf (sitofp .f32 (extui 32 (cmpf .one (broadcastTo S1024x10 v33 broadcasts_S1024x1_S1024x10)
      (broadcastTo S1024x10 (k0_pay9 (F := Ideal)) broadcasts_S1x10_S1024x10)) natLt_1_32))
    (broadcastTo S1024x10 (divf (broadcast S1024x1 (Scalar.ofBits (F := Ideal) .f32 0x3F800000#32))
      (maximumf (shapeCast S1024x1 v34 shapeCasts_S1024x1_S1024x1)
        (broadcast S1024x1 (Scalar.ofBits (F := Ideal) .f32 0x3F800000#32))))
      broadcasts_S1024x1_S1024x10)

def wgt1 (v33 : FVec Ideal S1024x1 .f32) (v34 : Vec Ideal S1024x1 .f32) (v36 : Vec Ideal S1024x10 .f32) : FVec Ideal S1024x10 .f32 :=
  mulf (wgt0 v33 v34) (shapeCast S1024x10 v36 shapeCasts_S1024x10_S1024x10)

def wgt2 (v33 : FVec Ideal S1024x1 .f32) (v34 : Vec Ideal S1024x1 .f32) (v36 : Vec Ideal S1024x10 .f32) : FVec Ideal S1024x10 .f32 :=
  mulf (mulf (wgt0 v33 v34) (shapeCast S1024x10 v36 shapeCasts_S1024x10_S1024x10)) (shapeCast S1024x10 v36 shapeCasts_S1024x10_S1024x10)

def glueW (v33 : FVec Ideal S1024x1 .f32) (v34 : Vec Ideal S1024x1 .f32) (v36 : Vec Ideal S1024x10 .f32) : FVec Ideal S1024x30 .bf16 :=
  truncf .bf16 (concatenate S1024x30 1 [⟨S1024x10, wgt0 v33 v34⟩, ⟨S1024x10, wgt1 v33 v34 v36⟩, ⟨S1024x10, wgt2 v33 v34 v36⟩]
    concatenates_S1024x10_S1024x10_S1024x10_S1024x30_d1) bitsLt_bf16_f32

def glueA (v30 v31 : FVec Ideal S512x1024 .bf16) : FVec Ideal S1024x1024 .bf16 :=
  concatenate S1024x1024 0 [⟨S512x1024, v30⟩, ⟨S512x1024, v31⟩] concatenates_S512x1024_S512x1024_S1024x1024_d0

theorem pay10_eq (v30 v31 : FVec Ideal S512x1024 .bf16) (v33 : FVec Ideal S1024x1 .f32) :
    k0_pay10 (F := Ideal) v30 v31 v33 v34 v36
      = matmul dot_S1024x1024_S1024x30_S1024x30_1_0_0_1_n_n none (glueA v30 v31) (glueW v33 v34 v36)
          (constant (F := Ideal) S1024x30 .f32 0x00000000#32) := rfl

theorem wgt0_at (v33 : FVec Ideal S1024x1 .f32) (b' : Fin 1024) (i : Fin 10) :
    wgt0 v33 v34 (ix2 b' i) = bu0 (fun b => v33 (ix2 b 0)) (fun b => v34 (ix2 b 0)) b' i := by
  unfold wgt0
  show FloatOps.sitofp (F := Ideal) .f32
      ((Ideal.cmp .one (broadcastTo S1024x10 v33 broadcasts_S1024x1_S1024x10 (ix2 b' i))
        (broadcastTo S1024x10 (k0_pay9 (F := Ideal)) broadcasts_S1x10_S1024x10 (ix2 b' i))).setWidth 32)
      * broadcastTo S1024x10 (divf (broadcast S1024x1 (Scalar.ofBits (F := Ideal) .f32 0x3F800000#32))
          (maximumf (shapeCast S1024x1 v34 shapeCasts_S1024x1_S1024x1)
            (broadcast S1024x1 (Scalar.ofBits (F := Ideal) .f32 0x3F800000#32))))
          broadcasts_S1024x1_S1024x10 (ix2 b' i) = _
  rw [bit_float, bcast_col_apply, broadcastTo_1b_ab_apply, pay9_at, bcast_col_apply, shapeCast_self]
  unfold bu0 Ideal.cmp
  simp only [ofBool_decide_eq_one]
  rfl

theorem wgt1_at (v33 : FVec Ideal S1024x1 .f32) (b' : Fin 1024) (i : Fin 10) :
    wgt1 v33 v34 v36 (ix2 b' i)
      = bu1 (fun b => v33 (ix2 b 0)) (fun b => v34 (ix2 b 0)) (fun b j => v36 (ix2 b j)) b' i := by
  unfold wgt1
  rw [shapeCast_self]
  show wgt0 v33 v34 (ix2 b' i) * v36 (ix2 b' i) = _
  rw [wgt0_at]
  rfl

theorem wgt2_at (v33 : FVec Ideal S1024x1 .f32) (b' : Fin 1024) (i : Fin 10) :
    wgt2 v33 v34 v36 (ix2 b' i)
      = bu2 (fun b => v33 (ix2 b 0)) (fun b => v34 (ix2 b 0)) (fun b j => v36 (ix2 b j)) b' i := by
  unfold wgt2
  rw [shapeCast_self]
  show wgt0 v33 v34 (ix2 b' i) * v36 (ix2 b' i) * v36 (ix2 b' i) = _
  rw [wgt0_at]
  rfl

theorem glueW_0 (v33 : FVec Ideal S1024x1 .f32) (b' : Fin 1024) (i : Fin 10) (c : Fin 30) (hc : c.val = i.val) :
    glueW v33 v34 v36 (ix2 b' c) = bu0 (fun b => v33 (ix2 b 0)) (fun b => v34 (ix2 b 0)) b' i := by
  unfold glueW
  show concatenate S1024x30 1 [⟨S1024x10, wgt0 v33 v34⟩, ⟨S1024x10, wgt1 v33 v34 v36⟩, ⟨S1024x10, wgt2 v33 v34 v36⟩]
    concatenates_S1024x10_S1024x10_S1024x10_S1024x30_d1 (ix2 b' c) = _
  rw [concat3_fst _ _ _ _ b' i c hc, wgt0_at]

theorem glueW_1 (v33 : FVec Ideal S1024x1 .f32) (b' : Fin 1024) (i : Fin 10) (c : Fin 30) (hc : c.val = 10 + i.val) :
    glueW v33 v34 v36 (ix2 b' c)
      = bu1 (fun b => v33 (ix2 b 0)) (fun b => v34 (ix2 b 0)) (fun b j => v36 (ix2 b j)) b' i := by
  unfold glueW
  show concatenate S1024x30 1 [⟨S1024x10, wgt0 v33 v34⟩, ⟨S1024x10, wgt1 v33 v34 v36⟩, ⟨S1024x10, wgt2 v33 v34 v36⟩]
    concatenates_S1024x10_S1024x10_S1024x10_S1024x30_d1 (ix2 b' c) = _
  rw [concat3_snd _ _ _ _ b' i c hc, wgt1_at]

theorem glueW_2 (v33 : FVec Ideal S1024x1 .f32) (b' : Fin 1024) (i : Fin 10) (c : Fin 30) (hc : c.val = 20 + i.val) :
    glueW v33 v34 v36 (ix2 b' c)
      = bu2 (fun b => v33 (ix2 b 0)) (fun b => v34 (ix2 b 0)) (fun b j => v36 (ix2 b j)) b' i := by
  unfold glueW
  show concatenate S1024x30 1 [⟨S1024x10, wgt0 v33 v34⟩, ⟨S1024x10, wgt1 v33 v34 v36⟩, ⟨S1024x10, wgt2 v33 v34 v36⟩]
    concatenates_S1024x10_S1024x10_S1024x10_S1024x30_d1 (ix2 b' c) = _
  rw [concat3_thd _ _ _ _ b' i c hc, wgt2_at]

theorem glueA_top (v30 v31 : FVec Ideal S512x1024 .bf16) (a' : Fin 512) (b' : Fin 1024) (r : Fin 1024) (hr : r.val = a'.val) :
    glueA v30 v31 (ix2 r b') = v30 (ix2 a' b') := by
  unfold glueA
  exact concat2_top _ _ _ a' b' r hr

theorem glueA_bot (v30 v31 : FVec Ideal S512x1024 .bf16) (a' : Fin 512) (b' : Fin 1024) (r : Fin 1024) (hr : r.val = 512 + a'.val) :
    glueA v30 v31 (ix2 r b') = v31 (ix2 a' b') := by
  unfold glueA
  exact concat2_bot _ _ _ a' b' r hr

end Cert.KernelIdeal.Hand

end
-- ==== Proof.KerPay3.lean ====
import proofs.«426650_j89962384982112_3_alg».proof.Proof.KerPay2

noncomputable section

open scoped BigOperators

namespace Cert.KernelIdeal.Hand

open Idealize.ShloMosaic Idealize.ShloMosaic.ValueIdx Cert.KernelIdeal Cert.KernelIdeal.Gen Cert.Spec

variable (v3 : Vec Ideal S512x128 .bf16) (v5 : Vec Ideal S1024x128 .bf16) (v9 v11 : Vec Ideal S512x1 .f32)
  (v13 : Vec Ideal S512x10 .f32) (v15 : Vec Ideal S1x1024 .f32) (v32 v34 : Vec Ideal S1024x1 .f32) (v36 : Vec Ideal S1024x10 .f32)

theorem cut_at {α : Type} (ro co : ℕ) (P : S1024x30.Idx → α) (h1 : S1024x30.Slices ![ro, 0] S512x30)
    (h2 : S512x30.Slices ![0, co] S512x10) (a' : Fin 512) (i : Fin 10) (r : Fin 1024) (c : Fin 30)
    (hr : r.val = ro + a'.val) (hc : c.val = co + i.val) :
    extractStridedSlice S512x10 ![0, co] (extractStridedSlice S512x30 ![ro, 0] P h1) h2 (ix2 a' i) = P (ix2 r c) :=
  (slice2_axis1_apply co _ h2 a' i c hc).trans (slice2_axis0_apply ro P h1 a' c r hr)

theorem pay10_at (v30 v31 : FVec Ideal S512x1024 .bf16) (v33 : FVec Ideal S1024x1 .f32) (r : Fin 1024) (c : Fin 30) :
    k0_pay10 (F := Ideal) v30 v31 v33 v34 v36 (ix2 r c)
      = ∑ b' : Fin 1024, glueA v30 v31 (ix2 r b') * glueW v33 v34 v36 (ix2 b' c) := by
  rw [pay10_eq]
  exact mmB_apply _ _ r c

theorem pay8_at (b : Fin 1024) : k0_pay8 (F := Ideal) v32 (ix2 b 0) = v32 (ix2 b 0) := by
  unfold k0_pay8
  rw [shapeCast_self]

section Sums

local notation "XA" => (fun (a : Fin 512) (k : Fin 128) => v3 (ix2 a k))
local notation "XB" => (fun (b : Fin 1024) (k : Fin 128) => v5 (ix2 b k))
local notation "SQA" => (fun (a : Fin 512) => v9 (ix2 a 0))
local notation "SQB" => (fun (b : Fin 1024) => v15 (ix2 0 b))
local notation "TGB" => (fun (b : Fin 1024) => v32 (ix2 b 0))
local notation "NTB" => (fun (b : Fin 1024) => v34 (ix2 b 0))
local notation "PRB" => (fun (b : Fin 1024) (j : Fin 10) => v36 (ix2 b j))
local notation "P10" => k0_pay10 (F := Ideal) (k0_pay6 v3 v5 v9 v15) (k0_pay7 v3 v5 v9 v15) (k0_pay8 v32) v34 v36

theorem tgb_eq : (fun b : Fin 1024 => k0_pay8 (F := Ideal) v32 (ix2 b 0)) = TGB := funext fun b => pay8_at v32 b

theorem sum_A0 (h1 : S1024x30.Slices ![0, 0] S512x30) (h2 : S512x30.Slices ![0, 0] S512x10) (a' : Fin 512) (i : Fin 10) :
    extractStridedSlice S512x10 ![0, 0] (extractStridedSlice S512x30 ![0, 0] P10 h1) h2 (ix2 a' i)
      = ∑ b', bA XA XB SQA SQB a' b' * bu0 TGB NTB b' i := by
  rw [cut_at 0 0 _ h1 h2 a' i ⟨a'.val, by have := a'.isLt; omega⟩ ⟨i.val, by have := i.isLt; omega⟩ (by simp) (by simp), pay10_at]
  refine Finset.sum_congr rfl fun b' _ => ?_
  rw [glueA_top _ _ a' b' _ rfl, glueW_0 v34 v36 _ b' i _ rfl, pay6_at, tgb_eq]

theorem sum_A1 (h1 : S1024x30.Slices ![0, 0] S512x30) (h2 : S512x30.Slices ![0, 10] S512x10) (a' : Fin 512) (i : Fin 10) :
    extractStridedSlice S512x10 ![0, 10] (extractStridedSlice S512x30 ![0, 0] P10 h1) h2 (ix2 a' i)
      = ∑ b', bA XA XB SQA SQB a' b' * bu1 TGB NTB PRB b' i := by
  rw [cut_at 0 10 _ h1 h2 a' i ⟨a'.val, by have := a'.isLt; omega⟩ ⟨10 + i.val, by have := i.isLt; omega⟩ (by simp) (by simp), pay10_at]
  refine Finset.sum_congr rfl fun b' _ => ?_
  rw [glueA_top _ _ a' b' _ rfl, glueW_1 v34 v36 _ b' i _ rfl, pay6_at, tgb_eq]

theorem sum_B0 (h1 : S1024x30.Slices ![512, 0] S512x30) (h2 : S512x30.Slices ![0, 0] S512x10) (a' : Fin 512) (i : Fin 10) :
    extractStridedSlice S512x10 ![0, 0] (extractStridedSlice S512x30 ![512, 0] P10 h1) h2 (ix2 a' i)
      = ∑ b', (bA XA XB SQA SQB a' b' * bA XA XB SQA SQB a' b') * bu0 TGB NTB b' i := by
  rw [cut_at 512 0 _ h1 h2 a' i ⟨512 + a'.val, by have := a'.isLt; omega⟩ ⟨i.val, by have := i.isLt; omega⟩ rfl (by simp), pay10_at]
  refine Finset.sum_congr rfl fun b' _ => ?_
  rw [glueA_bot _ _ a' b' _ rfl, glueW_0 v34 v36 _ b' i _ rfl, pay7_at, tgb_eq]

theorem sum_B1 (h1 : S1024x30.Slices ![512, 0] S512x30) (h2 : S512x30.Slices ![0, 10] S512x10) (a' : Fin 512) (i : Fin 10) :
    extractStridedSlice S512x10 ![0, 10] (extractStridedSlice S512x30 ![512, 0] P10 h1) h2 (ix2 a' i)
      = ∑ b', (bA XA XB SQA SQB a' b' * bA XA XB SQA SQB a' b') * bu1 TGB NTB PRB b' i := by
  rw [cut_at 512 10 _ h1 h2 a' i ⟨512 + a'.val, by have := a'.isLt; omega⟩ ⟨10 + i.val, by have := i.isLt; omega⟩ rfl rfl, pay10_at]
  refine Finset.sum_congr rfl fun b' _ => ?_
  rw [glueA_bot _ _ a' b' _ rfl, glueW_1 v34 v36 _ b' i _ rfl, pay7_at, tgb_eq]

theorem sum_B2 (h1 : S1024x30.Slices ![512, 0] S512x30) (h2 : S512x30.Slices ![0, 20] S512x10) (a' : Fin 512) (i : Fin 10) :
    extractStridedSlice S512x10 ![0, 20] (extractStridedSlice S512x30 ![512, 0] P10 h1) h2 (ix2 a' i)
      = ∑ b', (bA XA XB SQA SQB a' b' * bA XA XB SQA SQB a' b') * bu2 TGB NTB PRB b' i := by
  rw [cut_at 512 20 _ h1 h2 a' i ⟨512 + a'.val, by have := a'.isLt; omega⟩ ⟨20 + i.val, by have := i.isLt; omega⟩ rfl rfl, pay10_at]
  refine Finset.sum_congr rfl fun b' _ => ?_
  rw [glueA_bot _ _ a' b' _ rfl, glueW_2 v34 v36 _ b' i _ rfl, pay7_at, tgb_eq]

end Sums

end Cert.KernelIdeal.Hand

end
-- ==== Proof.KerPay.lean ====
import proofs.«426650_j89962384982112_3_alg».proof.Proof.Gen.KernelIdeal.Skeleton
import proofs.«426650_j89962384982112_3_alg».proof.Proof.SpecK
import proofs.«426650_j89962384982112_3_alg».proof.Proof.KerPay3
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.Spec

variable (v3 : Vec Ideal S512x128 .bf16) (v5 : Vec Ideal S1024x128 .bf16) (v9 v11 : Vec Ideal S512x1 .f32)
  (v13 : Vec Ideal S512x10 .f32) (v15 : Vec Ideal S1x1024 .f32) (v32 v34 : Vec Ideal S1024x1 .f32) (v36 : Vec Ideal S1024x10 .f32)

theorem pay4_eq : k0_pay4 (F := Ideal) v11 = v11 := by
  unfold k0_pay4
  exact shapeCast_self _ _

theorem pay5_eq : k0_pay5 (F := Ideal) v13 = v13 := by
  unfold k0_pay5
  exact shapeCast_self _ _

theorem pay12_at (i : Fin 10) :
    k0_pay12 (F := Ideal) (k0_pay4 v11) (k0_pay5 v13) (k0_pay6 v3 v5 v9 v15) (k0_pay7 v3 v5 v9 v15) (k0_pay8 v32) v34 v36 (ix2 0 i)
      = bS1 (fun a k => v3 (ix2 a k)) (fun b k => v5 (ix2 b k)) (fun a => v9 (ix2 a 0)) (fun a => v11 (ix2 a 0)) (fun a j => v13 (ix2 a j))
          (fun b => v15 (ix2 0 b)) (fun b => v32 (ix2 b 0)) (fun b => v34 (ix2 b 0)) (fun b j => v36 (ix2 b j)) i := by
  rw [pay4_eq, pay5_eq]
  unfold k0_pay12
  dsimp only
  refine (shapeCast_a_1a_apply _ _ 0 i).trans ?_
  refine (rowsum_apply _ _ _ _ i).trans ?_
  unfold bS1
  refine Finset.sum_congr rfl fun a' _ => ?_
  show k0_pay11 (F := Ideal) v11 (ix2 a' i)
      * (v13 (ix2 a' i)
          * extractStridedSlice S512x10 ![0, 0] (extractStridedSlice S512x30 ![0, 0]
              (k0_pay10 (F := Ideal) (k0_pay6 v3 v5 v9 v15) (k0_pay7 v3 v5 v9 v15) (k0_pay8 v32) v34 v36)
              slices_S1024x30_o0_0_S512x30) slices_S512x30_o0_0_S512x10 (ix2 a' i)
        - extractStridedSlice S512x10 ![0, 10] (extractStridedSlice S512x30 ![0, 0]
              (k0_pay10 (F := Ideal) (k0_pay6 v3 v5 v9 v15) (k0_pay7 v3 v5 v9 v15) (k0_pay8 v32) v34 v36)
              slices_S1024x30_o0_0_S512x30) slices_S512x30_o0_10_S512x10 (ix2 a' i)) = _
  rw [pay11_at, sum_A0, sum_A1]

theorem pay13_at (i : Fin 10) :
    k0_pay13 (F := Ideal) (k0_pay4 v11) (k0_pay5 v13) (k0_pay6 v3 v5 v9 v15) (k0_pay7 v3 v5 v9 v15) (k0_pay8 v32) v34 v36 (ix2 0 i)
      = bS2 (fun a k => v3 (ix2 a k)) (fun b k => v5 (ix2 b k)) (fun a => v9 (ix2 a 0)) (fun a => v11 (ix2 a 0)) (fun a j => v13 (ix2 a j))
          (fun b => v15 (ix2 0 b)) (fun b => v32 (ix2 b 0)) (fun b => v34 (ix2 b 0)) (fun b j => v36 (ix2 b j)) i := by
  rw [pay4_eq, pay5_eq]
  unfold k0_pay13
  dsimp only
  refine (shapeCast_a_1a_apply _ _ 0 i).trans ?_
  refine (rowsum_apply _ _ _ _ i).trans ?_
  unfold bS2
  refine Finset.sum_congr rfl fun a' _ => ?_
  show k0_pay11 (F := Ideal) v11 (ix2 a' i)
      * (v13 (ix2 a' i) * v13 (ix2 a' i)
          * extractStridedSlice S512x10 ![0, 0] (extractStridedSlice S512x30 ![512, 0]
              (k0_pay10 (F := Ideal) (k0_pay6 v3 v5 v9 v15) (k0_pay7 v3 v5 v9 v15) (k0_pay8 v32) v34 v36)
              slices_S1024x30_o512_0_S512x30) slices_S512x30_o0_0_S512x10 (ix2 a' i)
        - Ideal.ofBits .f32 0x40000000#32 * v13 (ix2 a' i)
          * extractStridedSlice S512x10 ![0, 10] (extractStridedSlice S512x30 ![512, 0]
              (k0_pay10 (F := Ideal) (k0_pay6 v3 v5 v9 v15) (k0_pay7 v3 v5 v9 v15) (k0_pay8 v32) v34 v36)
              slices_S1024x30_o512_0_S512x30) slices_S512x30_o0_10_S512x10 (ix2 a' i)
        + extractStridedSlice S512x10 ![0, 20] (extractStridedSlice S512x30 ![512, 0]
              (k0_pay10 (F := Ideal) (k0_pay6 v3 v5 v9 v15) (k0_pay7 v3 v5 v9 v15) (k0_pay8 v32) v34 v36)
              slices_S1024x30_o512_0_S512x30) slices_S512x30_o0_20_S512x10 (ix2 a' i)) = _
  rw [pay11_at, sum_B0, sum_B1, sum_B2]
  rfl

end Cert.KernelIdeal.Hand

end
-- ==== Proof.KerHost1.lean ====
import proofs.«426650_j89962384982112_3_alg».proof.Proof.KerDefs
import Idealize.ShloMosaic.Lib.StableHlo.Run
import Idealize.ShloMosaic.PureOps.Ideal

noncomputable section

namespace Cert.KernelIdeal.Hand

open Idealize.ShloMosaic Idealize.ShloMosaic.TcCoe Idealize.SL.Sem Idealize.ShloMosaic.StableHlo Cert.KernelIdeal
  Cert.KernelIdeal.Gen

section Terms

variable (x0 : FVec Ideal S4096x128 .f32) (x1 : IVec S4096 32) (x2 : FVec Ideal S10x128 .f32)

def hSq : FVec Ideal S4096 .f32 :=
  Host.reduceAdd (mulf x0 x0) (constant (F := Ideal) S_ .f32 0x00000000#32) reducesTo_S4096x128_S4096_d1 h_S_

def hProj : FVec Ideal S4096x10 .f32 :=
  Host.dotGeneral dot_S4096x128_S128x10_S4096x10_1_0_0_1_n_n none x0 (transpose S128x10 [1, 0] x2 transposes_S10x128_S128x10_1_0)

def hWn : FVec Ideal S10 .f32 :=
  maximumf
    (Host.sqrt (Host.reduceAdd (mulf x2 x2) (constant (F := Ideal) S_ .f32 0x00000000#32) reducesTo_S10x128_S10_d1 h_S_))
    (broadcastInDim S10 ![] bcast_S_S10 (constant (F := Ideal) S_ .f32 0x322BCC77#32))

def hLab : IVec S4096 32 :=
  select (cmpi .slt x1 (broadcastInDim S4096 ![] bcast_S_S4096 (constantI S_ 32 0#32)))
    (addi x1 (broadcastInDim S4096 ![] bcast_S_S4096 (constantI S_ 32 10#32))) x1

def hCnt : IVec S10 32 :=
  Host.scatter scatter_S10_S4096x1_S4096_n_0_0_1 IntOp.addi
    (broadcastInDim S10 ![] bcast_S_S10 (constantI S_ 32 0#32))
    (broadcastInDim S4096x1 ![0] bcast_S4096_S4096x1_0 (hLab x1))
    (broadcastInDim S4096 ![] bcast_S_S4096 (constantI S_ 32 1#32))

def hExist : FVec Ideal S_ .f32 :=
  sitofp .f32
    (Host.reduce IntOp.addi
      (extui 32 (cmpi .sgt (hCnt x1) (broadcastInDim S10 ![] bcast_S_S10 (constantI S_ 32 0#32))) natLt_1_32)
      (constantI S_ 32 0#32) reducesTo_S10_S_d0 h_S_)

def hNt : FVec Ideal S4096 .f32 :=
  sitofp .f32
    (Host.gather gather_S10_S4096x1_S4096_n_0_n_n_0_1_1 (hCnt x1)
      (broadcastInDim S4096x1 ![0] bcast_S4096_S4096x1_0 (hLab x1)))

def hTab : FVec Ideal S4096x16 .f32 :=
  Host.scatter scatter_S4096x16_S1_S4096x10_01_n_1_0 (fun _ b => b)
    (Host.scatter scatter_S4096x16_S1_S4096_0_1_1_0 (fun _ b => b)
      (Host.scatter scatter_S4096x16_S1_S4096_0_1_1_0 (fun _ b => b)
        (Host.scatter scatter_S4096x16_S1_S4096_0_1_1_0 (fun _ b => b)
          (broadcastInDim S4096x16 ![] bcast_S_S4096x16 (constant (F := Ideal) S_ .f32 0x00000000#32))
          (broadcastInDim S1 ![] bcast_S_S1 (constantI S_ 32 0#32)) (hSq x0))
        (broadcastInDim S1 ![] bcast_S_S1 (constantI S_ 32 1#32)) (hNt x1))
      (broadcastInDim S1 ![] bcast_S_S1 (constantI S_ 32 2#32)) (sitofp .f32 x1))
    (broadcastInDim S1 ![] bcast_S_S1 (constantI S_ 32 3#32)) (hProj x0 x2)

def hRow : FVec Ideal S8x4096 .f32 :=
  Host.scatter scatter_S8x4096_S1_S4096_0_0_0_0 (fun _ b => b)
    (broadcastInDim S8x4096 ![] bcast_S_S8x4096 (constant (F := Ideal) S_ .f32 0x00000000#32))
    (broadcastInDim S1 ![] bcast_S_S1 (constantI S_ 32 0#32)) (hSq x0)

end Terms

variable (m : (ℓ : Loc nD τ sig) → Buf (Elt Ideal) ℓ) (c : Dev nD)

abbrev a0 : FVec Ideal S4096x128 .f32 := m ((c.tc : Thread nD τ).loc main_arg0)
abbrev a1 : IVec S4096 32 := m ((c.tc : Thread nD τ).loc main_arg1)
abbrev a2 : FVec Ideal S10x128 .f32 := m ((c.tc : Thread nD τ).loc main_arg2)

theorem V_v44 : (V m c main_v44 : FVec Ideal S4096x128 .bf16) = truncf .bf16 (a0 m c) bitsLt_bf16_f32 := by
  dsimp only [V, V0]
  simp only [Gen.hostOps0, List.flatten_cons, List.flatten_nil, List.append_nil]
  after_results_simp

theorem V_v43 : (V m c main_v43 : FVec Ideal S8x4096 .f32) = hRow (a0 m c) := by
  dsimp only [V, V0]
  simp only [Gen.hostOps0, List.flatten_cons, List.flatten_nil, List.append_nil]
  after_results_simp
  rfl

theorem V_v40 : (V m c main_v40 : FVec Ideal S4096x16 .f32) = hTab (a0 m c) (a1 m c) (a2 m c) := by
  dsimp only [V, V0]
  simp only [Gen.hostOps0, List.flatten_cons, List.flatten_nil, List.append_nil]
  after_results_simp
  rfl

theorem V_v8 : (V m c main_v8 : FVec Ideal S10 .f32) = hWn (a2 m c) := by
  dsimp only [V, V0]
  simp only [Gen.hostOps0, List.flatten_cons, List.flatten_nil, List.append_nil]
  after_results_simp
  rfl

theorem V_v17 : (V m c main_v17 : IVec S10 32) = hCnt (a1 m c) := by
  dsimp only [V, V0]
  simp only [Gen.hostOps0, List.flatten_cons, List.flatten_nil, List.append_nil]
  after_results_simp
  rfl

theorem V_v22 : (V m c main_v22 : FVec Ideal S_ .f32) = hExist (a1 m c) := by
  dsimp only [V, V0]
  simp only [Gen.hostOps0, List.flatten_cons, List.flatten_nil, List.append_nil]
  after_results_simp
  rfl

end Cert.KernelIdeal.Hand

end
-- ==== Proof.LibScatterCount.lean ====
import Idealize.ShloMosaic.PureOps.ShapeOps
import Idealize.ShloMosaic.Lib.ValueIdx
import Mathlib.Algebra.BigOperators.Fin

noncomputable section

open scoped BigOperators

namespace Cert.LibScatterCount

open Idealize.ShloMosaic Idealize.ShloMosaic.ValueIdx

theorem scatter_apply_fold {α : Type} {s si u : Shape} {w : Nat} (d : ScatterDims s si u) (f : α → α → α)
    (x : s.Idx → α) (idx : IVec si w) (upd : u.Idx → α) (k : s.Idx) :
    Host.scatter d f x idx upd k
      = (List.finRange u.numel).foldl (fun a n =>
          if d.resultIdx? (u.rowMajor.symm n) idx = some k then f a (upd (u.rowMajor.symm n)) else a) (x k) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hki : k = i
      · subst hki; simp
      · have hne : ¬ (some i = some k) := fun h => hki (Option.some.inj h).symm
        simp [hki, hne]

theorem foldl_cond_addi_toNat {ι : Type} {w : Nat} (c : ι → Prop) [DecidablePred c] (v : ι → BitVec w) (l : List ι)
    (a : BitVec w) (hb : a.toNat + (l.map fun n => (v n).toNat).sum < 2 ^ w) :
    (l.foldl (fun a n => if c n then IntOp.addi a (v n) else a) a).toNat
      = a.toNat + (l.map fun n => if c n then (v n).toNat else 0).sum := by
  induction l generalizing a with
  | nil => simp
  | cons n l ih =>
    simp only [List.foldl_cons, List.map_cons, List.sum_cons] at hb ⊢
    by_cases hc : c n
    · have hadd : (IntOp.addi a (v n)).toNat = a.toNat + (v n).toNat := by
        show (a + v n).toNat = _
        rw [BitVec.toNat_add]; exact Nat.mod_eq_of_lt (by omega)
      rw [if_pos hc, if_pos hc, ih _ (by rw [hadd]; omega), hadd]; omega
    · rw [if_neg hc, if_neg hc, ih _ (by omega)]; omega

def idxEquiv1 {n : Nat} : (⟨1, ![n]⟩ : Shape).Idx ≃ Fin n where
  toFun i := i 0
  invFun a := ix1 a
  left_inv i := (eq_ix1 i).symm
  right_inv _ := rfl

theorem sum_finRange_rowMajor {N : Nat} (F : (⟨1, ![N]⟩ : Shape).Idx → ℕ) :
    ((List.finRange (⟨1, ![N]⟩ : Shape).numel).map fun n => F ((⟨1, ![N]⟩ : Shape).rowMajor.symm n)).sum
      = ∑ n : Fin N, F (ix1 n) := by
  rw [← Fin.sum_univ_def, Equiv.sum_comp (⟨1, ![N]⟩ : Shape).rowMajor.symm F,
    ← Equiv.sum_comp (idxEquiv1 (n := N)).symm F]
  rfl

section Landing
variable {M N : Nat} (d : ScatterDims ⟨1, ![M]⟩ ⟨2, ![N, 1]⟩ ⟨1, ![N]⟩)

theorem window_eq (h2 : d.insertedWindowDims = [0]) (j : (⟨1, ![N]⟩ : Shape).Idx) (a : Fin 1) : d.window j a = 0 := by
  obtain rfl : a = 0 := Subsingleton.elim _ _
  unfold ScatterDims.window
  rw [dif_neg]
  intro ha
  have hm := (List.mem_filter.1 ha).2
  rw [h2] at hm
  simp at hm

theorem start_eq (h1 : d.updateWindowDims = []) (h3 : d.scatterDimsToOperandDims = [0]) (h4 : d.indexVectorDim = 1)
    {w : Nat} (idx : IVec ⟨2, ![N, 1]⟩ w) (j : (⟨1, ![N]⟩ : Shape).Idx) (a : Fin 1) :
    d.start j idx a = (idx (ix2 (j 0) 0)).toInt := by
  obtain rfl : a = 0 := Subsingleton.elim _ _
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

theorem resultIdx?_eq_some_iff (h1 : d.updateWindowDims = []) (h2 : d.insertedWindowDims = [0])
    (h3 : d.scatterDimsToOperandDims = [0]) (h4 : d.indexVectorDim = 1)
    {w : Nat} (idx : IVec ⟨2, ![N, 1]⟩ w) (j : (⟨1, ![N]⟩ : Shape).Idx) (k : Fin M) :
    d.resultIdx? j idx = some (ix1 k) ↔ (idx (ix2 (j 0) 0)).toInt = (k.val : ℤ) := by
  have hs := start_eq d h1 h3 h4 idx j
  have hw := window_eq d h2 j
  unfold ScatterDims.resultIdx?
  split_ifs with h
  · rw [Option.some.injEq]
    constructor
    · intro he
      have h0 := h 0
      have hv : (d.start j idx 0 + (d.window j 0 : ℤ)).toNat = k.val := congrArg Fin.val (congrFun he 0)
      rw [hs 0, hw 0] at hv h0
      omega
    · intro he
      funext a
      obtain rfl : a = 0 := Subsingleton.elim _ _
      refine Fin.ext ?_
      show (d.start j idx 0 + (d.window j 0 : ℤ)).toNat = k.val
      rw [hs 0, hw 0, he]
      simp
  · constructor
    · intro he; cases he
    · intro he
      exfalso
      apply h
      intro a
      obtain rfl : a = 0 := Subsingleton.elim _ _
      rw [hs 0, hw 0, he]
      have hk : ((k.val : ℕ) : ℤ) < ((M : ℕ) : ℤ) := by exact_mod_cast k.isLt
      exact ⟨by simp, by simpa using hk⟩

end Landing

theorem scatter_add_toNat_gen {M N w wi : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec w) (idx : (⟨2, ![N, 1]⟩ : Shape).Idx → BitVec wi)
    (upd : (⟨1, ![N]⟩ : Shape).Idx → BitVec w) (k : Fin M)
    (hb : (x (ix1 k)).toNat + (∑ n : Fin N, (upd (ix1 n)).toNat) < 2 ^ w) :
    (Host.scatter d IntOp.addi x idx upd (ix1 k)).toNat
      = (x (ix1 k)).toNat + ∑ n : Fin N, if (idx (ix2 n 0)).toInt = (k.val : ℤ) then (upd (ix1 n)).toNat else 0 := by
  rw [scatter_apply_fold]
  have hb' : (x (ix1 k)).toNat
      + ((List.finRange (⟨1, ![N]⟩ : Shape).numel).map fun n =>
          (upd ((⟨1, ![N]⟩ : Shape).rowMajor.symm n)).toNat).sum < 2 ^ w := by
    rw [sum_finRange_rowMajor (fun j => (upd j).toNat)]; exact hb
  rw [foldl_cond_addi_toNat
    (fun n => d.resultIdx? ((⟨1, ![N]⟩ : Shape).rowMajor.symm n) idx = some (ix1 k))
    (fun n => upd ((⟨1, ![N]⟩ : Shape).rowMajor.symm n)) _ _ hb']
  congr 1
  rw [sum_finRange_rowMajor (fun j => if d.resultIdx? j idx = some (ix1 k) then (upd j).toNat else 0)]
  refine Finset.sum_congr rfl fun n _ => ?_
  exact if_congr (resultIdx?_eq_some_iff d h1 h2 h3 h4 idx (ix1 n) k) rfl rfl

theorem scatter_add_toNat {M N : ℕ} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : (⟨2, ![N, 1]⟩ : Shape).Idx → BitVec 32)
    (upd : (⟨1, ![N]⟩ : Shape).Idx → BitVec 32) (k : Fin M)
    (hb : (x (ix1 k)).toNat + (∑ n : Fin N, (upd (ix1 n)).toNat) < 2 ^ 32) :
    (Host.scatter d IntOp.addi x idx upd (ix1 k)).toNat
      = (x (ix1 k)).toNat + ∑ n : Fin N, if (idx (ix2 n 0)).toInt = (k.val : ℤ) then (upd (ix1 n)).toNat else 0 :=
  scatter_add_toNat_gen d h1 h2 h3 h4 x idx upd k hb

end Cert.LibScatterCount

end
-- ==== Proof.LibScatterSet.lean ====
import Idealize.ShloMosaic.PureOps.ShapeOps
import proofs.«426650_j89962384982112_3_alg».proof.Proof.LibScatterCount

noncomputable section

namespace Cert.LibScatterSet

open Idealize.ShloMosaic Cert.LibScatterCount

theorem foldl_set_const {ι α : Type} (c : ι → Prop) [DecidablePred c] (v : ι → α) (l : List ι) (b : α)
    (h : ∀ n ∈ l, c n → v n = b) : l.foldl (fun a n => if c n then v n else a) b = b := by
  induction l with
  | nil => rfl
  | cons n l ih =>
    rw [List.foldl_cons]
    by_cases hc : c n
    · rw [if_pos hc, h n (List.mem_cons_self ..) hc]
      exact ih fun k hk => h k (List.mem_cons_of_mem _ hk)
    · rw [if_neg hc]
      exact ih fun k hk => h k (List.mem_cons_of_mem _ hk)

theorem foldl_set_unique {ι α : Type} (c : ι → Prop) [DecidablePred c] (v : ι → α) (l : List ι) (a : α) (n0 : ι)
    (hmem : n0 ∈ l) (hc0 : c n0) (hc : ∀ n ∈ l, c n → n = n0) :
    l.foldl (fun a n => if c n then v n else a) a = v n0 := by
  induction l generalizing a with
  | nil => exact absurd hmem (List.not_mem_nil)
  | cons n l ih =>
    rw [List.foldl_cons]
    by_cases hn : n = n0
    · subst hn
      rw [if_pos hc0]
      exact foldl_set_const c v l _ fun k hk hck => by rw [hc k (List.mem_cons_of_mem _ hk) hck]
    · have hcn : ¬ c n := fun h => hn (hc n (List.mem_cons_self ..) h)
      rw [if_neg hcn]
      exact ih _ ((List.mem_cons.1 hmem).resolve_left (Ne.symm hn)) fun k hk => hc k (List.mem_cons_of_mem _ hk)

theorem foldl_set_none {ι α : Type} (c : ι → Prop) [DecidablePred c] (v : ι → α) (l : List ι) (a : α)
    (h : ∀ n ∈ l, ¬ c n) : l.foldl (fun a n => if c n then v n else a) a = a := by
  induction l with
  | nil => rfl
  | cons n l ih =>
    rw [List.foldl_cons, if_neg (h n (List.mem_cons_self ..))]
    exact ih fun k hk => h k (List.mem_cons_of_mem _ hk)

section Set
variable {α : Type} {s si u : Shape} {w : Nat} (d : ScatterDims s si u) (x : s.Idx → α) (idx : IVec si w)
  (upd : u.Idx → α) (k : s.Idx)

theorem scatter_set_of_unique (j0 : u.Idx) (h0 : d.resultIdx? j0 idx = some k)
    (hu : ∀ j, d.resultIdx? j idx = some k → j = j0) :
    Host.scatter d (fun _ b => b) x idx upd k = upd j0 := by
  rw [scatter_apply_fold]
  have h := foldl_set_unique (fun n => d.resultIdx? (u.rowMajor.symm n) idx = some k)
    (fun n => upd (u.rowMajor.symm n)) (List.finRange u.numel) (x k) (u.rowMajor j0) (List.mem_finRange _)
    (by rw [Equiv.symm_apply_apply]; exact h0)
    (fun n _ hn => by rw [← hu _ hn, Equiv.apply_symm_apply])
  rw [Equiv.symm_apply_apply] at h
  exact h

theorem scatter_set_of_none (h : ∀ j, d.resultIdx? j idx ≠ some k) :
    Host.scatter d (fun _ b => b) x idx upd k = x k := by
  rw [scatter_apply_fold]
  exact foldl_set_none _ _ _ _ fun n _ => h _

end Set

theorem resultIdx?_eq_some_iff {s si u : Shape} {w : Nat} (d : ScatterDims s si u) (j : u.Idx) (idx : IVec si w)
    (k : s.Idx) :
    d.resultIdx? j idx = some k ↔ ∀ a, d.start j idx a + (d.window j a : ℤ) = ((k a).val : ℤ) := by
  unfold ScatterDims.resultIdx?
  split_ifs with h
  · rw [Option.some.injEq]
    constructor
    · intro he a
      have hv : (d.start j idx a + (d.window j a : ℤ)).toNat = (k a).val := congrArg Fin.val (congrFun he a)
      have h0 := (h a).1
      omega
    · intro he
      funext a
      refine Fin.ext ?_
      show (d.start j idx a + (d.window j a : ℤ)).toNat = (k a).val
      rw [he a]
      simp
  · constructor
    · intro he; cases he
    · intro he
      exfalso
      apply h
      intro a
      rw [he a]
      have hk : (((k a).val : ℕ) : ℤ) < ((s.size a : ℕ) : ℤ) := by exact_mod_cast (k a).isLt
      exact ⟨by simp, hk⟩

end Cert.LibScatterSet

end
-- ==== Proof.LibWordDiv.lean ====
import Idealize.ShloMosaic.PureOps.ShapeOps
import Idealize.ShloMosaic.Lib.ValueIdx

namespace Cert.LibWordDiv

open Idealize.ShloMosaic Idealize.ShloMosaic.ValueIdx

theorem msb_false {x : BitVec 32} (h : x.toNat < 2 ^ 31) : x.msb = false := by
  rw [BitVec.msb_eq_decide]
  exact decide_eq_false (by omega)

theorem slt_zero_of_nonneg {x : BitVec 32} (h : x.toNat < 2 ^ 31) : IntOp.cmpi .slt x 0#32 = 0#1 := by
  show BitVec.ofBool (x.slt 0#32) = 0#1
  rw [BitVec.slt_zero_eq_msb, msb_false h]
  rfl

theorem wrap_word {n : BitVec 32} (k : BitVec 32) (hn : n.toNat < 2 ^ 31) :
    Scalar.select (IntOp.cmpi .slt n 0#32) (IntOp.addi n k) n = n := by
  rw [slt_zero_of_nonneg hn, select_zero]

section Vec
variable {t : Shape} (dims : Fin 0 → Fin t.rank) (hB : (⟨0, ![]⟩ : Shape).BroadcastsInDim t dims)

theorem broadcastInDim_scalar {α : Type} (y : (⟨0, ![]⟩ : Shape).Idx → α) :
    broadcastInDim t dims hB y = fun _ => y ix0 := by
  funext j
  unfold broadcastInDim
  congr 1
  funext a
  exact a.elim0

theorem wrap_apply (x : IVec t 32) (z k : IVec ⟨0, ![]⟩ 32) (i : t.Idx) (hz : z ix0 = 0#32)
    (hn : (x i).toNat < 2 ^ 31) :
    select (cmpi .slt x (broadcastInDim t dims hB z)) (addi x (broadcastInDim t dims hB k)) x i = x i := by
  simp only [broadcastInDim_scalar]
  show Scalar.select (IntOp.cmpi .slt (x i) (z ix0)) (IntOp.addi (x i) (k ix0)) (x i) = x i
  rw [hz]
  exact wrap_word (k ix0) hn

end Vec

section VecConst
variable {t : Shape} (dims : Fin 0 → Fin t.rank) (hB : (⟨0, ![]⟩ : Shape).BroadcastsInDim t dims)

theorem wrap_apply_0 (k : BitVec 32) (x : IVec t 32) (i : t.Idx) (hn : (x i).toNat < 2 ^ 31) :
    select (cmpi .slt x (broadcastInDim t dims hB (constantI ⟨0, ![]⟩ 32 0#32))) (addi x (broadcastInDim t dims hB (constantI ⟨0, ![]⟩ 32 k))) x i = x i :=
  wrap_apply dims hB x (constantI ⟨0, ![]⟩ 32 0#32) (constantI ⟨0, ![]⟩ 32 k) i rfl hn

end VecConst

end Cert.LibWordDiv
-- ==== Proof.KerHost2.lean ====
import proofs.«426650_j89962384982112_3_alg».proof.Proof.KerHost1
import proofs.«426650_j89962384982112_3_alg».proof.Proof.LibScatterSet
import proofs.«426650_j89962384982112_3_alg».proof.Proof.LibWordDiv
import proofs.«426650_j89962384982112_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.KernelIdeal.Hand

open Idealize.ShloMosaic Idealize.ShloMosaic.TcCoe Idealize.SL.Sem Idealize.ShloMosaic.ValueIdx Cert.KernelIdeal
  Cert.KernelIdeal.Gen Cert.Spec

variable (x0 : FVec Ideal S4096x128 .f32) (x1 : IVec S4096 32) (x2 : FVec Ideal S10x128 .f32)

theorem hSq_at (n : Fin 4096) : hSq x0 (ix1 n) = sq (Xof x0) n := by
  unfold hSq
  simp only [Host.reduceAdd, Ideal.hostReduceAdd_def]
  rw [Ideal.hostReduceAdd_single reducesTo_S4096x128_S4096_d1 (by decide)]
  show Ideal.ofBits .f32 0x00000000#32 + _ = _
  rw [Ideal.ofBits_zero_f32, zero_add]
  refine Finset.sum_congr rfl fun k _ => ?_
  show x0 _ * x0 _ = x0 (ix2 n k) * x0 (ix2 n k)
  have e : ∀ (hr : Shape.Reduces S4096x128 [1] S4096), hr.lift (ix1 n) k = ix2 n k := fun hr =>
    funext fun a => Fin.ext (by match a with | ⟨0, _⟩ => rfl | ⟨1, _⟩ => rfl)
  rw [e]
  rfl

theorem lhs_proj_0 (j : S4096x10.Idx) (q : dot_S4096x128_S128x10_S4096x10_1_0_0_1_n_n.contr.Idx) :
    (dot_S4096x128_S128x10_S4096x10_1_0_0_1_n_n.lhsIdx j q 0).val = (j 0).val := by
  unfold DotDims.lhsIdx
  rw [dif_neg (show ¬(0 : Fin S4096x128.rank) ∈ dot_S4096x128_S128x10_S4096x10_1_0_0_1_n_n.lhsBatch by decide),
    dif_pos (show (0 : Fin S4096x128.rank) ∈ dot_S4096x128_S128x10_S4096x10_1_0_0_1_n_n.lhsNonContracting by decide)]
  rfl
theorem lhs_proj_1 (j : S4096x10.Idx) (q : dot_S4096x128_S128x10_S4096x10_1_0_0_1_n_n.contr.Idx) :
    (dot_S4096x128_S128x10_S4096x10_1_0_0_1_n_n.lhsIdx j q 1).val = (q ⟨0, by decide⟩).val :=
  dot_S4096x128_S128x10_S4096x10_1_0_0_1_n_n.lhsIdx_val_of_single rfl j q
theorem rhs_proj_0 (j : S4096x10.Idx) (q : dot_S4096x128_S128x10_S4096x10_1_0_0_1_n_n.contr.Idx) :
    (dot_S4096x128_S128x10_S4096x10_1_0_0_1_n_n.rhsIdx j q 0).val = (q ⟨0, by decide⟩).val :=
  dot_S4096x128_S128x10_S4096x10_1_0_0_1_n_n.rhsIdx_val_of_single rfl j q
theorem rhs_proj_1 (j : S4096x10.Idx) (q : dot_S4096x128_S128x10_S4096x10_1_0_0_1_n_n.contr.Idx) :
    (dot_S4096x128_S128x10_S4096x10_1_0_0_1_n_n.rhsIdx j q 1).val = (j 1).val := by
  unfold DotDims.rhsIdx
  rw [dif_neg (show ¬(1 : Fin S128x10.rank) ∈ dot_S4096x128_S128x10_S4096x10_1_0_0_1_n_n.rhsBatch by decide),
    dif_pos (show (1 : Fin S128x10.rank) ∈ dot_S4096x128_S128x10_S4096x10_1_0_0_1_n_n.rhsNonContracting by decide)]
  rfl

theorem transpose_dir (k : Fin 128) (i : Fin 10) :
    transpose S128x10 [1, 0] x2 transposes_S10x128_S128x10_1_0 (ix2 k i) = x2 (ix2 i k) :=
  transpose_apply [1, 0] x2 transposes_S10x128_S128x10_1_0 (ix2 k i) (ix2 i k) (fun b => match b with
    | ⟨0, _⟩ => rfl
    | ⟨1, _⟩ => rfl)

theorem hProj_at (n : Fin 4096) (i : Fin 10) : hProj x0 x2 (ix2 n i) = proj (Xof x0) (Wof x2) n i := by
  unfold hProj
  simp only [Host.dotGeneral]
  rw [Ideal.dotGeneral_apply,
    ← Equiv.sum_comp (ValueIdx.contrEquiv1 dot_S4096x128_S128x10_S4096x10_1_0_0_1_n_n 128 rfl rfl).symm]
  refine Finset.sum_congr rfl fun k _ => ?_
  have hk := ValueIdx.contrEquiv1_symm_val dot_S4096x128_S128x10_S4096x10_1_0_0_1_n_n 128 rfl rfl k
  have el : dot_S4096x128_S128x10_S4096x10_1_0_0_1_n_n.lhsIdx (ix2 n i)
      ((ValueIdx.contrEquiv1 dot_S4096x128_S128x10_S4096x10_1_0_0_1_n_n 128 rfl rfl).symm k) = ix2 n k :=
    funext fun a => Fin.ext (by
      match a with
      | ⟨0, _⟩ => exact lhs_proj_0 _ _
      | ⟨1, _⟩ => exact (lhs_proj_1 _ _).trans hk)
  have er : dot_S4096x128_S128x10_S4096x10_1_0_0_1_n_n.rhsIdx (ix2 n i)
      ((ValueIdx.contrEquiv1 dot_S4096x128_S128x10_S4096x10_1_0_0_1_n_n 128 rfl rfl).symm k) = ix2 k i :=
    funext fun a => Fin.ext (by
      match a with
      | ⟨0, _⟩ => exact (rhs_proj_0 _ _).trans hk
      | ⟨1, _⟩ => exact rhs_proj_1 _ _)
  rw [el, er, transpose_dir]
  rfl

theorem hWn_at (i : Fin 10) : hWn x2 (ix1 i) = wn (Wof x2) i := by
  unfold hWn
  rw [maximumf_apply, broadcastInDim_scalar_apply, constant_apply]
  show max (Ideal.sqrt (Host.reduceAdd (mulf x2 x2) (constant (F := Ideal) S_ .f32 0x00000000#32) reducesTo_S10x128_S10_d1 h_S_ (ix1 i))) _ = _
  simp only [Host.reduceAdd, Ideal.hostReduceAdd_def]
  rw [Ideal.hostReduceAdd_single reducesTo_S10x128_S10_d1 (by decide)]
  unfold wn epsN
  congr 2
  show Ideal.ofBits .f32 0x00000000#32 + _ = _
  rw [Ideal.ofBits_zero_f32, zero_add]
  refine Finset.sum_congr rfl fun k _ => ?_
  show x2 _ * x2 _ = x2 (ix2 i k) * x2 (ix2 i k)
  have e : ∀ (hr : Shape.Reduces S10x128 [1] S10), hr.lift (ix1 i) k = ix2 i k := fun hr =>
    funext fun a => Fin.ext (by match a with | ⟨0, _⟩ => rfl | ⟨1, _⟩ => rfl)
  rw [e]
  rfl

theorem hX_at (n : Fin 4096) (k : Fin 128) :
    (truncf .bf16 x0 bitsLt_bf16_f32 : FVec Ideal S4096x128 .bf16) (ix2 n k) = Xof x0 n k := rfl

theorem ofNat_toInt (k : ℕ) (hk : k < 2 ^ 31) : (BitVec.ofNat 32 k).toInt = (k : ℤ) := by
  rw [BitVec.toInt_eq_toNat_cond, BitVec.toNat_ofNat, Nat.mod_eq_of_lt (by omega), if_pos (by omega)]

theorem fold_addi_toNat {ι : Type} [DecidableEq ι] (s : Finset ι) (g : ι → BitVec 32) (a : BitVec 32)
    (hb : a.toNat + ∑ i ∈ s, (g i).toNat < 2 ^ 32) :
    (s.fold IntOp.addi a g).toNat = a.toNat + ∑ i ∈ s, (g i).toNat := by
  induction s using Finset.induction_on with
  | empty => simp
  | insert i s hi ih =>
    rw [Finset.sum_insert hi] at hb ⊢
    rw [Finset.fold_insert hi]
    show (g i + s.fold IntOp.addi a g).toNat = _
    rw [BitVec.toNat_add, ih (by omega), Nat.mod_eq_of_lt (by omega)]
    omega

theorem gather_at (x : IVec S10 32) (idx : IVec S4096x1 32) (n : Fin 4096) :
    Host.gather gather_S10_S4096x1_S4096_n_0_n_n_0_1_1 x idx (ix1 n)
      = x (ix1 ⟨min (idx (ix2 n 0)).toInt.toNat 9, by omega⟩) := by
  unfold Host.gather
  congr 1
  funext a
  obtain rfl : a = 0 := Subsingleton.elim _ _
  refine Fin.ext ?_
  show gather_S10_S4096x1_S4096_n_0_n_n_0_1_1.start (ix1 n) idx 0
    + gather_S10_S4096x1_S4096_n_0_n_n_0_1_1.batchCoord (ix1 n) 0
    + gather_S10_S4096x1_S4096_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10_S4096x1_S4096_n_0_n_n_0_1_1.startIndexMap from List.mem_singleton.mpr rfl)]
  have hsi : gather_S10_S4096x1_S4096_n_0_n_n_0_1_1.siIdx (ix1 n)
      ⟨List.idxOf (0 : Fin 1) gather_S10_S4096x1_S4096_n_0_n_n_0_1_1.startIndexMap,
        List.idxOf_lt_length_iff.2 (List.mem_singleton.mpr rfl)⟩ = ix2 n 0 := by
    funext b; refine Fin.ext ?_
    match b with
    | ⟨0, _⟩ => rfl
    | ⟨1, _⟩ => rfl
  rw [hsi]
  rfl

section Words

theorem lab_small (h : InRange x1) (n : Fin 4096) : (x1 (ix1 n)).toNat < 2 ^ 31 := lt_trans (h n) (by norm_num)

theorem lab_toInt (h : InRange x1) (n : Fin 4096) : (x1 (ix1 n)).toInt = ((tnOf x1 h n).val : ℤ) := by
  have hn := h n
  show _ = (((x1 (ix1 n)).toNat : ℕ) : ℤ)
  rw [BitVec.toInt_eq_toNat_cond, if_pos (by omega)]

theorem hLab_at (h : InRange x1) (n : Fin 4096) : hLab x1 (ix1 n) = x1 (ix1 n) := by
  unfold hLab
  exact Cert.LibWordDiv.wrap_apply_0 ![] bcast_S_S4096 10#32 x1 (ix1 n) (lab_small x1 h n)

theorem labCol_at (h : InRange x1) (n : Fin 4096) :
    broadcastInDim S4096x1 ![0] bcast_S4096_S4096x1_0 (hLab x1) (ix2 n 0) = x1 (ix1 n) := by
  rw [broadcastInDim_apply ![0] bcast_S4096_S4096x1_0 (hLab x1) (ix2 n 0) (ix1 n)
    (fun a => by match a with | ⟨0, _⟩ => rfl)]
  exact hLab_at x1 h n

theorem cnt_le (tn : Fin 4096 → Fin 10) (i : Fin 10) : cnt tn i ≤ 4096 := by
  unfold cnt
  exact (Finset.card_filter_le _ _).trans (by simp)

theorem hCnt_toNat (h : InRange x1) (i : Fin 10) : (hCnt x1 (ix1 i)).toNat = cnt (tnOf x1 h) i := by
  have e0 : ∀ j, broadcastInDim S10 ![] bcast_S_S10 (constantI S_ 32 0#32) j = 0#32 :=
    fun j => broadcastInDim_scalar_apply _ _ j
  have e1 : ∀ j, broadcastInDim S4096 ![] bcast_S_S4096 (constantI S_ 32 1#32) j = 1#32 :=
    fun j => broadcastInDim_scalar_apply _ _ j
  have hb : (broadcastInDim S10 ![] bcast_S_S10 (constantI S_ 32 0#32) (ix1 i)).toNat
      + (∑ n : Fin 4096, (broadcastInDim S4096 ![] bcast_S_S4096 (constantI S_ 32 1#32) (ix1 n)).toNat) < 2 ^ 32 := by
    simp only [e0, e1]
    simp
  have H := Cert.LibScatterCount.scatter_add_toNat scatter_S10_S4096x1_S4096_n_0_0_1 rfl rfl rfl rfl
    (broadcastInDim S10 ![] bcast_S_S10 (constantI S_ 32 0#32))
    (broadcastInDim S4096x1 ![0] bcast_S4096_S4096x1_0 (hLab x1))
    (broadcastInDim S4096 ![] bcast_S_S4096 (constantI S_ 32 1#32)) i hb
  unfold hCnt
  rw [H, e0]
  have key : ∀ n : Fin 4096,
      (if (broadcastInDim S4096x1 ![0] bcast_S4096_S4096x1_0 (hLab x1) (ix2 n 0)).toInt = (i.val : ℤ)
        then (broadcastInDim S4096 ![] bcast_S_S4096 (constantI S_ 32 1#32) (ix1 n)).toNat else 0)
      = if tnOf x1 h n = i then 1 else 0 := by
    intro n
    rw [labCol_at x1 h n, lab_toInt x1 h n, e1]
    refine if_congr ?_ rfl rfl
    rw [Nat.cast_inj, Fin.val_inj]
  rw [Finset.sum_congr rfl (fun n _ => key n)]
  show 0 + _ = _
  rw [Nat.zero_add, Finset.sum_boole, Nat.cast_id]
  rfl

theorem hCnt_at (h : InRange x1) (i : Fin 10) : hCnt x1 (ix1 i) = BitVec.ofNat 32 (cnt (tnOf x1 h) i) := by
  apply BitVec.eq_of_toNat_eq
  have := cnt_le (tnOf x1 h) i
  rw [hCnt_toNat x1 h i, BitVec.toNat_ofNat, Nat.mod_eq_of_lt (by omega)]

theorem hNt_at (h : InRange x1) (n : Fin 4096) : hNt x1 (ix1 n) = NtE (tnOf x1 h) n := by
  unfold hNt
  rw [sitofp_apply, gather_at]
  have hidx : ∀ p, (⟨min (broadcastInDim S4096x1 ![0] bcast_S4096_S4096x1_0 (hLab x1) (ix2 n 0)).toInt.toNat 9, p⟩
      : Fin 10) = tnOf x1 h n := fun p => Fin.ext (by
    show min (broadcastInDim S4096x1 ![0] bcast_S4096_S4096x1_0 (hLab x1) (ix2 n 0)).toInt.toNat 9 = (tnOf x1 h n).val
    rw [labCol_at x1 h n, lab_toInt x1 h n, Int.toNat_natCast]
    have := (tnOf x1 h n).isLt
    omega)
  rw [hidx, hCnt_at x1 h]
  have := cnt_le (tnOf x1 h) (tnOf x1 h n)
  show (((BitVec.ofNat 32 (cnt (tnOf x1 h) (tnOf x1 h n))).toInt : ℝ) : EReal) = _
  rw [ofNat_toInt _ (by omega), Int.cast_natCast]
  rfl

theorem hTg_at (h : InRange x1) (n : Fin 4096) :
    (sitofp .f32 x1 : FVec Ideal S4096 .f32) (ix1 n) = ((((tnOf x1 h n).val : ℕ) : ℝ) : EReal) := by
  rw [sitofp_apply]
  show (((x1 (ix1 n)).toInt : ℝ) : EReal) = _
  rw [lab_toInt x1 h n, Int.cast_natCast]

theorem hExist_at (h : InRange x1) : hExist x1 ix0 = existE (tnOf x1 h) := by
  have e0 : ∀ j, broadcastInDim S10 ![] bcast_S_S10 (constantI S_ 32 0#32) j = 0#32 :=
    fun j => broadcastInDim_scalar_apply _ _ j

  have hv : ∀ k : Fin 10,
      ((extui 32 (cmpi .sgt (hCnt x1) (broadcastInDim S10 ![] bcast_S_S10 (constantI S_ 32 0#32))) natLt_1_32) (ix1 k)).toNat
        = if 0 < cnt (tnOf x1 h) k then 1 else 0 := by
    intro k
    have hle := cnt_le (tnOf x1 h) k
    show (BitVec.setWidth 32 (IntOp.cmpi .sgt (hCnt x1 (ix1 k))
      (broadcastInDim S10 ![] bcast_S_S10 (constantI S_ 32 0#32) (ix1 k)))).toNat = _
    rw [e0, hCnt_at x1 h k]
    by_cases hp : 0 < cnt (tnOf x1 h) k
    · have h1 : IntOp.cmpi .sgt (BitVec.ofNat 32 (cnt (tnOf x1 h) k)) 0#32 = 1#1 := by
        rw [IntOp.cmpi_sgt, ofNat_toInt (cnt (tnOf x1 h) k) (by omega)]
        show (0 : ℤ) < _
        exact_mod_cast hp
      rw [h1, if_pos hp]; rfl
    · have h0 : IntOp.cmpi .sgt (BitVec.ofNat 32 (cnt (tnOf x1 h) k)) 0#32 = 0#1 := by
        apply eq_zero_of_ne_one
        rw [IntOp.cmpi_sgt, ofNat_toInt (cnt (tnOf x1 h) k) (by omega)]
        show ¬ ((0 : ℤ) < _)
        exact_mod_cast hp
      rw [h0, if_neg hp]; rfl
  unfold hExist
  rw [sitofp_apply, Host.reduce_eq_fold IntOp.addi _ (constantI S_ 32 0#32) reducesTo_S10_S_d0 h_S_ ix0]
  have hall : (Finset.univ.filter fun i : S10.Idx => reducesTo_S10_S_d0.drop i = ix0) = Finset.univ :=
    Finset.filter_true_of_mem fun i _ => funext fun a => a.elim0
  rw [hall]
  have hsum : ∑ j : S10.Idx, ((extui 32 (cmpi .sgt (hCnt x1) (broadcastInDim S10 ![] bcast_S_S10 (constantI S_ 32 0#32)))
      natLt_1_32) j).toNat = existN (tnOf x1 h) := by
    rw [← Equiv.sum_comp (Cert.LibScatterCount.idxEquiv1 (n := 10)).symm]
    show ∑ k : Fin 10, ((extui 32 (cmpi .sgt (hCnt x1) (broadcastInDim S10 ![] bcast_S_S10 (constantI S_ 32 0#32)))
      natLt_1_32) (ix1 k)).toNat = _
    simp only [hv]
    rw [Finset.sum_boole, Nat.cast_id]
    rfl
  have hex : existN (tnOf x1 h) ≤ 10 := by
    unfold existN
    exact (Finset.card_filter_le _ _).trans (by simp)
  have hfold := fold_addi_toNat (Finset.univ : Finset S10.Idx)
    (extui 32 (cmpi .sgt (hCnt x1) (broadcastInDim S10 ![] bcast_S_S10 (constantI S_ 32 0#32))) natLt_1_32)
    (constantI S_ 32 0#32 (Shape.Idx.first h_S_)) (by
      rw [hsum]; show 0 + _ < _; omega)
  rw [hsum] at hfold
  have hw : (Finset.univ : Finset S10.Idx).fold IntOp.addi (constantI S_ 32 0#32 (Shape.Idx.first h_S_))
      (extui 32 (cmpi .sgt (hCnt x1) (broadcastInDim S10 ![] bcast_S_S10 (constantI S_ 32 0#32))) natLt_1_32)
      = BitVec.ofNat 32 (existN (tnOf x1 h)) := by
    apply BitVec.eq_of_toNat_eq
    rw [hfold, BitVec.toNat_ofNat, Nat.mod_eq_of_lt (by omega)]
    show 0 + _ = _
    omega
  show (((Finset.fold _ _ _ _ : BitVec 32).toInt : ℝ) : EReal) = _
  rw [hw, ofNat_toInt _ (by omega), Int.cast_natCast]
  rfl

end Words

section Args
variable (m : (ℓ : Loc nD τ sig) → Buf (Elt Ideal) ℓ) (c : Dev nD)

abbrev Xm : Fin 4096 → Fin 128 → EReal := Xof (m ((c.tc : Thread nD τ).loc main_arg0))

abbrev Wm : Fin 10 → Fin 128 → EReal := Wof (m ((c.tc : Thread nD τ).loc main_arg2))

abbrev tm : ST.Idx → BitVec 32 := m ((c.tc : Thread nD τ).loc main_arg1)

end Args

end Cert.KernelIdeal.Hand

end
-- ==== Proof.KerHost4.lean ====
import proofs.«426650_j89962384982112_3_alg».proof.Proof.KerHost2

noncomputable section

open scoped BigOperators

namespace Cert.KernelIdeal.Hand

open Idealize.ShloMosaic Idealize.ShloMosaic.TcCoe Idealize.SL.Sem Idealize.ShloMosaic.ValueIdx Cert.KernelIdeal
  Cert.KernelIdeal.Gen Cert.Spec

variable (x0 : FVec Ideal S4096x128 .f32) (x1 : IVec S4096 32) (x2 : FVec Ideal S10x128 .f32)

section Sets
variable {α : Type}

theorem idxc (c : BitVec 32) : (broadcastInDim S1 ![] bcast_S_S1 (constantI S_ 32 c)) (ix1 0) = c :=
  broadcastInDim_scalar_apply _ _ _

theorem col_sum0 (j : S4096.Idx) (idx : IVec S1 32) :
    scatter_S4096x16_S1_S4096_0_1_1_0.start j idx 0 + ((scatter_S4096x16_S1_S4096_0_1_1_0.window j 0 : ℕ) : ℤ)
      = ((j 0).val : ℤ) := by
  unfold ScatterDims.start ScatterDims.window
  rw [dif_neg (show ¬ (0 : Fin S4096x16.rank) ∈ scatter_S4096x16_S1_S4096_0_1_1_0.scatterDimsToOperandDims by decide),
    dif_pos (show (0 : Fin S4096x16.rank) ∈ scatter_S4096x16_S1_S4096_0_1_1_0.sKept by decide), zero_add]
  rfl

theorem col_sum1 (j : S4096.Idx) (idx : IVec S1 32) :
    scatter_S4096x16_S1_S4096_0_1_1_0.start j idx 1 + ((scatter_S4096x16_S1_S4096_0_1_1_0.window j 1 : ℕ) : ℤ)
      = (idx (ix1 0)).toInt := by
  unfold ScatterDims.start ScatterDims.window
  rw [dif_pos (show (1 : Fin S4096x16.rank) ∈ scatter_S4096x16_S1_S4096_0_1_1_0.scatterDimsToOperandDims by decide),
    dif_neg (show ¬ (1 : Fin S4096x16.rank) ∈ scatter_S4096x16_S1_S4096_0_1_1_0.sKept by decide)]
  show (idx _).toInt + 0 = _
  rw [add_zero]
  congr 2
  funext b
  refine Fin.ext ?_
  match b with
  | ⟨0, _⟩ => rfl

theorem col_lands (j : S4096.Idx) (idx : IVec S1 32) (n : Fin 4096) (q : Fin 16) :
    scatter_S4096x16_S1_S4096_0_1_1_0.resultIdx? j idx = some (ix2 n q)
      ↔ j = ix1 n ∧ (idx (ix1 0)).toInt = (q.val : ℤ) := by
  rw [Cert.LibScatterSet.resultIdx?_eq_some_iff]
  constructor
  · intro hall
    have h0 := hall 0
    have h1 := hall 1
    rw [col_sum0] at h0
    rw [col_sum1] at h1
    refine ⟨?_, h1⟩
    rw [eq_ix1 j]
    exact congrArg ix1 (Fin.ext (by exact_mod_cast h0))
  · rintro ⟨rfl, hq⟩ a
    match a with
    | ⟨0, _⟩ => exact col_sum0 (ix1 n) idx
    | ⟨1, _⟩ => exact (col_sum1 (ix1 n) idx).trans hq

theorem setCol_apply (x : S4096x16.Idx → α) (idx : IVec S1 32) (upd : S4096.Idx → α) (n : Fin 4096) (q : Fin 16) :
    Host.scatter scatter_S4096x16_S1_S4096_0_1_1_0 (fun _ b => b) x idx upd (ix2 n q)
      = if (idx (ix1 0)).toInt = (q.val : ℤ) then upd (ix1 n) else x (ix2 n q) := by
  split_ifs with hq
  · exact Cert.LibScatterSet.scatter_set_of_unique _ x idx upd (ix2 n q) (ix1 n) ((col_lands _ _ _ _).2 ⟨rfl, hq⟩)
      (fun j hj => ((col_lands _ _ _ _).1 hj).1)
  · exact Cert.LibScatterSet.scatter_set_of_none _ x idx upd (ix2 n q) (fun j hj => hq ((col_lands _ _ _ _).1 hj).2)

theorem win_sum0 (j : S4096x10.Idx) (idx : IVec S1 32) :
    scatter_S4096x16_S1_S4096x10_01_n_1_0.start j idx 0 + ((scatter_S4096x16_S1_S4096x10_01_n_1_0.window j 0 : ℕ) : ℤ)
      = ((j 0).val : ℤ) := by
  unfold ScatterDims.start ScatterDims.window
  rw [dif_neg (show ¬ (0 : Fin S4096x16.rank) ∈ scatter_S4096x16_S1_S4096x10_01_n_1_0.scatterDimsToOperandDims by decide),
    dif_pos (show (0 : Fin S4096x16.rank) ∈ scatter_S4096x16_S1_S4096x10_01_n_1_0.sKept by decide), zero_add]
  rfl

theorem win_sum1 (j : S4096x10.Idx) (idx : IVec S1 32) :
    scatter_S4096x16_S1_S4096x10_01_n_1_0.start j idx 1 + ((scatter_S4096x16_S1_S4096x10_01_n_1_0.window j 1 : ℕ) : ℤ)
      = (idx (ix1 0)).toInt + ((j 1).val : ℤ) := by
  unfold ScatterDims.start ScatterDims.window
  rw [dif_pos (show (1 : Fin S4096x16.rank) ∈ scatter_S4096x16_S1_S4096x10_01_n_1_0.scatterDimsToOperandDims by decide),
    dif_pos (show (1 : Fin S4096x16.rank) ∈ scatter_S4096x16_S1_S4096x10_01_n_1_0.sKept by decide)]
  show (idx _).toInt + ((j 1).val : ℤ) = _
  congr 3
  funext b
  refine Fin.ext ?_
  match b with
  | ⟨0, _⟩ => rfl

theorem win_lands (j : S4096x10.Idx) (idx : IVec S1 32) (n : Fin 4096) (q : Fin 16) :
    scatter_S4096x16_S1_S4096x10_01_n_1_0.resultIdx? j idx = some (ix2 n q)
      ↔ j 0 = n ∧ (idx (ix1 0)).toInt + ((j 1).val : ℤ) = (q.val : ℤ) := by
  rw [Cert.LibScatterSet.resultIdx?_eq_some_iff]
  constructor
  · intro hall
    have h0 := hall 0
    have h1 := hall 1
    rw [win_sum0] at h0
    rw [win_sum1] at h1
    exact ⟨Fin.ext (by exact_mod_cast h0), h1⟩
  · rintro ⟨hn, hq⟩ a
    match a with
    | ⟨0, _⟩ => exact (win_sum0 j idx).trans (by rw [hn])
    | ⟨1, _⟩ => exact (win_sum1 j idx).trans hq

theorem setWin_apply_in (x : S4096x16.Idx → α) (idx : IVec S1 32) (upd : S4096x10.Idx → α) (n : Fin 4096) (q : Fin 16)
    (i : Fin 10) (hq : (idx (ix1 0)).toInt + (i.val : ℤ) = (q.val : ℤ)) :
    Host.scatter scatter_S4096x16_S1_S4096x10_01_n_1_0 (fun _ b => b) x idx upd (ix2 n q) = upd (ix2 n i) := by
  refine Cert.LibScatterSet.scatter_set_of_unique _ x idx upd (ix2 n q) (ix2 n i) ((win_lands _ _ _ _).2 ⟨rfl, hq⟩) ?_
  intro j hj
  obtain ⟨h0, h1⟩ := (win_lands _ _ _ _).1 hj
  rw [eq_ix2 j, h0]
  exact congrArg (ix2 n) (Fin.ext (by omega))

theorem setWin_apply_out (x : S4096x16.Idx → α) (idx : IVec S1 32) (upd : S4096x10.Idx → α) (n : Fin 4096) (q : Fin 16)
    (hq : (q.val : ℤ) < (idx (ix1 0)).toInt) :
    Host.scatter scatter_S4096x16_S1_S4096x10_01_n_1_0 (fun _ b => b) x idx upd (ix2 n q) = x (ix2 n q) := by
  refine Cert.LibScatterSet.scatter_set_of_none _ x idx upd (ix2 n q) fun j hj => ?_
  have h1 := ((win_lands _ _ _ _).1 hj).2
  omega

theorem row_sum0 (j : S4096.Idx) (idx : IVec S1 32) :
    scatter_S8x4096_S1_S4096_0_0_0_0.start j idx 0 + ((scatter_S8x4096_S1_S4096_0_0_0_0.window j 0 : ℕ) : ℤ)
      = (idx (ix1 0)).toInt := by
  unfold ScatterDims.start ScatterDims.window
  rw [dif_pos (show (0 : Fin S8x4096.rank) ∈ scatter_S8x4096_S1_S4096_0_0_0_0.scatterDimsToOperandDims by decide),
    dif_neg (show ¬ (0 : Fin S8x4096.rank) ∈ scatter_S8x4096_S1_S4096_0_0_0_0.sKept by decide)]
  show (idx _).toInt + 0 = _
  rw [add_zero]
  congr 2
  funext b
  refine Fin.ext ?_
  match b with
  | ⟨0, _⟩ => rfl

theorem row_sum1 (j : S4096.Idx) (idx : IVec S1 32) :
    scatter_S8x4096_S1_S4096_0_0_0_0.start j idx 1 + ((scatter_S8x4096_S1_S4096_0_0_0_0.window j 1 : ℕ) : ℤ)
      = ((j 0).val : ℤ) := by
  unfold ScatterDims.start ScatterDims.window
  rw [dif_neg (show ¬ (1 : Fin S8x4096.rank) ∈ scatter_S8x4096_S1_S4096_0_0_0_0.scatterDimsToOperandDims by decide),
    dif_pos (show (1 : Fin S8x4096.rank) ∈ scatter_S8x4096_S1_S4096_0_0_0_0.sKept by decide), zero_add]
  rfl

theorem row_lands (j : S4096.Idx) (idx : IVec S1 32) (r : Fin 8) (b : Fin 4096) :
    scatter_S8x4096_S1_S4096_0_0_0_0.resultIdx? j idx = some (ix2 r b)
      ↔ j = ix1 b ∧ (idx (ix1 0)).toInt = (r.val : ℤ) := by
  rw [Cert.LibScatterSet.resultIdx?_eq_some_iff]
  constructor
  · intro hall
    have h0 := hall 0
    have h1 := hall 1
    rw [row_sum0] at h0
    rw [row_sum1] at h1
    refine ⟨?_, h0⟩
    rw [eq_ix1 j]
    exact congrArg ix1 (Fin.ext (by exact_mod_cast h1))
  · rintro ⟨rfl, hr⟩ a
    match a with
    | ⟨0, _⟩ => exact (row_sum0 (ix1 b) idx).trans hr
    | ⟨1, _⟩ => exact row_sum1 (ix1 b) idx

theorem setRow_apply (x : S8x4096.Idx → α) (idx : IVec S1 32) (upd : S4096.Idx → α) (r : Fin 8) (b : Fin 4096) :
    Host.scatter scatter_S8x4096_S1_S4096_0_0_0_0 (fun _ b => b) x idx upd (ix2 r b)
      = if (idx (ix1 0)).toInt = (r.val : ℤ) then upd (ix1 b) else x (ix2 r b) := by
  split_ifs with hr
  · exact Cert.LibScatterSet.scatter_set_of_unique _ x idx upd (ix2 r b) (ix1 b) ((row_lands _ _ _ _).2 ⟨rfl, hr⟩)
      (fun j hj => ((row_lands _ _ _ _).1 hj).1)
  · exact Cert.LibScatterSet.scatter_set_of_none _ x idx upd (ix2 r b) (fun j hj => hr ((row_lands _ _ _ _).1 hj).2)

end Sets

theorem hRow_at (b : Fin 4096) : hRow x0 (ix2 0 b) = hSq x0 (ix1 b) := by
  unfold hRow
  rw [setRow_apply, idxc, if_pos (by decide)]

theorem hTab_sq (n : Fin 4096) : hTab x0 x1 x2 (ix2 n 0) = hSq x0 (ix1 n) := by
  unfold hTab
  rw [setWin_apply_out _ _ _ n 0 (by rw [idxc]; decide),
    setCol_apply, idxc, if_neg (by decide), setCol_apply, idxc, if_neg (by decide), setCol_apply, idxc, if_pos (by decide)]

theorem hTab_nt (n : Fin 4096) : hTab x0 x1 x2 (ix2 n 1) = hNt x1 (ix1 n) := by
  unfold hTab
  rw [setWin_apply_out _ _ _ n 1 (by rw [idxc]; decide),
    setCol_apply, idxc, if_neg (by decide), setCol_apply, idxc, if_pos (by decide)]

theorem hTab_tg (n : Fin 4096) : hTab x0 x1 x2 (ix2 n 2) = (sitofp .f32 x1 : FVec Ideal S4096 .f32) (ix1 n) := by
  unfold hTab
  rw [setWin_apply_out _ _ _ n 2 (by rw [idxc]; decide), setCol_apply, idxc, if_pos (by decide)]

theorem hTab_proj (n : Fin 4096) (i : Fin 10) :
    hTab x0 x1 x2 (ix2 n ⟨3 + i.val, by omega⟩) = hProj x0 x2 (ix2 n i) := by
  unfold hTab
  rw [setWin_apply_in _ _ _ n ⟨3 + i.val, by omega⟩ i (by
    rw [idxc]
    show (3 : ℤ) + (i.val : ℤ) = ((3 + i.val : ℕ) : ℤ)
    omega)]

end Cert.KernelIdeal.Hand

end
-- ==== Proof.KerHost.lean ====
import proofs.«426650_j89962384982112_3_alg».proof.Proof.KerHost4

noncomputable section

open scoped BigOperators

namespace Cert.KernelIdeal.Hand

open Idealize.ShloMosaic Idealize.ShloMosaic.TcCoe Idealize.SL.Sem Idealize.ShloMosaic.ValueIdx Cert.KernelIdeal
  Cert.KernelIdeal.Gen Cert.Spec

variable (m : (ℓ : Loc nD τ sig) → Buf (Elt Ideal) ℓ) (c : Dev nD)

theorem v44_at (n : Fin 4096) (k : Fin 128) :
    (V m c main_v44 : S4096x128.Idx → EReal) (ix2 n k) = Xm m c n k := by
  rw [V_v44]
  exact hX_at (a0 m c) n k

theorem v43_at (b : Fin 4096) :
    (V m c main_v43 : S8x4096.Idx → EReal) (ix2 0 b) = sq (Xm m c) b := by
  rw [V_v43, hRow_at, hSq_at]

theorem v40_sq (n : Fin 4096) :
    (V m c main_v40 : S4096x16.Idx → EReal) (ix2 n 0) = sq (Xm m c) n := by
  rw [V_v40, hTab_sq, hSq_at]

theorem v40_nt (h : InRange (tm m c)) (n : Fin 4096) :
    (V m c main_v40 : S4096x16.Idx → EReal) (ix2 n 1) = NtE (tnOf (tm m c) h) n := by
  rw [V_v40, hTab_nt]
  exact hNt_at (a1 m c) h n

theorem v40_tg (h : InRange (tm m c)) (n : Fin 4096) :
    (V m c main_v40 : S4096x16.Idx → EReal) (ix2 n 2) = ((((tnOf (tm m c) h n).val : ℕ) : ℝ) : EReal) := by
  rw [V_v40, hTab_tg]
  exact hTg_at (a1 m c) h n

theorem v40_proj (n : Fin 4096) (i : Fin 10) :
    (V m c main_v40 : S4096x16.Idx → EReal) (ix2 n ⟨3 + i.val, by omega⟩) = proj (Xm m c) (Wm m c) n i := by
  rw [V_v40, hTab_proj, hProj_at]

end Cert.KernelIdeal.Hand

end
-- ==== Proof.KerValSpec.lean ====
import proofs.«426650_j89962384982112_3_alg».proof.Proof.SpecK

noncomputable section

open scoped BigOperators

namespace Cert.KernelIdeal.Hand

open Idealize.ShloMosaic Cert.Spec

theorem classCast_inj (x y : Fin 10) :
    ((((x.val : ℕ) : ℝ) : EReal) = (((y.val : ℕ) : ℝ) : EReal)) ↔ x = y := by
  rw [EReal.coe_eq_coe_iff, Nat.cast_inj, Fin.val_inj]

section Point

variable (X : Fin 4096 → Fin 128 → EReal) (tn : Fin 4096 → Fin 10) (Wt : Fin 10 → Fin 128 → EReal)
  (ia : Fin 8) (ib : Fin 4)
  (xa : Fin 512 → Fin 128 → EReal) (xb : Fin 1024 → Fin 128 → EReal)
  (sqa : Fin 512 → EReal) (tga : Fin 512 → EReal) (pra : Fin 512 → Fin 10 → EReal)
  (sqb : Fin 1024 → EReal) (tgb : Fin 1024 → EReal) (ntb : Fin 1024 → EReal) (prb : Fin 1024 → Fin 10 → EReal)

theorem bA_eq (hxa : ∀ a' k, xa a' k = X (rowA ia a') k) (hxb : ∀ b' k, xb b' k = X (rowB ib b') k)
    (hsqa : ∀ a', sqa a' = sq X (rowA ia a')) (hsqb : ∀ b', sqb b' = sq X (rowB ib b'))
    (a' : Fin 512) (b' : Fin 1024) :
    bA xa xb sqa sqb a' b' = Ak X (rowA ia a') (rowB ib b') := by
  unfold bA Ak d2 gram
  rw [hsqa, hsqb]
  simp only [hxa, hxb]

theorem bpos_eq (htga : ∀ a', tga a' = ((((tn (rowA ia a')).val : ℕ) : ℝ) : EReal)) (a' : Fin 512) (i : Fin 10) :
    bpos tga a' i = posE tn (rowA ia a') i := by
  unfold bpos posE
  rw [htga]
  by_cases hb : tn (rowA ia a') = i
  · rw [if_pos ((classCast_inj _ _).mpr hb), if_pos hb]
  · rw [if_neg (fun e => hb ((classCast_inj _ _).mp e)), if_neg hb]

theorem bu0_eq (htgb : ∀ b', tgb b' = ((((tn (rowB ib b')).val : ℕ) : ℝ) : EReal))
    (hntb : ∀ b', ntb b' = NtE tn (rowB ib b')) (b' : Fin 1024) (i : Fin 10) :
    bu0 tgb ntb b' i = u0 tn (rowB ib b') i := by
  unfold bu0 u0
  rw [htgb, hntb]
  by_cases hb : tn (rowB ib b') = i
  · rw [if_neg (not_not.mpr ((classCast_inj _ _).mpr hb)), if_neg (not_not.mpr hb)]
  · rw [if_pos (fun e => hb ((classCast_inj _ _).mp e)), if_pos hb]

theorem bu1_eq (htgb : ∀ b', tgb b' = ((((tn (rowB ib b')).val : ℕ) : ℝ) : EReal))
    (hntb : ∀ b', ntb b' = NtE tn (rowB ib b')) (hprb : ∀ b' j, prb b' j = proj X Wt (rowB ib b') j)
    (b' : Fin 1024) (i : Fin 10) :
    bu1 tgb ntb prb b' i = u1 X tn Wt (rowB ib b') i := by
  unfold bu1 u1
  rw [bu0_eq tn ib tgb ntb htgb hntb, hprb]

theorem bu2_eq (htgb : ∀ b', tgb b' = ((((tn (rowB ib b')).val : ℕ) : ℝ) : EReal))
    (hntb : ∀ b', ntb b' = NtE tn (rowB ib b')) (hprb : ∀ b' j, prb b' j = proj X Wt (rowB ib b') j)
    (b' : Fin 1024) (i : Fin 10) :
    bu2 tgb ntb prb b' i = u2 X tn Wt (rowB ib b') i := by
  unfold bu2 u2
  rw [bu0_eq tn ib tgb ntb htgb hntb, hprb]

theorem bS1_eq (hxa : ∀ a' k, xa a' k = X (rowA ia a') k) (hxb : ∀ b' k, xb b' k = X (rowB ib b') k)
    (hsqa : ∀ a', sqa a' = sq X (rowA ia a')) (htga : ∀ a', tga a' = ((((tn (rowA ia a')).val : ℕ) : ℝ) : EReal))
    (hpra : ∀ a' j, pra a' j = proj X Wt (rowA ia a') j) (hsqb : ∀ b', sqb b' = sq X (rowB ib b'))
    (htgb : ∀ b', tgb b' = ((((tn (rowB ib b')).val : ℕ) : ℝ) : EReal))
    (hntb : ∀ b', ntb b' = NtE tn (rowB ib b')) (hprb : ∀ b' j, prb b' j = proj X Wt (rowB ib b') j) (i : Fin 10) :
    bS1 xa xb sqa tga pra sqb tgb ntb prb i = s1part X tn Wt ia ib i := by
  unfold bS1 s1part AU0 AU1
  refine Finset.sum_congr rfl fun a' _ => ?_
  rw [bpos_eq tn ia tga htga, hpra]
  simp only [bA_eq X ia ib xa xb sqa sqb hxa hxb hsqa hsqb, bu0_eq tn ib tgb ntb htgb hntb,
    bu1_eq X tn Wt ib tgb ntb prb htgb hntb hprb]

theorem bS2_eq (hxa : ∀ a' k, xa a' k = X (rowA ia a') k) (hxb : ∀ b' k, xb b' k = X (rowB ib b') k)
    (hsqa : ∀ a', sqa a' = sq X (rowA ia a')) (htga : ∀ a', tga a' = ((((tn (rowA ia a')).val : ℕ) : ℝ) : EReal))
    (hpra : ∀ a' j, pra a' j = proj X Wt (rowA ia a') j) (hsqb : ∀ b', sqb b' = sq X (rowB ib b'))
    (htgb : ∀ b', tgb b' = ((((tn (rowB ib b')).val : ℕ) : ℝ) : EReal))
    (hntb : ∀ b', ntb b' = NtE tn (rowB ib b')) (hprb : ∀ b' j, prb b' j = proj X Wt (rowB ib b') j) (i : Fin 10) :
    bS2 xa xb sqa tga pra sqb tgb ntb prb i = s2part X tn Wt ia ib i := by
  unfold bS2 s2part BU0 BU1 BU2
  refine Finset.sum_congr rfl fun a' _ => ?_
  rw [bpos_eq tn ia tga htga, hpra]
  simp only [bA_eq X ia ib xa xb sqa sqb hxa hxb hsqa hsqb, bu0_eq tn ib tgb ntb htgb hntb,
    bu1_eq X tn Wt ib tgb ntb prb htgb hntb hprb, bu2_eq X tn Wt ib tgb ntb prb htgb hntb hprb]

end Point

end Cert.KernelIdeal.Hand

end
-- ==== Proof.KerVal.lean ====
import proofs.«426650_j89962384982112_3_alg».proof.Proof.KerDat
import proofs.«426650_j89962384982112_3_alg».proof.Proof.KerBlk
import proofs.«426650_j89962384982112_3_alg».proof.Proof.KerPay
import proofs.«426650_j89962384982112_3_alg».proof.Proof.KerHost
import proofs.«426650_j89962384982112_3_alg».proof.Proof.SpecK
import proofs.«426650_j89962384982112_3_alg».proof.Proof.KerValSpec

noncomputable section

open scoped BigOperators

namespace Cert.KernelIdeal.Hand

open Idealize.ShloMosaic Idealize.ShloMosaic.TcCoe Idealize.SL.Sem Idealize.ShloMosaic.ValueIdx Cert.KernelIdeal
  Cert.KernelIdeal.Gen Cert.Spec

section Loads

variable {F : FTy → Type} [FloatOps F]

theorem zero2 : (![0, 0] : Fin 2 → Nat) = fun _ => 0 := funext fun a => by
  match a with
  | ⟨0, _⟩ => rfl
  | ⟨1, _⟩ => rfl

theorem ld3_eq (x0 : Vec F S512x128 .bf16) : ld3 x0 = x0 :=
  View.ld_unit_zero (S := S512x128) zero2 inb_S512x128_S512x128_0_0 x0

theorem ld5_eq (x1 : Vec F S1024x128 .bf16) : ld5 x1 = x1 :=
  View.ld_unit_zero (S := S1024x128) zero2 inb_S1024x128_S1024x128_0_0 x1

theorem ld9_at (x2 : Vec F S512x16 .f32) (a' : Fin 512) : ld9 x2 (ix2 a' 0) = x2 (ix2 a' 0) := by
  show x2 ((Rect.unit (s := S512x16) ![0, 0] S512x1.size inb_S512x16_S512x1_0_0).idx (ix2 a' 0)) = _
  refine congrArg x2 (funext fun a => Fin.ext ?_)
  match a with
  | ⟨0, _⟩ => show 0 + 1 * a'.val = a'.val; omega
  | ⟨1, _⟩ => show 0 + 1 * 0 = 0; rfl

theorem ld11_at (x2 : Vec F S512x16 .f32) (a' : Fin 512) : ld11 x2 (ix2 a' 0) = x2 (ix2 a' 2) := by
  show x2 ((Rect.unit (s := S512x16) ![0, 2] S512x1.size inb_S512x16_S512x1_0_2).idx (ix2 a' 0)) = _
  refine congrArg x2 (funext fun a => Fin.ext ?_)
  match a with
  | ⟨0, _⟩ => show 0 + 1 * a'.val = a'.val; omega
  | ⟨1, _⟩ => show 2 + 1 * 0 = 2; rfl

theorem ld13_at (x2 : Vec F S512x16 .f32) (a' : Fin 512) (j : Fin 10) :
    ld13 x2 (ix2 a' j) = x2 (ix2 a' ⟨3 + j.val, by omega⟩) := by
  show x2 ((Rect.unit (s := S512x16) ![0, 3] S512x10.size inb_S512x16_S512x10_0_3).idx (ix2 a' j)) = _
  refine congrArg x2 (funext fun a => Fin.ext ?_)
  match a with
  | ⟨0, _⟩ => show 0 + 1 * a'.val = a'.val; omega
  | ⟨1, _⟩ => show 3 + 1 * j.val = 3 + j.val; omega

theorem ld15_at (x4 : Vec F S8x1024 .f32) (b' : Fin 1024) : ld15 x4 (ix2 0 b') = x4 (ix2 0 b') := by
  show x4 ((Rect.unit (s := S8x1024) ![0, 0] S1x1024.size inb_S8x1024_S1x1024_0_0).idx (ix2 0 b')) = _
  refine congrArg x4 (funext fun a => Fin.ext ?_)
  match a with
  | ⟨0, _⟩ => show 0 + 1 * 0 = 0; rfl
  | ⟨1, _⟩ => show 0 + 1 * b'.val = b'.val; omega

theorem ld32_at (x3 : Vec F S1024x16 .f32) (b' : Fin 1024) : ld32 x3 (ix2 b' 0) = x3 (ix2 b' 2) := by
  show x3 ((Rect.unit (s := S1024x16) ![0, 2] S1024x1.size inb_S1024x16_S1024x1_0_2).idx (ix2 b' 0)) = _
  refine congrArg x3 (funext fun a => Fin.ext ?_)
  match a with
  | ⟨0, _⟩ => show 0 + 1 * b'.val = b'.val; omega
  | ⟨1, _⟩ => show 2 + 1 * 0 = 2; rfl

theorem ld34_at (x3 : Vec F S1024x16 .f32) (b' : Fin 1024) : ld34 x3 (ix2 b' 0) = x3 (ix2 b' 1) := by
  show x3 ((Rect.unit (s := S1024x16) ![0, 1] S1024x1.size inb_S1024x16_S1024x1_0_1).idx (ix2 b' 0)) = _
  refine congrArg x3 (funext fun a => Fin.ext ?_)
  match a with
  | ⟨0, _⟩ => show 0 + 1 * b'.val = b'.val; omega
  | ⟨1, _⟩ => show 1 + 1 * 0 = 1; rfl

theorem ld36_at (x3 : Vec F S1024x16 .f32) (b' : Fin 1024) (j : Fin 10) :
    ld36 x3 (ix2 b' j) = x3 (ix2 b' ⟨3 + j.val, by omega⟩) := by
  show x3 ((Rect.unit (s := S1024x16) ![0, 3] S1024x10.size inb_S1024x16_S1024x10_0_3).idx (ix2 b' j)) = _
  refine congrArg x3 (funext fun a => Fin.ext ?_)
  match a with
  | ⟨0, _⟩ => show 0 + 1 * b'.val = b'.val; omega
  | ⟨1, _⟩ => show 3 + 1 * j.val = 3 + j.val; omega

end Loads

section Point

variable (m : (ℓ : Loc nD τ sig) → Buf (Elt Ideal) ℓ) (c : Dev nD)

theorem blk0_row (t : Fin cfg0.N) (ia : Fin 8) (ib : Fin 4) (ht : t.val = 4 * ia.val + ib.val) (a' : Fin 512) (k : Fin 128) :
    blk0 m c t (ix2 a' k) = Xm m c (rowA ia a') k := by
  refine (blk0_at m c t a' k).trans ?_
  refine (congrArg (fun n : Fin 4096 => (V m c main_v44 : S4096x128.Idx → EReal) (ix2 n k))
    (Fin.ext (by show t.val / 4 * 512 + a'.val = ia.val * 512 + a'.val; omega) : (⟨t.val / 4 * 512 + a'.val, by have := pt_lt t; omega⟩ : Fin 4096) = rowA ia a')).trans ?_
  exact v44_at m c (rowA ia a') k

theorem blk1_row (t : Fin cfg0.N) (ia : Fin 8) (ib : Fin 4) (ht : t.val = 4 * ia.val + ib.val) (b' : Fin 1024) (k : Fin 128) :
    blk1 m c t (ix2 b' k) = Xm m c (rowB ib b') k := by
  refine (blk1_at m c t b' k).trans ?_
  refine (congrArg (fun n : Fin 4096 => (V m c main_v44 : S4096x128.Idx → EReal) (ix2 n k))
    (Fin.ext (by show t.val % 4 * 1024 + b'.val = ib.val * 1024 + b'.val; omega) : (⟨t.val % 4 * 1024 + b'.val, by omega⟩ : Fin 4096) = rowB ib b')).trans ?_
  exact v44_at m c (rowB ib b') k

theorem blk2_row (t : Fin cfg0.N) (ia : Fin 8) (ib : Fin 4) (ht : t.val = 4 * ia.val + ib.val) (a' : Fin 512) (j : Fin 16) :
    blk2 m c t (ix2 a' j) = (V m c main_v40 : S4096x16.Idx → EReal) (ix2 (rowA ia a') j) := by
  refine (blk2_at m c t a' j).trans ?_
  exact congrArg (fun n : Fin 4096 => (V m c main_v40 : S4096x16.Idx → EReal) (ix2 n j))
    (Fin.ext (by show t.val / 4 * 512 + a'.val = ia.val * 512 + a'.val; omega) : (⟨t.val / 4 * 512 + a'.val, by have := pt_lt t; omega⟩ : Fin 4096) = rowA ia a')

theorem blk3_row (t : Fin cfg0.N) (ia : Fin 8) (ib : Fin 4) (ht : t.val = 4 * ia.val + ib.val) (b' : Fin 1024) (j : Fin 16) :
    blk3 m c t (ix2 b' j) = (V m c main_v40 : S4096x16.Idx → EReal) (ix2 (rowB ib b') j) := by
  refine (blk3_at m c t b' j).trans ?_
  exact congrArg (fun n : Fin 4096 => (V m c main_v40 : S4096x16.Idx → EReal) (ix2 n j))
    (Fin.ext (by show t.val % 4 * 1024 + b'.val = ib.val * 1024 + b'.val; omega) : (⟨t.val % 4 * 1024 + b'.val, by omega⟩ : Fin 4096) = rowB ib b')

theorem blk4_row (t : Fin cfg0.N) (ia : Fin 8) (ib : Fin 4) (ht : t.val = 4 * ia.val + ib.val) (b' : Fin 1024) :
    blk4 m c t (ix2 0 b') = (V m c main_v43 : S8x4096.Idx → EReal) (ix2 0 (rowB ib b')) := by
  refine (blk4_at m c t 0 b').trans ?_
  exact congrArg (fun n : Fin 4096 => (V m c main_v43 : S8x4096.Idx → EReal) (ix2 0 n))
    (Fin.ext (by show t.val % 4 * 1024 + b'.val = ib.val * 1024 + b'.val; omega) : (⟨t.val % 4 * 1024 + b'.val, by omega⟩ : Fin 4096) = rowB ib b')

theorem pay0_at_pt (h : InRange (tm m c)) (ia : Fin 8) (ib : Fin 4) (t : Fin cfg0.N) (ht : t.val = 4 * ia.val + ib.val)
    (i : Fin 10) :
    pay0At m c t (ix2 0 i) = s1part (Xm m c) (tnOf (tm m c) h) (Wm m c) ia ib i := by
  refine (pay12_at (v3 := ld3 (blk0 m c t)) (v5 := ld5 (blk1 m c t)) (v9 := ld9 (blk2 m c t)) (v11 := ld11 (blk2 m c t))
    (v13 := ld13 (blk2 m c t)) (v15 := ld15 (blk4 m c t)) (v32 := ld32 (blk3 m c t)) (v34 := ld34 (blk3 m c t))
    (v36 := ld36 (blk3 m c t)) i).trans ?_
  exact bS1_eq (Xm m c) (tnOf (tm m c) h) (Wm m c) ia ib
    (fun a k => ld3 (blk0 m c t) (ix2 a k)) (fun b k => ld5 (blk1 m c t) (ix2 b k))
    (fun a => ld9 (blk2 m c t) (ix2 a 0)) (fun a => ld11 (blk2 m c t) (ix2 a 0)) (fun a j => ld13 (blk2 m c t) (ix2 a j))
    (fun b => ld15 (blk4 m c t) (ix2 0 b)) (fun b => ld32 (blk3 m c t) (ix2 b 0)) (fun b => ld34 (blk3 m c t) (ix2 b 0))
    (fun b j => ld36 (blk3 m c t) (ix2 b j))
    (fun a' k => (congrFun (ld3_eq (blk0 m c t)) (ix2 a' k)).trans (blk0_row m c t ia ib ht a' k))
    (fun b' k => (congrFun (ld5_eq (blk1 m c t)) (ix2 b' k)).trans (blk1_row m c t ia ib ht b' k))
    (fun a' => (ld9_at (blk2 m c t) a').trans ((blk2_row m c t ia ib ht a' 0).trans (v40_sq m c (rowA ia a'))))
    (fun a' => (ld11_at (blk2 m c t) a').trans ((blk2_row m c t ia ib ht a' 2).trans (v40_tg m c h (rowA ia a'))))
    (fun a' j => (ld13_at (blk2 m c t) a' j).trans ((blk2_row m c t ia ib ht a' ⟨3 + j.val, by omega⟩).trans (v40_proj m c (rowA ia a') j)))
    (fun b' => (ld15_at (blk4 m c t) b').trans ((blk4_row m c t ia ib ht b').trans (v43_at m c (rowB ib b'))))
    (fun b' => (ld32_at (blk3 m c t) b').trans ((blk3_row m c t ia ib ht b' 2).trans (v40_tg m c h (rowB ib b'))))
    (fun b' => (ld34_at (blk3 m c t) b').trans ((blk3_row m c t ia ib ht b' 1).trans (v40_nt m c h (rowB ib b'))))
    (fun b' j => (ld36_at (blk3 m c t) b' j).trans ((blk3_row m c t ia ib ht b' ⟨3 + j.val, by omega⟩).trans (v40_proj m c (rowB ib b') j)))
    i

theorem pay1_at_pt (h : InRange (tm m c)) (ia : Fin 8) (ib : Fin 4) (t : Fin cfg0.N) (ht : t.val = 4 * ia.val + ib.val)
    (i : Fin 10) :
    pay1At m c t (ix2 0 i) = s2part (Xm m c) (tnOf (tm m c) h) (Wm m c) ia ib i := by
  refine (pay13_at (v3 := ld3 (blk0 m c t)) (v5 := ld5 (blk1 m c t)) (v9 := ld9 (blk2 m c t)) (v11 := ld11 (blk2 m c t))
    (v13 := ld13 (blk2 m c t)) (v15 := ld15 (blk4 m c t)) (v32 := ld32 (blk3 m c t)) (v34 := ld34 (blk3 m c t))
    (v36 := ld36 (blk3 m c t)) i).trans ?_
  exact bS2_eq (Xm m c) (tnOf (tm m c) h) (Wm m c) ia ib
    (fun a k => ld3 (blk0 m c t) (ix2 a k)) (fun b k => ld5 (blk1 m c t) (ix2 b k))
    (fun a => ld9 (blk2 m c t) (ix2 a 0)) (fun a => ld11 (blk2 m c t) (ix2 a 0)) (fun a j => ld13 (blk2 m c t) (ix2 a j))
    (fun b => ld15 (blk4 m c t) (ix2 0 b)) (fun b => ld32 (blk3 m c t) (ix2 b 0)) (fun b => ld34 (blk3 m c t) (ix2 b 0))
    (fun b j => ld36 (blk3 m c t) (ix2 b j))
    (fun a' k => (congrFun (ld3_eq (blk0 m c t)) (ix2 a' k)).trans (blk0_row m c t ia ib ht a' k))
    (fun b' k => (congrFun (ld5_eq (blk1 m c t)) (ix2 b' k)).trans (blk1_row m c t ia ib ht b' k))
    (fun a' => (ld9_at (blk2 m c t) a').trans ((blk2_row m c t ia ib ht a' 0).trans (v40_sq m c (rowA ia a'))))
    (fun a' => (ld11_at (blk2 m c t) a').trans ((blk2_row m c t ia ib ht a' 2).trans (v40_tg m c h (rowA ia a'))))
    (fun a' j => (ld13_at (blk2 m c t) a' j).trans ((blk2_row m c t ia ib ht a' ⟨3 + j.val, by omega⟩).trans (v40_proj m c (rowA ia a') j)))
    (fun b' => (ld15_at (blk4 m c t) b').trans ((blk4_row m c t ia ib ht b').trans (v43_at m c (rowB ib b'))))
    (fun b' => (ld32_at (blk3 m c t) b').trans ((blk3_row m c t ia ib ht b' 2).trans (v40_tg m c h (rowB ib b'))))
    (fun b' => (ld34_at (blk3 m c t) b').trans ((blk3_row m c t ia ib ht b' 1).trans (v40_nt m c h (rowB ib b'))))
    (fun b' j => (ld36_at (blk3 m c t) b' j).trans ((blk3_row m c t ia ib ht b' ⟨3 + j.val, by omega⟩).trans (v40_proj m c (rowB ib b') j)))
    i

theorem pay0_at (h : InRange (tm m c)) (ia : Fin 8) (ib : Fin 4) (i : Fin 10) :
    pay0At m c ⟨4 * ia.val + ib.val, by rw [show cfg0.N = 32 from N_0]; omega⟩ (ix2 0 i)
      = s1part (Xm m c) (tnOf (tm m c) h) (Wm m c) ia ib i :=
  pay0_at_pt m c h ia ib ⟨4 * ia.val + ib.val, by rw [show cfg0.N = 32 from N_0]; omega⟩ rfl i

theorem pay1_at (h : InRange (tm m c)) (ia : Fin 8) (ib : Fin 4) (i : Fin 10) :
    pay1At m c ⟨4 * ia.val + ib.val, by rw [show cfg0.N = 32 from N_0]; omega⟩ (ix2 0 i)
      = s2part (Xm m c) (tnOf (tm m c) h) (Wm m c) ia ib i :=
  pay1_at_pt m c h ia ib ⟨4 * ia.val + ib.val, by rw [show cfg0.N = 32 from N_0]; omega⟩ rfl i

end Point

end Cert.KernelIdeal.Hand

end
-- ==== Proof.KerTail1.lean ====
import proofs.«426650_j89962384982112_3_alg».proof.Proof.KerDefs
import Idealize.ShloMosaic.Lib.StableHlo.Run
import Idealize.ShloMosaic.PureOps.Ideal

noncomputable section

namespace Cert.KernelIdeal.Hand

open Idealize.ShloMosaic Idealize.ShloMosaic.TcCoe Idealize.SL.Sem Idealize.ShloMosaic.StableHlo Cert.KernelIdeal
  Cert.KernelIdeal.Gen

section Terms

variable (O : FVec Ideal S8x2x128 .f32) (cntw : IVec S10 32) (wnv : FVec Ideal S10 .f32) (ex : FVec Ideal S_ .f32)

def tSum : FVec Ideal S2x128 .f32 :=
  Host.reduceAdd O (constant (F := Ideal) S_ .f32 0x00000000#32) reducesTo_S8x2x128_S2x128_d0 h_S_

def tS1 : FVec Ideal S10 .f32 :=
  shapeCast S10 (extractStridedSlice S1x10 ![0, 0] (tSum O) slices_S2x128_S1x10_0_0) shapeCasts_S1x10_S10

def tS2 : FVec Ideal S10 .f32 :=
  shapeCast S10 (extractStridedSlice S1x10 ![1, 0] (tSum O) slices_S2x128_S1x10_1_0) shapeCasts_S1x10_S10

def tCnt : FVec Ideal S10 .f32 := sitofp .f32 cntw

def tLit10 (b : BitVec 32) : FVec Ideal S10 .f32 := broadcastInDim S10 ![] bcast_S_S10 (constant (F := Ideal) S_ .f32 b)

def tNi : FVec Ideal S10 .f32 := maximumf (tCnt cntw) (tLit10 0x3F800000#32)

def tF1 : FVec Ideal S10 .f32 :=
  mulf (Host.divf (tLit10 0x3F800000#32) (mulf (tNi cntw) wnv)) (tS1 O)

def tF2 : FVec Ideal S10 .f32 :=
  mulf (Host.divf (tLit10 0x3F800000#32) (mulf (mulf (tNi cntw) wnv) wnv)) (tS2 O)

def tDen : FVec Ideal S_ .f32 := subf ex (constant (F := Ideal) S_ .f32 0x3F800000#32)

def tDen10 : FVec Ideal S10 .f32 := broadcastInDim S10 ![] bcast_S_S10 (tDen ex)

def tL1 : FVec Ideal S10 .f32 :=
  Host.divf (addf (subf (tDen10 ex) (mulf (tLit10 0x40000000#32) (tF1 O cntw wnv))) (tF2 O cntw wnv)) (tDen10 ex)

def tMm : FVec Ideal S10 .f32 := Host.divf (tF1 O cntw wnv) (tDen10 ex)

def tMv : FVec Ideal S10 .f32 :=
  Host.divf
    (addf (subf (tF2 O cntw wnv) (mulf (mulf (tLit10 0x40000000#32) (tMm O cntw wnv ex)) (tF1 O cntw wnv)))
      (mulf (mulf (tMm O cntw wnv ex) (tMm O cntw wnv ex)) (tDen10 ex)))
    (tDen10 ex)

def tPos : IVec S10 1 := cmpf .ogt (tCnt cntw) (tLit10 0x00000000#32)

def tailTerm1 : FVec Ideal S_ .f32 :=
  Host.divf
    (Host.reduceAdd (select (tPos cntw) (tL1 O cntw wnv ex) (tLit10 0x00000000#32))
      (constant (F := Ideal) S_ .f32 0x00000000#32) reducesTo_S10_S_d0 h_S_)
    ex

def tailTerm2 : FVec Ideal S_ .f32 :=
  Host.divf
    (Host.reduceAdd
      (select (tPos cntw)
        (Host.absf (Host.divf (tMv O cntw wnv ex) (select (tPos cntw) (tMm O cntw wnv ex) (tLit10 0x3F800000#32))))
        (tLit10 0x00000000#32))
      (constant (F := Ideal) S_ .f32 0x00000000#32) reducesTo_S10_S_d0 h_S_)
    ex

end Terms

variable (m : (ℓ : Loc nD τ sig) → Buf (Elt Ideal) ℓ) (c : Dev nD)

theorem Wexit_self (O : Buf (Elt Ideal) ((c : Thread nD τ).loc main_v45)) :
    Wexit m c O (Proc.devRef .tc main_v45) = O := Function.update_self ..

theorem Wexit_ne (O : Buf (Elt Ideal) ((c : Thread nD τ).loc main_v45)) (b : Ref sig .tc) (hb : b ≠ main_v45) :
    Wexit m c O (Proc.devRef .tc b) = V m c b := Function.update_of_ne (StableHlo.devRef_ne_of_ne hb) _ _

theorem Wexit_v17 (O : Buf (Elt Ideal) ((c : Thread nD τ).loc main_v45)) :
    Wexit m c O (Proc.devRef .tc main_v17) = V m c main_v17 := Wexit_ne m c O main_v17 (by decide)
theorem Wexit_v8 (O : Buf (Elt Ideal) ((c : Thread nD τ).loc main_v45)) :
    Wexit m c O (Proc.devRef .tc main_v8) = V m c main_v8 := Wexit_ne m c O main_v8 (by decide)
theorem Wexit_v22 (O : Buf (Elt Ideal) ((c : Thread nD τ).loc main_v45)) :
    Wexit m c O (Proc.devRef .tc main_v22) = V m c main_v22 := Wexit_ne m c O main_v22 (by decide)

set_option maxHeartbeats 800000 in

theorem Vend_v88 (O : Buf (Elt Ideal) ((c : Thread nD τ).loc main_v45)) :
    (Vend m c O (Proc.devRef .tc main_v88) : FVec Ideal S_ .f32)
      = tailTerm1 O (V m c main_v17) (V m c main_v8) (V m c main_v22) := by
  unfold Vend
  simp only [tailOpss, Gen.hostOps1, Gen.hostOps1_1, Gen.hostOps1_2, Gen.hostOps1_3, Gen.hostOps1_4, Gen.hostOps1_5, Gen.hostOps1_6,
    List.flatten_cons, List.flatten_nil, List.append_nil, List.cons_append, List.nil_append]
  after_results_simp
  simp only [TRef.ofBuf, TRef.toBuf, cast_eq, Wexit_self, Wexit_v17, Wexit_v8, Wexit_v22]
  unfold tailTerm1 tL1 tF1 tF2 tDen10 tDen tPos tNi tCnt tLit10 tS1 tS2 tSum
  rfl

set_option maxHeartbeats 1600000 in

theorem Vend_v93 (O : Buf (Elt Ideal) ((c : Thread nD τ).loc main_v45)) :
    (Vend m c O (Proc.devRef .tc main_v93) : FVec Ideal S_ .f32)
      = tailTerm2 O (V m c main_v17) (V m c main_v8) (V m c main_v22) := by
  unfold Vend
  simp only [tailOpss, Gen.hostOps1, Gen.hostOps1_1, Gen.hostOps1_2, Gen.hostOps1_3, Gen.hostOps1_4, Gen.hostOps1_5, Gen.hostOps1_6,
    List.flatten_cons, List.flatten_nil, List.append_nil, List.cons_append, List.nil_append]
  after_results_simp
  simp only [TRef.ofBuf, TRef.toBuf, cast_eq, Wexit_self, Wexit_v17, Wexit_v8, Wexit_v22]
  unfold tailTerm2 tMv tMm tF1 tF2 tDen10 tDen tPos tNi tCnt tLit10 tS1 tS2 tSum
  rfl

end Cert.KernelIdeal.Hand

end
-- ==== Proof.MathDefs.lean ====
import proofs.«426650_j89962384982112_3_alg».proof.Proof.Spec

noncomputable section

open scoped BigOperators

namespace Cert.Spec.R

open Cert.Spec

def e16 : ℝ := 15111573 / 2 ^ 77

def eN : ℝ := 11258999 / 2 ^ 50

variable (x : Fin 4096 → Fin 128 → ℝ) (tn : Fin 4096 → Fin 10) (w : Fin 10 → Fin 128 → ℝ)

def up {α β : Type} (f : α → β → ℝ) : α → β → EReal := fun a b => ((f a b : ℝ) : EReal)

def sqr (n : Fin 4096) : ℝ := ∑ k, x n k * x n k
def gramr (a b : Fin 4096) : ℝ := ∑ k, x a k * x b k
def d2r (a b : Fin 4096) : ℝ := max (sqr x a + sqr x b - 2 * gramr x a b) 0

def distr (a b : Fin 4096) : ℝ := Real.sqrt (d2r x a b + e16)
def projr (n : Fin 4096) (i : Fin 10) : ℝ := ∑ k, x n k * w i k
def wnr (i : Fin 10) : ℝ := max (Real.sqrt (∑ k, w i k * w i k)) eN
def Ntr (n : Fin 4096) : ℝ := (cnt tn (tn n) : ℝ)
def Nir (i : Fin 10) : ℝ := ((max (cnt tn i) 1 : ℕ) : ℝ)

def Dr : ℝ := (existN tn : ℝ) - 1

def pw (i : Fin 10) (a b : Fin 4096) : ℝ := if tn a = i ∧ tn b ≠ i then 1 / (Ntr tn b * Nir tn i) else 0

def Mr (i : Fin 10) (a b : Fin 4096) : ℝ := (projr x w a i - projr x w b i) / (wnr w i * distr x a b)
def s0 (i : Fin 10) : ℝ := ∑ a, ∑ b, pw tn i a b
def s1 (i : Fin 10) : ℝ := ∑ a, ∑ b, pw tn i a b * Mr x w i a b
def s2 (i : Fin 10) : ℝ := ∑ a, ∑ b, pw tn i a b * (Mr x w i a b * Mr x w i a b)

end Cert.Spec.R

end
-- ==== Proof.MathLits.lean ====
import proofs.«426650_j89962384982112_3_alg».proof.Proof.MathDefs

noncomputable section

open scoped BigOperators

namespace Cert.Spec.R

open Cert.Spec

theorem one_eq : one = ((1 : ℝ) : EReal) := by
  unfold one
  simp [Idealize.ShloMosaic.Ideal.ofBits, Idealize.ShloMosaic.Ideal.ieee, -EReal.coe_mul]; norm_num
theorem two_eq : two = ((2 : ℝ) : EReal) := by
  unfold two
  simp [Idealize.ShloMosaic.Ideal.ofBits, Idealize.ShloMosaic.Ideal.ieee, -EReal.coe_mul]; norm_num
theorem eps16_eq : eps16 = ((e16 : ℝ) : EReal) := by
  unfold eps16 e16
  simp [Idealize.ShloMosaic.Ideal.ofBits, Idealize.ShloMosaic.Ideal.ieee, -EReal.coe_mul]; norm_num
theorem epsN_eq : epsN = ((eN : ℝ) : EReal) := by
  unfold epsN eN
  simp [Idealize.ShloMosaic.Ideal.ofBits, Idealize.ShloMosaic.Ideal.ieee, -EReal.coe_mul]; norm_num
theorem big_eq : big = (((10 : ℝ) ^ 8 : ℝ) : EReal) := by
  have h : ((10 : ℝ) ^ 8 : ℝ) = 100000000 := by norm_num
  rw [h]
  unfold big
  simp [Idealize.ShloMosaic.Ideal.ofBits, Idealize.ShloMosaic.Ideal.ieee, -EReal.coe_mul]; norm_num

theorem e16_pos : 0 < e16 := by unfold e16; positivity
theorem eN_pos : 0 < eN := by unfold eN; positivity

theorem coe_sum {ι : Type} (s : Finset ι) (f : ι → ℝ) : ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

theorem coe_max_real (p q : ℝ) : max (p : EReal) (q : EReal) = ((max p q : ℝ) : EReal) :=
  (EReal.coe_strictMono.monotone.map_max).symm

theorem coe_min_real (p q : ℝ) : min (p : EReal) (q : EReal) = ((min p q : ℝ) : EReal) :=
  (EReal.coe_strictMono.monotone.map_min).symm

variable (x : Fin 4096 → Fin 128 → ℝ) (tn : Fin 4096 → Fin 10) (w : Fin 10 → Fin 128 → ℝ)

theorem sum_e16_pos (a b : Fin 4096) : 0 < d2r x a b + e16 := by
  have h1 : 0 ≤ d2r x a b := le_max_right _ _
  have h2 := e16_pos
  linarith

theorem eN_le_distr (a b : Fin 4096) : eN ≤ distr x a b := by
  unfold distr
  apply Real.le_sqrt_of_sq_le
  have h1 : 0 ≤ d2r x a b := le_max_right _ _
  have h2 : eN ^ 2 ≤ e16 := by unfold eN e16; norm_num
  linarith

theorem inv_distr_le (a b : Fin 4096) : (distr x a b)⁻¹ ≤ (10 : ℝ) ^ 8 := by
  have hd : ((10 : ℝ) ^ 8)⁻¹ ≤ distr x a b := by
    unfold distr
    apply Real.le_sqrt_of_sq_le
    have h1 : 0 ≤ d2r x a b := le_max_right _ _
    have h2 : (((10 : ℝ) ^ 8)⁻¹) ^ 2 ≤ e16 := by unfold e16; norm_num
    linarith
  have hp : (0 : ℝ) < ((10 : ℝ) ^ 8)⁻¹ := by positivity
  calc (distr x a b)⁻¹ ≤ (((10 : ℝ) ^ 8)⁻¹)⁻¹ := inv_anti₀ hp hd
    _ = (10 : ℝ) ^ 8 := inv_inv _
theorem distr_pos (a b : Fin 4096) : 0 < distr x a b := by
  unfold distr
  apply Real.sqrt_pos.mpr
  have h1 : 0 ≤ d2r x a b := le_max_right _ _
  have h2 := e16_pos
  linarith
theorem wnr_pos (i : Fin 10) : 0 < wnr w i := by
  unfold wnr
  exact lt_of_lt_of_le eN_pos (le_max_right _ _)
theorem sq_up (n : Fin 4096) : sq (up x) n = ((sqr x n : ℝ) : EReal) := by
  unfold sq sqr up
  rw [coe_sum]
  apply Finset.sum_congr rfl
  intro k _
  rw [EReal.coe_mul]
theorem gram_up (a b : Fin 4096) : gram (up x) a b = ((gramr x a b : ℝ) : EReal) := by
  unfold gram gramr up
  rw [coe_sum]
  apply Finset.sum_congr rfl
  intro k _
  rw [EReal.coe_mul]
theorem d2_up (a b : Fin 4096) : d2 (up x) a b = ((d2r x a b : ℝ) : EReal) := by
  unfold d2 d2r
  rw [sq_up, sq_up, gram_up, two_eq, ← EReal.coe_mul, ← EReal.coe_add, ← EReal.coe_sub, ← EReal.coe_zero, coe_max_real]
theorem proj_up (n : Fin 4096) (i : Fin 10) : proj (up x) (up w) n i = ((projr x w n i : ℝ) : EReal) := by
  unfold proj projr up
  rw [coe_sum]
  apply Finset.sum_congr rfl
  intro k _
  rw [EReal.coe_mul]
theorem wn_up (i : Fin 10) : wn (up w) i = ((wnr w i : ℝ) : EReal) := by
  have hS : ¬ (∑ k, w i k * w i k) < 0 := by
    apply not_lt.mpr
    apply Finset.sum_nonneg
    intro k _
    exact mul_self_nonneg _
  have hsum : (∑ k, up w i k * up w i k) = (((∑ k, w i k * w i k : ℝ)) : EReal) := by
    unfold up
    rw [coe_sum]
    apply Finset.sum_congr rfl
    intro k _
    rw [EReal.coe_mul]
  unfold wn wnr
  rw [hsum, Idealize.ShloMosaic.Ideal.sqrt_coe, if_neg hS, epsN_eq, coe_max_real]

theorem dn_up (a b : Fin 4096) : dn (up x) a b = ((distr x a b : ℝ) : EReal) := by
  have hpos := sum_e16_pos x a b
  unfold dn
  rw [d2_up, eps16_eq, ← EReal.coe_add, Idealize.ShloMosaic.Ideal.sqrt_coe, if_neg (not_lt.mpr hpos.le), epsN_eq,
    coe_max_real]
  congr 1
  exact max_eq_left (eN_le_distr x a b)

theorem Ak_up (a b : Fin 4096) : Ak (up x) a b = (((distr x a b)⁻¹ : ℝ) : EReal) := by
  have hpos := sum_e16_pos x a b
  unfold Ak
  rw [d2_up, eps16_eq, ← EReal.coe_add, Idealize.ShloMosaic.Ideal.rsqrt_coe, if_neg (not_lt.mpr hpos.le),
    if_neg hpos.ne', big_eq, coe_min_real]
  congr 1
  exact min_eq_left (inv_distr_le x a b)

end Cert.Spec.R

end
-- ==== Proof.KerHost3.lean ====
import proofs.«426650_j89962384982112_3_alg».proof.Proof.KerTail1
import proofs.«426650_j89962384982112_3_alg».proof.Proof.KerHost2
import proofs.«426650_j89962384982112_3_alg».proof.Proof.MathLits
import proofs.«426650_j89962384982112_3_alg».proof.Proof.SpecK
import Idealize.ShloMosaic.Lib.ValueLayout

noncomputable section

open scoped BigOperators

namespace Cert.KernelIdeal.Hand

open Idealize.ShloMosaic Idealize.ShloMosaic.TcCoe Idealize.SL.Sem Idealize.ShloMosaic.ValueIdx Cert.KernelIdeal
  Cert.KernelIdeal.Gen Cert.Spec

theorem sum_idx1 {n : ℕ} (f : (⟨1, ![n]⟩ : Shape).Idx → EReal) : ∑ j, f j = ∑ i : Fin n, f (ix1 i) :=
  (Equiv.sum_comp (⟨fun a => ix1 a, fun j => j 0, fun _ => rfl, fun j => (eq_ix1 j).symm⟩ :
    Fin n ≃ (⟨1, ![n]⟩ : Shape).Idx) f).symm

private theorem bit_iff (P : Prop) [Decidable P] : BitVec.ofBool (decide P) = 1#1 ↔ P := by
  by_cases hp : P <;> simp [hp]

theorem select_at {s : Shape} (cb : IVec s 1) (a b : s.Idx → EReal) (i : s.Idx) (P : Prop) [Decidable P]
    (hc : cb i = 1#1 ↔ P) : select cb a b i = if P then a i else b i := by
  show (if cb i = 1#1 then a i else b i) = _
  by_cases hp : P
  · rw [if_pos hp, if_pos (hc.2 hp)]
  · rw [if_neg hp, if_neg (fun e => hp (hc.1 e))]

section Terms

variable (O : FVec Ideal S8x2x128 .f32) (x1 : IVec S4096 32) (x2 : FVec Ideal S10x128 .f32)

abbrev sumRow0 : Fin 10 → EReal := fun i => ∑ ia : Fin 8, O (ix3 ia 0 ⟨i.val, by omega⟩)
abbrev sumRow1 : Fin 10 → EReal := fun i => ∑ ia : Fin 8, O (ix3 ia 1 ⟨i.val, by omega⟩)

theorem tSum_at (r : Fin 2) (col : Fin 128) : tSum O (ix2 r col) = ∑ ia : Fin 8, O (ix3 ia r col) := by
  unfold tSum
  rw [hostReduceAdd_apply,
    Ideal.hostReduceAdd_single reducesTo_S8x2x128_S2x128_d0 (by decide : S8x2x128.Reduces [0] S2x128)]
  show Ideal.ofBits .f32 0x00000000#32 + _ = _
  rw [Ideal.ofBits_zero_f32, zero_add]
  refine Finset.sum_congr rfl fun ia _ => congrArg O (funext fun d => Fin.ext ?_)
  match d with
  | ⟨0, _⟩ => rfl
  | ⟨1, _⟩ => rfl
  | ⟨2, _⟩ => rfl

theorem tS1_at (i : Fin 10) : tS1 O (ix1 i) = sumRow0 O i := by
  unfold tS1
  rw [shapeCast_1a_a_apply,
    extractStridedSlice_apply ![0, 0] (tSum O) slices_S2x128_S1x10_0_0 (ix2 (0 : Fin 1) i) (ix2 (0 : Fin 2) ⟨i.val, by omega⟩)
      (fun a => by match a with
        | ⟨0, _⟩ => rfl
        | ⟨1, _⟩ => exact (Nat.zero_add _).symm),
    tSum_at]

theorem tS2_at (i : Fin 10) : tS2 O (ix1 i) = sumRow1 O i := by
  unfold tS2
  rw [shapeCast_1a_a_apply,
    extractStridedSlice_apply ![1, 0] (tSum O) slices_S2x128_S1x10_1_0 (ix2 (0 : Fin 1) i) (ix2 (1 : Fin 2) ⟨i.val, by omega⟩)
      (fun a => by match a with
        | ⟨0, _⟩ => rfl
        | ⟨1, _⟩ => exact (Nat.zero_add _).symm),
    tSum_at]

theorem tLit10_at (b : BitVec 32) (i : Fin 10) : tLit10 b (ix1 i) = Ideal.ofBits .f32 b := by
  unfold tLit10
  rw [broadcastInDim_scalar_apply]
  rfl

variable (h : InRange x1)

theorem tCnt_at (i : Fin 10) : tCnt (hCnt x1) (ix1 i) = (((cnt (tnOf x1 h) i : ℕ) : ℝ) : EReal) := by
  unfold tCnt
  show ((((hCnt x1 (ix1 i)).toInt : ℤ) : ℝ) : EReal) = _
  rw [hCnt_at x1 h i, ofNat_toInt _ (lt_of_le_of_lt (cnt_le (tnOf x1 h) i) (by norm_num))]
  norm_cast

theorem tNi_at (i : Fin 10) : tNi (hCnt x1) (ix1 i) = NiE (tnOf x1 h) i := by
  unfold tNi
  show max (tCnt (hCnt x1) (ix1 i)) (tLit10 0x3F800000#32 (ix1 i)) = _
  rw [tCnt_at x1 h i, tLit10_at, Ideal.ofBits_one_f32, show (1 : EReal) = ((1 : ℝ) : EReal) from rfl,
    Cert.Spec.R.coe_max_real]
  unfold NiE
  norm_cast

theorem tF1_at (i : Fin 10) :
    tF1 O (hCnt x1) (hWn x2) (ix1 i) = fS1 (tnOf x1 h) (Wof x2) (sumRow0 O) i := by
  unfold tF1
  show Ideal.div (tLit10 0x3F800000#32 (ix1 i)) (tNi (hCnt x1) (ix1 i) * hWn x2 (ix1 i)) * tS1 O (ix1 i) = _
  rw [tLit10_at, tNi_at x1 h i, hWn_at, tS1_at]
  rfl

theorem tF2_at (i : Fin 10) :
    tF2 O (hCnt x1) (hWn x2) (ix1 i) = fS2 (tnOf x1 h) (Wof x2) (sumRow1 O) i := by
  unfold tF2
  show Ideal.div (tLit10 0x3F800000#32 (ix1 i)) (tNi (hCnt x1) (ix1 i) * hWn x2 (ix1 i) * hWn x2 (ix1 i)) * tS2 O (ix1 i) = _
  rw [tLit10_at, tNi_at x1 h i, hWn_at, tS2_at]
  rfl

theorem tDen10_at (i : Fin 10) : tDen10 (hExist x1) (ix1 i) = denomE (tnOf x1 h) := by
  unfold tDen10
  rw [broadcastInDim_scalar_apply]
  unfold tDen
  show hExist x1 ix0 - Ideal.ofBits .f32 0x3F800000#32 = _
  rw [hExist_at x1 h]
  rfl

theorem tL1_at (i : Fin 10) :
    tL1 O (hCnt x1) (hWn x2) (hExist x1) (ix1 i) = fl1 (tnOf x1 h) (Wof x2) (sumRow0 O) (sumRow1 O) i := by
  unfold tL1
  show Ideal.div (tDen10 (hExist x1) (ix1 i) - tLit10 0x40000000#32 (ix1 i) * tF1 O (hCnt x1) (hWn x2) (ix1 i)
      + tF2 O (hCnt x1) (hWn x2) (ix1 i)) (tDen10 (hExist x1) (ix1 i)) = _
  rw [tDen10_at x1 h i, tLit10_at, tF1_at O x1 x2 h i, tF2_at O x1 x2 h i]
  rfl

theorem tMm_at (i : Fin 10) :
    tMm O (hCnt x1) (hWn x2) (hExist x1) (ix1 i) = fmm (tnOf x1 h) (Wof x2) (sumRow0 O) i := by
  unfold tMm
  show Ideal.div (tF1 O (hCnt x1) (hWn x2) (ix1 i)) (tDen10 (hExist x1) (ix1 i)) = _
  rw [tDen10_at x1 h i, tF1_at O x1 x2 h i]
  rfl

theorem tMv_at (i : Fin 10) :
    tMv O (hCnt x1) (hWn x2) (hExist x1) (ix1 i) = fmv (tnOf x1 h) (Wof x2) (sumRow0 O) (sumRow1 O) i := by
  unfold tMv
  show Ideal.div (tF2 O (hCnt x1) (hWn x2) (ix1 i)
      - tLit10 0x40000000#32 (ix1 i) * tMm O (hCnt x1) (hWn x2) (hExist x1) (ix1 i) * tF1 O (hCnt x1) (hWn x2) (ix1 i)
      + tMm O (hCnt x1) (hWn x2) (hExist x1) (ix1 i) * tMm O (hCnt x1) (hWn x2) (hExist x1) (ix1 i) * tDen10 (hExist x1) (ix1 i))
      (tDen10 (hExist x1) (ix1 i)) = _
  rw [tDen10_at x1 h i, tLit10_at, tF1_at O x1 x2 h i, tF2_at O x1 x2 h i, tMm_at O x1 x2 h i]
  rfl

theorem tPos_at (i : Fin 10) : tPos (hCnt x1) (ix1 i) = 1#1 ↔ 0 < cnt (tnOf x1 h) i := by
  unfold tPos
  show Ideal.cmp .ogt (tCnt (hCnt x1) (ix1 i)) (tLit10 0x00000000#32 (ix1 i)) = 1#1 ↔ _
  rw [tCnt_at x1 h i, tLit10_at, Ideal.ofBits_zero_f32]
  unfold Ideal.cmp
  rw [bit_iff]
  rw [show (0 : EReal) = ((0 : ℝ) : EReal) from rfl, EReal.coe_lt_coe_iff]
  exact Nat.cast_pos

theorem tailTerm1_at :
    tailTerm1 O (hCnt x1) (hWn x2) (hExist x1) ix0 = Kfin1 (tnOf x1 h) (Wof x2) (sumRow0 O) (sumRow1 O) := by
  unfold tailTerm1
  show Ideal.div (Host.reduceAdd (select (tPos (hCnt x1)) (tL1 O (hCnt x1) (hWn x2) (hExist x1)) (tLit10 0x00000000#32))
      (constant (F := Ideal) S_ .f32 0x00000000#32) reducesTo_S10_S_d0 h_S_ ix0) (hExist x1 ix0) = _
  rw [hostReduceAdd_apply, Ideal.hostReduceAdd_total reducesTo_S10_S_d0 (fun b => b.elim0), hExist_at x1 h, sum_idx1]
  show Ideal.div (Ideal.ofBits .f32 0x00000000#32 + _) _ = _
  rw [Ideal.ofBits_zero_f32, zero_add]
  unfold Kfin1
  congr 1
  refine Finset.sum_congr rfl fun i _ => ?_
  rw [select_at _ _ _ _ _ (tPos_at x1 h i), tL1_at O x1 x2 h i, tLit10_at, Ideal.ofBits_zero_f32]

theorem tailTerm2_at :
    tailTerm2 O (hCnt x1) (hWn x2) (hExist x1) ix0 = Kfin2 (tnOf x1 h) (Wof x2) (sumRow0 O) (sumRow1 O) := by
  unfold tailTerm2
  show Ideal.div (Host.reduceAdd (select (tPos (hCnt x1))
        (Host.absf (Host.divf (tMv O (hCnt x1) (hWn x2) (hExist x1))
          (select (tPos (hCnt x1)) (tMm O (hCnt x1) (hWn x2) (hExist x1)) (tLit10 0x3F800000#32))))
        (tLit10 0x00000000#32))
      (constant (F := Ideal) S_ .f32 0x00000000#32) reducesTo_S10_S_d0 h_S_ ix0) (hExist x1 ix0) = _
  rw [hostReduceAdd_apply, Ideal.hostReduceAdd_total reducesTo_S10_S_d0 (fun b => b.elim0), hExist_at x1 h, sum_idx1]
  show Ideal.div (Ideal.ofBits .f32 0x00000000#32 + _) _ = _
  rw [Ideal.ofBits_zero_f32, zero_add]
  unfold Kfin2
  congr 1
  refine Finset.sum_congr rfl fun i _ => ?_
  rw [select_at _ _ _ _ _ (tPos_at x1 h i), tLit10_at, Ideal.ofBits_zero_f32]
  show (if 0 < cnt (tnOf x1 h) i then
      absE (Ideal.div (tMv O (hCnt x1) (hWn x2) (hExist x1) (ix1 i))
        (select (tPos (hCnt x1)) (tMm O (hCnt x1) (hWn x2) (hExist x1)) (tLit10 0x3F800000#32) (ix1 i))) else 0) = _
  rw [select_at _ _ _ _ _ (tPos_at x1 h i), tMv_at O x1 x2 h i, tMm_at O x1 x2 h i, tLit10_at]
  rfl

end Terms

variable (m : (ℓ : Loc nD τ sig) → Buf (Elt Ideal) ℓ) (c : Dev nD)

theorem tail1 (h : InRange (tm m c)) (O : Buf (Elt Ideal) ((c : Thread nD τ).loc main_v45)) :
    (Vend m c O (Proc.devRef .tc main_v88) : S_.Idx → EReal)
      = fun _ => Kfin1 (tnOf (tm m c) h) (Wm m c)
          (fun i => ∑ ia : Fin 8, (O : S8x2x128.Idx → EReal) (ix3 ia 0 ⟨i.val, by omega⟩))
          (fun i => ∑ ia : Fin 8, (O : S8x2x128.Idx → EReal) (ix3 ia 1 ⟨i.val, by omega⟩)) := by
  funext j
  obtain rfl : j = ix0 := eq_ix0 j
  refine (congrFun (Vend_v88 m c O) ix0).trans ?_
  rw [V_v17, V_v8, V_v22]
  exact tailTerm1_at O (a1 m c) (a2 m c) h

theorem tail2 (h : InRange (tm m c)) (O : Buf (Elt Ideal) ((c : Thread nD τ).loc main_v45)) :
    (Vend m c O (Proc.devRef .tc main_v93) : S_.Idx → EReal)
      = fun _ => Kfin2 (tnOf (tm m c) h) (Wm m c)
          (fun i => ∑ ia : Fin 8, (O : S8x2x128.Idx → EReal) (ix3 ia 0 ⟨i.val, by omega⟩))
          (fun i => ∑ ia : Fin 8, (O : S8x2x128.Idx → EReal) (ix3 ia 1 ⟨i.val, by omega⟩)) := by
  funext j
  obtain rfl : j = ix0 := eq_ix0 j
  refine (congrFun (Vend_v93 m c O) ix0).trans ?_
  rw [V_v17, V_v8, V_v22]
  exact tailTerm2_at O (a1 m c) (a2 m c) h

end Cert.KernelIdeal.Hand

end
-- ==== Proof.KerSide.lean ====
import proofs.«426650_j89962384982112_3_alg».proof.Proof.KerFrame
import proofs.«426650_j89962384982112_3_alg».proof.Proof.KerOut
import proofs.«426650_j89962384982112_3_alg».proof.Proof.KerVal
import proofs.«426650_j89962384982112_3_alg».proof.Proof.KerHost3
import proofs.«426650_j89962384982112_3_alg».proof.Proof.SpecK

noncomputable section

open scoped BigOperators

namespace Cert.KernelIdeal.Hand

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (c : Dev nD)

def outArr : S8x2x128.Idx → EReal := (dats m qK 0 c).arrAt 5 cfg0.N

theorem sum_row0 (h : InRange (tm m c)) :
    (fun i : Fin 10 => ∑ ia : Fin 8, outArr m c (ix3 ia 0 ⟨i.val, by omega⟩))
      = S1raw (Xm m c) (tnOf (tm m c) h) (Wm m c) := by
  funext i
  unfold S1raw
  refine Finset.sum_congr rfl fun ia _ => ?_
  refine @Eq.trans EReal _ (∑ ib : Fin 4, (pay0At m c (pt ia ib) (ix2 0 i) : EReal)) _ (out_row0_sum qK m c ia i) ?_
  exact Finset.sum_congr rfl fun ib _ => pay0_at m c h ia ib i

theorem sum_row1 (h : InRange (tm m c)) :
    (fun i : Fin 10 => ∑ ia : Fin 8, outArr m c (ix3 ia 1 ⟨i.val, by omega⟩))
      = S2raw (Xm m c) (tnOf (tm m c) h) (Wm m c) := by
  funext i
  unfold S2raw
  refine Finset.sum_congr rfl fun ia _ => ?_
  refine @Eq.trans EReal _ (∑ ib : Fin 4, (pay1At m c (pt ia ib) (ix2 0 i) : EReal)) _ (out_row1_sum qK m c ia i) ?_
  exact Finset.sum_congr rfl fun ib _ => pay1_at m c h ia ib i

theorem run_spec (ρ : Dev nD → PrngReg)
    (hr : ∀ c : Dev nD, InRange (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v88)
          = (fun _ => Kout1 (Xof (m ((c.tc : Thread nD τ).loc main_arg0))) (tnOf (m ((c.tc : Thread nD τ).loc main_arg1)) (hr c)) (Wof (m ((c.tc : Thread nD τ).loc main_arg2))))
      ∧ r.2.mem ((c.tc : Thread nD τ).loc main_v93)
          = (fun _ => Kout2 (Xof (m ((c.tc : Thread nD τ).loc main_arg0))) (tnOf (m ((c.tc : Thread nD τ).loc main_arg1)) (hr c)) (Wof (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun _ h c => ?_) (run_data m ρ)
  obtain ⟨h1, h2, h3⟩ := h c
  refine ⟨?_, ?_, h3⟩
  · refine h1.trans ((tail1 m c (hr c) (outArr m c)).trans ?_)
    rw [sum_row0 m c (hr c), sum_row1 m c (hr c)]
    rfl
  · refine h2.trans ((tail2 m c (hr c) (outArr m c)).trans ?_)
    rw [sum_row0 m c (hr c), sum_row1 m c (hr c)]
    rfl

end Cert.KernelIdeal.Hand

end
-- ==== Proof.RefRead.lean ====
import proofs.«426650_j89962384982112_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S4096x128, .f32⟩ : BufTy).Contents (Elt F)) : (⟨S4096x128, .f32⟩ : BufTy).Contents (Elt F) :=
  mulf (x0) (x0)
theorem val_main_v0_apply (x0 : (⟨S4096x128, .f32⟩ : BufTy).Contents (Elt F)) (i : S4096x128.Idx) :
    val_main_v0 (F := F) x0 i = FloatOps.mulf (x0 i) (x0 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v1 (x0 : (⟨S4096x128, .f32⟩ : BufTy).Contents (Elt F)) : (⟨S4096, .f32⟩ : BufTy).Contents (Elt F) :=
  Host.reduceAdd (val_main_v0 (F := F) x0) (val_main_cst (F := F)) reducesTo_S4096x128_S4096_d1 h_S_
abbrev idx_main_v1 (i : S4096.Idx) (k : Fin 128) : S4096x128.Idx := fun a => match a with
  | ⟨0, _⟩ => ⟨(i 0).val, (i 0).isLt⟩
  | ⟨1, _⟩ => ⟨k.val, k.isLt⟩

theorem val_main_v1_apply (x0 : (⟨S4096x128, .f32⟩ : BufTy).Contents (Elt Ideal)) (i : S4096.Idx) :
    val_main_v1 (F := Ideal) x0 i = (val_main_cst (F := Ideal)) (Shape.Idx.first h_S_) + ∑ k : Fin 128, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S4096x128_S4096_d1 (by decide)]
  refine congrArg (_ + ·) (Finset.sum_congr rfl fun k _ => ?_)
  exact congrArg y0 (funext fun a => Fin.ext (by match a with | ⟨0, _⟩ => rfl | ⟨1, _⟩ => rfl))

def val_main_v2 (x0 : (⟨S4096x128, .f32⟩ : BufTy).Contents (Elt F)) : (⟨S128x4096, .f32⟩ : BufTy).Contents (Elt F) :=
  transpose S128x4096 [1, 0] (x0) transposes_S4096x128_S128x4096_1_0
abbrev idx_main_v2 (i : S128x4096.Idx) : S4096x128.Idx := fun a => match a with
  | ⟨0, _⟩ => ⟨(i 1).val, (i 1).isLt⟩
  | ⟨1, _⟩ => ⟨(i 0).val, (i 0).isLt⟩
theorem val_main_v2_apply (x0 : (⟨S4096x128, .f32⟩ : BufTy).Contents (Elt F)) (i : S128x4096.Idx) :
    val_main_v2 (F := F) x0 i = x0 (idx_main_v2 i) := by
  unfold val_main_v2
  exact transpose_apply [1, 0] x0 transposes_S4096x128_S128x4096_1_0 i (idx_main_v2 i) (fun b => match b with
    | ⟨0, _⟩ => rfl
    | ⟨1, _⟩ => rfl)

def val_main_v3 (x0 : (⟨S4096x128, .f32⟩ : BufTy).Contents (Elt F)) : (⟨S4096x4096, .f32⟩ : BufTy).Contents (Elt F) :=
  Host.dotGeneral dot_S4096x128_S128x4096_S4096x4096_1_0_0_1_n_n none (x0) (val_main_v2 (F := F) x0)
theorem lhs_main_v3_0 (i : S4096x4096.Idx) (q : dot_S4096x128_S128x4096_S4096x4096_1_0_0_1_n_n.contr.Idx) :
    (dot_S4096x128_S128x4096_S4096x4096_1_0_0_1_n_n.lhsIdx i q 0).val = (i 0).val := by
  unfold DotDims.lhsIdx
  rw [dif_neg (show ¬(0 : Fin S4096x128.rank) ∈ dot_S4096x128_S128x4096_S4096x4096_1_0_0_1_n_n.lhsBatch by decide), dif_pos (show (0 : Fin S4096x128.rank) ∈ dot_S4096x128_S128x4096_S4096x4096_1_0_0_1_n_n.lhsNonContracting by decide)]
  rfl
theorem lhs_main_v3_1 (i : S4096x4096.Idx) (q : dot_S4096x128_S128x4096_S4096x4096_1_0_0_1_n_n.contr.Idx) :
    (dot_S4096x128_S128x4096_S4096x4096_1_0_0_1_n_n.lhsIdx i q 1).val = (q ⟨0, by decide⟩).val :=
  dot_S4096x128_S128x4096_S4096x4096_1_0_0_1_n_n.lhsIdx_val_of_single rfl i q
theorem rhs_main_v3_0 (i : S4096x4096.Idx) (q : dot_S4096x128_S128x4096_S4096x4096_1_0_0_1_n_n.contr.Idx) :
    (dot_S4096x128_S128x4096_S4096x4096_1_0_0_1_n_n.rhsIdx i q 0).val = (q ⟨0, by decide⟩).val :=
  dot_S4096x128_S128x4096_S4096x4096_1_0_0_1_n_n.rhsIdx_val_of_single rfl i q
theorem rhs_main_v3_1 (i : S4096x4096.Idx) (q : dot_S4096x128_S128x4096_S4096x4096_1_0_0_1_n_n.contr.Idx) :
    (dot_S4096x128_S128x4096_S4096x4096_1_0_0_1_n_n.rhsIdx i q 1).val = (i 1).val := by
  unfold DotDims.rhsIdx
  rw [dif_neg (show ¬(1 : Fin S128x4096.rank) ∈ dot_S4096x128_S128x4096_S4096x4096_1_0_0_1_n_n.rhsBatch by decide), dif_pos (show (1 : Fin S128x4096.rank) ∈ dot_S4096x128_S128x4096_S4096x4096_1_0_0_1_n_n.rhsNonContracting by decide)]
  rfl
abbrev lidx_main_v3 (i : S4096x4096.Idx) (k : Fin 128) : S4096x128.Idx := fun a => match a with
  | ⟨0, _⟩ => ⟨(i 0).val, (i 0).isLt⟩
  | ⟨1, _⟩ => ⟨k.val, k.isLt⟩
abbrev ridx_main_v3 (i : S4096x4096.Idx) (k : Fin 128) : S128x4096.Idx := fun a => match a with
  | ⟨0, _⟩ => ⟨k.val, k.isLt⟩
  | ⟨1, _⟩ => ⟨(i 1).val, (i 1).isLt⟩

theorem val_main_v3_apply (x0 : (⟨S4096x128, .f32⟩ : BufTy).Contents (Elt Ideal)) (i : S4096x4096.Idx) :
    val_main_v3 (F := Ideal) x0 i = ∑ k : Fin 128, x0 (lidx_main_v3 i k) * (val_main_v2 (F := Ideal) x0) (ridx_main_v3 i k) := by
  unfold val_main_v3
  generalize val_main_v2 (F := Ideal) x0 = y0
  simp only [Host.dotGeneral]
  rw [Ideal.dotGeneral_apply, ← Equiv.sum_comp (ValueIdx.contrEquiv1 dot_S4096x128_S128x4096_S4096x4096_1_0_0_1_n_n 128 rfl rfl).symm]
  refine Finset.sum_congr rfl fun k _ => ?_
  have hk := ValueIdx.contrEquiv1_symm_val dot_S4096x128_S128x4096_S4096x4096_1_0_0_1_n_n 128 rfl rfl k
  have el : dot_S4096x128_S128x4096_S4096x4096_1_0_0_1_n_n.lhsIdx i ((ValueIdx.contrEquiv1 dot_S4096x128_S128x4096_S4096x4096_1_0_0_1_n_n 128 rfl rfl).symm k) = lidx_main_v3 i k := funext fun a => Fin.ext (by
    match a with
    | ⟨0, _⟩ => exact lhs_main_v3_0 _ _
    | ⟨1, _⟩ => exact (lhs_main_v3_1 _ _).trans hk)
  have er : dot_S4096x128_S128x4096_S4096x4096_1_0_0_1_n_n.rhsIdx i ((ValueIdx.contrEquiv1 dot_S4096x128_S128x4096_S4096x4096_1_0_0_1_n_n 128 rfl rfl).symm k) = ridx_main_v3 i k := funext fun a => Fin.ext (by
    match a with
    | ⟨0, _⟩ => exact (rhs_main_v3_0 _ _).trans hk
    | ⟨1, _⟩ => exact rhs_main_v3_1 _ _)
  rw [el, er]

def val_main_v4 (x0 : (⟨S4096x128, .f32⟩ : BufTy).Contents (Elt F)) : (⟨S4096x1, .f32⟩ : BufTy).Contents (Elt F) :=
  broadcastInDim S4096x1 ![0] bcast_S4096_S4096x1_0 (val_main_v1 (F := F) x0)
abbrev idx_main_v4 (i : S4096x1.Idx) : S4096.Idx := fun a => match a with
  | ⟨0, _⟩ => ⟨(i 0).val, (i 0).isLt⟩
theorem val_main_v4_apply (x0 : (⟨S4096x128, .f32⟩ : BufTy).Contents (Elt F)) (i : S4096x1.Idx) :
    val_main_v4 (F := F) x0 i = val_main_v1 (F := F) x0 (idx_main_v4 i) := by
  unfold val_main_v4
  generalize val_main_v1 (F := F) x0 = y
  exact broadcastInDim_apply _ bcast_S4096_S4096x1_0 y i (idx_main_v4 i) (fun a => match a with
    | ⟨0, _⟩ => by show (i 0).val = if (4096 : Nat) = 1 then 0 else (i 0).val; rw [if_neg (by decide)])

def val_main_v5 (x0 : (⟨S4096x128, .f32⟩ : BufTy).Contents (Elt F)) : (⟨S1x4096, .f32⟩ : BufTy).Contents (Elt F) :=
  broadcastInDim S1x4096 ![1] bcast_S4096_S1x4096_1 (val_main_v1 (F := F) x0)
abbrev idx_main_v5 (i : S1x4096.Idx) : S4096.Idx := fun a => match a with
  | ⟨0, _⟩ => ⟨(i 1).val, (i 1).isLt⟩
theorem val_main_v5_apply (x0 : (⟨S4096x128, .f32⟩ : BufTy).Contents (Elt F)) (i : S1x4096.Idx) :
    val_main_v5 (F := F) x0 i = val_main_v1 (F := F) x0 (idx_main_v5 i) := by
  unfold val_main_v5
  generalize val_main_v1 (F := F) x0 = y
  exact broadcastInDim_apply _ bcast_S4096_S1x4096_1 y i (idx_main_v5 i) (fun a => match a with
    | ⟨0, _⟩ => by show (i 1).val = if (4096 : Nat) = 1 then 0 else (i 1).val; rw [if_neg (by decide)])

def val_main_v6 (x0 : (⟨S4096x128, .f32⟩ : BufTy).Contents (Elt F)) : (⟨S4096x4096, .f32⟩ : BufTy).Contents (Elt F) :=
  broadcastInDim S4096x4096 ![0, 1] bcast_S4096x1_S4096x4096_0_1 (val_main_v4 (F := F) x0)
abbrev idx_main_v6 (i : S4096x4096.Idx) : S4096x1.Idx := fun a => match a with
  | ⟨0, _⟩ => ⟨(i 0).val, (i 0).isLt⟩
  | ⟨1, _⟩ => ⟨0, Nat.one_pos⟩
theorem val_main_v6_apply (x0 : (⟨S4096x128, .f32⟩ : BufTy).Contents (Elt F)) (i : S4096x4096.Idx) :
    val_main_v6 (F := F) x0 i = val_main_v4 (F := F) x0 (idx_main_v6 i) := by
  unfold val_main_v6
  generalize val_main_v4 (F := F) x0 = y
  exact broadcastInDim_apply _ bcast_S4096x1_S4096x4096_0_1 y i (idx_main_v6 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v7 (x0 : (⟨S4096x128, .f32⟩ : BufTy).Contents (Elt F)) : (⟨S4096x4096, .f32⟩ : BufTy).Contents (Elt F) :=
  broadcastInDim S4096x4096 ![0, 1] bcast_S1x4096_S4096x4096_0_1 (val_main_v5 (F := F) x0)
abbrev idx_main_v7 (i : S4096x4096.Idx) : S1x4096.Idx := fun a => match a with
  | ⟨0, _⟩ => ⟨0, Nat.one_pos⟩
  | ⟨1, _⟩ => ⟨(i 1).val, (i 1).isLt⟩
theorem val_main_v7_apply (x0 : (⟨S4096x128, .f32⟩ : BufTy).Contents (Elt F)) (i : S4096x4096.Idx) :
    val_main_v7 (F := F) x0 i = val_main_v5 (F := F) x0 (idx_main_v7 i) := by
  unfold val_main_v7
  generalize val_main_v5 (F := F) x0 = y
  exact broadcastInDim_apply _ bcast_S1x4096_S4096x4096_0_1 y i (idx_main_v7 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v8 (x0 : (⟨S4096x128, .f32⟩ : BufTy).Contents (Elt F)) : (⟨S4096x4096, .f32⟩ : BufTy).Contents (Elt F) :=
  addf (val_main_v6 (F := F) x0) (val_main_v7 (F := F) x0)
theorem val_main_v8_apply (x0 : (⟨S4096x128, .f32⟩ : BufTy).Contents (Elt F)) (i : S4096x4096.Idx) :
    val_main_v8 (F := F) x0 i = FloatOps.addf (val_main_v6 (F := F) x0 i) (val_main_v7 (F := F) x0 i) := rfl

def val_main_cst_0 : (⟨S_, .f32⟩ : BufTy).Contents (Elt F) :=
  constant S_ .f32 0x40000000#32
theorem val_main_cst_0_apply (i : S_.Idx) :
    val_main_cst_0 (F := F) i = FloatOps.ofBits .f32 0x40000000#32 := rfl

def val_main_v9 : (⟨S4096x4096, .f32⟩ : BufTy).Contents (Elt F) :=
  broadcastInDim S4096x4096 ![] bcast_S_S4096x4096 (val_main_cst_0 (F := F))
abbrev idx_main_v9 (i : S4096x4096.Idx) : S_.Idx := fun a => a.elim0
theorem val_main_v9_apply (i : S4096x4096.Idx) :
    val_main_v9 (F := F) i = val_main_cst_0 (F := F) (idx_main_v9 i) := by
  unfold val_main_v9
  generalize val_main_cst_0 (F := F) = y
  exact broadcastInDim_apply _ bcast_S_S4096x4096 y i (idx_main_v9 i) (fun a => a.elim0)

def val_main_v10 (x0 : (⟨S4096x128, .f32⟩ : BufTy).Contents (Elt F)) : (⟨S4096x4096, .f32⟩ : BufTy).Contents (Elt F) :=
  mulf (val_main_v9 (F := F)) (val_main_v3 (F := F) x0)
theorem val_main_v10_apply (x0 : (⟨S4096x128, .f32⟩ : BufTy).Contents (Elt F)) (i : S4096x4096.Idx) :
    val_main_v10 (F := F) x0 i = FloatOps.mulf (val_main_v9 (F := F) i) (val_main_v3 (F := F) x0 i) := rfl

def val_main_v11 (x0 : (⟨S4096x128, .f32⟩ : BufTy).Contents (Elt F)) : (⟨S4096x4096, .f32⟩ : BufTy).Contents (Elt F) :=
  subf (val_main_v8 (F := F) x0) (val_main_v10 (F := F) x0)
theorem val_main_v11_apply (x0 : (⟨S4096x128, .f32⟩ : BufTy).Contents (Elt F)) (i : S4096x4096.Idx) :
    val_main_v11 (F := F) x0 i = FloatOps.subf (val_main_v8 (F := F) x0 i) (val_main_v10 (F := F) x0 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v12 : (⟨S4096x4096, .f32⟩ : BufTy).Contents (Elt F) :=
  broadcastInDim S4096x4096 ![] bcast_S_S4096x4096 (val_main_cst_1 (F := F))
abbrev idx_main_v12 (i : S4096x4096.Idx) : S_.Idx := fun a => a.elim0
theorem val_main_v12_apply (i : S4096x4096.Idx) :
    val_main_v12 (F := F) i = val_main_cst_1 (F := F) (idx_main_v12 i) := by
  unfold val_main_v12
  generalize val_main_cst_1 (F := F) = y
  exact broadcastInDim_apply _ bcast_S_S4096x4096 y i (idx_main_v12 i) (fun a => a.elim0)

def val_main_v13 (x0 : (⟨S4096x128, .f32⟩ : BufTy).Contents (Elt F)) : (⟨S4096x4096, .f32⟩ : BufTy).Contents (Elt F) :=
  maximumf (val_main_v11 (F := F) x0) (val_main_v12 (F := F))
theorem val_main_v13_apply (x0 : (⟨S4096x128, .f32⟩ : BufTy).Contents (Elt F)) (i : S4096x4096.Idx) :
    val_main_v13 (F := F) x0 i = FloatOps.maximumf (val_main_v11 (F := F) x0 i) (val_main_v12 (F := F) i) := rfl

def val_main_cst_2 : (⟨S_, .f32⟩ : BufTy).Contents (Elt F) :=
  constant S_ .f32 0x24E69595#32
theorem val_main_cst_2_apply (i : S_.Idx) :
    val_main_cst_2 (F := F) i = FloatOps.ofBits .f32 0x24E69595#32 := rfl

def val_main_v14 : (⟨S4096x4096, .f32⟩ : BufTy).Contents (Elt F) :=
  broadcastInDim S4096x4096 ![] bcast_S_S4096x4096 (val_main_cst_2 (F := F))
abbrev idx_main_v14 (i : S4096x4096.Idx) : S_.Idx := fun a => a.elim0
theorem val_main_v14_apply (i : S4096x4096.Idx) :
    val_main_v14 (F := F) i = val_main_cst_2 (F := F) (idx_main_v14 i) := by
  unfold val_main_v14
  generalize val_main_cst_2 (F := F) = y
  exact broadcastInDim_apply _ bcast_S_S4096x4096 y i (idx_main_v14 i) (fun a => a.elim0)

def val_main_v15 (x0 : (⟨S4096x128, .f32⟩ : BufTy).Contents (Elt F)) : (⟨S4096x4096, .f32⟩ : BufTy).Contents (Elt F) :=
  addf (val_main_v13 (F := F) x0) (val_main_v14 (F := F))
theorem val_main_v15_apply (x0 : (⟨S4096x128, .f32⟩ : BufTy).Contents (Elt F)) (i : S4096x4096.Idx) :
    val_main_v15 (F := F) x0 i = FloatOps.addf (val_main_v13 (F := F) x0 i) (val_main_v14 (F := F) i) := rfl

def val_main_v16 (x0 : (⟨S4096x128, .f32⟩ : BufTy).Contents (Elt F)) : (⟨S4096x4096, .f32⟩ : BufTy).Contents (Elt F) :=
  Host.sqrt (val_main_v15 (F := F) x0)
theorem val_main_v16_apply (x0 : (⟨S4096x128, .f32⟩ : BufTy).Contents (Elt F)) (i : S4096x4096.Idx) :
    val_main_v16 (F := F) x0 i = FloatOps.hostUnary .sqrt (val_main_v15 (F := F) x0 i) := rfl

def val_main_cst_3 : (⟨S_, .f32⟩ : BufTy).Contents (Elt F) :=
  constant S_ .f32 0x322BCC77#32
theorem val_main_cst_3_apply (i : S_.Idx) :
    val_main_cst_3 (F := F) i = FloatOps.ofBits .f32 0x322BCC77#32 := rfl

def val_main_v17 : (⟨S4096x4096, .f32⟩ : BufTy).Contents (Elt F) :=
  broadcastInDim S4096x4096 ![] bcast_S_S4096x4096 (val_main_cst_3 (F := F))
abbrev idx_main_v17 (i : S4096x4096.Idx) : S_.Idx := fun a => a.elim0
theorem val_main_v17_apply (i : S4096x4096.Idx) :
    val_main_v17 (F := F) i = val_main_cst_3 (F := F) (idx_main_v17 i) := by
  unfold val_main_v17
  generalize val_main_cst_3 (F := F) = y
  exact broadcastInDim_apply _ bcast_S_S4096x4096 y i (idx_main_v17 i) (fun a => a.elim0)

def val_main_v18 (x0 : (⟨S4096x128, .f32⟩ : BufTy).Contents (Elt F)) : (⟨S4096x4096, .f32⟩ : BufTy).Contents (Elt F) :=
  maximumf (val_main_v16 (F := F) x0) (val_main_v17 (F := F))
theorem val_main_v18_apply (x0 : (⟨S4096x128, .f32⟩ : BufTy).Contents (Elt F)) (i : S4096x4096.Idx) :
    val_main_v18 (F := F) x0 i = FloatOps.maximumf (val_main_v16 (F := F) x0 i) (val_main_v17 (F := F) i) := rfl

def val_main_v19 (x2 : (⟨S10x128, .f32⟩ : BufTy).Contents (Elt F)) : (⟨S128x10, .f32⟩ : BufTy).Contents (Elt F) :=
  transpose S128x10 [1, 0] (x2) transposes_S10x128_S128x10_1_0
abbrev idx_main_v19 (i : S128x10.Idx) : S10x128.Idx := fun a => match a with
  | ⟨0, _⟩ => ⟨(i 1).val, (i 1).isLt⟩
  | ⟨1, _⟩ => ⟨(i 0).val, (i 0).isLt⟩
theorem val_main_v19_apply (x2 : (⟨S10x128, .f32⟩ : BufTy).Contents (Elt F)) (i : S128x10.Idx) :
    val_main_v19 (F := F) x2 i = x2 (idx_main_v19 i) := by
  unfold val_main_v19
  exact transpose_apply [1, 0] x2 transposes_S10x128_S128x10_1_0 i (idx_main_v19 i) (fun b => match b with
    | ⟨0, _⟩ => rfl
    | ⟨1, _⟩ => rfl)

def val_main_v20 (x0 : (⟨S4096x128, .f32⟩ : BufTy).Contents (Elt F)) (x2 : (⟨S10x128, .f32⟩ : BufTy).Contents (Elt F)) : (⟨S4096x10, .f32⟩ : BufTy).Contents (Elt F) :=
  Host.dotGeneral dot_S4096x128_S128x10_S4096x10_1_0_0_1_n_n none (x0) (val_main_v19 (F := F) x2)
theorem lhs_main_v20_0 (i : S4096x10.Idx) (q : dot_S4096x128_S128x10_S4096x10_1_0_0_1_n_n.contr.Idx) :
    (dot_S4096x128_S128x10_S4096x10_1_0_0_1_n_n.lhsIdx i q 0).val = (i 0).val := by
  unfold DotDims.lhsIdx
  rw [dif_neg (show ¬(0 : Fin S4096x128.rank) ∈ dot_S4096x128_S128x10_S4096x10_1_0_0_1_n_n.lhsBatch by decide), dif_pos (show (0 : Fin S4096x128.rank) ∈ dot_S4096x128_S128x10_S4096x10_1_0_0_1_n_n.lhsNonContracting by decide)]
  rfl
theorem lhs_main_v20_1 (i : S4096x10.Idx) (q : dot_S4096x128_S128x10_S4096x10_1_0_0_1_n_n.contr.Idx) :
    (dot_S4096x128_S128x10_S4096x10_1_0_0_1_n_n.lhsIdx i q 1).val = (q ⟨0, by decide⟩).val :=
  dot_S4096x128_S128x10_S4096x10_1_0_0_1_n_n.lhsIdx_val_of_single rfl i q
theorem rhs_main_v20_0 (i : S4096x10.Idx) (q : dot_S4096x128_S128x10_S4096x10_1_0_0_1_n_n.contr.Idx) :
    (dot_S4096x128_S128x10_S4096x10_1_0_0_1_n_n.rhsIdx i q 0).val = (q ⟨0, by decide⟩).val :=
  dot_S4096x128_S128x10_S4096x10_1_0_0_1_n_n.rhsIdx_val_of_single rfl i q
theorem rhs_main_v20_1 (i : S4096x10.Idx) (q : dot_S4096x128_S128x10_S4096x10_1_0_0_1_n_n.contr.Idx) :
    (dot_S4096x128_S128x10_S4096x10_1_0_0_1_n_n.rhsIdx i q 1).val = (i 1).val := by
  unfold DotDims.rhsIdx
  rw [dif_neg (show ¬(1 : Fin S128x10.rank) ∈ dot_S4096x128_S128x10_S4096x10_1_0_0_1_n_n.rhsBatch by decide), dif_pos (show (1 : Fin S128x10.rank) ∈ dot_S4096x128_S128x10_S4096x10_1_0_0_1_n_n.rhsNonContracting by decide)]
  rfl
abbrev lidx_main_v20 (i : S4096x10.Idx) (k : Fin 128) : S4096x128.Idx := fun a => match a with
  | ⟨0, _⟩ => ⟨(i 0).val, (i 0).isLt⟩
  | ⟨1, _⟩ => ⟨k.val, k.isLt⟩
abbrev ridx_main_v20 (i : S4096x10.Idx) (k : Fin 128) : S128x10.Idx := fun a => match a with
  | ⟨0, _⟩ => ⟨k.val, k.isLt⟩
  | ⟨1, _⟩ => ⟨(i 1).val, (i 1).isLt⟩

theorem val_main_v20_apply (x0 : (⟨S4096x128, .f32⟩ : BufTy).Contents (Elt Ideal)) (x2 : (⟨S10x128, .f32⟩ : BufTy).Contents (Elt Ideal)) (i : S4096x10.Idx) :
    val_main_v20 (F := Ideal) x0 x2 i = ∑ k : Fin 128, x0 (lidx_main_v20 i k) * (val_main_v19 (F := Ideal) x2) (ridx_main_v20 i k) := by
  unfold val_main_v20
  generalize val_main_v19 (F := Ideal) x2 = y0
  simp only [Host.dotGeneral]
  rw [Ideal.dotGeneral_apply, ← Equiv.sum_comp (ValueIdx.contrEquiv1 dot_S4096x128_S128x10_S4096x10_1_0_0_1_n_n 128 rfl rfl).symm]
  refine Finset.sum_congr rfl fun k _ => ?_
  have hk := ValueIdx.contrEquiv1_symm_val dot_S4096x128_S128x10_S4096x10_1_0_0_1_n_n 128 rfl rfl k
  have el : dot_S4096x128_S128x10_S4096x10_1_0_0_1_n_n.lhsIdx i ((ValueIdx.contrEquiv1 dot_S4096x128_S128x10_S4096x10_1_0_0_1_n_n 128 rfl rfl).symm k) = lidx_main_v20 i k := funext fun a => Fin.ext (by
    match a with
    | ⟨0, _⟩ => exact lhs_main_v20_0 _ _
    | ⟨1, _⟩ => exact (lhs_main_v20_1 _ _).trans hk)
  have er : dot_S4096x128_S128x10_S4096x10_1_0_0_1_n_n.rhsIdx i ((ValueIdx.contrEquiv1 dot_S4096x128_S128x10_S4096x10_1_0_0_1_n_n 128 rfl rfl).symm k) = ridx_main_v20 i k := funext fun a => Fin.ext (by
    match a with
    | ⟨0, _⟩ => exact (rhs_main_v20_0 _ _).trans hk
    | ⟨1, _⟩ => exact rhs_main_v20_1 _ _)
  rw [el, er]

def val_main_v21 (x2 : (⟨S10x128, .f32⟩ : BufTy).Contents (Elt F)) : (⟨S10x128, .f32⟩ : BufTy).Contents (Elt F) :=
  mulf (x2) (x2)
theorem val_main_v21_apply (x2 : (⟨S10x128, .f32⟩ : BufTy).Contents (Elt F)) (i : S10x128.Idx) :
    val_main_v21 (F := F) x2 i = FloatOps.mulf (x2 i) (x2 i) := rfl

def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

def val_main_v22 (x2 : (⟨S10x128, .f32⟩ : BufTy).Contents (Elt F)) : (⟨S10, .f32⟩ : BufTy).Contents (Elt F) :=
  Host.reduceAdd (val_main_v21 (F := F) x2) (val_main_cst_4 (F := F)) reducesTo_S10x128_S10_d1 h_S_
abbrev idx_main_v22 (i : S10.Idx) (k : Fin 128) : S10x128.Idx := fun a => match a with
  | ⟨0, _⟩ => ⟨(i 0).val, (i 0).isLt⟩
  | ⟨1, _⟩ => ⟨k.val, k.isLt⟩

theorem val_main_v22_apply (x2 : (⟨S10x128, .f32⟩ : BufTy).Contents (Elt Ideal)) (i : S10.Idx) :
    val_main_v22 (F := Ideal) x2 i = (val_main_cst_4 (F := Ideal)) (Shape.Idx.first h_S_) + ∑ k : Fin 128, (val_main_v21 (F := Ideal) x2) (idx_main_v22 i k) := by
  unfold val_main_v22
  generalize val_main_v21 (F := Ideal) x2 = y0
  simp only [Host.reduceAdd, Ideal.hostReduceAdd_def]
  rw [Ideal.hostReduceAdd_single reducesTo_S10x128_S10_d1 (by decide)]
  refine congrArg (_ + ·) (Finset.sum_congr rfl fun k _ => ?_)
  exact congrArg y0 (funext fun a => Fin.ext (by match a with | ⟨0, _⟩ => rfl | ⟨1, _⟩ => rfl))

def val_main_v23 (x2 : (⟨S10x128, .f32⟩ : BufTy).Contents (Elt F)) : (⟨S10, .f32⟩ : BufTy).Contents (Elt F) :=
  Host.sqrt (val_main_v22 (F := F) x2)
theorem val_main_v23_apply (x2 : (⟨S10x128, .f32⟩ : BufTy).Contents (Elt F)) (i : S10.Idx) :
    val_main_v23 (F := F) x2 i = FloatOps.hostUnary .sqrt (val_main_v22 (F := F) x2 i) := rfl

def val_main_cst_5 : (⟨S_, .f32⟩ : BufTy).Contents (Elt F) :=
  constant S_ .f32 0x322BCC77#32
theorem val_main_cst_5_apply (i : S_.Idx) :
    val_main_cst_5 (F := F) i = FloatOps.ofBits .f32 0x322BCC77#32 := rfl

def val_main_v24 : (⟨S10, .f32⟩ : BufTy).Contents (Elt F) :=
  broadcastInDim S10 ![] bcast_S_S10 (val_main_cst_5 (F := F))
abbrev idx_main_v24 (i : S10.Idx) : S_.Idx := fun a => a.elim0
theorem val_main_v24_apply (i : S10.Idx) :
    val_main_v24 (F := F) i = val_main_cst_5 (F := F) (idx_main_v24 i) := by
  unfold val_main_v24
  generalize val_main_cst_5 (F := F) = y
  exact broadcastInDim_apply _ bcast_S_S10 y i (idx_main_v24 i) (fun a => a.elim0)

def val_main_v25 (x2 : (⟨S10x128, .f32⟩ : BufTy).Contents (Elt F)) : (⟨S10, .f32⟩ : BufTy).Contents (Elt F) :=
  maximumf (val_main_v23 (F := F) x2) (val_main_v24 (F := F))
theorem val_main_v25_apply (x2 : (⟨S10x128, .f32⟩ : BufTy).Contents (Elt F)) (i : S10.Idx) :
    val_main_v25 (F := F) x2 i = FloatOps.maximumf (val_main_v23 (F := F) x2 i) (val_main_v24 (F := F) i) := rfl

def val_main_c : (⟨S_, .i32⟩ : BufTy).Contents (Elt F) :=
  constantI S_ 32 0#32
theorem val_main_c_apply (i : S_.Idx) :
    val_main_c (F := F) i = 0#32 := rfl

def val_main_v26 : (⟨S10, .i32⟩ : BufTy).Contents (Elt F) :=
  broadcastInDim S10 ![] bcast_S_S10 (val_main_c (F := F))
abbrev idx_main_v26 (i : S10.Idx) : S_.Idx := fun a => a.elim0
theorem val_main_v26_apply (i : S10.Idx) :
    val_main_v26 (F := F) i = val_main_c (F := F) (idx_main_v26 i) := by
  unfold val_main_v26
  generalize val_main_c (F := F) = y
  exact broadcastInDim_apply _ bcast_S_S10 y i (idx_main_v26 i) (fun a => a.elim0)

def val_main_c_6 : (⟨S_, .i32⟩ : BufTy).Contents (Elt F) :=
  constantI S_ 32 0#32
theorem val_main_c_6_apply (i : S_.Idx) :
    val_main_c_6 (F := F) i = 0#32 := rfl

def val_main_v27 : (⟨S4096, .i32⟩ : BufTy).Contents (Elt F) :=
  broadcastInDim S4096 ![] bcast_S_S4096 (val_main_c_6 (F := F))
abbrev idx_main_v27 (i : S4096.Idx) : S_.Idx := fun a => a.elim0
theorem val_main_v27_apply (i : S4096.Idx) :
    val_main_v27 (F := F) i = val_main_c_6 (F := F) (idx_main_v27 i) := by
  unfold val_main_v27
  generalize val_main_c_6 (F := F) = y
  exact broadcastInDim_apply _ bcast_S_S4096 y i (idx_main_v27 i) (fun a => a.elim0)

def val_main_v28 (x1 : (⟨S4096, .i32⟩ : BufTy).Contents (Elt F)) : (⟨S4096, .i1⟩ : BufTy).Contents (Elt F) :=
  cmpi .slt (x1) (val_main_v27 (F := F))
theorem val_main_v28_apply (x1 : (⟨S4096, .i32⟩ : BufTy).Contents (Elt F)) (i : S4096.Idx) :
    val_main_v28 (F := F) x1 i = IntOp.cmpi .slt (x1 i) (val_main_v27 (F := F) i) := rfl

def val_main_c_7 : (⟨S_, .i32⟩ : BufTy).Contents (Elt F) :=
  constantI S_ 32 10#32

def val_main_v29 : (⟨S4096, .i32⟩ : BufTy).Contents (Elt F) :=
  broadcastInDim S4096 ![] bcast_S_S4096 (val_main_c_7 (F := F))

def val_main_v30 (x1 : (⟨S4096, .i32⟩ : BufTy).Contents (Elt F)) : (⟨S4096, .i32⟩ : BufTy).Contents (Elt F) :=
  addi (x1) (val_main_v29 (F := F))
theorem val_main_v30_apply (x1 : (⟨S4096, .i32⟩ : BufTy).Contents (Elt F)) (i : S4096.Idx) :
    val_main_v30 (F := F) x1 i = IntOp.addi (x1 i) (val_main_v29 (F := F) i) := rfl

def val_main_v31 (x1 : (⟨S4096, .i32⟩ : BufTy).Contents (Elt F)) : (⟨S4096, .i32⟩ : BufTy).Contents (Elt F) :=
  select (val_main_v28 (F := F) x1) (val_main_v30 (F := F) x1) (x1)
theorem val_main_v31_apply (x1 : (⟨S4096, .i32⟩ : BufTy).Contents (Elt F)) (i : S4096.Idx) :
    val_main_v31 (F := F) x1 i = Scalar.select (val_main_v28 (F := F) x1 i) (val_main_v30 (F := F) x1 i) (x1 i) := rfl

def val_main_v32 (x1 : (⟨S4096, .i32⟩ : BufTy).Contents (Elt F)) : (⟨S4096x1, .i32⟩ : BufTy).Contents (Elt F) :=
  broadcastInDim S4096x1 ![0] bcast_S4096_S4096x1_0 (val_main_v31 (F := F) x1)
abbrev idx_main_v32 (i : S4096x1.Idx) : S4096.Idx := fun a => match a with
  | ⟨0, _⟩ => ⟨(i 0).val, (i 0).isLt⟩
theorem val_main_v32_apply (x1 : (⟨S4096, .i32⟩ : BufTy).Contents (Elt F)) (i : S4096x1.Idx) :
    val_main_v32 (F := F) x1 i = val_main_v31 (F := F) x1 (idx_main_v32 i) := by
  unfold val_main_v32
  generalize val_main_v31 (F := F) x1 = y
  exact broadcastInDim_apply _ bcast_S4096_S4096x1_0 y i (idx_main_v32 i) (fun a => match a with
    | ⟨0, _⟩ => by show (i 0).val = if (4096 : Nat) = 1 then 0 else (i 0).val; rw [if_neg (by decide)])

def val_main_c_8 : (⟨S_, .i32⟩ : BufTy).Contents (Elt F) :=
  constantI S_ 32 1#32
theorem val_main_c_8_apply (i : S_.Idx) :
    val_main_c_8 (F := F) i = 1#32 := rfl

def val_main_v33 : (⟨S4096, .i32⟩ : BufTy).Contents (Elt F) :=
  broadcastInDim S4096 ![] bcast_S_S4096 (val_main_c_8 (F := F))
abbrev idx_main_v33 (i : S4096.Idx) : S_.Idx := fun a => a.elim0
theorem val_main_v33_apply (i : S4096.Idx) :
    val_main_v33 (F := F) i = val_main_c_8 (F := F) (idx_main_v33 i) := by
  unfold val_main_v33
  generalize val_main_c_8 (F := F) = y
  exact broadcastInDim_apply _ bcast_S_S4096 y i (idx_main_v33 i) (fun a => a.elim0)

def val_main_v34 (x1 : (⟨S4096, .i32⟩ : BufTy).Contents (Elt F)) : (⟨S10, .i32⟩ : BufTy).Contents (Elt F) :=
  Host.scatter scatter_S10_S4096x1_S4096_n_0_0_1 IntOp.addi (val_main_v26 (F := F)) (val_main_v32 (F := F) x1) (val_main_v33 (F := F))

def val_main_c_9 : (⟨S_, .i32⟩ : BufTy).Contents (Elt F) :=
  constantI S_ 32 0#32
theorem val_main_c_9_apply (i : S_.Idx) :
    val_main_c_9 (F := F) i = 0#32 := rfl

def val_main_v35 : (⟨S10, .i32⟩ : BufTy).Contents (Elt F) :=
  broadcastInDim S10 ![] bcast_S_S10 (val_main_c_9 (F := F))
abbrev idx_main_v35 (i : S10.Idx) : S_.Idx := fun a => a.elim0
theorem val_main_v35_apply (i : S10.Idx) :
    val_main_v35 (F := F) i = val_main_c_9 (F := F) (idx_main_v35 i) := by
  unfold val_main_v35
  generalize val_main_c_9 (F := F) = y
  exact broadcastInDim_apply _ bcast_S_S10 y i (idx_main_v35 i) (fun a => a.elim0)

def val_main_v36 (x1 : (⟨S4096, .i32⟩ : BufTy).Contents (Elt F)) : (⟨S10, .i1⟩ : BufTy).Contents (Elt F) :=
  cmpi .sgt (val_main_v34 (F := F) x1) (val_main_v35 (F := F))
theorem val_main_v36_apply (x1 : (⟨S4096, .i32⟩ : BufTy).Contents (Elt F)) (i : S10.Idx) :
    val_main_v36 (F := F) x1 i = IntOp.cmpi .sgt (val_main_v34 (F := F) x1 i) (val_main_v35 (F := F) i) := rfl

def val_main_v37 (x1 : (⟨S4096, .i32⟩ : BufTy).Contents (Elt F)) : (⟨S10, .i32⟩ : BufTy).Contents (Elt F) :=
  extui 32 (val_main_v36 (F := F) x1) natLt_1_32
theorem val_main_v37_apply (x1 : (⟨S4096, .i32⟩ : BufTy).Contents (Elt F)) (i : S10.Idx) :
    val_main_v37 (F := F) x1 i = (val_main_v36 (F := F) x1 i).setWidth 32 := rfl

def val_main_c_10 : (⟨S_, .i32⟩ : BufTy).Contents (Elt F) :=
  constantI S_ 32 0#32
theorem val_main_c_10_apply (i : S_.Idx) :
    val_main_c_10 (F := F) i = 0#32 := rfl

def val_main_v38 (x1 : (⟨S4096, .i32⟩ : BufTy).Contents (Elt F)) : (⟨S_, .i32⟩ : BufTy).Contents (Elt F) :=
  Host.reduce IntOp.addi (val_main_v37 (F := F) x1) (val_main_c_10 (F := F)) reducesTo_S10_S_d0 h_S_

def val_main_v39 (x1 : (⟨S4096, .i32⟩ : BufTy).Contents (Elt F)) : (⟨S_, .f32⟩ : BufTy).Contents (Elt F) :=
  sitofp .f32 (val_main_v38 (F := F) x1)
theorem val_main_v39_apply (x1 : (⟨S4096, .i32⟩ : BufTy).Contents (Elt F)) (i : S_.Idx) :
    val_main_v39 (F := F) x1 i = FloatOps.sitofp .f32 (val_main_v38 (F := F) x1 i) := rfl

def val_main_c_11 : (⟨S_, .i32⟩ : BufTy).Contents (Elt F) :=
  constantI S_ 32 0#32
theorem val_main_c_11_apply (i : S_.Idx) :
    val_main_c_11 (F := F) i = 0#32 := rfl

def val_main_v40 : (⟨S4096, .i32⟩ : BufTy).Contents (Elt F) :=
  broadcastInDim S4096 ![] bcast_S_S4096 (val_main_c_11 (F := F))
abbrev idx_main_v40 (i : S4096.Idx) : S_.Idx := fun a => a.elim0
theorem val_main_v40_apply (i : S4096.Idx) :
    val_main_v40 (F := F) i = val_main_c_11 (F := F) (idx_main_v40 i) := by
  unfold val_main_v40
  generalize val_main_c_11 (F := F) = y
  exact broadcastInDim_apply _ bcast_S_S4096 y i (idx_main_v40 i) (fun a => a.elim0)

def val_main_v41 (x1 : (⟨S4096, .i32⟩ : BufTy).Contents (Elt F)) : (⟨S4096, .i1⟩ : BufTy).Contents (Elt F) :=
  cmpi .slt (x1) (val_main_v40 (F := F))
theorem val_main_v41_apply (x1 : (⟨S4096, .i32⟩ : BufTy).Contents (Elt F)) (i : S4096.Idx) :
    val_main_v41 (F := F) x1 i = IntOp.cmpi .slt (x1 i) (val_main_v40 (F := F) i) := rfl

def val_main_c_12 : (⟨S_, .i32⟩ : BufTy).Contents (Elt F) :=
  constantI S_ 32 10#32

def val_main_v42 : (⟨S4096, .i32⟩ : BufTy).Contents (Elt F) :=
  broadcastInDim S4096 ![] bcast_S_S4096 (val_main_c_12 (F := F))

def val_main_v43 (x1 : (⟨S4096, .i32⟩ : BufTy).Contents (Elt F)) : (⟨S4096, .i32⟩ : BufTy).Contents (Elt F) :=
  addi (x1) (val_main_v42 (F := F))
theorem val_main_v43_apply (x1 : (⟨S4096, .i32⟩ : BufTy).Contents (Elt F)) (i : S4096.Idx) :
    val_main_v43 (F := F) x1 i = IntOp.addi (x1 i) (val_main_v42 (F := F) i) := rfl

def val_main_v44 (x1 : (⟨S4096, .i32⟩ : BufTy).Contents (Elt F)) : (⟨S4096, .i32⟩ : BufTy).Contents (Elt F) :=
  select (val_main_v41 (F := F) x1) (val_main_v43 (F := F) x1) (x1)
theorem val_main_v44_apply (x1 : (⟨S4096, .i32⟩ : BufTy).Contents (Elt F)) (i : S4096.Idx) :
    val_main_v44 (F := F) x1 i = Scalar.select (val_main_v41 (F := F) x1 i) (val_main_v43 (F := F) x1 i) (x1 i) := rfl

def val_main_v45 (x1 : (⟨S4096, .i32⟩ : BufTy).Contents (Elt F)) : (⟨S4096x1, .i32⟩ : BufTy).Contents (Elt F) :=
  broadcastInDim S4096x1 ![0] bcast_S4096_S4096x1_0 (val_main_v44 (F := F) x1)
abbrev idx_main_v45 (i : S4096x1.Idx) : S4096.Idx := fun a => match a with
  | ⟨0, _⟩ => ⟨(i 0).val, (i 0).isLt⟩
theorem val_main_v45_apply (x1 : (⟨S4096, .i32⟩ : BufTy).Contents (Elt F)) (i : S4096x1.Idx) :
    val_main_v45 (F := F) x1 i = val_main_v44 (F := F) x1 (idx_main_v45 i) := by
  unfold val_main_v45
  generalize val_main_v44 (F := F) x1 = y
  exact broadcastInDim_apply _ bcast_S4096_S4096x1_0 y i (idx_main_v45 i) (fun a => match a with
    | ⟨0, _⟩ => by show (i 0).val = if (4096 : Nat) = 1 then 0 else (i 0).val; rw [if_neg (by decide)])

def val_main_v46 (x1 : (⟨S4096, .i32⟩ : BufTy).Contents (Elt F)) : (⟨S4096, .i32⟩ : BufTy).Contents (Elt F) :=
  Host.gather gather_S10_S4096x1_S4096_n_0_n_n_0_1_1 (val_main_v34 (F := F) x1) (val_main_v45 (F := F) x1)

def val_main_v47 (x1 : (⟨S4096, .i32⟩ : BufTy).Contents (Elt F)) : (⟨S4096, .f32⟩ : BufTy).Contents (Elt F) :=
  sitofp .f32 (val_main_v46 (F := F) x1)
theorem val_main_v47_apply (x1 : (⟨S4096, .i32⟩ : BufTy).Contents (Elt F)) (i : S4096.Idx) :
    val_main_v47 (F := F) x1 i = FloatOps.sitofp .f32 (val_main_v46 (F := F) x1 i) := rfl

abbrev idx_main_v48 (i : S4096.Idx) : S_.Idx := fun a => a.elim0

abbrev idx_main_v50 (i : S4096x1.Idx) : S4096.Idx := fun a => match a with
  | ⟨0, _⟩ => ⟨(i 0).val, (i 0).isLt⟩

abbrev idx_main_v52 (i : S1x4096.Idx) : S4096.Idx := fun a => match a with
  | ⟨0, _⟩ => ⟨(i 1).val, (i 1).isLt⟩

abbrev idx_main_v53 (i : S4096x4096.Idx) : S4096x1.Idx := fun a => match a with
  | ⟨0, _⟩ => ⟨(i 0).val, (i 0).isLt⟩
  | ⟨1, _⟩ => ⟨0, Nat.one_pos⟩

abbrev idx_main_v54 (i : S4096x4096.Idx) : S1x4096.Idx := fun a => match a with
  | ⟨0, _⟩ => ⟨0, Nat.one_pos⟩
  | ⟨1, _⟩ => ⟨(i 1).val, (i 1).isLt⟩

def val_main_c_14 : (⟨S_, .i32⟩ : BufTy).Contents (Elt F) :=
  constantI S_ 32 1#32
theorem val_main_c_14_apply (i : S_.Idx) :
    val_main_c_14 (F := F) i = 1#32 := rfl

def val_main_v60 (x1 : (⟨S4096, .i32⟩ : BufTy).Contents (Elt F)) : (⟨S1x4096, .f32⟩ : BufTy).Contents (Elt F) :=
  broadcastInDim S1x4096 ![1] bcast_S4096_S1x4096_1 (val_main_v47 (F := F) x1)
abbrev idx_main_v60 (i : S1x4096.Idx) : S4096.Idx := fun a => match a with
  | ⟨0, _⟩ => ⟨(i 1).val, (i 1).isLt⟩
theorem val_main_v60_apply (x1 : (⟨S4096, .i32⟩ : BufTy).Contents (Elt F)) (i : S1x4096.Idx) :
    val_main_v60 (F := F) x1 i = val_main_v47 (F := F) x1 (idx_main_v60 i) := by
  unfold val_main_v60
  generalize val_main_v47 (F := F) x1 = y
  exact broadcastInDim_apply _ bcast_S4096_S1x4096_1 y i (idx_main_v60 i) (fun a => match a with
    | ⟨0, _⟩ => by show (i 1).val = if (4096 : Nat) = 1 then 0 else (i 1).val; rw [if_neg (by decide)])

abbrev idx_main_v61 (i : S1x4096.Idx) : S_.Idx := fun a => a.elim0

def val_main_cst_15 : (⟨S_, .f32⟩ : BufTy).Contents (Elt F) :=
  constant S_ .f32 0x3F800000#32
theorem val_main_cst_15_apply (i : S_.Idx) :
    val_main_cst_15 (F := F) i = FloatOps.ofBits .f32 0x3F800000#32 := rfl

def val_main_v63 : (⟨S1x4096, .f32⟩ : BufTy).Contents (Elt F) :=
  broadcastInDim S1x4096 ![] bcast_S_S1x4096 (val_main_cst_15 (F := F))
abbrev idx_main_v63 (i : S1x4096.Idx) : S_.Idx := fun a => a.elim0
theorem val_main_v63_apply (i : S1x4096.Idx) :
    val_main_v63 (F := F) i = val_main_cst_15 (F := F) (idx_main_v63 i) := by
  unfold val_main_v63
  generalize val_main_cst_15 (F := F) = y
  exact broadcastInDim_apply _ bcast_S_S1x4096 y i (idx_main_v63 i) (fun a => a.elim0)

def val_main_call0_v0 : (⟨S_, .f32⟩ : BufTy).Contents (Elt F) :=
  id (val_main_cst (F := F))
theorem val_main_call0_v0_apply (i : S_.Idx) :
    val_main_call0_v0 (F := F) i = (val_main_cst (F := F) i) := rfl

abbrev idx_main_call0_v1 (i : S4096x4096.Idx) : S1x4096.Idx := fun a => match a with
  | ⟨0, _⟩ => ⟨0, Nat.one_pos⟩
  | ⟨1, _⟩ => ⟨(i 1).val, (i 1).isLt⟩

def val_main_call0_v2 : (⟨S4096x4096, .f32⟩ : BufTy).Contents (Elt F) :=
  broadcastInDim S4096x4096 ![] bcast_S_S4096x4096 (val_main_call0_v0 (F := F))
abbrev idx_main_call0_v2 (i : S4096x4096.Idx) : S_.Idx := fun a => a.elim0
theorem val_main_call0_v2_apply (i : S4096x4096.Idx) :
    val_main_call0_v2 (F := F) i = val_main_call0_v0 (F := F) (idx_main_call0_v2 i) := by
  unfold val_main_call0_v2
  generalize val_main_call0_v0 (F := F) = y
  exact broadcastInDim_apply _ bcast_S_S4096x4096 y i (idx_main_call0_v2 i) (fun a => a.elim0)

abbrev idx_main_v67 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩

abbrev idx_main_v68 (i : S4096x1.Idx) : S4096.Idx := fun a => match a with
  | ⟨0, _⟩ => ⟨(i 0).val, (i 0).isLt⟩

abbrev idx_main_v69 (i : S1x4096.Idx) : S4096.Idx := fun a => match a with
  | ⟨0, _⟩ => ⟨(i 1).val, (i 1).isLt⟩

abbrev idx_main_v70 (i : S4096x4096.Idx) : S4096x1.Idx := fun a => match a with
  | ⟨0, _⟩ => ⟨(i 0).val, (i 0).isLt⟩
  | ⟨1, _⟩ => ⟨0, Nat.one_pos⟩

abbrev idx_main_v71 (i : S4096x4096.Idx) : S1x4096.Idx := fun a => match a with
  | ⟨0, _⟩ => ⟨0, Nat.one_pos⟩
  | ⟨1, _⟩ => ⟨(i 1).val, (i 1).isLt⟩

abbrev idx_main_v75 (i : S4096x4096.Idx) : S_.Idx := fun a => a.elim0

def val_main_v78 : (⟨S4096x4096, .f32⟩ : BufTy).Contents (Elt F) :=
  broadcastInDim S4096x4096 ![] bcast_S_S4096x4096 (val_main_cst_15 (F := F))
abbrev idx_main_v78 (i : S4096x4096.Idx) : S_.Idx := fun a => a.elim0
theorem val_main_v78_apply (i : S4096x4096.Idx) :
    val_main_v78 (F := F) i = val_main_cst_15 (F := F) (idx_main_v78 i) := by
  unfold val_main_v78
  generalize val_main_cst_15 (F := F) = y
  exact broadcastInDim_apply _ bcast_S_S4096x4096 y i (idx_main_v78 i) (fun a => a.elim0)

def val_main_v83 (x1 : (⟨S4096, .i32⟩ : BufTy).Contents (Elt F)) : (⟨S_, .f32⟩ : BufTy).Contents (Elt F) :=
  subf (val_main_v39 (F := F) x1) (val_main_cst_15 (F := F))
theorem val_main_v83_apply (x1 : (⟨S4096, .i32⟩ : BufTy).Contents (Elt F)) (i : S_.Idx) :
    val_main_v83 (F := F) x1 i = FloatOps.subf (val_main_v39 (F := F) x1 i) (val_main_cst_15 (F := F) i) := rfl

abbrev idx_main_v89 (i : S4096x4096.Idx) : S_.Idx := fun a => a.elim0

def val_main_c_24 : (⟨S_, .i32⟩ : BufTy).Contents (Elt F) :=
  constantI S_ 32 0#32
theorem val_main_c_24_apply (i : S_.Idx) :
    val_main_c_24 (F := F) i = 0#32 := rfl

def val_main_call1_v0 : (⟨S_, .f32⟩ : BufTy).Contents (Elt F) :=
  id (val_main_cst (F := F))
theorem val_main_call1_v0_apply (i : S_.Idx) :
    val_main_call1_v0 (F := F) i = (val_main_cst (F := F) i) := rfl

end Cert.ReferenceIdeal.ReadP

end
-- ==== Proof.RefRunMain.lean ====
import proofs.«426650_j89962384982112_3_alg».proof.Proof.RefRunOps

noncomputable section

namespace Cert.ReferenceIdeal.Hand.Run

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  ops00 ++ (ops01 ++ (ops02 ++ (ops03 ++ (ops04 ++ (ops05 ++ (ops06 ++ (ops07 ++ (ops08 ++ (ops09 ++ (ops10 ++ (ops11 ++ (ops12 ++ (ops13 ++ (ops14 ++ (ops15 ++ (ops16 ++ (ops17 ++ (ops18 ++ (ops19 ++ (ops20 ++ (ops21 ++ (ops22))))))))))))))))))))))

set_option maxRecDepth 16384 in
set_option maxHeartbeats 4000000 in
theorem main_part0_eq (c : Dev nD) : main_part0 (F := F) c = seq (ops00) := rfl
set_option maxRecDepth 16384 in
set_option maxHeartbeats 4000000 in
theorem main_part1_eq (c : Dev nD) : main_part1 (F := F) c = seq (ops01 ++ (ops02)) := rfl
set_option maxRecDepth 16384 in
set_option maxHeartbeats 4000000 in
theorem main_part2_eq (c : Dev nD) : main_part2 (F := F) c = seq (ops03 ++ (ops04)) := rfl
set_option maxRecDepth 16384 in
set_option maxHeartbeats 4000000 in
theorem main_part3_eq (c : Dev nD) : main_part3 (F := F) c = seq (ops05 ++ (ops06)) := rfl
set_option maxRecDepth 16384 in
set_option maxHeartbeats 4000000 in
theorem main_part4_eq (c : Dev nD) : main_part4 (F := F) c = seq (ops07 ++ (ops08)) := rfl
set_option maxRecDepth 16384 in
set_option maxHeartbeats 4000000 in
theorem main_part5_eq (c : Dev nD) : main_part5 (F := F) c = seq (ops09 ++ (ops10)) := rfl
set_option maxRecDepth 16384 in
set_option maxHeartbeats 4000000 in
theorem main_part6_eq (c : Dev nD) : main_part6 (F := F) c = seq (ops11) := rfl
set_option maxRecDepth 16384 in
set_option maxHeartbeats 4000000 in
theorem main_part7_eq (c : Dev nD) : main_part7 (F := F) c = seq (ops12) := rfl
set_option maxRecDepth 16384 in
set_option maxHeartbeats 4000000 in
theorem main_part8_eq (c : Dev nD) : main_part8 (F := F) c = seq (ops13 ++ (ops14)) := rfl
set_option maxRecDepth 16384 in
set_option maxHeartbeats 4000000 in
theorem main_part9_eq (c : Dev nD) : main_part9 (F := F) c = seq (ops15 ++ (ops16)) := rfl
set_option maxRecDepth 16384 in
set_option maxHeartbeats 4000000 in
theorem main_part10_eq (c : Dev nD) : main_part10 (F := F) c = seq (ops17 ++ (ops18)) := rfl
set_option maxRecDepth 16384 in
set_option maxHeartbeats 4000000 in
theorem main_part11_eq (c : Dev nD) : main_part11 (F := F) c = seq (ops19 ++ (ops20)) := rfl
set_option maxRecDepth 16384 in
set_option maxHeartbeats 4000000 in
theorem main_part12_eq (c : Dev nD) : main_part12 (F := F) c = seq (ops21 ++ (ops22)) := rfl

theorem main_eq (c : Dev nD) : main (F := F) c = seq ops := by
  have e : main (F := F) c = (main_part0 c >>= fun _ => main_part1 c >>= fun _ => main_part2 c >>= fun _ => main_part3 c >>= fun _ => main_part4 c >>= fun _ => main_part5 c >>= fun _ => main_part6 c >>= fun _ => main_part7 c >>= fun _ => main_part8 c >>= fun _ => main_part9 c >>= fun _ => main_part10 c >>= fun _ => main_part11 c >>= fun _ => main_part12 c) := rfl
  rw [e, main_part0_eq, main_part1_eq, main_part2_eq, main_part3_eq, main_part4_eq, main_part5_eq, main_part6_eq, main_part7_eq, main_part8_eq, main_part9_eq, main_part10_eq, main_part11_eq, main_part12_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨ops00_sub, ops01_sub, ops02_sub, ops03_sub, ops04_sub, ops05_sub, ops06_sub, ops07_sub, ops08_sub, ops09_sub, ops10_sub, ops11_sub, ops12_sub, ops13_sub, ops14_sub, ops15_sub, ops16_sub, ops17_sub, ops18_sub, ops19_sub, ops20_sub, ops21_sub, ops22_sub⟩

theorem ops_fresh : ∀ op ∈ (ops : List (HloOp τ sig (Elt F))), op.fresh = ∅ := by
  intro op h
  simp only [ops, List.mem_append] at h
  rcases h with h | h | h | h | h | h | h | h | h | h | h | h | h | h | h | h | h | h | h | h | h | h | h
  · exact ops00_fresh op h
  · exact ops01_fresh op h
  · exact ops02_fresh op h
  · exact ops03_fresh op h
  · exact ops04_fresh op h
  · exact ops05_fresh op h
  · exact ops06_fresh op h
  · exact ops07_fresh op h
  · exact ops08_fresh op h
  · exact ops09_fresh op h
  · exact ops10_fresh op h
  · exact ops11_fresh op h
  · exact ops12_fresh op h
  · exact ops13_fresh op h
  · exact ops14_fresh op h
  · exact ops15_fresh op h
  · exact ops16_fresh op h
  · exact ops17_fresh op h
  · exact ops18_fresh op h
  · exact ops19_fresh op h
  · exact ops20_fresh op h
  · exact ops21_fresh op h
  · exact ops22_fresh op h

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) :
    after ops V = after ops22 (after ops21 (after ops20 (after ops19 (after ops18 (after ops17 (after ops16 (after ops15 (after ops14 (after ops13 (after ops12 (after ops11 (after ops10 (after ops09 (after ops08 (after ops07 (after ops06 (after ops05 (after ops04 (after ops03 (after ops02 (after ops01 (after ops00 (V))))))))))))))))))))))) := by
  simp only [ops, after_app]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand.Run

end
-- ==== Proof.RefBlk.lean ====
import proofs.«426650_j89962384982112_3_alg».proof.Proof.RefRead

noncomputable section

open scoped BigOperators

namespace Cert.ReferenceIdeal.Blk

open Idealize.ShloMosaic Idealize.ShloMosaic.ValueIdx Cert.ReferenceIdeal Cert.ReferenceIdeal.Gen Cert.ReferenceIdeal.ReadP

theorem sl1 : ∀ k : Fin 10, S10.Slices ![k.val] S1 := by decide
theorem sl2 : ∀ k : Fin 10, S4096x10.Slices ![0, k.val] S4096x1 := by decide

abbrev at1 (k : Fin 10) (i : S1.Idx) : S10.Idx := fun a => match a with
  | ⟨0, _⟩ => ⟨k.val + (i 0).val, by have := k.isLt; have h0 : (i 0).val < 1 := (i 0).isLt; show k.val + (i 0).val < 10; omega⟩
abbrev at2 (k : Fin 10) (i : S4096x1.Idx) : S4096x10.Idx := fun a => match a with
  | ⟨0, _⟩ => ⟨(i 0).val, (i 0).isLt⟩
  | ⟨1, _⟩ => ⟨k.val + (i 1).val, by have := k.isLt; have h1 : (i 1).val < 1 := (i 1).isLt; show k.val + (i 1).val < 10; omega⟩

variable {F : FTy → Type} [FloatOps F] (k : Fin 10)
  (x0 : (⟨S4096x128, .f32⟩ : BufTy).Contents (Elt F)) (x1 : (⟨S4096, .i32⟩ : BufTy).Contents (Elt F)) (x2 : (⟨S10x128, .f32⟩ : BufTy).Contents (Elt F))

-- One class's block of the reference as functions of the class index `k`: the class constant and the four slices are the only places `k` enters.
def cls : (⟨S_, .i32⟩ : BufTy).Contents (Elt F) :=
  constantI S_ 32 (BitVec.ofNat 32 k.val)
theorem cls_apply (i : S_.Idx) : cls (F := F) k i = BitVec.ofNat 32 k.val := rfl

def s48 : (⟨S4096, .i32⟩ : BufTy).Contents (Elt F) :=
  broadcastInDim S4096 ![] bcast_S_S4096 (cls (F := F) k)
theorem s48_apply (i : S4096.Idx) :
    s48 (F := F) k i = cls (F := F) k (idx_main_v48 i) := by
  unfold s48
  generalize cls (F := F) k = y
  exact broadcastInDim_apply _ bcast_S_S4096 y i (idx_main_v48 i) (fun a => a.elim0)
def s49 : (⟨S4096, .i1⟩ : BufTy).Contents (Elt F) :=
  cmpi .eq (x1) (s48 (F := F) k)
theorem s49_apply (i : S4096.Idx) :
    s49 (F := F) k x1 i = IntOp.cmpi .eq (x1 i) (s48 (F := F) k i) := rfl
def s50 : (⟨S4096x1, .i1⟩ : BufTy).Contents (Elt F) :=
  broadcastInDim S4096x1 ![0] bcast_S4096_S4096x1_0 (s49 (F := F) k x1)
theorem s50_apply (i : S4096x1.Idx) :
    s50 (F := F) k x1 i = s49 (F := F) k x1 (idx_main_v50 i) := by
  unfold s50
  generalize s49 (F := F) k x1 = y
  exact broadcastInDim_apply _ bcast_S4096_S4096x1_0 y i (idx_main_v50 i) (fun a => match a with
    | ⟨0, _⟩ => by show (i 0).val = if (4096 : Nat) = 1 then 0 else (i 0).val; rw [if_neg (by decide)])
def s51 : (⟨S4096, .i1⟩ : BufTy).Contents (Elt F) :=
  noti (s49 (F := F) k x1)
theorem s51_apply (i : S4096.Idx) :
    s51 (F := F) k x1 i = ~~~(s49 (F := F) k x1 i) := rfl
def s52 : (⟨S1x4096, .i1⟩ : BufTy).Contents (Elt F) :=
  broadcastInDim S1x4096 ![1] bcast_S4096_S1x4096_1 (s51 (F := F) k x1)
theorem s52_apply (i : S1x4096.Idx) :
    s52 (F := F) k x1 i = s51 (F := F) k x1 (idx_main_v52 i) := by
  unfold s52
  generalize s51 (F := F) k x1 = y
  exact broadcastInDim_apply _ bcast_S4096_S1x4096_1 y i (idx_main_v52 i) (fun a => match a with
    | ⟨0, _⟩ => by show (i 1).val = if (4096 : Nat) = 1 then 0 else (i 1).val; rw [if_neg (by decide)])
def s53 : (⟨S4096x4096, .i1⟩ : BufTy).Contents (Elt F) :=
  broadcastInDim S4096x4096 ![0, 1] bcast_S4096x1_S4096x4096_0_1 (s50 (F := F) k x1)
theorem s53_apply (i : S4096x4096.Idx) :
    s53 (F := F) k x1 i = s50 (F := F) k x1 (idx_main_v53 i) := by
  unfold s53
  generalize s50 (F := F) k x1 = y
  exact broadcastInDim_apply _ bcast_S4096x1_S4096x4096_0_1 y i (idx_main_v53 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])
def s54 : (⟨S4096x4096, .i1⟩ : BufTy).Contents (Elt F) :=
  broadcastInDim S4096x4096 ![0, 1] bcast_S1x4096_S4096x4096_0_1 (s52 (F := F) k x1)
theorem s54_apply (i : S4096x4096.Idx) :
    s54 (F := F) k x1 i = s52 (F := F) k x1 (idx_main_v54 i) := by
  unfold s54
  generalize s52 (F := F) k x1 = y
  exact broadcastInDim_apply _ bcast_S1x4096_S4096x4096_0_1 y i (idx_main_v54 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])
def s55 : (⟨S4096x4096, .i1⟩ : BufTy).Contents (Elt F) :=
  andi (s53 (F := F) k x1) (s54 (F := F) k x1)
theorem s55_apply (i : S4096x4096.Idx) :
    s55 (F := F) k x1 i = IntOp.andi (s53 (F := F) k x1 i) (s54 (F := F) k x1 i) := rfl
def s56 : (⟨S1, .i32⟩ : BufTy).Contents (Elt F) :=
  extractStridedSlice S1 ![k.val] (val_main_v34 (F := F) x1) (sl1 k)
theorem s56_apply (i : S1.Idx) :
    s56 (F := F) k x1 i = val_main_v34 (F := F) x1 (at1 k i) := by
  unfold s56
  generalize val_main_v34 (F := F) x1 = y
  exact extractStridedSlice_apply ![k.val] y (sl1 k) i (at1 k i) (fun a => match a with
    | ⟨0, _⟩ => rfl)
def s57 : (⟨S_, .i32⟩ : BufTy).Contents (Elt F) :=
  shapeCast _ (s56 (F := F) k x1) shapeCasts_S1_S_
def s58 : (⟨S_, .i32⟩ : BufTy).Contents (Elt F) :=
  maxsi (s57 (F := F) k x1) (val_main_c_14 (F := F))
theorem s58_apply (i : S_.Idx) :
    s58 (F := F) k x1 i = IntOp.maxsi (s57 (F := F) k x1 i) (val_main_c_14 (F := F) i) := rfl
def s59 : (⟨S_, .f32⟩ : BufTy).Contents (Elt F) :=
  sitofp .f32 (s58 (F := F) k x1)
theorem s59_apply (i : S_.Idx) :
    s59 (F := F) k x1 i = FloatOps.sitofp .f32 (s58 (F := F) k x1 i) := rfl
def s61 : (⟨S1x4096, .f32⟩ : BufTy).Contents (Elt F) :=
  broadcastInDim S1x4096 ![] bcast_S_S1x4096 (s59 (F := F) k x1)
theorem s61_apply (i : S1x4096.Idx) :
    s61 (F := F) k x1 i = s59 (F := F) k x1 (idx_main_v61 i) := by
  unfold s61
  generalize s59 (F := F) k x1 = y
  exact broadcastInDim_apply _ bcast_S_S1x4096 y i (idx_main_v61 i) (fun a => a.elim0)
def s62 : (⟨S1x4096, .f32⟩ : BufTy).Contents (Elt F) :=
  mulf (val_main_v60 (F := F) x1) (s61 (F := F) k x1)
theorem s62_apply (i : S1x4096.Idx) :
    s62 (F := F) k x1 i = FloatOps.mulf (val_main_v60 (F := F) x1 i) (s61 (F := F) k x1 i) := rfl
def s64 : (⟨S1x4096, .f32⟩ : BufTy).Contents (Elt F) :=
  Host.divf (val_main_v63 (F := F)) (s62 (F := F) k x1)
theorem s64_apply (i : S1x4096.Idx) :
    s64 (F := F) k x1 i = FloatOps.hostDivf (val_main_v63 (F := F) i) (s62 (F := F) k x1 i) := rfl
def sW : (⟨S4096x4096, .f32⟩ : BufTy).Contents (Elt F) :=
  broadcastInDim S4096x4096 ![0, 1] bcast_S1x4096_S4096x4096_0_1 (s64 (F := F) k x1)
theorem sW_apply (i : S4096x4096.Idx) :
    sW (F := F) k x1 i = s64 (F := F) k x1 (idx_main_call0_v1 i) := by
  unfold sW
  generalize s64 (F := F) k x1 = y
  exact broadcastInDim_apply _ bcast_S1x4096_S4096x4096_0_1 y i (idx_main_call0_v1 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])
def s65 : (⟨S4096x4096, .f32⟩ : BufTy).Contents (Elt F) :=
  select (s55 (F := F) k x1) (sW (F := F) k x1) (val_main_call0_v2 (F := F))
theorem s65_apply (i : S4096x4096.Idx) :
    s65 (F := F) k x1 i = Scalar.select (s55 (F := F) k x1 i) (sW (F := F) k x1 i) (val_main_call0_v2 (F := F) i) := rfl
def s66 : (⟨S4096x1, .f32⟩ : BufTy).Contents (Elt F) :=
  extractStridedSlice S4096x1 ![0, k.val] (val_main_v20 (F := F) x0 x2) (sl2 k)
theorem s66_apply (i : S4096x1.Idx) :
    s66 (F := F) k x0 x2 i = val_main_v20 (F := F) x0 x2 (at2 k i) := by
  unfold s66
  generalize val_main_v20 (F := F) x0 x2 = y
  exact extractStridedSlice_apply ![0, k.val] y (sl2 k) i (at2 k i) (fun a => match a with
    | ⟨0, _⟩ => (Nat.zero_add _).symm
    | ⟨1, _⟩ => rfl)
def s67 : (⟨S4096, .f32⟩ : BufTy).Contents (Elt F) :=
  shapeCast _ (s66 (F := F) k x0 x2) shapeCasts_S4096x1_S4096
theorem s67_apply (i : S4096.Idx) :
    s67 (F := F) k x0 x2 i = s66 (F := F) k x0 x2 (idx_main_v67 i) := by
  unfold s67
  generalize s66 (F := F) k x0 x2 = y
  exact shapeCast_apply y shapeCasts_S4096x1_S4096 i (idx_main_v67 i)
    (by rewrite [Shape.rowMajor_val_two, Shape.rowMajor_val_one]; have h0 : (i 0).val < 4096 := (i 0).isLt; show ((i 0).val) / 1 * 1 + 0 = (i 0).val; omega)
def s68 : (⟨S4096x1, .f32⟩ : BufTy).Contents (Elt F) :=
  broadcastInDim S4096x1 ![0] bcast_S4096_S4096x1_0 (s67 (F := F) k x0 x2)
theorem s68_apply (i : S4096x1.Idx) :
    s68 (F := F) k x0 x2 i = s67 (F := F) k x0 x2 (idx_main_v68 i) := by
  unfold s68
  generalize s67 (F := F) k x0 x2 = y
  exact broadcastInDim_apply _ bcast_S4096_S4096x1_0 y i (idx_main_v68 i) (fun a => match a with
    | ⟨0, _⟩ => by show (i 0).val = if (4096 : Nat) = 1 then 0 else (i 0).val; rw [if_neg (by decide)])
def s69 : (⟨S1x4096, .f32⟩ : BufTy).Contents (Elt F) :=
  broadcastInDim S1x4096 ![1] bcast_S4096_S1x4096_1 (s67 (F := F) k x0 x2)
theorem s69_apply (i : S1x4096.Idx) :
    s69 (F := F) k x0 x2 i = s67 (F := F) k x0 x2 (idx_main_v69 i) := by
  unfold s69
  generalize s67 (F := F) k x0 x2 = y
  exact broadcastInDim_apply _ bcast_S4096_S1x4096_1 y i (idx_main_v69 i) (fun a => match a with
    | ⟨0, _⟩ => by show (i 1).val = if (4096 : Nat) = 1 then 0 else (i 1).val; rw [if_neg (by decide)])
def s70 : (⟨S4096x4096, .f32⟩ : BufTy).Contents (Elt F) :=
  broadcastInDim S4096x4096 ![0, 1] bcast_S4096x1_S4096x4096_0_1 (s68 (F := F) k x0 x2)
theorem s70_apply (i : S4096x4096.Idx) :
    s70 (F := F) k x0 x2 i = s68 (F := F) k x0 x2 (idx_main_v70 i) := by
  unfold s70
  generalize s68 (F := F) k x0 x2 = y
  exact broadcastInDim_apply _ bcast_S4096x1_S4096x4096_0_1 y i (idx_main_v70 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])
def s71 : (⟨S4096x4096, .f32⟩ : BufTy).Contents (Elt F) :=
  broadcastInDim S4096x4096 ![0, 1] bcast_S1x4096_S4096x4096_0_1 (s69 (F := F) k x0 x2)
theorem s71_apply (i : S4096x4096.Idx) :
    s71 (F := F) k x0 x2 i = s69 (F := F) k x0 x2 (idx_main_v71 i) := by
  unfold s71
  generalize s69 (F := F) k x0 x2 = y
  exact broadcastInDim_apply _ bcast_S1x4096_S4096x4096_0_1 y i (idx_main_v71 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])
def s72 : (⟨S4096x4096, .f32⟩ : BufTy).Contents (Elt F) :=
  subf (s70 (F := F) k x0 x2) (s71 (F := F) k x0 x2)
theorem s72_apply (i : S4096x4096.Idx) :
    s72 (F := F) k x0 x2 i = FloatOps.subf (s70 (F := F) k x0 x2 i) (s71 (F := F) k x0 x2 i) := rfl
def s73 : (⟨S1, .f32⟩ : BufTy).Contents (Elt F) :=
  extractStridedSlice S1 ![k.val] (val_main_v25 (F := F) x2) (sl1 k)
theorem s73_apply (i : S1.Idx) :
    s73 (F := F) k x2 i = val_main_v25 (F := F) x2 (at1 k i) := by
  unfold s73
  generalize val_main_v25 (F := F) x2 = y
  exact extractStridedSlice_apply ![k.val] y (sl1 k) i (at1 k i) (fun a => match a with
    | ⟨0, _⟩ => rfl)
def s74 : (⟨S_, .f32⟩ : BufTy).Contents (Elt F) :=
  shapeCast _ (s73 (F := F) k x2) shapeCasts_S1_S_
def s75 : (⟨S4096x4096, .f32⟩ : BufTy).Contents (Elt F) :=
  broadcastInDim S4096x4096 ![] bcast_S_S4096x4096 (s74 (F := F) k x2)
theorem s75_apply (i : S4096x4096.Idx) :
    s75 (F := F) k x2 i = s74 (F := F) k x2 (idx_main_v75 i) := by
  unfold s75
  generalize s74 (F := F) k x2 = y
  exact broadcastInDim_apply _ bcast_S_S4096x4096 y i (idx_main_v75 i) (fun a => a.elim0)
def s76 : (⟨S4096x4096, .f32⟩ : BufTy).Contents (Elt F) :=
  mulf (s75 (F := F) k x2) (val_main_v18 (F := F) x0)
theorem s76_apply (i : S4096x4096.Idx) :
    s76 (F := F) k x0 x2 i = FloatOps.mulf (s75 (F := F) k x2 i) (val_main_v18 (F := F) x0 i) := rfl
def s77 : (⟨S4096x4096, .f32⟩ : BufTy).Contents (Elt F) :=
  Host.divf (s72 (F := F) k x0 x2) (s76 (F := F) k x0 x2)
theorem s77_apply (i : S4096x4096.Idx) :
    s77 (F := F) k x0 x2 i = FloatOps.hostDivf (s72 (F := F) k x0 x2 i) (s76 (F := F) k x0 x2 i) := rfl
def s79 : (⟨S4096x4096, .f32⟩ : BufTy).Contents (Elt F) :=
  subf (val_main_v78 (F := F)) (s77 (F := F) k x0 x2)
theorem s79_apply (i : S4096x4096.Idx) :
    s79 (F := F) k x0 x2 i = FloatOps.subf (val_main_v78 (F := F) i) (s77 (F := F) k x0 x2 i) := rfl
def s80 : (⟨S4096x4096, .f32⟩ : BufTy).Contents (Elt F) :=
  mulf (s79 (F := F) k x0 x2) (s79 (F := F) k x0 x2)
theorem s80_apply (i : S4096x4096.Idx) :
    s80 (F := F) k x0 x2 i = FloatOps.mulf (s79 (F := F) k x0 x2 i) (s79 (F := F) k x0 x2 i) := rfl
def s81 : (⟨S4096x4096, .f32⟩ : BufTy).Contents (Elt F) :=
  mulf (s65 (F := F) k x1) (s80 (F := F) k x0 x2)
theorem s81_apply (i : S4096x4096.Idx) :
    s81 (F := F) k x0 x1 x2 i = FloatOps.mulf (s65 (F := F) k x1 i) (s80 (F := F) k x0 x2 i) := rfl
def s82 : (⟨S_, .f32⟩ : BufTy).Contents (Elt F) :=
  Host.reduceAdd (s81 (F := F) k x0 x1 x2) (val_main_cst (F := F)) reducesTo_S4096x4096_S_d0_1 h_S_
theorem s82_apply (x0 : (⟨S4096x128, .f32⟩ : BufTy).Contents (Elt Ideal)) (x1 : (⟨S4096, .i32⟩ : BufTy).Contents (Elt Ideal)) (x2 : (⟨S10x128, .f32⟩ : BufTy).Contents (Elt Ideal)) (i : S_.Idx) :
    s82 (F := Ideal) k x0 x1 x2 i = (val_main_cst (F := Ideal)) (Shape.Idx.first h_S_) + ∑ j : S4096x4096.Idx, (s81 (F := Ideal) k x0 x1 x2) j := by
  unfold s82
  generalize s81 (F := Ideal) k x0 x1 x2 = y0
  simp only [Host.reduceAdd, Ideal.hostReduceAdd_def]
  exact Ideal.hostReduceAdd_total reducesTo_S4096x4096_S_d0_1 (fun b => b.elim0) y0 _ i
def s84 : (⟨S_, .f32⟩ : BufTy).Contents (Elt F) :=
  Host.divf (s82 (F := F) k x0 x1 x2) (val_main_v83 (F := F) x1)
theorem s84_apply (i : S_.Idx) :
    s84 (F := F) k x0 x1 x2 i = FloatOps.hostDivf (s82 (F := F) k x0 x1 x2 i) (val_main_v83 (F := F) x1 i) := rfl
def s85 : (⟨S4096x4096, .f32⟩ : BufTy).Contents (Elt F) :=
  mulf (s65 (F := F) k x1) (s77 (F := F) k x0 x2)
theorem s85_apply (i : S4096x4096.Idx) :
    s85 (F := F) k x0 x1 x2 i = FloatOps.mulf (s65 (F := F) k x1 i) (s77 (F := F) k x0 x2 i) := rfl
def s86 : (⟨S_, .f32⟩ : BufTy).Contents (Elt F) :=
  Host.reduceAdd (s85 (F := F) k x0 x1 x2) (val_main_cst (F := F)) reducesTo_S4096x4096_S_d0_1 h_S_
theorem s86_apply (x0 : (⟨S4096x128, .f32⟩ : BufTy).Contents (Elt Ideal)) (x1 : (⟨S4096, .i32⟩ : BufTy).Contents (Elt Ideal)) (x2 : (⟨S10x128, .f32⟩ : BufTy).Contents (Elt Ideal)) (i : S_.Idx) :
    s86 (F := Ideal) k x0 x1 x2 i = (val_main_cst (F := Ideal)) (Shape.Idx.first h_S_) + ∑ j : S4096x4096.Idx, (s85 (F := Ideal) k x0 x1 x2) j := by
  unfold s86
  generalize s85 (F := Ideal) k x0 x1 x2 = y0
  simp only [Host.reduceAdd, Ideal.hostReduceAdd_def]
  exact Ideal.hostReduceAdd_total reducesTo_S4096x4096_S_d0_1 (fun b => b.elim0) y0 _ i
def s88 : (⟨S_, .f32⟩ : BufTy).Contents (Elt F) :=
  Host.divf (s86 (F := F) k x0 x1 x2) (val_main_v83 (F := F) x1)
theorem s88_apply (i : S_.Idx) :
    s88 (F := F) k x0 x1 x2 i = FloatOps.hostDivf (s86 (F := F) k x0 x1 x2 i) (val_main_v83 (F := F) x1 i) := rfl
def s89 : (⟨S4096x4096, .f32⟩ : BufTy).Contents (Elt F) :=
  broadcastInDim S4096x4096 ![] bcast_S_S4096x4096 (s88 (F := F) k x0 x1 x2)
theorem s89_apply (i : S4096x4096.Idx) :
    s89 (F := F) k x0 x1 x2 i = s88 (F := F) k x0 x1 x2 (idx_main_v89 i) := by
  unfold s89
  generalize s88 (F := F) k x0 x1 x2 = y
  exact broadcastInDim_apply _ bcast_S_S4096x4096 y i (idx_main_v89 i) (fun a => a.elim0)
def s90 : (⟨S4096x4096, .f32⟩ : BufTy).Contents (Elt F) :=
  subf (s77 (F := F) k x0 x2) (s89 (F := F) k x0 x1 x2)
theorem s90_apply (i : S4096x4096.Idx) :
    s90 (F := F) k x0 x1 x2 i = FloatOps.subf (s77 (F := F) k x0 x2 i) (s89 (F := F) k x0 x1 x2 i) := rfl
def s91 : (⟨S4096x4096, .f32⟩ : BufTy).Contents (Elt F) :=
  mulf (s90 (F := F) k x0 x1 x2) (s90 (F := F) k x0 x1 x2)
theorem s91_apply (i : S4096x4096.Idx) :
    s91 (F := F) k x0 x1 x2 i = FloatOps.mulf (s90 (F := F) k x0 x1 x2 i) (s90 (F := F) k x0 x1 x2 i) := rfl
def s92 : (⟨S4096x4096, .f32⟩ : BufTy).Contents (Elt F) :=
  mulf (s65 (F := F) k x1) (s91 (F := F) k x0 x1 x2)
theorem s92_apply (i : S4096x4096.Idx) :
    s92 (F := F) k x0 x1 x2 i = FloatOps.mulf (s65 (F := F) k x1 i) (s91 (F := F) k x0 x1 x2 i) := rfl
def s93 : (⟨S_, .f32⟩ : BufTy).Contents (Elt F) :=
  Host.reduceAdd (s92 (F := F) k x0 x1 x2) (val_main_cst (F := F)) reducesTo_S4096x4096_S_d0_1 h_S_
theorem s93_apply (x0 : (⟨S4096x128, .f32⟩ : BufTy).Contents (Elt Ideal)) (x1 : (⟨S4096, .i32⟩ : BufTy).Contents (Elt Ideal)) (x2 : (⟨S10x128, .f32⟩ : BufTy).Contents (Elt Ideal)) (i : S_.Idx) :
    s93 (F := Ideal) k x0 x1 x2 i = (val_main_cst (F := Ideal)) (Shape.Idx.first h_S_) + ∑ j : S4096x4096.Idx, (s92 (F := Ideal) k x0 x1 x2) j := by
  unfold s93
  generalize s92 (F := Ideal) k x0 x1 x2 = y0
  simp only [Host.reduceAdd, Ideal.hostReduceAdd_def]
  exact Ideal.hostReduceAdd_total reducesTo_S4096x4096_S_d0_1 (fun b => b.elim0) y0 _ i
def s95 : (⟨S_, .f32⟩ : BufTy).Contents (Elt F) :=
  Host.divf (s93 (F := F) k x0 x1 x2) (val_main_v83 (F := F) x1)
theorem s95_apply (i : S_.Idx) :
    s95 (F := F) k x0 x1 x2 i = FloatOps.hostDivf (s93 (F := F) k x0 x1 x2 i) (val_main_v83 (F := F) x1 i) := rfl
def s98 : (⟨S_, .i1⟩ : BufTy).Contents (Elt F) :=
  cmpi .sgt (s57 (F := F) k x1) (val_main_c_24 (F := F))
theorem s98_apply (i : S_.Idx) :
    s98 (F := F) k x1 i = IntOp.cmpi .sgt (s57 (F := F) k x1 i) (val_main_c_24 (F := F) i) := rfl
def s99 : (⟨S_, .f32⟩ : BufTy).Contents (Elt F) :=
  select (s98 (F := F) k x1) (s84 (F := F) k x0 x1 x2) (val_main_call1_v0 (F := F))
theorem s99_apply (i : S_.Idx) :
    s99 (F := F) k x0 x1 x2 i = Scalar.select (s98 (F := F) k x1 i) (s84 (F := F) k x0 x1 x2 i) (val_main_call1_v0 (F := F) i) := rfl
def s101 : (⟨S_, .f32⟩ : BufTy).Contents (Elt F) :=
  Host.divf (s95 (F := F) k x0 x1 x2) (s88 (F := F) k x0 x1 x2)
theorem s101_apply (i : S_.Idx) :
    s101 (F := F) k x0 x1 x2 i = FloatOps.hostDivf (s95 (F := F) k x0 x1 x2 i) (s88 (F := F) k x0 x1 x2 i) := rfl
def s102 : (⟨S_, .f32⟩ : BufTy).Contents (Elt F) :=
  Host.absf (s101 (F := F) k x0 x1 x2)
theorem s102_apply (i : S_.Idx) :
    s102 (F := F) k x0 x1 x2 i = FloatOps.hostAbsf (s101 (F := F) k x0 x1 x2 i) := rfl
def s103 : (⟨S_, .f32⟩ : BufTy).Contents (Elt F) :=
  select (s98 (F := F) k x1) (s102 (F := F) k x0 x1 x2) (val_main_call1_v0 (F := F))
theorem s103_apply (i : S_.Idx) :
    s103 (F := F) k x0 x1 x2 i = Scalar.select (s98 (F := F) k x1 i) (s102 (F := F) k x0 x1 x2 i) (val_main_call1_v0 (F := F) i) := rfl

end Cert.ReferenceIdeal.Blk

namespace Cert.ReferenceIdeal.ReadP

open Idealize.ShloMosaic Cert.ReferenceIdeal Cert.ReferenceIdeal.Gen Cert.ReferenceIdeal.Blk

variable {F : FTy → Type} [FloatOps F]
  (x0 : (⟨S4096x128, .f32⟩ : BufTy).Contents (Elt F)) (x1 : (⟨S4096, .i32⟩ : BufTy).Contents (Elt F)) (x2 : (⟨S10x128, .f32⟩ : BufTy).Contents (Elt F))

-- The two running sums after each class, and the two results: each class adds its block's two selected terms.
def val_main_v100 : (⟨S_, .f32⟩ : BufTy).Contents (Elt F) :=
  addf (val_main_cst (F := F)) (s99 (F := F) 0 x0 x1 x2)
theorem val_main_v100_apply (i : S_.Idx) :
    val_main_v100 (F := F) x0 x1 x2 i = FloatOps.addf (val_main_cst (F := F) i) (s99 (F := F) 0 x0 x1 x2 i) := rfl
def val_main_v104 : (⟨S_, .f32⟩ : BufTy).Contents (Elt F) :=
  addf (val_main_cst (F := F)) (s103 (F := F) 0 x0 x1 x2)
theorem val_main_v104_apply (i : S_.Idx) :
    val_main_v104 (F := F) x0 x1 x2 i = FloatOps.addf (val_main_cst (F := F) i) (s103 (F := F) 0 x0 x1 x2 i) := rfl
def val_main_v157 : (⟨S_, .f32⟩ : BufTy).Contents (Elt F) :=
  addf (val_main_v100 (F := F) x0 x1 x2) (s99 (F := F) 1 x0 x1 x2)
theorem val_main_v157_apply (i : S_.Idx) :
    val_main_v157 (F := F) x0 x1 x2 i = FloatOps.addf (val_main_v100 (F := F) x0 x1 x2 i) (s99 (F := F) 1 x0 x1 x2 i) := rfl
def val_main_v161 : (⟨S_, .f32⟩ : BufTy).Contents (Elt F) :=
  addf (val_main_v104 (F := F) x0 x1 x2) (s103 (F := F) 1 x0 x1 x2)
theorem val_main_v161_apply (i : S_.Idx) :
    val_main_v161 (F := F) x0 x1 x2 i = FloatOps.addf (val_main_v104 (F := F) x0 x1 x2 i) (s103 (F := F) 1 x0 x1 x2 i) := rfl
def val_main_v214 : (⟨S_, .f32⟩ : BufTy).Contents (Elt F) :=
  addf (val_main_v157 (F := F) x0 x1 x2) (s99 (F := F) 2 x0 x1 x2)
theorem val_main_v214_apply (i : S_.Idx) :
    val_main_v214 (F := F) x0 x1 x2 i = FloatOps.addf (val_main_v157 (F := F) x0 x1 x2 i) (s99 (F := F) 2 x0 x1 x2 i) := rfl
def val_main_v218 : (⟨S_, .f32⟩ : BufTy).Contents (Elt F) :=
  addf (val_main_v161 (F := F) x0 x1 x2) (s103 (F := F) 2 x0 x1 x2)
theorem val_main_v218_apply (i : S_.Idx) :
    val_main_v218 (F := F) x0 x1 x2 i = FloatOps.addf (val_main_v161 (F := F) x0 x1 x2 i) (s103 (F := F) 2 x0 x1 x2 i) := rfl
def val_main_v271 : (⟨S_, .f32⟩ : BufTy).Contents (Elt F) :=
  addf (val_main_v214 (F := F) x0 x1 x2) (s99 (F := F) 3 x0 x1 x2)
theorem val_main_v271_apply (i : S_.Idx) :
    val_main_v271 (F := F) x0 x1 x2 i = FloatOps.addf (val_main_v214 (F := F) x0 x1 x2 i) (s99 (F := F) 3 x0 x1 x2 i) := rfl
def val_main_v275 : (⟨S_, .f32⟩ : BufTy).Contents (Elt F) :=
  addf (val_main_v218 (F := F) x0 x1 x2) (s103 (F := F) 3 x0 x1 x2)
theorem val_main_v275_apply (i : S_.Idx) :
    val_main_v275 (F := F) x0 x1 x2 i = FloatOps.addf (val_main_v218 (F := F) x0 x1 x2 i) (s103 (F := F) 3 x0 x1 x2 i) := rfl
def val_main_v328 : (⟨S_, .f32⟩ : BufTy).Contents (Elt F) :=
  addf (val_main_v271 (F := F) x0 x1 x2) (s99 (F := F) 4 x0 x1 x2)
theorem val_main_v328_apply (i : S_.Idx) :
    val_main_v328 (F := F) x0 x1 x2 i = FloatOps.addf (val_main_v271 (F := F) x0 x1 x2 i) (s99 (F := F) 4 x0 x1 x2 i) := rfl
def val_main_v332 : (⟨S_, .f32⟩ : BufTy).Contents (Elt F) :=
  addf (val_main_v275 (F := F) x0 x1 x2) (s103 (F := F) 4 x0 x1 x2)
theorem val_main_v332_apply (i : S_.Idx) :
    val_main_v332 (F := F) x0 x1 x2 i = FloatOps.addf (val_main_v275 (F := F) x0 x1 x2 i) (s103 (F := F) 4 x0 x1 x2 i) := rfl
def val_main_v385 : (⟨S_, .f32⟩ : BufTy).Contents (Elt F) :=
  addf (val_main_v328 (F := F) x0 x1 x2) (s99 (F := F) 5 x0 x1 x2)
theorem val_main_v385_apply (i : S_.Idx) :
    val_main_v385 (F := F) x0 x1 x2 i = FloatOps.addf (val_main_v328 (F := F) x0 x1 x2 i) (s99 (F := F) 5 x0 x1 x2 i) := rfl
def val_main_v389 : (⟨S_, .f32⟩ : BufTy).Contents (Elt F) :=
  addf (val_main_v332 (F := F) x0 x1 x2) (s103 (F := F) 5 x0 x1 x2)
theorem val_main_v389_apply (i : S_.Idx) :
    val_main_v389 (F := F) x0 x1 x2 i = FloatOps.addf (val_main_v332 (F := F) x0 x1 x2 i) (s103 (F := F) 5 x0 x1 x2 i) := rfl
def val_main_v442 : (⟨S_, .f32⟩ : BufTy).Contents (Elt F) :=
  addf (val_main_v385 (F := F) x0 x1 x2) (s99 (F := F) 6 x0 x1 x2)
theorem val_main_v442_apply (i : S_.Idx) :
    val_main_v442 (F := F) x0 x1 x2 i = FloatOps.addf (val_main_v385 (F := F) x0 x1 x2 i) (s99 (F := F) 6 x0 x1 x2 i) := rfl
def val_main_v446 : (⟨S_, .f32⟩ : BufTy).Contents (Elt F) :=
  addf (val_main_v389 (F := F) x0 x1 x2) (s103 (F := F) 6 x0 x1 x2)
theorem val_main_v446_apply (i : S_.Idx) :
    val_main_v446 (F := F) x0 x1 x2 i = FloatOps.addf (val_main_v389 (F := F) x0 x1 x2 i) (s103 (F := F) 6 x0 x1 x2 i) := rfl
def val_main_v499 : (⟨S_, .f32⟩ : BufTy).Contents (Elt F) :=
  addf (val_main_v442 (F := F) x0 x1 x2) (s99 (F := F) 7 x0 x1 x2)
theorem val_main_v499_apply (i : S_.Idx) :
    val_main_v499 (F := F) x0 x1 x2 i = FloatOps.addf (val_main_v442 (F := F) x0 x1 x2 i) (s99 (F := F) 7 x0 x1 x2 i) := rfl
def val_main_v503 : (⟨S_, .f32⟩ : BufTy).Contents (Elt F) :=
  addf (val_main_v446 (F := F) x0 x1 x2) (s103 (F := F) 7 x0 x1 x2)
theorem val_main_v503_apply (i : S_.Idx) :
    val_main_v503 (F := F) x0 x1 x2 i = FloatOps.addf (val_main_v446 (F := F) x0 x1 x2 i) (s103 (F := F) 7 x0 x1 x2 i) := rfl
def val_main_v556 : (⟨S_, .f32⟩ : BufTy).Contents (Elt F) :=
  addf (val_main_v499 (F := F) x0 x1 x2) (s99 (F := F) 8 x0 x1 x2)
theorem val_main_v556_apply (i : S_.Idx) :
    val_main_v556 (F := F) x0 x1 x2 i = FloatOps.addf (val_main_v499 (F := F) x0 x1 x2 i) (s99 (F := F) 8 x0 x1 x2 i) := rfl
def val_main_v560 : (⟨S_, .f32⟩ : BufTy).Contents (Elt F) :=
  addf (val_main_v503 (F := F) x0 x1 x2) (s103 (F := F) 8 x0 x1 x2)
theorem val_main_v560_apply (i : S_.Idx) :
    val_main_v560 (F := F) x0 x1 x2 i = FloatOps.addf (val_main_v503 (F := F) x0 x1 x2 i) (s103 (F := F) 8 x0 x1 x2 i) := rfl
def val_main_v613 : (⟨S_, .f32⟩ : BufTy).Contents (Elt F) :=
  addf (val_main_v556 (F := F) x0 x1 x2) (s99 (F := F) 9 x0 x1 x2)
theorem val_main_v613_apply (i : S_.Idx) :
    val_main_v613 (F := F) x0 x1 x2 i = FloatOps.addf (val_main_v556 (F := F) x0 x1 x2 i) (s99 (F := F) 9 x0 x1 x2 i) := rfl
def val_main_v617 : (⟨S_, .f32⟩ : BufTy).Contents (Elt F) :=
  addf (val_main_v560 (F := F) x0 x1 x2) (s103 (F := F) 9 x0 x1 x2)
theorem val_main_v617_apply (i : S_.Idx) :
    val_main_v617 (F := F) x0 x1 x2 i = FloatOps.addf (val_main_v560 (F := F) x0 x1 x2 i) (s103 (F := F) 9 x0 x1 x2 i) := rfl
def val_main_v618 : (⟨S_, .f32⟩ : BufTy).Contents (Elt F) :=
  Host.divf (val_main_v613 (F := F) x0 x1 x2) (val_main_v39 (F := F) x1)
theorem val_main_v618_apply (i : S_.Idx) :
    val_main_v618 (F := F) x0 x1 x2 i = FloatOps.hostDivf (val_main_v613 (F := F) x0 x1 x2 i) (val_main_v39 (F := F) x1 i) := rfl
def val_main_v619 : (⟨S_, .f32⟩ : BufTy).Contents (Elt F) :=
  Host.divf (val_main_v617 (F := F) x0 x1 x2) (val_main_v39 (F := F) x1)
theorem val_main_v619_apply (i : S_.Idx) :
    val_main_v619 (F := F) x0 x1 x2 i = FloatOps.hostDivf (val_main_v617 (F := F) x0 x1 x2 i) (val_main_v39 (F := F) x1 i) := rfl

end Cert.ReferenceIdeal.ReadP

end
-- ==== Proof.RefRunLive.lean ====
import proofs.«426650_j89962384982112_3_alg».proof.Proof.RefBlk

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

structure Live (x0 : (⟨S4096x128, .f32⟩ : BufTy).Contents (Elt F)) (x1 : (⟨S4096, .i32⟩ : BufTy).Contents (Elt F)) (x2 : (⟨S10x128, .f32⟩ : BufTy).Contents (Elt F))
    (W : Valuation τ sig (Elt F)) : Prop where
  a0 : W (Proc.devRef .tc main_arg0) = x0
  a1 : W (Proc.devRef .tc main_arg1) = x1
  a2 : W (Proc.devRef .tc main_arg2) = x2
  v18 : W (Proc.devRef .tc main_v18) = val_main_v18 (F := F) x0
  v20 : W (Proc.devRef .tc main_v20) = val_main_v20 (F := F) x0 x2
  v25 : W (Proc.devRef .tc main_v25) = val_main_v25 (F := F) x2
  v34 : W (Proc.devRef .tc main_v34) = val_main_v34 (F := F) x1
  v39 : W (Proc.devRef .tc main_v39) = val_main_v39 (F := F) x1
  v47 : W (Proc.devRef .tc main_v47) = val_main_v47 (F := F) x1

end Cert.ReferenceIdeal.Hand.Run

end
-- ==== Proof.RefRunV00.lean ====
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in

theorem pre_live (V : Valuation τ sig (Elt F)) :
    Live (V (Proc.devRef .tc main_arg0)) (V (Proc.devRef .tc main_arg1)) (V (Proc.devRef .tc main_arg2)) (after ops01 (after ops00 V)) := by
  have key :
      after ops01 (after ops00 V) (Proc.devRef .tc main_arg0) = (V (Proc.devRef .tc main_arg0)) ∧
      after ops01 (after ops00 V) (Proc.devRef .tc main_arg1) = (V (Proc.devRef .tc main_arg1)) ∧
      after ops01 (after ops00 V) (Proc.devRef .tc main_arg2) = (V (Proc.devRef .tc main_arg2)) ∧
      after ops01 (after ops00 V) (Proc.devRef .tc main_v18) = val_main_v18 (F := F) (V (Proc.devRef .tc main_arg0)) ∧
      after ops01 (after ops00 V) (Proc.devRef .tc main_v20) = val_main_v20 (F := F) (V (Proc.devRef .tc main_arg0)) (V (Proc.devRef .tc main_arg2)) ∧
      after ops01 (after ops00 V) (Proc.devRef .tc main_v25) = val_main_v25 (F := F) (V (Proc.devRef .tc main_arg2)) ∧
      after ops01 (after ops00 V) (Proc.devRef .tc main_v34) = val_main_v34 (F := F) (V (Proc.devRef .tc main_arg1)) ∧
      after ops01 (after ops00 V) (Proc.devRef .tc main_v39) = val_main_v39 (F := F) (V (Proc.devRef .tc main_arg1)) ∧
      after ops01 (after ops00 V) (Proc.devRef .tc main_v47) = val_main_v47 (F := F) (V (Proc.devRef .tc main_arg1)) := by
    after_results_simp
    exact ⟨trivial, trivial, trivial, rfl, rfl, rfl, rfl, rfl, rfl⟩
  obtain ⟨k0, k1, k2, k18, k20, k25, k34, k39, k47⟩ := key
  exact ⟨k0, k1, k2, k18, k20, k25, k34, k39, k47⟩

end Cert.ReferenceIdeal.Hand.Run

end
-- ==== Proof.RefRunV01.lean ====
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in

theorem class0_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W) :
    Live x0 x1 x2 (after ops03 (after ops02 W))
    ∧ after ops03 (after ops02 W) (Proc.devRef .tc main_v100) = val_main_v100 (F := F) x0 x1 x2
    ∧ after ops03 (after ops02 W) (Proc.devRef .tc main_v104) = val_main_v104 (F := F) x0 x1 x2 := by
  obtain ⟨h0, h1, h2, h18, h20, h25, h34, h39, h47⟩ := hL
  have key :
      after ops03 (after ops02 W) (Proc.devRef .tc main_arg0) = x0 ∧
      after ops03 (after ops02 W) (Proc.devRef .tc main_arg1) = x1 ∧
      after ops03 (after ops02 W) (Proc.devRef .tc main_arg2) = x2 ∧
      after ops03 (after ops02 W) (Proc.devRef .tc main_v18) = val_main_v18 (F := F) x0 ∧
      after ops03 (after ops02 W) (Proc.devRef .tc main_v20) = val_main_v20 (F := F) x0 x2 ∧
      after ops03 (after ops02 W) (Proc.devRef .tc main_v25) = val_main_v25 (F := F) x2 ∧
      after ops03 (after ops02 W) (Proc.devRef .tc main_v34) = val_main_v34 (F := F) x1 ∧
      after ops03 (after ops02 W) (Proc.devRef .tc main_v39) = val_main_v39 (F := F) x1 ∧
      after ops03 (after ops02 W) (Proc.devRef .tc main_v47) = val_main_v47 (F := F) x1 ∧
      after ops03 (after ops02 W) (Proc.devRef .tc main_v100) = val_main_v100 (F := F) x0 x1 x2 ∧
      after ops03 (after ops02 W) (Proc.devRef .tc main_v104) = val_main_v104 (F := F) x0 x1 x2 := by
    after_results_simp
    refine ⟨h0, h1, h2, h18, h20, h25, h34, h39, h47, ?_, ?_⟩
    · simp only [TRef.ofBuf, TRef.toBuf, cast_eq, h1, h18, h20, h25, h34, h39, h47]
      rfl
    · simp only [TRef.ofBuf, TRef.toBuf, cast_eq, h1, h18, h20, h25, h34, h39, h47]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV02.lean ====
/-
  The block of class 1 (operations 141 to 216): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 1's block keeps what the blocks read and moves the two running sums one class on. -/
theorem class1_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v100) = val_main_v100 (F := F) x0 x1 x2)
    (hs2 : W (Proc.devRef .tc main_v104) = val_main_v104 (F := F) x0 x1 x2) :
    Live x0 x1 x2 (after ops05 (after ops04 W))
    ∧ after ops05 (after ops04 W) (Proc.devRef .tc main_v157) = val_main_v157 (F := F) x0 x1 x2
    ∧ after ops05 (after ops04 W) (Proc.devRef .tc main_v161) = val_main_v161 (F := F) x0 x1 x2 := by
  obtain ⟨h0, h1, h2, h18, h20, h25, h34, h39, h47⟩ := hL
  have key :
      after ops05 (after ops04 W) (Proc.devRef .tc main_arg0) = x0 ∧
      after ops05 (after ops04 W) (Proc.devRef .tc main_arg1) = x1 ∧
      after ops05 (after ops04 W) (Proc.devRef .tc main_arg2) = x2 ∧
      after ops05 (after ops04 W) (Proc.devRef .tc main_v18) = val_main_v18 (F := F) x0 ∧
      after ops05 (after ops04 W) (Proc.devRef .tc main_v20) = val_main_v20 (F := F) x0 x2 ∧
      after ops05 (after ops04 W) (Proc.devRef .tc main_v25) = val_main_v25 (F := F) x2 ∧
      after ops05 (after ops04 W) (Proc.devRef .tc main_v34) = val_main_v34 (F := F) x1 ∧
      after ops05 (after ops04 W) (Proc.devRef .tc main_v39) = val_main_v39 (F := F) x1 ∧
      after ops05 (after ops04 W) (Proc.devRef .tc main_v47) = val_main_v47 (F := F) x1 ∧
      after ops05 (after ops04 W) (Proc.devRef .tc main_v157) = val_main_v157 (F := F) x0 x1 x2 ∧
      after ops05 (after ops04 W) (Proc.devRef .tc main_v161) = val_main_v161 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV03.lean ====
/-
  The block of class 2 (operations 217 to 292): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 2's block keeps what the blocks read and moves the two running sums one class on. -/
theorem class2_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v157) = val_main_v157 (F := F) x0 x1 x2)
    (hs2 : W (Proc.devRef .tc main_v161) = val_main_v161 (F := F) x0 x1 x2) :
    Live x0 x1 x2 (after ops07 (after ops06 W))
    ∧ after ops07 (after ops06 W) (Proc.devRef .tc main_v214) = val_main_v214 (F := F) x0 x1 x2
    ∧ after ops07 (after ops06 W) (Proc.devRef .tc main_v218) = val_main_v218 (F := F) x0 x1 x2 := by
  obtain ⟨h0, h1, h2, h18, h20, h25, h34, h39, h47⟩ := hL
  have key :
      after ops07 (after ops06 W) (Proc.devRef .tc main_arg0) = x0 ∧
      after ops07 (after ops06 W) (Proc.devRef .tc main_arg1) = x1 ∧
      after ops07 (after ops06 W) (Proc.devRef .tc main_arg2) = x2 ∧
      after ops07 (after ops06 W) (Proc.devRef .tc main_v18) = val_main_v18 (F := F) x0 ∧
      after ops07 (after ops06 W) (Proc.devRef .tc main_v20) = val_main_v20 (F := F) x0 x2 ∧
      after ops07 (after ops06 W) (Proc.devRef .tc main_v25) = val_main_v25 (F := F) x2 ∧
      after ops07 (after ops06 W) (Proc.devRef .tc main_v34) = val_main_v34 (F := F) x1 ∧
      after ops07 (after ops06 W) (Proc.devRef .tc main_v39) = val_main_v39 (F := F) x1 ∧
      after ops07 (after ops06 W) (Proc.devRef .tc main_v47) = val_main_v47 (F := F) x1 ∧
      after ops07 (after ops06 W) (Proc.devRef .tc main_v214) = val_main_v214 (F := F) x0 x1 x2 ∧
      after ops07 (after ops06 W) (Proc.devRef .tc main_v218) = val_main_v218 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV04.lean ====
/-
  The block of class 3 (operations 293 to 368): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 3's block keeps what the blocks read and moves the two running sums one class on. -/
theorem class3_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v214) = val_main_v214 (F := F) x0 x1 x2)
    (hs2 : W (Proc.devRef .tc main_v218) = val_main_v218 (F := F) x0 x1 x2) :
    Live x0 x1 x2 (after ops09 (after ops08 W))
    ∧ after ops09 (after ops08 W) (Proc.devRef .tc main_v271) = val_main_v271 (F := F) x0 x1 x2
    ∧ after ops09 (after ops08 W) (Proc.devRef .tc main_v275) = val_main_v275 (F := F) x0 x1 x2 := by
  obtain ⟨h0, h1, h2, h18, h20, h25, h34, h39, h47⟩ := hL
  have key :
      after ops09 (after ops08 W) (Proc.devRef .tc main_arg0) = x0 ∧
      after ops09 (after ops08 W) (Proc.devRef .tc main_arg1) = x1 ∧
      after ops09 (after ops08 W) (Proc.devRef .tc main_arg2) = x2 ∧
      after ops09 (after ops08 W) (Proc.devRef .tc main_v18) = val_main_v18 (F := F) x0 ∧
      after ops09 (after ops08 W) (Proc.devRef .tc main_v20) = val_main_v20 (F := F) x0 x2 ∧
      after ops09 (after ops08 W) (Proc.devRef .tc main_v25) = val_main_v25 (F := F) x2 ∧
      after ops09 (after ops08 W) (Proc.devRef .tc main_v34) = val_main_v34 (F := F) x1 ∧
      after ops09 (after ops08 W) (Proc.devRef .tc main_v39) = val_main_v39 (F := F) x1 ∧
      after ops09 (after ops08 W) (Proc.devRef .tc main_v47) = val_main_v47 (F := F) x1 ∧
      after ops09 (after ops08 W) (Proc.devRef .tc main_v271) = val_main_v271 (F := F) x0 x1 x2 ∧
      after ops09 (after ops08 W) (Proc.devRef .tc main_v275) = val_main_v275 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV05.lean ====
/-
  The block of class 4 (operations 369 to 444): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 4's block keeps what the blocks read and moves the two running sums one class on. -/
theorem class4_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v271) = val_main_v271 (F := F) x0 x1 x2)
    (hs2 : W (Proc.devRef .tc main_v275) = val_main_v275 (F := F) x0 x1 x2) :
    Live x0 x1 x2 (after ops11 (after ops10 W))
    ∧ after ops11 (after ops10 W) (Proc.devRef .tc main_v328) = val_main_v328 (F := F) x0 x1 x2
    ∧ after ops11 (after ops10 W) (Proc.devRef .tc main_v332) = val_main_v332 (F := F) x0 x1 x2 := by
  obtain ⟨h0, h1, h2, h18, h20, h25, h34, h39, h47⟩ := hL
  have key :
      after ops11 (after ops10 W) (Proc.devRef .tc main_arg0) = x0 ∧
      after ops11 (after ops10 W) (Proc.devRef .tc main_arg1) = x1 ∧
      after ops11 (after ops10 W) (Proc.devRef .tc main_arg2) = x2 ∧
      after ops11 (after ops10 W) (Proc.devRef .tc main_v18) = val_main_v18 (F := F) x0 ∧
      after ops11 (after ops10 W) (Proc.devRef .tc main_v20) = val_main_v20 (F := F) x0 x2 ∧
      after ops11 (after ops10 W) (Proc.devRef .tc main_v25) = val_main_v25 (F := F) x2 ∧
      after ops11 (after ops10 W) (Proc.devRef .tc main_v34) = val_main_v34 (F := F) x1 ∧
      after ops11 (after ops10 W) (Proc.devRef .tc main_v39) = val_main_v39 (F := F) x1 ∧
      after ops11 (after ops10 W) (Proc.devRef .tc main_v47) = val_main_v47 (F := F) x1 ∧
      after ops11 (after ops10 W) (Proc.devRef .tc main_v328) = val_main_v328 (F := F) x0 x1 x2 ∧
      after ops11 (after ops10 W) (Proc.devRef .tc main_v332) = val_main_v332 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV06.lean ====
/-
  The block of class 5 (operations 445 to 520): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 5's block keeps what the blocks read and moves the two running sums one class on. -/
theorem class5_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v328) = val_main_v328 (F := F) x0 x1 x2)
    (hs2 : W (Proc.devRef .tc main_v332) = val_main_v332 (F := F) x0 x1 x2) :
    Live x0 x1 x2 (after ops13 (after ops12 W))
    ∧ after ops13 (after ops12 W) (Proc.devRef .tc main_v385) = val_main_v385 (F := F) x0 x1 x2
    ∧ after ops13 (after ops12 W) (Proc.devRef .tc main_v389) = val_main_v389 (F := F) x0 x1 x2 := by
  obtain ⟨h0, h1, h2, h18, h20, h25, h34, h39, h47⟩ := hL
  have key :
      after ops13 (after ops12 W) (Proc.devRef .tc main_arg0) = x0 ∧
      after ops13 (after ops12 W) (Proc.devRef .tc main_arg1) = x1 ∧
      after ops13 (after ops12 W) (Proc.devRef .tc main_arg2) = x2 ∧
      after ops13 (after ops12 W) (Proc.devRef .tc main_v18) = val_main_v18 (F := F) x0 ∧
      after ops13 (after ops12 W) (Proc.devRef .tc main_v20) = val_main_v20 (F := F) x0 x2 ∧
      after ops13 (after ops12 W) (Proc.devRef .tc main_v25) = val_main_v25 (F := F) x2 ∧
      after ops13 (after ops12 W) (Proc.devRef .tc main_v34) = val_main_v34 (F := F) x1 ∧
      after ops13 (after ops12 W) (Proc.devRef .tc main_v39) = val_main_v39 (F := F) x1 ∧
      after ops13 (after ops12 W) (Proc.devRef .tc main_v47) = val_main_v47 (F := F) x1 ∧
      after ops13 (after ops12 W) (Proc.devRef .tc main_v385) = val_main_v385 (F := F) x0 x1 x2 ∧
      after ops13 (after ops12 W) (Proc.devRef .tc main_v389) = val_main_v389 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV07.lean ====
/-
  The block of class 6 (operations 521 to 596): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 6's block keeps what the blocks read and moves the two running sums one class on. -/
theorem class6_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v385) = val_main_v385 (F := F) x0 x1 x2)
    (hs2 : W (Proc.devRef .tc main_v389) = val_main_v389 (F := F) x0 x1 x2) :
    Live x0 x1 x2 (after ops15 (after ops14 W))
    ∧ after ops15 (after ops14 W) (Proc.devRef .tc main_v442) = val_main_v442 (F := F) x0 x1 x2
    ∧ after ops15 (after ops14 W) (Proc.devRef .tc main_v446) = val_main_v446 (F := F) x0 x1 x2 := by
  obtain ⟨h0, h1, h2, h18, h20, h25, h34, h39, h47⟩ := hL
  have key :
      after ops15 (after ops14 W) (Proc.devRef .tc main_arg0) = x0 ∧
      after ops15 (after ops14 W) (Proc.devRef .tc main_arg1) = x1 ∧
      after ops15 (after ops14 W) (Proc.devRef .tc main_arg2) = x2 ∧
      after ops15 (after ops14 W) (Proc.devRef .tc main_v18) = val_main_v18 (F := F) x0 ∧
      after ops15 (after ops14 W) (Proc.devRef .tc main_v20) = val_main_v20 (F := F) x0 x2 ∧
      after ops15 (after ops14 W) (Proc.devRef .tc main_v25) = val_main_v25 (F := F) x2 ∧
      after ops15 (after ops14 W) (Proc.devRef .tc main_v34) = val_main_v34 (F := F) x1 ∧
      after ops15 (after ops14 W) (Proc.devRef .tc main_v39) = val_main_v39 (F := F) x1 ∧
      after ops15 (after ops14 W) (Proc.devRef .tc main_v47) = val_main_v47 (F := F) x1 ∧
      after ops15 (after ops14 W) (Proc.devRef .tc main_v442) = val_main_v442 (F := F) x0 x1 x2 ∧
      after ops15 (after ops14 W) (Proc.devRef .tc main_v446) = val_main_v446 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV08.lean ====
/-
  The block of class 7 (operations 597 to 672): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 7's block keeps what the blocks read and moves the two running sums one class on. -/
theorem class7_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v442) = val_main_v442 (F := F) x0 x1 x2)
    (hs2 : W (Proc.devRef .tc main_v446) = val_main_v446 (F := F) x0 x1 x2) :
    Live x0 x1 x2 (after ops17 (after ops16 W))
    ∧ after ops17 (after ops16 W) (Proc.devRef .tc main_v499) = val_main_v499 (F := F) x0 x1 x2
    ∧ after ops17 (after ops16 W) (Proc.devRef .tc main_v503) = val_main_v503 (F := F) x0 x1 x2 := by
  obtain ⟨h0, h1, h2, h18, h20, h25, h34, h39, h47⟩ := hL
  have key :
      after ops17 (after ops16 W) (Proc.devRef .tc main_arg0) = x0 ∧
      after ops17 (after ops16 W) (Proc.devRef .tc main_arg1) = x1 ∧
      after ops17 (after ops16 W) (Proc.devRef .tc main_arg2) = x2 ∧
      after ops17 (after ops16 W) (Proc.devRef .tc main_v18) = val_main_v18 (F := F) x0 ∧
      after ops17 (after ops16 W) (Proc.devRef .tc main_v20) = val_main_v20 (F := F) x0 x2 ∧
      after ops17 (after ops16 W) (Proc.devRef .tc main_v25) = val_main_v25 (F := F) x2 ∧
      after ops17 (after ops16 W) (Proc.devRef .tc main_v34) = val_main_v34 (F := F) x1 ∧
      after ops17 (after ops16 W) (Proc.devRef .tc main_v39) = val_main_v39 (F := F) x1 ∧
      after ops17 (after ops16 W) (Proc.devRef .tc main_v47) = val_main_v47 (F := F) x1 ∧
      after ops17 (after ops16 W) (Proc.devRef .tc main_v499) = val_main_v499 (F := F) x0 x1 x2 ∧
      after ops17 (after ops16 W) (Proc.devRef .tc main_v503) = val_main_v503 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV09.lean ====
/-
  The block of class 8 (operations 673 to 748): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 8's block keeps what the blocks read and moves the two running sums one class on. -/
theorem class8_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v499) = val_main_v499 (F := F) x0 x1 x2)
    (hs2 : W (Proc.devRef .tc main_v503) = val_main_v503 (F := F) x0 x1 x2) :
    Live x0 x1 x2 (after ops19 (after ops18 W))
    ∧ after ops19 (after ops18 W) (Proc.devRef .tc main_v556) = val_main_v556 (F := F) x0 x1 x2
    ∧ after ops19 (after ops18 W) (Proc.devRef .tc main_v560) = val_main_v560 (F := F) x0 x1 x2 := by
  obtain ⟨h0, h1, h2, h18, h20, h25, h34, h39, h47⟩ := hL
  have key :
      after ops19 (after ops18 W) (Proc.devRef .tc main_arg0) = x0 ∧
      after ops19 (after ops18 W) (Proc.devRef .tc main_arg1) = x1 ∧
      after ops19 (after ops18 W) (Proc.devRef .tc main_arg2) = x2 ∧
      after ops19 (after ops18 W) (Proc.devRef .tc main_v18) = val_main_v18 (F := F) x0 ∧
      after ops19 (after ops18 W) (Proc.devRef .tc main_v20) = val_main_v20 (F := F) x0 x2 ∧
      after ops19 (after ops18 W) (Proc.devRef .tc main_v25) = val_main_v25 (F := F) x2 ∧
      after ops19 (after ops18 W) (Proc.devRef .tc main_v34) = val_main_v34 (F := F) x1 ∧
      after ops19 (after ops18 W) (Proc.devRef .tc main_v39) = val_main_v39 (F := F) x1 ∧
      after ops19 (after ops18 W) (Proc.devRef .tc main_v47) = val_main_v47 (F := F) x1 ∧
      after ops19 (after ops18 W) (Proc.devRef .tc main_v556) = val_main_v556 (F := F) x0 x1 x2 ∧
      after ops19 (after ops18 W) (Proc.devRef .tc main_v560) = val_main_v560 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV10.lean ====
/-
  The block of class 9 (operations 749 to 824): from contents that hold what the blocks read and the two running
  sums of the classes before, it leaves them holding the same and the two running sums with this class's terms added.
-/
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 16384 in
set_option maxHeartbeats 4000000 in
/-- Class 9's block keeps what the blocks read and moves the two running sums one class on. -/
theorem class9_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v556) = val_main_v556 (F := F) x0 x1 x2)
    (hs2 : W (Proc.devRef .tc main_v560) = val_main_v560 (F := F) x0 x1 x2) :
    Live x0 x1 x2 (after ops21 (after ops20 W))
    ∧ after ops21 (after ops20 W) (Proc.devRef .tc main_v613) = val_main_v613 (F := F) x0 x1 x2
    ∧ after ops21 (after ops20 W) (Proc.devRef .tc main_v617) = val_main_v617 (F := F) x0 x1 x2 := by
  obtain ⟨h0, h1, h2, h18, h20, h25, h34, h39, h47⟩ := hL
  have key :
      after ops21 (after ops20 W) (Proc.devRef .tc main_arg0) = x0 ∧
      after ops21 (after ops20 W) (Proc.devRef .tc main_arg1) = x1 ∧
      after ops21 (after ops20 W) (Proc.devRef .tc main_arg2) = x2 ∧
      after ops21 (after ops20 W) (Proc.devRef .tc main_v18) = val_main_v18 (F := F) x0 ∧
      after ops21 (after ops20 W) (Proc.devRef .tc main_v20) = val_main_v20 (F := F) x0 x2 ∧
      after ops21 (after ops20 W) (Proc.devRef .tc main_v25) = val_main_v25 (F := F) x2 ∧
      after ops21 (after ops20 W) (Proc.devRef .tc main_v34) = val_main_v34 (F := F) x1 ∧
      after ops21 (after ops20 W) (Proc.devRef .tc main_v39) = val_main_v39 (F := F) x1 ∧
      after ops21 (after ops20 W) (Proc.devRef .tc main_v47) = val_main_v47 (F := F) x1 ∧
      after ops21 (after ops20 W) (Proc.devRef .tc main_v613) = val_main_v613 (F := F) x0 x1 x2 ∧
      after ops21 (after ops20 W) (Proc.devRef .tc main_v617) = val_main_v617 (F := F) x0 x1 x2 := by
    after_results_simp
    refine ⟨h0, h1, h2, h18, h20, h25, h34, h39, h47, ?_, ?_⟩
    · simp only [TRef.ofBuf, TRef.toBuf, cast_eq, h1, h18, h20, h25, h34, h39, h47, hs1, hs2]
      rfl
    · simp only [TRef.ofBuf, TRef.toBuf, cast_eq, h1, h18, h20, h25, h34, h39, h47, hs1, hs2]
      rfl
  obtain ⟨k0, k1, k2, k18, k20, k25, k34, k39, k47, ks1, ks2⟩ := key
  exact ⟨⟨k0, k1, k2, k18, k20, k25, k34, k39, k47⟩, ks1, ks2⟩

end Cert.ReferenceIdeal.Hand.Run

end
-- ==== Proof.RefRunV11.lean ====
import proofs.«426650_j89962384982112_3_alg».proof.Proof.RefRunOps
import proofs.«426650_j89962384982112_3_alg».proof.Proof.RefRunLive

noncomputable section

namespace Cert.ReferenceIdeal.Hand.Run

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem end_step {x0 : (⟨S4096x128, .f32⟩ : BufTy).Contents (Elt F)} {x1 : (⟨S4096, .i32⟩ : BufTy).Contents (Elt F)} {x2 : (⟨S10x128, .f32⟩ : BufTy).Contents (Elt F)}
    {W : Valuation τ sig (Elt F)} (hL : Live x0 x1 x2 W)
    (hs1 : W (Proc.devRef .tc main_v613) = val_main_v613 (F := F) x0 x1 x2)
    (hs2 : W (Proc.devRef .tc main_v617) = val_main_v617 (F := F) x0 x1 x2) :
    after ops22 W (Proc.devRef .tc main_v618) = val_main_v618 (F := F) x0 x1 x2
    ∧ after ops22 W (Proc.devRef .tc main_v619) = val_main_v619 (F := F) x0 x1 x2
    ∧ after ops22 W (Proc.devRef .tc main_arg0) = x0
    ∧ after ops22 W (Proc.devRef .tc main_arg1) = x1
    ∧ after ops22 W (Proc.devRef .tc main_arg2) = x2 := by
  obtain ⟨h0, h1, h2, -, -, -, -, h39, -⟩ := hL
  after_results_simp
  refine ⟨?_, ?_, h0, h1, h2⟩
  · rw [hs1, h39]; rfl
  · rw [hs2, h39]; rfl

end Cert.ReferenceIdeal.Hand.Run

end
-- ==== Proof.RefRun.lean ====
import proofs.«426650_j89962384982112_3_alg».proof.Defs
import proofs.«426650_j89962384982112_3_alg».proof.Proof.Gen.ReferenceIdeal
import proofs.«426650_j89962384982112_3_alg».proof.Proof.Spec
import proofs.«426650_j89962384982112_3_alg».proof.Proof.RefRead
import proofs.«426650_j89962384982112_3_alg».proof.Proof.RefRunMain
import proofs.«426650_j89962384982112_3_alg».proof.Proof.RefRunV00
import proofs.«426650_j89962384982112_3_alg».proof.Proof.RefRunV01
import proofs.«426650_j89962384982112_3_alg».proof.Proof.RefRunV02
import proofs.«426650_j89962384982112_3_alg».proof.Proof.RefRunV03
import proofs.«426650_j89962384982112_3_alg».proof.Proof.RefRunV04
import proofs.«426650_j89962384982112_3_alg».proof.Proof.RefRunV05
import proofs.«426650_j89962384982112_3_alg».proof.Proof.RefRunV06
import proofs.«426650_j89962384982112_3_alg».proof.Proof.RefRunV07
import proofs.«426650_j89962384982112_3_alg».proof.Proof.RefRunV08
import proofs.«426650_j89962384982112_3_alg».proof.Proof.RefRunV09
import proofs.«426650_j89962384982112_3_alg».proof.Proof.RefRunV10
import proofs.«426650_j89962384982112_3_alg».proof.Proof.RefRunV11

noncomputable section

namespace Cert.ReferenceIdeal.Hand

open Idealize.ShloMosaic Idealize.ShloMosaic.TcCoe Idealize.SL.Sem Cert.ReferenceIdeal Cert.ReferenceIdeal.Gen Cert.Spec

theorem run_val (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v618)
          = Cert.ReferenceIdeal.ReadP.val_main_v618 (F := Ideal) (m ((c.tc : Thread nD τ).loc main_arg0)) (m ((c.tc : Thread nD τ).loc main_arg1)) (m ((c.tc : Thread nD τ).loc main_arg2))
      ∧ r.2.mem ((c.tc : Thread nD τ).loc main_v619)
          = Cert.ReferenceIdeal.ReadP.val_main_v619 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by

    have L := Run.pre_live (F := Ideal) (StableHlo.launchContents m c)
    have C0 := Run.class0_step L
    have C1 := Run.class1_step C0.1 C0.2.1 C0.2.2
    have C2 := Run.class2_step C1.1 C1.2.1 C1.2.2
    have C3 := Run.class3_step C2.1 C2.2.1 C2.2.2
    have C4 := Run.class4_step C3.1 C3.2.1 C3.2.2
    have C5 := Run.class5_step C4.1 C4.2.1 C4.2.2
    have C6 := Run.class6_step C5.1 C5.2.1 C5.2.2
    have C7 := Run.class7_step C6.1 C6.2.1 C6.2.2
    have C8 := Run.class8_step C7.1 C7.2.1 C7.2.2
    have C9 := Run.class9_step C8.1 C8.2.1 C8.2.2
    have E := Run.end_step C9.1 C9.2.1 C9.2.2
    have hv := fun b => (h c b).trans (congrFun (Run.after_ops (StableHlo.launchContents m c)) _)
    exact ⟨(hv main_v618).trans E.1, (hv main_v619).trans E.2.1, (hv main_arg0).trans E.2.2.1,
      (hv main_arg1).trans E.2.2.2.1, (hv main_arg2).trans E.2.2.2.2⟩)
    (Run.run_after m ρ)

end Cert.ReferenceIdeal.Hand

end
-- ==== Proof.RefValPre.lean ====
import proofs.«426650_j89962384982112_3_alg».proof.Proof.Spec
import proofs.«426650_j89962384982112_3_alg».proof.Proof.RefRead
import proofs.«426650_j89962384982112_3_alg».proof.Proof.LibScatterCount
import proofs.«426650_j89962384982112_3_alg».proof.Proof.LibWordDiv

noncomputable section

namespace Cert.ReferenceIdeal.RefVal

open Idealize.ShloMosaic Idealize.ShloMosaic.ValueIdx Cert.ReferenceIdeal Cert.ReferenceIdeal.Gen Cert.ReferenceIdeal.ReadP Cert.Spec

variable (x0 : FVec Ideal S4096x128 .f32) (x1 : IVec S4096 32) (x2 : FVec Ideal S10x128 .f32)

private theorem ixA (a b : Fin 4096) (k : Fin 128) : idx_main_v1 (idx_main_v4 (idx_main_v6 (ix2 a b))) k = ix2 a k := by
  funext d; match d with | ⟨0, _⟩ => rfl | ⟨1, _⟩ => rfl

private theorem ixB (a b : Fin 4096) (k : Fin 128) : idx_main_v1 (idx_main_v5 (idx_main_v7 (ix2 a b))) k = ix2 b k := by
  funext d; match d with | ⟨0, _⟩ => rfl | ⟨1, _⟩ => rfl

private theorem ixL (a b : Fin 4096) (k : Fin 128) : lidx_main_v3 (ix2 a b) k = ix2 a k := by
  funext d; match d with | ⟨0, _⟩ => rfl | ⟨1, _⟩ => rfl

private theorem ixR (a b : Fin 4096) (k : Fin 128) : idx_main_v2 (ridx_main_v3 (ix2 a b) k) = ix2 b k := by
  funext d; match d with | ⟨0, _⟩ => rfl | ⟨1, _⟩ => rfl

private theorem ixPL (n : Fin 4096) (i : Fin 10) (k : Fin 128) : lidx_main_v20 (ix2 n i) k = ix2 n k := by
  funext d; match d with | ⟨0, _⟩ => rfl | ⟨1, _⟩ => rfl

private theorem ixPR (n : Fin 4096) (i : Fin 10) (k : Fin 128) : idx_main_v19 (ridx_main_v20 (ix2 n i) k) = ix2 i k := by
  funext d; match d with | ⟨0, _⟩ => rfl | ⟨1, _⟩ => rfl

private theorem ixW (i : Fin 10) (k : Fin 128) : idx_main_v22 (ix1 i) k = ix2 i k := by
  funext d; match d with | ⟨0, _⟩ => rfl | ⟨1, _⟩ => rfl

theorem dn_at (a b : Fin 4096) : val_main_v18 (F := Ideal) x0 (ix2 a b) = dn (Xof x0) a b := by
  simp only [val_main_v18_apply, val_main_v16_apply, val_main_v15_apply, val_main_v13_apply, val_main_v11_apply,
    val_main_v8_apply, val_main_v10_apply, val_main_v6_apply, val_main_v7_apply, val_main_v4_apply, val_main_v5_apply,
    val_main_v1_apply, val_main_v3_apply, val_main_v9_apply, val_main_v12_apply, val_main_v14_apply, val_main_v17_apply,
    val_main_v2_apply, val_main_v0_apply, val_main_cst_apply, val_main_cst_0_apply, val_main_cst_1_apply,
    val_main_cst_2_apply, val_main_cst_3_apply,
    Ideal.maximumf_def, Ideal.addf_def, Ideal.subf_def, Ideal.mulf_def, Ideal.hostUnary_sqrt_def, Ideal.ofBits_def,
    Ideal.ofBits_zero_f32, zero_add, ixA, ixB, ixL, ixR]
  rfl

theorem proj_at (n : Fin 4096) (i : Fin 10) : val_main_v20 (F := Ideal) x0 x2 (ix2 n i) = proj (Xof x0) (Wof x2) n i := by
  simp only [val_main_v20_apply, val_main_v19_apply, ixPL, ixPR]
  rfl

theorem wn_at (i : Fin 10) : val_main_v25 (F := Ideal) x2 (ix1 i) = wn (Wof x2) i := by
  simp only [val_main_v25_apply, val_main_v23_apply, val_main_v22_apply, val_main_v24_apply, val_main_v21_apply,
    val_main_cst_4_apply, val_main_cst_5_apply,
    Ideal.maximumf_def, Ideal.mulf_def, Ideal.hostUnary_sqrt_def, Ideal.ofBits_def, Ideal.ofBits_zero_f32, zero_add, ixW]
  rfl

theorem cnt_le (tn : Fin 4096 → Fin 10) (i : Fin 10) : cnt tn i ≤ 4096 := by
  unfold cnt
  exact (Finset.card_filter_le _ _).trans (by simp)

private theorem wrapped (h : InRange x1) (n : Fin 4096) :
    val_main_v32 (F := Ideal) x1 (ix2 n (0 : Fin 1)) = x1 (ix1 n) := by
  have hn : (x1 (ix1 n)).toNat < 2 ^ 31 := lt_trans (h n) (by norm_num)
  have e : idx_main_v32 (ix2 n (0 : Fin 1)) = ix1 n := by funext d; match d with | ⟨0, _⟩ => rfl
  rw [val_main_v32_apply, e, val_main_v31_apply, val_main_v28_apply, val_main_v30_apply, val_main_v27_apply,
    val_main_c_6_apply]
  exact Cert.LibWordDiv.wrap_word _ hn

theorem cnt_toNat (h : InRange x1) (i : Fin 10) :
    (val_main_v34 (F := Ideal) x1 (ix1 i)).toNat = cnt (tnOf x1 h) i := by
  have h26 : val_main_v26 (F := Ideal) (ix1 i) = 0#32 := by rw [val_main_v26_apply, val_main_c_apply]
  have h33 : ∀ n : Fin 4096, val_main_v33 (F := Ideal) (ix1 n) = 1#32 := fun n => by
    rw [val_main_v33_apply, val_main_c_8_apply]
  unfold val_main_v34
  rw [Cert.LibScatterCount.scatter_add_toNat scatter_S10_S4096x1_S4096_n_0_0_1 rfl rfl rfl rfl _ _ _ i
    (by rw [h26]; simp only [h33]; simp)]
  rw [h26]
  simp only [h33, wrapped x1 h]
  unfold cnt
  rw [Finset.card_filter]
  refine (Nat.zero_add _).trans (Finset.sum_congr rfl fun n _ => ?_)
  refine if_congr ?_ rfl rfl
  rw [BitVec.toInt_eq_toNat_of_lt (by have := h n; omega)]
  constructor
  · intro e; exact Fin.ext (by exact_mod_cast e)
  · intro e; rw [← e]; rfl

theorem cnt_at (h : InRange x1) (i : Fin 10) : val_main_v34 (F := Ideal) x1 (ix1 i) = BitVec.ofNat 32 (cnt (tnOf x1 h) i) := by
  apply BitVec.eq_of_toNat_eq
  rw [cnt_toNat x1 h i, BitVec.toNat_ofNat, Nat.mod_eq_of_lt]
  exact lt_of_le_of_lt (cnt_le _ _) (by norm_num)

private theorem fold_addi_toNat {ι : Type} (s : Finset ι) (g : ι → BitVec 32) :
    (s.fold IntOp.addi 0#32 g).toNat = (∑ k ∈ s, (g k).toNat) % 2 ^ 32 := by
  classical
  induction s using Finset.induction_on with
  | empty => simp
  | insert a s ha ih =>
    rw [Finset.fold_insert ha, Finset.sum_insert ha]
    show (g a + s.fold IntOp.addi 0#32 g).toNat = _
    rw [BitVec.toNat_add, ih, Nat.add_mod_mod]

private theorem sgt_word_toNat (m : ℕ) (hm : m < 2 ^ 31) :
    ((IntOp.cmpi .sgt (BitVec.ofNat 32 m) 0#32).setWidth 32).toNat = if 0 < m then 1 else 0 := by
  have hn : (BitVec.ofNat 32 m).toNat = m := by rw [BitVec.toNat_ofNat]; exact Nat.mod_eq_of_lt (by omega)
  have hi : (BitVec.ofNat 32 m).toInt = (m : ℤ) := by
    rw [BitVec.toInt_eq_toNat_of_lt (by rw [hn]; omega), hn]
  show ((BitVec.ofBool ((0#32).slt (BitVec.ofNat 32 m))).setWidth 32).toNat = _
  rw [BitVec.slt_eq_decide, hi]
  by_cases h0 : 0 < m
  · rw [if_pos h0, decide_eq_true (by simpa using h0)]; rfl
  · rw [if_neg h0, decide_eq_false (by simpa using h0)]; rfl

theorem existN_le (tn : Fin 4096 → Fin 10) : existN tn ≤ 10 := by
  unfold existN
  exact (Finset.card_filter_le _ _).trans (by simp)

theorem exist_toNat (h : InRange x1) : (val_main_v38 (F := Ideal) x1 ix0).toNat = existN (tnOf x1 h) := by
  have hg : ∀ k : Fin 10, (val_main_v37 (F := Ideal) x1 (ix1 k)).toNat = if 0 < cnt (tnOf x1 h) k then 1 else 0 := by
    intro k
    rw [val_main_v37_apply, val_main_v36_apply, val_main_v35_apply, val_main_c_9_apply, cnt_at x1 h k]
    exact sgt_word_toNat _ (lt_of_le_of_lt (cnt_le _ _) (by norm_num))
  unfold val_main_v38
  rw [Host.reduce_eq_fold IntOp.addi _ _ reducesTo_S10_S_d0 h_S_ ix0,
    Finset.filter_true_of_mem (fun i _ => eq_ix0 _), val_main_c_10_apply, fold_addi_toNat,
    ← Equiv.sum_comp (Cert.LibScatterCount.idxEquiv1 (n := 10)).symm]
  show (∑ k : Fin 10, (val_main_v37 (F := Ideal) x1 (ix1 k)).toNat) % 2 ^ 32 = _
  simp only [hg]
  rw [← Finset.card_filter]
  exact Nat.mod_eq_of_lt (lt_of_le_of_lt (existN_le _) (by norm_num))

private theorem sitofp_small (b : BitVec 32) (hb : b.toNat < 2 ^ 31) :
    FloatOps.sitofp (F := Ideal) .f32 b = ((b.toNat : ℝ) : EReal) := by
  show (((b.toInt : ℤ) : ℝ) : EReal) = _
  rw [BitVec.toInt_eq_toNat_of_lt (by omega)]
  norm_cast

theorem exist_at (h : InRange x1) : val_main_v39 (F := Ideal) x1 ix0 = existE (tnOf x1 h) := by
  rw [val_main_v39_apply, sitofp_small _ (by rw [exist_toNat x1 h]; exact lt_of_le_of_lt (existN_le _) (by norm_num)),
    exist_toNat x1 h]
  rfl

private theorem gather_at (x : S10.Idx → BitVec 32) (idx : IVec S4096x1 32) (n : Fin 4096) :
    Host.gather gather_S10_S4096x1_S4096_n_0_n_n_0_1_1 x idx (ix1 n)
      = x (ix1 ⟨min (idx (ix2 n (0 : Fin 1))).toInt.toNat 9, by omega⟩) := by
  unfold Host.gather
  congr 1
  funext a
  obtain rfl : a = 0 := Subsingleton.elim _ _
  refine Fin.ext ?_
  show gather_S10_S4096x1_S4096_n_0_n_n_0_1_1.start (ix1 n) idx 0
      + gather_S10_S4096x1_S4096_n_0_n_n_0_1_1.batchCoord (ix1 n) 0
      + gather_S10_S4096x1_S4096_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S10_S4096x1_S4096_n_0_n_n_0_1_1.startIndexMap from List.mem_singleton.mpr rfl)]
  have hsi : gather_S10_S4096x1_S4096_n_0_n_n_0_1_1.siIdx (ix1 n)
      ⟨List.idxOf (0 : Fin 1) gather_S10_S4096x1_S4096_n_0_n_n_0_1_1.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

theorem Nt_at (h : InRange x1) (n : Fin 4096) : val_main_v47 (F := Ideal) x1 (ix1 n) = NtE (tnOf x1 h) n := by
  have hn : (x1 (ix1 n)).toNat < 2 ^ 31 := lt_trans (h n) (by norm_num)
  have e : idx_main_v45 (ix2 n (0 : Fin 1)) = ix1 n := by funext d; match d with | ⟨0, _⟩ => rfl
  have h45 : val_main_v45 (F := Ideal) x1 (ix2 n (0 : Fin 1)) = x1 (ix1 n) := by
    rw [val_main_v45_apply, e, val_main_v44_apply, val_main_v41_apply, val_main_v43_apply, val_main_v40_apply,
      val_main_c_11_apply]
    exact Cert.LibWordDiv.wrap_word _ hn
  have hidx : (⟨min (val_main_v45 (F := Ideal) x1 (ix2 n (0 : Fin 1))).toInt.toNat 9, by omega⟩ : Fin 10)
      = tnOf x1 h n := by
    refine Fin.ext ?_
    show min (val_main_v45 (F := Ideal) x1 (ix2 n (0 : Fin 1))).toInt.toNat 9 = (x1 (ix1 n)).toNat
    rw [h45, BitVec.toInt_eq_toNat_of_lt (by omega), Int.toNat_natCast]
    have := h n
    omega
  have h46 : val_main_v46 (F := Ideal) x1 (ix1 n) = BitVec.ofNat 32 (cnt (tnOf x1 h) (tnOf x1 h n)) := by
    unfold val_main_v46
    rw [gather_at]
    exact (congrArg (fun k : Fin 10 => val_main_v34 (F := Ideal) x1 (ix1 k)) hidx).trans (cnt_at x1 h _)
  have hc : cnt (tnOf x1 h) (tnOf x1 h n) < 2 ^ 31 := lt_of_le_of_lt (cnt_le _ _) (by norm_num)
  have hm : (BitVec.ofNat 32 (cnt (tnOf x1 h) (tnOf x1 h n))).toNat = cnt (tnOf x1 h) (tnOf x1 h n) := by
    rw [BitVec.toNat_ofNat]; exact Nat.mod_eq_of_lt (by omega)
  rw [val_main_v47_apply, h46, sitofp_small _ (by rw [hm]; exact hc), hm]
  rfl

end Cert.ReferenceIdeal.RefVal

end
-- ==== Proof.RefValIterLib.lean ====
import proofs.«426650_j89962384982112_3_alg».proof.Proof.Spec
import Idealize.ShloMosaic.Lib.Affine
import Idealize.ShloMosaic.Lib.ValueIdx
import Idealize.ShloMosaic.PureOps.Ideal.Laws

noncomputable section

open scoped BigOperators

namespace Cert.ReferenceIdeal.RefVal

open Idealize.ShloMosaic Idealize.ShloMosaic.ValueIdx Cert.Spec

variable (x1 : ST.Idx → BitVec 32)

theorem label_eq_iff (h : InRange x1) (n : Fin 4096) (i : Fin 10) (c : BitVec 32) (hc : c = BitVec.ofNat 32 i.val) :
    x1 (ix1 n) = c ↔ tnOf x1 h n = i := by
  subst hc
  have hi : i.val < 10 := i.isLt
  constructor
  · intro e
    apply Fin.ext
    show (x1 (ix1 n)).toNat = i.val
    rw [e, BitVec.toNat_ofNat]
    omega
  · intro e
    apply BitVec.eq_of_toNat_eq
    have e' : (x1 (ix1 n)).toNat = i.val := congrArg Fin.val e
    rw [e', BitVec.toNat_ofNat]
    omega

theorem pair_select (h : InRange x1) (i : Fin 10) (c : BitVec 32) (hc : c = BitVec.ofNat 32 i.val) (a b : Fin 4096)
    (A B : EReal) :
    Scalar.select (IntOp.andi (IntOp.cmpi .eq (x1 (ix1 a)) c) (~~~(IntOp.cmpi .eq (x1 (ix1 b)) c))) A B
      = if tnOf x1 h a = i ∧ tnOf x1 h b ≠ i then A else B := by
  unfold Scalar.select
  refine if_congr ?_ rfl rfl
  refine IntOp.andi_eq_one.trans ?_
  rw [IntOp.not_eq_one, IntOp.cmpi_eq, IntOp.cmpi_eq, label_eq_iff x1 h a i c hc, label_eq_iff x1 h b i c hc]

variable (tn : Fin 4096 → Fin 10)

theorem cnt_le (i : Fin 10) : cnt tn i ≤ 4096 := by
  unfold cnt
  exact (Finset.card_le_univ _).trans (by simp)

theorem NiE_of_word (i : Fin 10) :
    FloatOps.sitofp (F := Ideal) .f32 (IntOp.maxsi (BitVec.ofNat 32 (cnt tn i)) 1#32) = NiE tn i := by
  have hle := cnt_le tn i
  show (((IntOp.maxsi (BitVec.ofNat 32 (cnt tn i)) 1#32).toInt : ℝ) : EReal) = _
  unfold NiE
  have key : (IntOp.maxsi (BitVec.ofNat 32 (cnt tn i)) 1#32).toInt = ((max (cnt tn i) 1 : ℕ) : ℤ) := by
    unfold IntOp.maxsi
    have h1 : (BitVec.ofNat 32 (cnt tn i)).toInt = (cnt tn i : ℤ) := by
      rw [BitVec.toInt_eq_toNat_of_lt (by rw [BitVec.toNat_ofNat]; omega), BitVec.toNat_ofNat]
      congr 1; omega
    have hs : (1#32 : BitVec 32).slt (BitVec.ofNat 32 (cnt tn i)) = true ↔ 1 < cnt tn i := by
      rw [BitVec.slt_iff_toInt_lt, h1]
      show (1 : ℤ) < _ ↔ _
      omega
    by_cases hc : 1 < cnt tn i
    · rw [if_pos (hs.mpr hc), h1]
      congr 1; omega
    · rw [if_neg (fun e => hc (hs.mp e))]
      show (1 : ℤ) = _
      rw [max_eq_right (by omega)]; rfl
  rw [key]
  norm_cast

theorem valid_select (i : Fin 10) (A B : EReal) :
    Scalar.select (IntOp.cmpi .sgt (BitVec.ofNat 32 (cnt tn i)) 0#32) A B = if 0 < cnt tn i then A else B := by
  have hle := cnt_le tn i
  unfold Scalar.select
  refine if_congr ?_ rfl rfl
  refine IntOp.cmpi_sgt.trans ?_
  have h1 : (BitVec.ofNat 32 (cnt tn i)).toInt = (cnt tn i : ℤ) := by
    rw [BitVec.toInt_eq_toNat_of_lt (by rw [BitVec.toNat_ofNat]; omega), BitVec.toNat_ofNat]
    congr 1; omega
  rw [h1]
  show (0 : ℤ) < _ ↔ _
  omega

theorem pair_sum (f : (⟨2, ![4096, 4096]⟩ : Shape).Idx → EReal) :
    Ideal.ofBits .f32 0x00000000#32 + ∑ j, f j = ∑ a : Fin 4096, ∑ b : Fin 4096, f (ix2 a b) := by
  rw [Ideal.ofBits_zero_f32, zero_add, sum_idx2]

end Cert.ReferenceIdeal.RefVal

end
-- ==== Proof.RefValIter.lean ====
import proofs.«426650_j89962384982112_3_alg».proof.Proof.RefValPre
import proofs.«426650_j89962384982112_3_alg».proof.Proof.RefBlk
import proofs.«426650_j89962384982112_3_alg».proof.Proof.RefValIterLib

noncomputable section

open scoped BigOperators

namespace Cert.ReferenceIdeal.RefVal

open Idealize.ShloMosaic Idealize.ShloMosaic.ValueIdx Cert.ReferenceIdeal Cert.ReferenceIdeal.Gen Cert.ReferenceIdeal.ReadP Cert.ReferenceIdeal.Blk Cert.Spec

variable (k : Fin 10) (x0 : FVec Ideal S4096x128 .f32) (x1 : IVec S4096 32) (x2 : FVec Ideal S10x128 .f32)

theorem cast_scalar {α : Type} (y : S1.Idx → α) (j : S_.Idx) : shapeCast S_ y shapeCasts_S1_S_ j = y (ix1 (0 : Fin 1)) :=
  shapeCast_apply y shapeCasts_S1_S_ j (ix1 (0 : Fin 1)) (by
    rw [Shape.rowMajor_val_one]
    exact (Shape.rowMajorPi_zero _ _).symm)

theorem size_word (h : InRange x1) (j : S_.Idx) :
    s57 (F := Ideal) k x1 j = BitVec.ofNat 32 (cnt (tnOf x1 h) k) := by
  unfold s57
  rw [cast_scalar, s56_apply,
    show at1 k (ix1 (0 : Fin 1)) = ix1 k from funext fun a => match a with | ⟨0, _⟩ => rfl]
  exact cnt_at x1 h k

theorem size_num (h : InRange x1) (j : S_.Idx) : s59 (F := Ideal) k x1 j = NiE (tnOf x1 h) k := by
  rw [s59_apply, s58_apply, val_main_c_14_apply, size_word k x1 h]
  exact NiE_of_word _ _

theorem dir_norm (j : S_.Idx) : s74 (F := Ideal) k x2 j = wn (Wof x2) k := by
  unfold s74
  rw [cast_scalar, s73_apply,
    show at1 k (ix1 (0 : Fin 1)) = ix1 k from funext fun a => match a with | ⟨0, _⟩ => rfl]
  exact wn_at x2 k

theorem recip_at (h : InRange x1) (u : Fin 1) (b : Fin 4096) :
    s64 (F := Ideal) k x1 (ix2 u b) = Ideal.div one (NtE (tnOf x1 h) b * NiE (tnOf x1 h) k) := by
  rw [s64_apply, val_main_v63_apply, val_main_cst_15_apply, s62_apply, val_main_v60_apply,
    s61_apply, size_num k x1 h,
    show idx_main_v60 (ix2 u b) = ix1 b from funext fun a => match a with | ⟨0, _⟩ => rfl, Nt_at x1 h b]
  rfl

theorem weight_at (h : InRange x1) (a b : Fin 4096) :
    s65 (F := Ideal) k x1 (ix2 a b) = wR (tnOf x1 h) k a b := by
  rw [s65_apply, s55_apply, s53_apply, s50_apply, s49_apply,
    s48_apply, cls_apply, s54_apply, s52_apply, s51_apply,
    s49_apply, s48_apply, cls_apply, sW_apply, val_main_call0_v2_apply,
    val_main_call0_v0_apply, val_main_cst_apply,
    show idx_main_v50 (idx_main_v53 (ix2 a b)) = ix1 a from funext fun d => match d with | ⟨0, _⟩ => rfl,
    show idx_main_v52 (idx_main_v54 (ix2 a b)) = ix1 b from funext fun d => match d with | ⟨0, _⟩ => rfl,
    show idx_main_call0_v1 (ix2 a b) = ix2 (0 : Fin 1) b from
      funext fun d => match d with | ⟨0, _⟩ => rfl | ⟨1, _⟩ => rfl,
    recip_at k x1 h, Ideal.ofBits_def, Ideal.ofBits_zero_f32]
  exact pair_select x1 h k _ rfl a b _ _

theorem margin_at (a b : Fin 4096) :
    s77 (F := Ideal) k x0 x2 (ix2 a b) = MR (Xof x0) (Wof x2) k a b := by
  rw [s77_apply, s72_apply, s70_apply, s68_apply, s67_apply,
    s66_apply, s71_apply, s69_apply, s67_apply, s66_apply,
    s76_apply, s75_apply, dir_norm,
    show at2 k (idx_main_v67 (idx_main_v68 (idx_main_v70 (ix2 a b)))) = ix2 a k from
      funext fun d => match d with | ⟨0, _⟩ => Fin.ext (Nat.div_one _) | ⟨1, _⟩ => rfl,
    show at2 k (idx_main_v67 (idx_main_v69 (idx_main_v71 (ix2 a b)))) = ix2 b k from
      funext fun d => match d with | ⟨0, _⟩ => Fin.ext (Nat.div_one _) | ⟨1, _⟩ => rfl,
    proj_at, proj_at, dn_at]
  rfl

theorem denom1 (h : InRange x1) (j : S_.Idx) : val_main_v83 (F := Ideal) x1 j = denomE (tnOf x1 h) := by
  obtain rfl := eq_ix0 j
  rw [val_main_v83_apply, val_main_cst_15_apply, exist_at x1 h]
  rfl

theorem stat1 (h : InRange x1) (j : S_.Idx) :
    s84 (F := Ideal) k x0 x1 x2 j = l1R (Xof x0) (tnOf x1 h) (Wof x2) k := by
  rw [s84_apply, denom1 x1 h, s82_apply, val_main_cst_apply, Ideal.ofBits_def, pair_sum]
  unfold l1R
  refine congrArg (fun s => Ideal.div s (denomE (tnOf x1 h))) ?_
  refine Finset.sum_congr rfl fun a _ => Finset.sum_congr rfl fun b _ => ?_
  rw [s81_apply, s80_apply, s79_apply, val_main_v78_apply, val_main_cst_15_apply,
    weight_at k x1 h, margin_at]
  rfl

theorem stat2 (h : InRange x1) (j : S_.Idx) :
    s88 (F := Ideal) k x0 x1 x2 j = mmR (Xof x0) (tnOf x1 h) (Wof x2) k := by
  rw [s88_apply, denom1 x1 h, s86_apply, val_main_cst_apply, Ideal.ofBits_def, pair_sum]
  unfold mmR
  refine congrArg (fun s => Ideal.div s (denomE (tnOf x1 h))) ?_
  refine Finset.sum_congr rfl fun a _ => Finset.sum_congr rfl fun b _ => ?_
  rw [s85_apply, weight_at k x1 h, margin_at]
  rfl

theorem stat3 (h : InRange x1) (j : S_.Idx) :
    s95 (F := Ideal) k x0 x1 x2 j = mvR (Xof x0) (tnOf x1 h) (Wof x2) k := by
  rw [s95_apply, denom1 x1 h, s93_apply, val_main_cst_apply, Ideal.ofBits_def, pair_sum]
  unfold mvR
  refine congrArg (fun s => Ideal.div s (denomE (tnOf x1 h))) ?_
  refine Finset.sum_congr rfl fun a _ => Finset.sum_congr rfl fun b _ => ?_
  rw [s92_apply, s91_apply, s90_apply, s89_apply, stat2 k x0 x1 x2 h,
    weight_at k x1 h, margin_at]
  rfl

-- What class `k` adds to the first running sum: its first statistic when the class is non-empty.
theorem sel1 (h : InRange x1) : s99 (F := Ideal) k x0 x1 x2 ix0
    = if 0 < cnt (tnOf x1 h) k then l1R (Xof x0) (tnOf x1 h) (Wof x2) k else 0 := by
  rw [s99_apply, s98_apply, size_word k x1 h, val_main_c_24_apply, stat1 k x0 x1 x2 h,
    val_main_call1_v0_apply, val_main_cst_apply, Ideal.ofBits_def, Ideal.ofBits_zero_f32]
  exact valid_select _ _ _ _

-- What class `k` adds to the second running sum: the absolute ratio of its third statistic to its second.
theorem sel2 (h : InRange x1) : s103 (F := Ideal) k x0 x1 x2 ix0
    = if 0 < cnt (tnOf x1 h) k then absE (Ideal.div (mvR (Xof x0) (tnOf x1 h) (Wof x2) k)
        (mmR (Xof x0) (tnOf x1 h) (Wof x2) k)) else 0 := by
  rw [s103_apply, s98_apply, size_word k x1 h, val_main_c_24_apply, s102_apply,
    s101_apply, stat3 k x0 x1 x2 h, stat2 k x0 x1 x2 h,
    val_main_call1_v0_apply, val_main_cst_apply, Ideal.ofBits_def, Ideal.ofBits_zero_f32]
  exact valid_select _ _ _ _

end Cert.ReferenceIdeal.RefVal

end
-- ==== Proof.RefVal.lean ====
import proofs.«426650_j89962384982112_3_alg».proof.Defs
import proofs.«426650_j89962384982112_3_alg».proof.Proof.Gen.ReferenceIdeal
import proofs.«426650_j89962384982112_3_alg».proof.Proof.Spec
import proofs.«426650_j89962384982112_3_alg».proof.Proof.RefRead
import proofs.«426650_j89962384982112_3_alg».proof.Proof.RefValIter

noncomputable section

namespace Cert.ReferenceIdeal.Hand

open Idealize.ShloMosaic Idealize.ShloMosaic.TcCoe Idealize.SL.Sem Cert.ReferenceIdeal Cert.ReferenceIdeal.Gen Cert.Spec
open Idealize.ShloMosaic.ValueIdx Cert.ReferenceIdeal.ReadP Cert.ReferenceIdeal.RefVal

private theorem sum_ten (f : Fin 10 → EReal) :
    ∑ i, f i = 0 + f 0 + f 1 + f 2 + f 3 + f 4 + f 5 + f 6 + f 7 + f 8 + f 9 := by
  rw [zero_add]
  simp only [Fin.sum_univ_succ, Fin.sum_univ_zero, add_zero, ← add_assoc]
  rfl

theorem val_out1 (x0 : FVec Ideal S4096x128 .f32) (x1 : IVec S4096 32) (x2 : FVec Ideal S10x128 .f32) (h : InRange x1) :
    Cert.ReferenceIdeal.ReadP.val_main_v618 (F := Ideal) x0 x1 x2 = fun _ => Rout1 (Xof x0) (tnOf x1 h) (Wof x2) := by
  funext j
  have hj := eq_ix0 j
  subst hj
  show val_main_v618 (F := Ideal) x0 x1 x2 ix0 = Rout1 (Xof x0) (tnOf x1 h) (Wof x2)
  rw [val_main_v618_apply, val_main_v613_apply, val_main_v556_apply, val_main_v499_apply, val_main_v442_apply, val_main_v385_apply, val_main_v328_apply, val_main_v271_apply, val_main_v214_apply, val_main_v157_apply, val_main_v100_apply, val_main_cst_apply,
    sel1 0 x0 x1 x2 h, sel1 1 x0 x1 x2 h, sel1 2 x0 x1 x2 h, sel1 3 x0 x1 x2 h, sel1 4 x0 x1 x2 h, sel1 5 x0 x1 x2 h, sel1 6 x0 x1 x2 h, sel1 7 x0 x1 x2 h, sel1 8 x0 x1 x2 h, sel1 9 x0 x1 x2 h, exist_at x1 h]
  unfold Rout1
  rw [sum_ten (fun i => if 0 < cnt (tnOf x1 h) i then l1R (Xof x0) (tnOf x1 h) (Wof x2) i else 0)]
  simp only [Ideal.hostDivf_def, Ideal.addf_def, Ideal.ofBits_def, Ideal.ofBits_zero_f32]

theorem val_out2 (x0 : FVec Ideal S4096x128 .f32) (x1 : IVec S4096 32) (x2 : FVec Ideal S10x128 .f32) (h : InRange x1) :
    Cert.ReferenceIdeal.ReadP.val_main_v619 (F := Ideal) x0 x1 x2 = fun _ => Rout2 (Xof x0) (tnOf x1 h) (Wof x2) := by
  funext j
  have hj := eq_ix0 j
  subst hj
  show val_main_v619 (F := Ideal) x0 x1 x2 ix0 = Rout2 (Xof x0) (tnOf x1 h) (Wof x2)
  rw [val_main_v619_apply, val_main_v617_apply, val_main_v560_apply, val_main_v503_apply, val_main_v446_apply, val_main_v389_apply, val_main_v332_apply, val_main_v275_apply, val_main_v218_apply, val_main_v161_apply, val_main_v104_apply, val_main_cst_apply,
    sel2 0 x0 x1 x2 h, sel2 1 x0 x1 x2 h, sel2 2 x0 x1 x2 h, sel2 3 x0 x1 x2 h, sel2 4 x0 x1 x2 h, sel2 5 x0 x1 x2 h, sel2 6 x0 x1 x2 h, sel2 7 x0 x1 x2 h, sel2 8 x0 x1 x2 h, sel2 9 x0 x1 x2 h, exist_at x1 h]
  unfold Rout2
  rw [sum_ten (fun i => if 0 < cnt (tnOf x1 h) i then
    absE (Ideal.div (mvR (Xof x0) (tnOf x1 h) (Wof x2) i) (mmR (Xof x0) (tnOf x1 h) (Wof x2) i)) else 0)]
  simp only [Ideal.hostDivf_def, Ideal.addf_def, Ideal.ofBits_def, Ideal.ofBits_zero_f32]

end Cert.ReferenceIdeal.Hand

end
-- ==== Proof.PreDecode.lean ====
import proofs.«426650_j89962384982112_3_alg».proof.Pre_finite_inputs
import proofs.«426650_j89962384982112_3_alg».proof.Proof.Spec
import Idealize.ShloMosaic.Lib.ReduceAll

noncomputable section

namespace Cert.PreDecode

open Idealize.ShloMosaic Idealize.ShloMosaic.ValueIdx Cert.Spec

variable [Cert.Pre_finite_inputs.Facts]

instance : Subsingleton Cert.Pre_finite_inputs.S_.Idx := ⟨fun a b => funext fun d => d.elim0⟩

theorem inf_pattern : (Ideal.ofBits .f32 0x7F800000#32 : EReal) = ⊤ := by
  simp [Ideal.ofBits, Ideal.ieee]

theorem real_of_abs_lt (v : EReal)
    (h : Ideal.cmp .olt (max v (-v)) (Ideal.ofBits .f32 0x7F800000#32) = 1#1) : ∃ r : ℝ, v = (r : EReal) := by
  rw [inf_pattern] at h
  induction v using EReal.rec with
  | bot => simp [Ideal.cmp] at h
  | coe r => exact ⟨r, rfl⟩
  | top => simp [Ideal.cmp] at h

theorem toNat_lt_ten (v : BitVec 32) (h0 : IntOp.cmpi .sge v 0#32 = 1#1) (h1 : IntOp.cmpi .slt v 10#32 = 1#1) :
    v.toNat < 10 := by
  rw [IntOp.cmpi_sge, show (0#32 : BitVec 32).toInt = 0 from by decide] at h0
  rw [IntOp.cmpi_slt, show (10#32 : BitVec 32).toInt = 10 from by decide] at h1
  rw [BitVec.toInt_eq_toNat_cond] at h0 h1
  split at h0 <;> omega

theorem conjuncts (x : FVec Ideal Cert.Pre_finite_inputs.S4096x128 .f32) (t : IVec Cert.Pre_finite_inputs.S4096 32)
    (w : FVec Ideal Cert.Pre_finite_inputs.S10x128 .f32)
    (h : Cert.Pre_finite_inputs.fn (F := Ideal) x t w = fun _ => 1#1) :
    (∀ i, Ideal.cmp .olt (max (x i) (-(x i))) (Ideal.ofBits .f32 0x7F800000#32) = 1#1) ∧
    (∀ i, Ideal.cmp .olt (max (w i) (-(w i))) (Ideal.ofBits .f32 0x7F800000#32) = 1#1) ∧
    (∀ i, IntOp.cmpi .sge (t i) 0#32 = 1#1 ∧ IntOp.cmpi .slt (t i) 10#32 = 1#1) := by
  have h0 := congrFun h ValueIdx.ix0
  dsimp only [Cert.Pre_finite_inputs.fn] at h0
  obtain ⟨hxw, ht⟩ := IntOp.andi_eq_one.1 h0
  obtain ⟨hx, hw⟩ := IntOp.andi_eq_one.1 hxw
  refine ⟨fun i => ?_, fun i => ?_, fun i => ?_⟩
  · exact Host.reduce_andi_all _ _ _ _ _ hx i
  · exact Host.reduce_andi_all _ _ _ _ _ hw i
  · exact IntOp.andi_eq_one.1 (Host.reduce_andi_all _ _ _ _ _ ht i)

theorem finite_X (x : FVec Ideal Cert.Pre_finite_inputs.S4096x128 .f32) (t : IVec Cert.Pre_finite_inputs.S4096 32)
    (w : FVec Ideal Cert.Pre_finite_inputs.S10x128 .f32)
    (h : Cert.Pre_finite_inputs.fn (F := Ideal) x t w = fun _ => 1#1) :
    ∀ (n : Fin 4096) (k : Fin 128), ∃ r : ℝ, Xof x n k = (r : EReal) :=
  fun n k => real_of_abs_lt _ ((conjuncts x t w h).1 (ix2 n k))

theorem finite_W (x : FVec Ideal Cert.Pre_finite_inputs.S4096x128 .f32) (t : IVec Cert.Pre_finite_inputs.S4096 32)
    (w : FVec Ideal Cert.Pre_finite_inputs.S10x128 .f32)
    (h : Cert.Pre_finite_inputs.fn (F := Ideal) x t w = fun _ => 1#1) :
    ∀ (i : Fin 10) (k : Fin 128), ∃ r : ℝ, Wof w i k = (r : EReal) :=
  fun i k => real_of_abs_lt _ ((conjuncts x t w h).2.1 (ix2 i k))

theorem inRange (x : FVec Ideal Cert.Pre_finite_inputs.S4096x128 .f32) (t : IVec Cert.Pre_finite_inputs.S4096 32)
    (w : FVec Ideal Cert.Pre_finite_inputs.S10x128 .f32)
    (h : Cert.Pre_finite_inputs.fn (F := Ideal) x t w = fun _ => 1#1) :
    InRange t :=
  fun n => toNat_lt_ten _ ((conjuncts x t w h).2.2 (ix1 n)).1 ((conjuncts x t w h).2.2 (ix1 n)).2

end Cert.PreDecode

end
-- ==== Proof.MathKer.lean ====
import proofs.«426650_j89962384982112_3_alg».proof.Proof.MathLits
import Mathlib.Algebra.BigOperators.Fin
import Mathlib.Logic.Equiv.Fin.Basic
import Mathlib.Tactic.Ring
import Mathlib.Tactic.NormNum

noncomputable section

open scoped BigOperators

namespace Cert.Spec.R

open Cert.Spec Idealize.ShloMosaic

theorem sum_blocks {m n N : ℕ} (h : m * n = N) (f : Fin N → ℝ) (r : Fin m → Fin n → Fin N)
    (hr : ∀ i j, (r i j).val = i.val * n + j.val) :
    ∑ i, ∑ j, f (r i j) = ∑ a, f a := by
  subst h
  calc ∑ i, ∑ j, f (r i j) = ∑ p : Fin m × Fin n, f (r p.1 p.2) :=
        (Fintype.sum_prod_type' (fun i j => f (r i j))).symm
    _ = ∑ a, f a := by
        refine Fintype.sum_equiv finProdFinEquiv _ _ ?_
        rintro ⟨i, j⟩
        congr 1
        apply Fin.ext
        rw [hr]
        simp [finProdFinEquiv, Nat.mul_comm, Nat.add_comm]

theorem sum_rowA (f : Fin 4096 → ℝ) : ∑ ia, ∑ a', f (rowA ia a') = ∑ a, f a :=
  sum_blocks (by norm_num) f rowA (fun _ _ => rfl)

theorem sum_rowB (f : Fin 4096 → ℝ) : ∑ ib, ∑ b', f (rowB ib b') = ∑ b, f b :=
  sum_blocks (by norm_num) f rowB (fun _ _ => rfl)

variable (x : Fin 4096 → Fin 128 → ℝ) (tn : Fin 4096 → Fin 10) (w : Fin 10 → Fin 128 → ℝ)

theorem Ntr_ge_one (b : Fin 4096) : 1 ≤ Ntr tn b := by
  unfold Ntr cnt
  have h : 0 < (Finset.univ.filter fun n : Fin 4096 => tn n = tn b).card :=
    Finset.card_pos.mpr ⟨b, by simp⟩
  exact_mod_cast h

theorem Nir_ge_one (i : Fin 10) : 1 ≤ Nir tn i := by
  unfold Nir
  have h : 1 ≤ max (cnt tn i) 1 := le_max_right _ _
  exact_mod_cast h

def u0r (b : Fin 4096) (i : Fin 10) : ℝ := (if tn b ≠ i then (1 : ℝ) else 0) * (1 / Ntr tn b)

def posr (a : Fin 4096) (i : Fin 10) : ℝ := if tn a = i then 1 else 0

theorem ite_coe (c : Prop) [Decidable c] (a b : ℝ) :
    (if c then ((a : ℝ) : EReal) else ((b : ℝ) : EReal)) = (((if c then a else b) : ℝ) : EReal) := by
  split_ifs <;> rfl

theorem posE_up (a : Fin 4096) (i : Fin 10) : posE tn a i = ((posr tn a i : ℝ) : EReal) := by
  unfold posE posr
  rw [← EReal.coe_one, ← EReal.coe_zero, ite_coe]

theorem u0_up (b : Fin 4096) (i : Fin 10) : u0 tn b i = ((u0r tn b i : ℝ) : EReal) := by
  have h1 : max (NtE tn b) one = ((Ntr tn b : ℝ) : EReal) := by
    rw [one_eq]
    show max ((Ntr tn b : ℝ) : EReal) ((1 : ℝ) : EReal) = _
    exact max_eq_left (EReal.coe_le_coe_iff.mpr (Ntr_ge_one tn b))
  have h2 : Ntr tn b ≠ 0 := ne_of_gt (lt_of_lt_of_le one_pos (Ntr_ge_one tn b))
  unfold u0 u0r
  rw [h1, Ideal.div_coe h2, one_eq, ← EReal.coe_mul, one_mul, ← EReal.coe_one, ← EReal.coe_zero, ite_coe,
    ← EReal.coe_mul]

theorem u1_up (b : Fin 4096) (i : Fin 10) :
    u1 (up x) tn (up w) b i = ((u0r tn b i * projr x w b i : ℝ) : EReal) := by
  unfold u1
  rw [u0_up, proj_up, ← EReal.coe_mul]

theorem u2_up (b : Fin 4096) (i : Fin 10) :
    u2 (up x) tn (up w) b i = ((u0r tn b i * projr x w b i * projr x w b i : ℝ) : EReal) := by
  unfold u2
  rw [u0_up, proj_up, ← EReal.coe_mul, ← EReal.coe_mul]

def rd (a b : Fin 4096) : ℝ := (distr x a b)⁻¹

def AU0r (a : Fin 4096) (ib : Fin 4) (i : Fin 10) : ℝ := ∑ b', rd x a (rowB ib b') * u0r tn (rowB ib b') i
def AU1r (a : Fin 4096) (ib : Fin 4) (i : Fin 10) : ℝ :=
  ∑ b', rd x a (rowB ib b') * (u0r tn (rowB ib b') i * projr x w (rowB ib b') i)
def BU0r (a : Fin 4096) (ib : Fin 4) (i : Fin 10) : ℝ :=
  ∑ b', (rd x a (rowB ib b') * rd x a (rowB ib b')) * u0r tn (rowB ib b') i
def BU1r (a : Fin 4096) (ib : Fin 4) (i : Fin 10) : ℝ :=
  ∑ b', (rd x a (rowB ib b') * rd x a (rowB ib b')) * (u0r tn (rowB ib b') i * projr x w (rowB ib b') i)
def BU2r (a : Fin 4096) (ib : Fin 4) (i : Fin 10) : ℝ :=
  ∑ b', (rd x a (rowB ib b') * rd x a (rowB ib b')) *
    (u0r tn (rowB ib b') i * projr x w (rowB ib b') i * projr x w (rowB ib b') i)

theorem AU0_up (a : Fin 4096) (ib : Fin 4) (i : Fin 10) :
    AU0 (up x) tn a ib i = ((AU0r x tn a ib i : ℝ) : EReal) := by
  unfold AU0 AU0r
  rw [coe_sum]
  refine Finset.sum_congr rfl fun b' _ => ?_
  rw [Ak_up, u0_up, ← EReal.coe_mul]; rfl

theorem AU1_up (a : Fin 4096) (ib : Fin 4) (i : Fin 10) :
    AU1 (up x) tn (up w) a ib i = ((AU1r x tn w a ib i : ℝ) : EReal) := by
  unfold AU1 AU1r
  rw [coe_sum]
  refine Finset.sum_congr rfl fun b' _ => ?_
  rw [Ak_up, u1_up, ← EReal.coe_mul]; rfl

theorem BU0_up (a : Fin 4096) (ib : Fin 4) (i : Fin 10) :
    BU0 (up x) tn a ib i = ((BU0r x tn a ib i : ℝ) : EReal) := by
  unfold BU0 BU0r
  rw [coe_sum]
  refine Finset.sum_congr rfl fun b' _ => ?_
  rw [Ak_up, u0_up, ← EReal.coe_mul, ← EReal.coe_mul]; rfl

theorem BU1_up (a : Fin 4096) (ib : Fin 4) (i : Fin 10) :
    BU1 (up x) tn (up w) a ib i = ((BU1r x tn w a ib i : ℝ) : EReal) := by
  unfold BU1 BU1r
  rw [coe_sum]
  refine Finset.sum_congr rfl fun b' _ => ?_
  rw [Ak_up, u1_up, ← EReal.coe_mul, ← EReal.coe_mul]; rfl

theorem BU2_up (a : Fin 4096) (ib : Fin 4) (i : Fin 10) :
    BU2 (up x) tn (up w) a ib i = ((BU2r x tn w a ib i : ℝ) : EReal) := by
  unfold BU2 BU2r
  rw [coe_sum]
  refine Finset.sum_congr rfl fun b' _ => ?_
  rw [Ak_up, u2_up, ← EReal.coe_mul, ← EReal.coe_mul]; rfl

def s1partr (ia : Fin 8) (ib : Fin 4) (i : Fin 10) : ℝ :=
  ∑ a', posr tn (rowA ia a') i *
    (projr x w (rowA ia a') i * AU0r x tn (rowA ia a') ib i - AU1r x tn w (rowA ia a') ib i)

def s2partr (ia : Fin 8) (ib : Fin 4) (i : Fin 10) : ℝ :=
  ∑ a', posr tn (rowA ia a') i *
    (projr x w (rowA ia a') i * projr x w (rowA ia a') i * BU0r x tn (rowA ia a') ib i
      - 2 * projr x w (rowA ia a') i * BU1r x tn w (rowA ia a') ib i + BU2r x tn w (rowA ia a') ib i)

theorem s1part_up (ia : Fin 8) (ib : Fin 4) (i : Fin 10) :
    s1part (up x) tn (up w) ia ib i = ((s1partr x tn w ia ib i : ℝ) : EReal) := by
  unfold s1part s1partr
  rw [coe_sum]
  refine Finset.sum_congr rfl fun a' _ => ?_
  rw [posE_up, proj_up, AU0_up, AU1_up, ← EReal.coe_mul, ← EReal.coe_sub, ← EReal.coe_mul]

theorem s2part_up (ia : Fin 8) (ib : Fin 4) (i : Fin 10) :
    s2part (up x) tn (up w) ia ib i = ((s2partr x tn w ia ib i : ℝ) : EReal) := by
  unfold s2part s2partr
  rw [coe_sum]
  refine Finset.sum_congr rfl fun a' _ => ?_
  rw [posE_up, proj_up, BU0_up, BU1_up, BU2_up, two_eq, ← EReal.coe_mul, ← EReal.coe_mul, ← EReal.coe_mul,
    ← EReal.coe_mul, ← EReal.coe_sub, ← EReal.coe_add, ← EReal.coe_mul]

theorem S1raw_up (i : Fin 10) :
    S1raw (up x) tn (up w) i = ((∑ ia, ∑ ib, s1partr x tn w ia ib i : ℝ) : EReal) := by
  unfold S1raw
  rw [coe_sum]
  refine Finset.sum_congr rfl fun ia _ => ?_
  rw [coe_sum]
  exact Finset.sum_congr rfl fun ib _ => s1part_up x tn w ia ib i

theorem S2raw_up (i : Fin 10) :
    S2raw (up x) tn (up w) i = ((∑ ia, ∑ ib, s2partr x tn w ia ib i : ℝ) : EReal) := by
  unfold S2raw
  rw [coe_sum]
  refine Finset.sum_congr rfl fun ia _ => ?_
  rw [coe_sum]
  exact Finset.sum_congr rfl fun ib _ => s2part_up x tn w ia ib i

theorem sum_grid (K : Fin 4096 → Fin 4096 → ℝ) :
    ∑ ia, ∑ ib, ∑ a', ∑ b', K (rowA ia a') (rowB ib b') = ∑ a, ∑ b, K a b := by
  calc ∑ ia, ∑ ib, ∑ a', ∑ b', K (rowA ia a') (rowB ib b')
      = ∑ ia, ∑ a', ∑ ib, ∑ b', K (rowA ia a') (rowB ib b') :=
        Finset.sum_congr rfl fun ia _ => Finset.sum_comm
    _ = ∑ ia, ∑ a', ∑ b, K (rowA ia a') b :=
        Finset.sum_congr rfl fun ia _ => Finset.sum_congr rfl fun a' _ => sum_rowB (fun b => K (rowA ia a') b)
    _ = ∑ a, ∑ b, K a b := sum_rowA (fun a => ∑ b, K a b)

def K1 (i : Fin 10) (a b : Fin 4096) : ℝ :=
  posr tn a i * (projr x w a i * (rd x a b * u0r tn b i) - rd x a b * (u0r tn b i * projr x w b i))

def K2 (i : Fin 10) (a b : Fin 4096) : ℝ :=
  posr tn a i * (projr x w a i * projr x w a i * ((rd x a b * rd x a b) * u0r tn b i)
    - 2 * projr x w a i * ((rd x a b * rd x a b) * (u0r tn b i * projr x w b i))
    + (rd x a b * rd x a b) * (u0r tn b i * projr x w b i * projr x w b i))

theorem s1partr_eq (ia : Fin 8) (ib : Fin 4) (i : Fin 10) :
    s1partr x tn w ia ib i = ∑ a', ∑ b', K1 x tn w i (rowA ia a') (rowB ib b') := by
  unfold s1partr K1 AU0r AU1r
  refine Finset.sum_congr rfl fun a' _ => ?_
  rw [Finset.mul_sum, ← Finset.sum_sub_distrib, Finset.mul_sum]

theorem s2partr_eq (ia : Fin 8) (ib : Fin 4) (i : Fin 10) :
    s2partr x tn w ia ib i = ∑ a', ∑ b', K2 x tn w i (rowA ia a') (rowB ib b') := by
  unfold s2partr K2 BU0r BU1r BU2r
  refine Finset.sum_congr rfl fun a' _ => ?_
  rw [Finset.mul_sum, Finset.mul_sum, ← Finset.sum_sub_distrib, ← Finset.sum_add_distrib, Finset.mul_sum]

theorem K1_eq (i : Fin 10) (a b : Fin 4096) :
    1 * (1 / (Nir tn i * wnr w i)) * K1 x tn w i a b = pw tn i a b * Mr x w i a b := by
  unfold K1 posr u0r pw Mr rd
  by_cases h1 : tn a = i <;> by_cases h2 : tn b = i <;>
    simp only [h1, h2, ne_eq, not_true_eq_false, not_false_eq_true, and_true, and_false, false_and, and_self,
      if_true, if_false, one_div, div_eq_mul_inv, mul_inv] <;> ring

theorem K2_eq (i : Fin 10) (a b : Fin 4096) :
    1 * (1 / (Nir tn i * wnr w i * wnr w i)) * K2 x tn w i a b = pw tn i a b * (Mr x w i a b * Mr x w i a b) := by
  unfold K2 posr u0r pw Mr rd
  by_cases h1 : tn a = i <;> by_cases h2 : tn b = i <;>
    simp only [h1, h2, ne_eq, not_true_eq_false, not_false_eq_true, and_true, and_false, false_and, and_self,
      if_true, if_false, one_div, div_eq_mul_inv, mul_inv] <;> ring

theorem S1_real (i : Fin 10) :
    1 * (1 / (Nir tn i * wnr w i)) * ∑ ia, ∑ ib, s1partr x tn w ia ib i = s1 x tn w i := by
  have h : ∑ ia, ∑ ib, s1partr x tn w ia ib i = ∑ a, ∑ b, K1 x tn w i a b := by
    rw [← sum_grid]
    exact Finset.sum_congr rfl fun ia _ => Finset.sum_congr rfl fun ib _ => s1partr_eq x tn w ia ib i
  rw [h, Finset.mul_sum]
  unfold s1
  refine Finset.sum_congr rfl fun a _ => ?_
  rw [Finset.mul_sum]
  exact Finset.sum_congr rfl fun b _ => K1_eq x tn w i a b

theorem S2_real (i : Fin 10) :
    1 * (1 / (Nir tn i * wnr w i * wnr w i)) * ∑ ia, ∑ ib, s2partr x tn w ia ib i = s2 x tn w i := by
  have h : ∑ ia, ∑ ib, s2partr x tn w ia ib i = ∑ a, ∑ b, K2 x tn w i a b := by
    rw [← sum_grid]
    exact Finset.sum_congr rfl fun ia _ => Finset.sum_congr rfl fun ib _ => s2partr_eq x tn w ia ib i
  rw [h, Finset.mul_sum]
  unfold s2
  refine Finset.sum_congr rfl fun a _ => ?_
  rw [Finset.mul_sum]
  exact Finset.sum_congr rfl fun b _ => K2_eq x tn w i a b

theorem S1k_up (i : Fin 10) : S1k (up x) tn (up w) i = ((s1 x tn w i : ℝ) : EReal) := by
  have hne : Nir tn i * wnr w i ≠ 0 :=
    mul_ne_zero (ne_of_gt (lt_of_lt_of_le one_pos (Nir_ge_one tn i))) (ne_of_gt (wnr_pos w i))
  unfold S1k
  rw [S1raw_up, wn_up, show NiE tn i = ((Nir tn i : ℝ) : EReal) from rfl, ← EReal.coe_mul, Ideal.div_coe hne, one_eq,
    ← EReal.coe_mul, ← EReal.coe_mul, S1_real]

theorem S2k_up (i : Fin 10) : S2k (up x) tn (up w) i = ((s2 x tn w i : ℝ) : EReal) := by
  have hw : wnr w i ≠ 0 := ne_of_gt (wnr_pos w i)
  have hne : Nir tn i * wnr w i * wnr w i ≠ 0 :=
    mul_ne_zero (mul_ne_zero (ne_of_gt (lt_of_lt_of_le one_pos (Nir_ge_one tn i))) hw) hw
  unfold S2k
  rw [S2raw_up, wn_up, show NiE tn i = ((Nir tn i : ℝ) : EReal) from rfl, ← EReal.coe_mul, ← EReal.coe_mul,
    Ideal.div_coe hne, one_eq, ← EReal.coe_mul, ← EReal.coe_mul, S2_real]

end Cert.Spec.R

end
-- ==== Proof.MathRef.lean ====
import proofs.«426650_j89962384982112_3_alg».proof.Proof.MathKer

noncomputable section

open scoped BigOperators

namespace Cert.Spec.R

open Cert.Spec
open Idealize.ShloMosaic

variable (x : Fin 4096 → Fin 128 → ℝ) (tn : Fin 4096 → Fin 10) (w : Fin 10 → Fin 128 → ℝ)

theorem denomE_eq : denomE tn = ((Dr tn : ℝ) : EReal) := by
  rw [denomE, existE, one_eq, Dr, EReal.coe_sub]

theorem cnt_self_pos (b : Fin 4096) : 0 < cnt tn (tn b) := by
  unfold cnt
  exact Finset.card_pos.mpr ⟨b, by simp⟩

theorem sum_class (f : Fin 10 → ℝ) : ∑ b, f (tn b) = ∑ j, (cnt tn j : ℝ) * f j := by
  rw [← Finset.sum_fiberwise Finset.univ tn (fun b => f (tn b))]
  refine Finset.sum_congr rfl fun j _ => ?_
  rw [Finset.sum_congr rfl (fun b hb => by rw [(Finset.mem_filter.mp hb).2] : ∀ b ∈ Finset.univ.filter (fun b => tn b = j), f (tn b) = f j),
    Finset.sum_const, nsmul_eq_mul]
  rfl

theorem card_others (i : Fin 10) (hi : 0 < cnt tn i) :
    ((Finset.univ.filter fun j : Fin 10 => j ≠ i ∧ 0 < cnt tn j).card : ℝ) = Dr tn := by
  have hmem : i ∈ Finset.univ.filter fun j : Fin 10 => 0 < cnt tn j := by simp [hi]
  have hset : (Finset.univ.filter fun j : Fin 10 => j ≠ i ∧ 0 < cnt tn j)
      = (Finset.univ.filter fun j : Fin 10 => 0 < cnt tn j).erase i := by
    ext j; simp
  have hpos : 1 ≤ existN tn := Finset.card_pos.mpr ⟨i, hmem⟩
  rw [hset, Finset.card_erase_of_mem hmem, Dr]
  change ((existN tn - 1 : ℕ) : ℝ) = _
  rw [Nat.cast_sub hpos, Nat.cast_one]

theorem s0_eq (i : Fin 10) (hi : 0 < cnt tn i) : s0 tn i = Dr tn := by
  have hci : (cnt tn i : ℝ) ≠ 0 := by exact_mod_cast hi.ne'
  have hNi : Nir tn i = (cnt tn i : ℝ) := by
    unfold Nir; rw [max_eq_left hi]
  have hpw : ∀ a b, pw tn i a b
      = (fun j => if j = i then 1 / (cnt tn i : ℝ) else 0) (tn a)
        * (fun j => if j ≠ i then 1 / (cnt tn j : ℝ) else 0) (tn b) := by
    intro a b
    unfold pw Ntr
    rw [hNi]
    by_cases h1 : tn a = i <;> by_cases h2 : tn b = i <;> simp [h1, h2]
  unfold s0
  simp_rw [hpw]
  rw [← Finset.sum_mul_sum, sum_class tn (fun j => if j = i then 1 / (cnt tn i : ℝ) else 0),
    sum_class tn (fun j => if j ≠ i then 1 / (cnt tn j : ℝ) else 0)]
  have h1 : ∑ j, (cnt tn j : ℝ) * (if j = i then 1 / (cnt tn i : ℝ) else 0) = 1 := by
    rw [Finset.sum_eq_single i]
    · simp [hci]
    · intro j _ hj; simp [hj]
    · simp
  have h2 : ∑ j, (cnt tn j : ℝ) * (if j ≠ i then 1 / (cnt tn j : ℝ) else 0)
      = ∑ j, (if j ≠ i ∧ 0 < cnt tn j then (1 : ℝ) else 0) := by
    refine Finset.sum_congr rfl fun j _ => ?_
    by_cases hj : j = i
    · simp [hj]
    · rcases Nat.eq_zero_or_pos (cnt tn j) with h0 | hp
      · simp [hj, h0]
      · have : (cnt tn j : ℝ) ≠ 0 := by exact_mod_cast hp.ne'
        simp [hj, hp, this]
  rw [h1, h2, one_mul, Finset.sum_boole, card_others tn i hi]

theorem wR_eq (i : Fin 10) (a b : Fin 4096) : wR tn i a b = ((pw tn i a b : ℝ) : EReal) := by
  unfold wR pw
  by_cases h : tn a = i ∧ tn b ≠ i
  · rw [if_pos h, if_pos h]
    have hN : NtE tn b * NiE tn i = ((Ntr tn b * Nir tn i : ℝ) : EReal) := by
      rw [EReal.coe_mul]; rfl
    have hne : Ntr tn b * Nir tn i ≠ 0 := by
      have h1 : 0 < Ntr tn b := by unfold Ntr; exact_mod_cast cnt_self_pos tn b
      have h2 : 0 < Nir tn i := by
        unfold Nir; exact_mod_cast (lt_of_lt_of_le Nat.one_pos (le_max_right _ _))
      exact (mul_pos h1 h2).ne'
    rw [hN, Ideal.div_coe hne, one_eq, ← EReal.coe_mul, one_mul]
  · rw [if_neg h, if_neg h, EReal.coe_zero]

theorem MR_up (i : Fin 10) (a b : Fin 4096) : MR (up x) (up w) i a b = ((Mr x w i a b : ℝ) : EReal) := by
  unfold MR Mr
  have hne : wnr w i * distr x a b ≠ 0 := (mul_pos (wnr_pos w i) (distr_pos x a b)).ne'
  rw [proj_up, proj_up, wn_up, dn_up, ← EReal.coe_sub, ← EReal.coe_mul, Ideal.div_coe hne, ← EReal.coe_mul,
    mul_one_div]

theorem coe_sum2 (f : Fin 4096 → Fin 4096 → ℝ) :
    (∑ a, ∑ b, ((f a b : ℝ) : EReal)) = ((∑ a, ∑ b, f a b : ℝ) : EReal) := by
  rw [coe_sum]
  refine Finset.sum_congr rfl fun a _ => ?_
  rw [coe_sum]

theorem sumR_one_sub (i : Fin 10) :
    (∑ a, ∑ b, wR tn i a b * ((one - MR (up x) (up w) i a b) * (one - MR (up x) (up w) i a b)))
      = ((s0 tn i - 2 * s1 x tn w i + s2 x tn w i : ℝ) : EReal) := by
  have hterm : ∀ a b, wR tn i a b * ((one - MR (up x) (up w) i a b) * (one - MR (up x) (up w) i a b))
      = ((pw tn i a b * ((1 - Mr x w i a b) * (1 - Mr x w i a b)) : ℝ) : EReal) := by
    intro a b
    rw [wR_eq, MR_up, one_eq, ← EReal.coe_sub, ← EReal.coe_mul, ← EReal.coe_mul]
  refine (Finset.sum_congr rfl fun a _ => Finset.sum_congr rfl fun b _ => hterm a b).trans ?_
  rw [coe_sum2]
  congr 1
  rw [s0, s1, s2, Finset.mul_sum, ← Finset.sum_sub_distrib, ← Finset.sum_add_distrib]
  refine Finset.sum_congr rfl fun a _ => ?_
  rw [Finset.mul_sum, ← Finset.sum_sub_distrib, ← Finset.sum_add_distrib]
  refine Finset.sum_congr rfl fun b _ => ?_
  ring

theorem sumR_M (i : Fin 10) :
    (∑ a, ∑ b, wR tn i a b * MR (up x) (up w) i a b) = ((s1 x tn w i : ℝ) : EReal) := by
  have hterm : ∀ a b, wR tn i a b * MR (up x) (up w) i a b
      = ((pw tn i a b * Mr x w i a b : ℝ) : EReal) := by
    intro a b
    rw [wR_eq, MR_up, ← EReal.coe_mul]
  refine (Finset.sum_congr rfl fun a _ => Finset.sum_congr rfl fun b _ => hterm a b).trans ?_
  rw [coe_sum2]
  rfl

theorem sumR_dev (i : Fin 10) (μ : ℝ) :
    (∑ a, ∑ b, wR tn i a b * ((MR (up x) (up w) i a b - (μ : EReal)) * (MR (up x) (up w) i a b - (μ : EReal))))
      = ((s2 x tn w i - 2 * μ * s1 x tn w i + μ * μ * s0 tn i : ℝ) : EReal) := by
  have hterm : ∀ a b, wR tn i a b * ((MR (up x) (up w) i a b - (μ : EReal)) * (MR (up x) (up w) i a b - (μ : EReal)))
      = ((pw tn i a b * ((Mr x w i a b - μ) * (Mr x w i a b - μ)) : ℝ) : EReal) := by
    intro a b
    rw [wR_eq, MR_up, ← EReal.coe_sub, ← EReal.coe_mul, ← EReal.coe_mul]
  refine (Finset.sum_congr rfl fun a _ => Finset.sum_congr rfl fun b _ => hterm a b).trans ?_
  rw [coe_sum2]
  congr 1
  rw [s0, s1, s2, Finset.mul_sum, Finset.mul_sum, ← Finset.sum_sub_distrib, ← Finset.sum_add_distrib]
  refine Finset.sum_congr rfl fun a _ => ?_
  rw [Finset.mul_sum, Finset.mul_sum, ← Finset.sum_sub_distrib, ← Finset.sum_add_distrib]
  refine Finset.sum_congr rfl fun b _ => ?_
  ring

theorem pw_nonneg (i : Fin 10) (a b : Fin 4096) : 0 ≤ pw tn i a b := by
  unfold pw Ntr Nir
  split_ifs <;> positivity

theorem pw_zero_of_single (i : Fin 10) (hi : 0 < cnt tn i) (hD : Dr tn = 0) (a b : Fin 4096) : pw tn i a b = 0 := by
  have h0 : s0 tn i = 0 := by rw [s0_eq tn i hi, hD]
  unfold s0 at h0
  have ha := (Finset.sum_eq_zero_iff_of_nonneg
    (fun a _ => Finset.sum_nonneg fun b _ => pw_nonneg tn i a b)).mp h0 a (Finset.mem_univ a)
  exact (Finset.sum_eq_zero_iff_of_nonneg (fun b _ => pw_nonneg tn i a b)).mp ha b (Finset.mem_univ b)

theorem l1_eq (i : Fin 10) (hi : 0 < cnt tn i) : l1k (up x) tn (up w) i = l1R (up x) tn (up w) i := by
  unfold l1k l1R
  rw [sumR_one_sub, S1k_up, S2k_up, denomE_eq, two_eq, s0_eq tn i hi, ← EReal.coe_mul, ← EReal.coe_sub,
    ← EReal.coe_add]

theorem mm_eq (i : Fin 10) : mmk (up x) tn (up w) i = mmR (up x) tn (up w) i := by
  unfold mmk mmR
  rw [sumR_M, S1k_up]

theorem mv_eq (i : Fin 10) (hi : 0 < cnt tn i) : mvk (up x) tn (up w) i = mvR (up x) tn (up w) i := by
  unfold mvk mvR
  rw [← mm_eq]
  by_cases hD : Dr tn = 0
  ·
    have hpw := pw_zero_of_single tn i hi hD
    have hs1 : s1 x tn w i = 0 := by unfold s1; simp [hpw]
    have hs2 : s2 x tn w i = 0 := by unfold s2; simp [hpw]
    have hsum : (∑ a, ∑ b, wR tn i a b * ((MR (up x) (up w) i a b - mmk (up x) tn (up w) i)
        * (MR (up x) (up w) i a b - mmk (up x) tn (up w) i))) = 0 := by
      refine Finset.sum_eq_zero fun a _ => Finset.sum_eq_zero fun b _ => ?_
      rw [wR_eq, hpw, EReal.coe_zero, zero_mul]
    rw [hsum, S1k_up, S2k_up, hs1, hs2, denomE_eq, hD, EReal.coe_zero, mul_zero, mul_zero]
    simp
  ·
    have hmm : mmk (up x) tn (up w) i = ((s1 x tn w i / Dr tn : ℝ) : EReal) := by
      unfold mmk
      rw [S1k_up, denomE_eq, Ideal.div_coe hD, ← EReal.coe_mul, mul_one_div]
    rw [hmm, sumR_dev, S1k_up, S2k_up, denomE_eq, two_eq, s0_eq tn i hi, ← EReal.coe_mul, ← EReal.coe_mul,
      ← EReal.coe_mul, ← EReal.coe_mul, ← EReal.coe_sub, ← EReal.coe_add]

end Cert.Spec.R

namespace Cert.Spec

open Cert.Spec.R

theorem out1_eq (X : Fin 4096 → Fin 128 → EReal) (tn : Fin 4096 → Fin 10) (Wt : Fin 10 → Fin 128 → EReal)
    (hX : ∀ n k, ∃ r : ℝ, X n k = (r : EReal)) (hW : ∀ i k, ∃ r : ℝ, Wt i k = (r : EReal)) :
    Kout1 X tn Wt = Rout1 X tn Wt := by
  choose x hx using hX
  choose w hw using hW
  have hXe : X = up x := by funext n k; exact hx n k
  have hWe : Wt = up w := by funext i k; exact hw i k
  subst hXe hWe
  unfold Kout1 Rout1
  congr 1
  refine Finset.sum_congr rfl fun i _ => ?_
  by_cases hi : 0 < cnt tn i
  · simp only [if_pos hi, l1_eq x tn w i hi]
  · simp only [if_neg hi]

theorem out2_eq (X : Fin 4096 → Fin 128 → EReal) (tn : Fin 4096 → Fin 10) (Wt : Fin 10 → Fin 128 → EReal)
    (hX : ∀ n k, ∃ r : ℝ, X n k = (r : EReal)) (hW : ∀ i k, ∃ r : ℝ, Wt i k = (r : EReal)) :
    Kout2 X tn Wt = Rout2 X tn Wt := by
  choose x hx using hX
  choose w hw using hW
  have hXe : X = up x := by funext n k; exact hx n k
  have hWe : Wt = up w := by funext i k; exact hw i k
  subst hXe hWe
  unfold Kout2 Rout2
  congr 1
  refine Finset.sum_congr rfl fun i _ => ?_
  by_cases hi : 0 < cnt tn i
  · simp only [if_pos hi, mv_eq x tn w i hi, mm_eq x tn w i]
  · simp only [if_neg hi]

end Cert.Spec

end
-- ==== Proof.lean ====
import proofs.«426650_j89962384982112_3_alg».proof.Defs
import proofs.«426650_j89962384982112_3_alg».proof.Proof.Gen.Kernel
import proofs.«426650_j89962384982112_3_alg».proof.Proof.Gen.KernelIdeal
import proofs.«426650_j89962384982112_3_alg».proof.Proof.Gen.ReferenceIdeal
import proofs.«426650_j89962384982112_3_alg».proof.Proof.Gen.Pre_finite_inputs
import proofs.«426650_j89962384982112_3_alg».proof.Proof.KbFrame
import proofs.«426650_j89962384982112_3_alg».proof.Proof.KerSide
import proofs.«426650_j89962384982112_3_alg».proof.Proof.RefRun
import proofs.«426650_j89962384982112_3_alg».proof.Proof.RefVal
import proofs.«426650_j89962384982112_3_alg».proof.Proof.PreDecode
import proofs.«426650_j89962384982112_3_alg».proof.Proof.MathRef

noncomputable section

namespace Cert.Proof

open Idealize.ShloMosaic Idealize.ShloMosaic.TcCoe Idealize.SL.Sem Cert.Spec

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run (Cert.ReferenceIdeal.defs (F := Ideal)) _ _).mono (fun _ h c => (h c).2.2) (Cert.ReferenceIdeal.Hand.run_val m ρ)

-- Both programs end at the specification's two closed formulas, which agree for real inputs and labels in range.
theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg1)) :=
    fun c => Cert.PreDecode.inRange _ _ _ (hpre c)
  refine ⟨_, _, Cert.KernelIdeal.Hand.run_spec m ρ hr, ?_⟩
  refine (θ_run (Cert.ReferenceIdeal.defs (F := Ideal)) _ _).mono (fun _ h c => ?_) (Cert.ReferenceIdeal.Hand.run_val m' ρ')
  obtain ⟨h1, h2, h3⟩ := h c
  obtain ⟨e0, e1, e2⟩ := hagree c
  have hX := Cert.PreDecode.finite_X _ _ _ (hpre c)
  have hW := Cert.PreDecode.finite_W _ _ _ (hpre c)
  refine ⟨?_, ?_, h3⟩
  · rw [h1, e0, e1, e2, Cert.ReferenceIdeal.Hand.val_out1 _ _ _ (hr c)]
    funext _
    exact (Cert.Spec.out1_eq _ _ _ hX hW).symm
  · rw [h2, e0, e1, e2, Cert.ReferenceIdeal.Hand.val_out2 _ _ _ (hr c)]
    funext _
    exact (Cert.Spec.out2_eq _ _ _ hX hW).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
